-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S20000x1024 : Shape := ⟨2, ![20000, 1024]⟩
abbrev S20000 : Shape := ⟨1, ![20000]⟩
abbrev S3x1024 : Shape := ⟨2, ![3, 1024]⟩
abbrev S3 : Shape := ⟨1, ![3]⟩
abbrev S256x1024 : Shape := ⟨2, ![256, 1024]⟩
abbrev S20000x256 : Shape := ⟨2, ![20000, 256]⟩
abbrev S64x1024 : Shape := ⟨2, ![64, 1024]⟩
abbrev S160000x64 : Shape := ⟨2, ![160000, 64]⟩
abbrev S160000 : Shape := ⟨1, ![160000]⟩
abbrev S16x1024 : Shape := ⟨2, ![16, 1024]⟩
abbrev S67735x16 : Shape := ⟨2, ![67735, 16]⟩
abbrev S67735 : Shape := ⟨1, ![67735]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S20000x1024 : S_.BroadcastsInDim S20000x1024 (![] : Fin 0 → Fin S20000x1024.rank)
  reducesTo_S20000x1024_S_d0_1 : S20000x1024.ReducesTo [0, 1] S_
  bcast_S_S20000 : S_.BroadcastsInDim S20000 (![] : Fin 0 → Fin S20000.rank)
  reducesTo_S20000_S_d0 : S20000.ReducesTo [0] S_
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S64x1024 : S_.BroadcastsInDim S64x1024 (![] : Fin 0 → Fin S64x1024.rank)
  reducesTo_S64x1024_S_d0_1 : S64x1024.ReducesTo [0, 1] S_
  bcast_S_S160000x64 : S_.BroadcastsInDim S160000x64 (![] : Fin 0 → Fin S160000x64.rank)
  reducesTo_S160000x64_S_d0_1 : S160000x64.ReducesTo [0, 1] S_
  bcast_S_S160000 : S_.BroadcastsInDim S160000 (![] : Fin 0 → Fin S160000.rank)
  reducesTo_S160000_S_d0 : S160000.ReducesTo [0] S_
  bcast_S_S16x1024 : S_.BroadcastsInDim S16x1024 (![] : Fin 0 → Fin S16x1024.rank)
  reducesTo_S16x1024_S_d0_1 : S16x1024.ReducesTo [0, 1] S_
  bcast_S_S67735x16 : S_.BroadcastsInDim S67735x16 (![] : Fin 0 → Fin S67735x16.rank)
  reducesTo_S67735x16_S_d0_1 : S67735x16.ReducesTo [0, 1] S_
  bcast_S_S67735 : S_.BroadcastsInDim S67735 (![] : Fin 0 → Fin S67735.rank)
  reducesTo_S67735_S_d0 : S67735.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S16x1024 .f32) (main_arg13 : FVec F S67735x16 .f32) (main_arg14 : FVec F S67735 .f32) (main_v48 : IVec S_ 1) (main_v49 : FVec F S160000 .f32) (main_v50 : FVec F S160000 .f32) : IVec S_ 1 :=
  let main_v51 : IVec S160000 1 := cmpf .olt main_v49 main_v50
  let main_c_19 : IVec S_ 1 := constantI S_ 1 1#1
  let main_v52 : IVec S_ 1 := (fun x v => Host.reduce IntOp.andi x v reducesTo_S160000_S_d0 h_S_) main_v51 main_c_19
  let main_v53 : IVec S_ 1 := andi main_v48 main_v52
  let main_v54 : FVec F S16x1024 .f32 := Host.absf main_arg12
  let main_cst_20 : FVec F S_ .f32 := constant S_ .f32 0x7F800000#32
  let main_v55 : FVec F S16x1024 .f32 := broadcastInDim S16x1024 ![] bcast_S_S16x1024 main_cst_20
  let main_v56 : IVec S16x1024 1 := cmpf .olt main_v54 main_v55
  let main_c_21 : IVec S_ 1 := constantI S_ 1 1#1
  let main_v57 : IVec S_ 1 := (fun x v => Host.reduce IntOp.andi x v reducesTo_S16x1024_S_d0_1 h_S_) main_v56 main_c_21
  let main_v58 : IVec S_ 1 := andi main_v53 main_v57
  let main_v59 : FVec F S67735x16 .f32 := Host.absf main_arg13
  let main_cst_22 : FVec F S_ .f32 := constant S_ .f32 0x7F800000#32
  let main_v60 : FVec F S67735x16 .f32 := broadcastInDim S67735x16 ![] bcast_S_S67735x16 main_cst_22
  let main_v61 : IVec S67735x16 1 := cmpf .olt main_v59 main_v60
  let main_c_23 : IVec S_ 1 := constantI S_ 1 1#1
  let main_v62 : IVec S_ 1 := (fun x v => Host.reduce IntOp.andi x v reducesTo_S67735x16_S_d0_1 h_S_) main_v61 main_c_23
  let main_v63 : IVec S_ 1 := andi main_v58 main_v62
  let main_v64 : FVec F S67735 .f32 := Host.absf main_arg14
  let main_cst_24 : FVec F S_ .f32 := constant S_ .f32 0x7F800000#32
  let main_v65 : FVec F S67735 .f32 := broadcastInDim S67735 ![] bcast_S_S67735 main_cst_24
  let main_v66 : IVec S67735 1 := cmpf .olt main_v64 main_v65
  let main_c_25 : IVec S_ 1 := constantI S_ 1 1#1
  let main_v67 : IVec S_ 1 := (fun x v => Host.reduce IntOp.andi x v reducesTo_S67735_S_d0 h_S_) main_v66 main_c_25
  fn_part4 (F := F) main_v63 main_v67

def fn_part2 {F : FTy → Type} [FloatOps F] (main_arg8 : FVec F S20000 .f32) (main_arg9 : FVec F S64x1024 .f32) (main_arg10 : FVec F S160000x64 .f32) (main_arg11 : FVec F S160000 .f32) (main_arg12 : FVec F S16x1024 .f32) (main_arg13 : FVec F S67735x16 .f32) (main_arg14 : FVec F S67735 .f32) (main_v33 : IVec S_ 1) : IVec S_ 1 :=
  let main_v34 : FVec F S20000 .f32 := Host.absf main_arg8
  let main_cst_12 : FVec F S_ .f32 := constant S_ .f32 0x7F800000#32
  let main_v35 : FVec F S20000 .f32 := broadcastInDim S20000 ![] bcast_S_S20000 main_cst_12
  let main_v36 : IVec S20000 1 := cmpf .olt main_v34 main_v35
  let main_c_13 : IVec S_ 1 := constantI S_ 1 1#1
  let main_v37 : IVec S_ 1 := (fun x v => Host.reduce IntOp.andi x v reducesTo_S20000_S_d0 h_S_) main_v36 main_c_13
  let main_v38 : IVec S_ 1 := andi main_v33 main_v37
  let main_v39 : FVec F S64x1024 .f32 := Host.absf main_arg9
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S160000x64 .f32 := Host.absf main_arg10
  let main_cst_16 : FVec F S_ .f32 := constant S_ .f32 0x7F800000#32
  let main_v45 : FVec F S160000x64 .f32 := broadcastInDim S160000x64 ![] bcast_S_S160000x64 main_cst_16
  let main_v46 : IVec S160000x64 1 := cmpf .olt main_v44 main_v45
  let main_c_17 : IVec S_ 1 := constantI S_ 1 1#1
  let main_v47 : IVec S_ 1 := (fun x v => Host.reduce IntOp.andi x v reducesTo_S160000x64_S_d0_1 h_S_) main_v46 main_c_17
  let main_v48 : IVec S_ 1 := andi main_v43 main_v47
  let main_v49 : FVec F S160000 .f32 := Host.absf main_arg11
  let main_cst_18 : FVec F S_ .f32 := constant S_ .f32 0x7F800000#32
  let main_v50 : FVec F S160000 .f32 := broadcastInDim S160000 ![] bcast_S_S160000 main_cst_18
  fn_part3 (F := F) main_arg12 main_arg13 main_arg14 main_v48 main_v49 main_v50

def fn_part1 {F : FTy → Type} [FloatOps F] (main_arg5 : FVec F S3 .f32) (main_arg6 : FVec F S256x1024 .f32) (main_arg7 : FVec F S20000x256 .f32) (main_arg8 : FVec F S20000 .f32) (main_arg9 : FVec F S64x1024 .f32) (main_arg10 : FVec F S160000x64 .f32) (main_arg11 : FVec F S160000 .f32) (main_arg12 : FVec F S16x1024 .f32) (main_arg13 : FVec F S67735x16 .f32) (main_arg14 : FVec F S67735 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S20000x256 .f32 := Host.absf main_arg7
  let main_cst_10 : FVec F S_ .f32 := constant S_ .f32 0x7F800000#32
  let main_v30 : FVec F S20000x256 .f32 := broadcastInDim S20000x256 ![] bcast_S_S20000x256 main_cst_10
  let main_v31 : IVec S20000x256 1 := cmpf .olt main_v29 main_v30
  let main_c_11 : IVec S_ 1 := constantI S_ 1 1#1
  let main_v32 : IVec S_ 1 := (fun x v => Host.reduce IntOp.andi x v reducesTo_S20000x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S1024x1024 .f32) (main_arg1 : IVec S1024 32) (main_arg2 : FVec F S20000x1024 .f32) (main_arg3 : FVec F S20000 .f32) (main_arg4 : FVec F S3x1024 .f32) (main_arg5 : FVec F S3 .f32) (main_arg6 : FVec F S256x1024 .f32) (main_arg7 : FVec F S20000x256 .f32) (main_arg8 : FVec F S20000 .f32) (main_arg9 : FVec F S64x1024 .f32) (main_arg10 : FVec F S160000x64 .f32) (main_arg11 : FVec F S160000 .f32) (main_arg12 : FVec F S16x1024 .f32) (main_arg13 : FVec F S67735x16 .f32) (main_arg14 : FVec F S67735 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S20000x1024 .f32 := Host.absf main_arg2
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S20000 .f32 := Host.absf main_arg3
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S3x1024 .f32 := Host.absf main_arg4
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S1024 : Shape := ⟨1, ![1024]⟩
abbrev S20000x1024 : Shape := ⟨2, ![20000, 1024]⟩
abbrev S20000 : Shape := ⟨1, ![20000]⟩
abbrev S3x1024 : Shape := ⟨2, ![3, 1024]⟩
abbrev S3 : Shape := ⟨1, ![3]⟩
abbrev S256x1024 : Shape := ⟨2, ![256, 1024]⟩
abbrev S20000x256 : Shape := ⟨2, ![20000, 256]⟩
abbrev S64x1024 : Shape := ⟨2, ![64, 1024]⟩
abbrev S160000x64 : Shape := ⟨2, ![160000, 64]⟩
abbrev S160000 : Shape := ⟨1, ![160000]⟩
abbrev S16x1024 : Shape := ⟨2, ![16, 1024]⟩
abbrev S67735x16 : Shape := ⟨2, ![67735, 16]⟩
abbrev S67735 : Shape := ⟨1, ![67735]⟩
abbrev S_ : Shape := ⟨0, ![]⟩
abbrev S20480x1024 : Shape := ⟨2, ![20480, 1024]⟩
abbrev S20480 : Shape := ⟨1, ![20480]⟩
abbrev S1x20480 : Shape := ⟨2, ![1, 20480]⟩
abbrev S1024x1 : Shape := ⟨2, ![1024, 1]⟩
abbrev S2x1024x1 : Shape := ⟨3, ![2, 1024, 1]⟩
abbrev S2048x1024 : Shape := ⟨2, ![2048, 1024]⟩
abbrev S1x2048 : Shape := ⟨2, ![1, 2048]⟩
abbrev S1x1024x1 : Shape := ⟨3, ![1, 1024, 1]⟩
abbrev S1024x2048 : Shape := ⟨2, ![1024, 2048]⟩
abbrev S1024x3 : Shape := ⟨2, ![1024, 3]⟩
abbrev S1x3 : Shape := ⟨2, ![1, 3]⟩
abbrev S1024x256 : Shape := ⟨2, ![1024, 256]⟩
abbrev S20480x256 : Shape := ⟨2, ![20480, 256]⟩
abbrev S2048x256 : Shape := ⟨2, ![2048, 256]⟩
abbrev S1024x64 : Shape := ⟨2, ![1024, 64]⟩
abbrev S163840x64 : Shape := ⟨2, ![163840, 64]⟩
abbrev S163840 : Shape := ⟨1, ![163840]⟩
abbrev S1x163840 : Shape := ⟨2, ![1, 163840]⟩
abbrev S2048x64 : Shape := ⟨2, ![2048, 64]⟩
abbrev S1024x16 : Shape := ⟨2, ![1024, 16]⟩
abbrev S69632x16 : Shape := ⟨2, ![69632, 16]⟩
abbrev S69632 : Shape := ⟨1, ![69632]⟩
abbrev S1x69632 : Shape := ⟨2, ![1, 69632]⟩
abbrev S2048x16 : Shape := ⟨2, ![2048, 16]⟩
abbrev S1x1024 : Shape := ⟨2, ![1, 1024]⟩
abbrev S5x1024 : Shape := ⟨2, ![5, 1024]⟩

abbrev nBuf : Space → Nat
  | .hbm => 332
  | .vmem => 60
  | .smem => 0
  | _ => 0

abbrev hbmTy0_0 (i : Nat) : BufTy := match i % 128 with
  | 0 => ⟨S1024x1024, .f32⟩
  | 1 => ⟨S1024, .i32⟩
  | 2 => ⟨S20000x1024, .f32⟩
  | 3 => ⟨S20000, .f32⟩
  | 4 => ⟨S3x1024, .f32⟩
  | 5 => ⟨S3, .f32⟩
  | 6 => ⟨S256x1024, .f32⟩
  | 7 => ⟨S20000x256, .f32⟩
  | 8 => ⟨S20000, .f32⟩
  | 9 => ⟨S64x1024, .f32⟩
  | 10 => ⟨S160000x64, .f32⟩
  | 11 => ⟨S160000, .f32⟩
  | 12 => ⟨S16x1024, .f32⟩
  | 13 => ⟨S67735x16, .f32⟩
  | 14 => ⟨S67735, .f32⟩
  | 15 => ⟨S3, .i32⟩
  | 16 => ⟨S_, .i32⟩
  | 17 => ⟨S_, .i32⟩
  | 18 => ⟨S_, .i32⟩
  | 19 => ⟨S1024, .i32⟩
  | 20 => ⟨S1024, .i32⟩
  | 21 => ⟨S_, .i32⟩
  | 22 => ⟨S1024, .i32⟩
  | 23 => ⟨S1024, .i32⟩
  | 24 => ⟨S20000x1024, .bf16⟩
  | 25 => ⟨S_, .i32⟩
  | 26 => ⟨S_, .bf16⟩
  | 27 => ⟨S20480x1024, .bf16⟩
  | 28 => ⟨S_, .i32⟩
  | 29 => ⟨S_, .f32⟩
  | 30 => ⟨S20480, .f32⟩
  | 31 => ⟨S1x20480, .f32⟩
  | 32 => ⟨S1024x1024, .bf16⟩
  | 33 => ⟨S_, .i32⟩
  | 34 => ⟨S_, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S1024x1, .i32⟩
  | 42 => ⟨S2x1024x1, .f32⟩
  | 43 => ⟨S2x1024x1, .f32⟩
  | 44 => ⟨S2x1024x1, .f32⟩
  | 45 => ⟨S1x1024x1, .f32⟩
  | 46 => ⟨S1024, .f32⟩
  | 47 => ⟨S1x1024x1, .f32⟩
  | 48 => ⟨S1024, .f32⟩
  | 49 => ⟨S1x1024x1, .f32⟩
  | 50 => ⟨S1024, .f32⟩
  | 51 => ⟨S1x1024x1, .f32⟩
  | 52 => ⟨S1024, .f32⟩
  | 53 => ⟨S1x1024x1, .f32⟩
  | 54 => ⟨S1024, .f32⟩
  | 55 => ⟨S1x1024x1, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024x3, .f32⟩
  | 69 => ⟨S1024x3, .f32⟩
  | 70 => ⟨S1x3, .f32⟩
  | 71 => ⟨S1024x3, .f32⟩
  | 72 => ⟨S1024x3, .f32⟩
  | 73 => ⟨S_, .f32⟩
  | 74 => ⟨S1024, .f32⟩
  | 75 => ⟨S1024x1, .f32⟩
  | 76 => ⟨S1024x3, .f32⟩
  | 77 => ⟨S1024x3, .f32⟩
  | 78 => ⟨S1024x3, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .i1⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024x256, .f32⟩
  | 95 => ⟨S1024x256, .f32⟩
  | 96 => ⟨S_, .i32⟩
  | 97 => ⟨S1024, .i32⟩
  | 98 => ⟨S1024, .i32⟩
  | 99 => ⟨S_, .i32⟩
  | 100 => ⟨S_, .i32⟩
  | 101 => ⟨S_, .i32⟩
  | 102 => ⟨S1024, .i32⟩
  | 103 => ⟨S1024, .i32⟩
  | 104 => ⟨S_, .i32⟩
  | 105 => ⟨S1024, .i32⟩
  | 106 => ⟨S1024, .i32⟩
  | 107 => ⟨S20000x256, .bf16⟩
  | 108 => ⟨S_, .i32⟩
  | 109 => ⟨S_, .bf16⟩
  | 110 => ⟨S20480x256, .bf16⟩
  | 111 => ⟨S_, .i32⟩
  | 112 => ⟨S_, .f32⟩
  | 113 => ⟨S20480, .f32⟩
  | 114 => ⟨S1x20480, .f32⟩
  | 115 => ⟨S1024x256, .bf16⟩
  | 116 => ⟨S_, .i32⟩
  | 117 => ⟨S_, .i32⟩
  | 118 => ⟨S_, .i32⟩
  | 119 => ⟨S1024, .i32⟩
  | 120 => ⟨S1024, .i32⟩
  | 121 => ⟨S_, .i32⟩
  | 122 => ⟨S1024, .i32⟩
  | 123 => ⟨S1024, .i32⟩
  | 124 => ⟨S1024x1, .i32⟩
  | 125 => ⟨S2x1024x1, .f32⟩
  | 126 => ⟨S2x1024x1, .f32⟩
  | 127 => ⟨S2x1024x1, .f32⟩
  | _ => ⟨S1024x1024, .f32⟩

abbrev hbmTy0_1 (i : Nat) : BufTy := match i % 128 with
  | 0 => ⟨S1x1024x1, .f32⟩
  | 1 => ⟨S1024, .f32⟩
  | 2 => ⟨S1x1024x1, .f32⟩
  | 3 => ⟨S1024, .f32⟩
  | 4 => ⟨S1x1024x1, .f32⟩
  | 5 => ⟨S1024, .f32⟩
  | 6 => ⟨S1x1024x1, .f32⟩
  | 7 => ⟨S1024, .f32⟩
  | 8 => ⟨S1x1024x1, .f32⟩
  | 9 => ⟨S1024, .f32⟩
  | 10 => ⟨S1x1024x1, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024x1, .f32⟩
  | 25 => ⟨S1024, .f32⟩
  | 26 => ⟨S1024, .f32⟩
  | 27 => ⟨S1024, .f32⟩
  | 28 => ⟨S1024x64, .f32⟩
  | 29 => ⟨S1024x64, .f32⟩
  | 30 => ⟨S_, .i32⟩
  | 31 => ⟨S1024, .i32⟩
  | 32 => ⟨S1024, .i32⟩
  | 33 => ⟨S_, .i32⟩
  | 34 => ⟨S_, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S160000x64, .bf16⟩
  | 42 => ⟨S_, .i32⟩
  | 43 => ⟨S_, .bf16⟩
  | 44 => ⟨S163840x64, .bf16⟩
  | 45 => ⟨S_, .i32⟩
  | 46 => ⟨S_, .f32⟩
  | 47 => ⟨S163840, .f32⟩
  | 48 => ⟨S1x163840, .f32⟩
  | 49 => ⟨S1024x64, .bf16⟩
  | 50 => ⟨S_, .i32⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024x1, .i32⟩
  | 59 => ⟨S2x1024x1, .f32⟩
  | 60 => ⟨S2x1024x1, .f32⟩
  | 61 => ⟨S2x1024x1, .f32⟩
  | 62 => ⟨S1x1024x1, .f32⟩
  | 63 => ⟨S1024, .f32⟩
  | 64 => ⟨S1x1024x1, .f32⟩
  | 65 => ⟨S1024, .f32⟩
  | 66 => ⟨S1x1024x1, .f32⟩
  | 67 => ⟨S1024, .f32⟩
  | 68 => ⟨S1x1024x1, .f32⟩
  | 69 => ⟨S1024, .f32⟩
  | 70 => ⟨S1x1024x1, .f32⟩
  | 71 => ⟨S1024, .f32⟩
  | 72 => ⟨S1x1024x1, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024x1, .f32⟩
  | 87 => ⟨S1024, .f32⟩
  | 88 => ⟨S1024, .f32⟩
  | 89 => ⟨S1024, .f32⟩
  | 90 => ⟨S1024x16, .f32⟩
  | 91 => ⟨S1024x16, .f32⟩
  | 92 => ⟨S_, .i32⟩
  | 93 => ⟨S1024, .i32⟩
  | 94 => ⟨S1024, .i32⟩
  | 95 => ⟨S_, .i32⟩
  | 96 => ⟨S_, .i32⟩
  | 97 => ⟨S_, .i32⟩
  | 98 => ⟨S1024, .i32⟩
  | 99 => ⟨S1024, .i32⟩
  | 100 => ⟨S_, .i32⟩
  | 101 => ⟨S1024, .i32⟩
  | 102 => ⟨S1024, .i32⟩
  | 103 => ⟨S67735x16, .bf16⟩
  | 104 => ⟨S_, .i32⟩
  | 105 => ⟨S_, .bf16⟩
  | 106 => ⟨S69632x16, .bf16⟩
  | 107 => ⟨S_, .i32⟩
  | 108 => ⟨S_, .f32⟩
  | 109 => ⟨S69632, .f32⟩
  | 110 => ⟨S1x69632, .f32⟩
  | 111 => ⟨S1024x16, .bf16⟩
  | 112 => ⟨S_, .i32⟩
  | 113 => ⟨S_, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i32⟩
  | 120 => ⟨S1024x1, .i32⟩
  | 121 => ⟨S2x1024x1, .f32⟩
  | 122 => ⟨S2x1024x1, .f32⟩
  | 123 => ⟨S2x1024x1, .f32⟩
  | 124 => ⟨S1x1024x1, .f32⟩
  | 125 => ⟨S1024, .f32⟩
  | 126 => ⟨S1x1024x1, .f32⟩
  | 127 => ⟨S1024, .f32⟩
  | _ => ⟨S1024x1024, .f32⟩

abbrev hbmTy0_2 (i : Nat) : BufTy := match i % 128 with
  | 0 => ⟨S1x1024x1, .f32⟩
  | 1 => ⟨S1024, .f32⟩
  | 2 => ⟨S1x1024x1, .f32⟩
  | 3 => ⟨S1024, .f32⟩
  | 4 => ⟨S1x1024x1, .f32⟩
  | 5 => ⟨S1024, .f32⟩
  | 6 => ⟨S1x1024x1, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024x1, .f32⟩
  | 21 => ⟨S1024, .f32⟩
  | 22 => ⟨S1024, .f32⟩
  | 23 => ⟨S1024, .f32⟩
  | 24 => ⟨S1024x1, .i32⟩
  | 25 => ⟨S1x3, .i32⟩
  | 26 => ⟨S1024x3, .i32⟩
  | 27 => ⟨S1024x3, .i32⟩
  | 28 => ⟨S1024x3, .i1⟩
  | 29 => ⟨S1024x3, .i32⟩
  | 30 => ⟨S_, .i32⟩
  | 31 => ⟨S1024, .i32⟩
  | 32 => ⟨S_, .i32⟩
  | 33 => ⟨S1024, .i32⟩
  | 34 => ⟨S1024, .i1⟩
  | 35 => ⟨S_, .i32⟩
  | 36 => ⟨S1024, .i32⟩
  | 37 => ⟨S1024, .i1⟩
  | 38 => ⟨S_, .i32⟩
  | 39 => ⟨S1024, .i32⟩
  | 40 => ⟨S1024, .i1⟩
  | 41 => ⟨S_, .i32⟩
  | 42 => ⟨S1024, .i32⟩
  | 43 => ⟨S1024, .i1⟩
  | 44 => ⟨S_, .i1⟩
  | 45 => ⟨S1024, .i1⟩
  | 46 => ⟨S1x1024, .i1⟩
  | 47 => ⟨S1x1024, .i1⟩
  | 48 => ⟨S1x1024, .i1⟩
  | 49 => ⟨S1x1024, .i1⟩
  | 50 => ⟨S1x1024, .i1⟩
  | 51 => ⟨S5x1024, .i1⟩
  | 52 => ⟨S5x1024, .i32⟩
  | 53 => ⟨S_, .i1⟩
  | 54 => ⟨S_, .i32⟩
  | 55 => ⟨S1024, .i1⟩
  | 56 => ⟨S1024, .i32⟩
  | 57 => ⟨S_, .f32⟩
  | 58 => ⟨S1024, .f32⟩
  | 59 => ⟨S_, .i32⟩
  | 60 => ⟨S1024, .i32⟩
  | 61 => ⟨S1024, .i1⟩
  | 62 => ⟨S_, .i32⟩
  | 63 => ⟨S1024, .i32⟩
  | 64 => ⟨S1024, .i1⟩
  | 65 => ⟨S1024, .f32⟩
  | 66 => ⟨S_, .i32⟩
  | 67 => ⟨S1024, .i32⟩
  | 68 => ⟨S1024, .i1⟩
  | 69 => ⟨S_, .i32⟩
  | 70 => ⟨S1024, .i32⟩
  | 71 => ⟨S1024, .i1⟩
  | 72 => ⟨S1024, .f32⟩
  | 73 => ⟨S1024, .f32⟩
  | 74 => ⟨S1024, .f32⟩
  | 75 => ⟨S1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x2048, .f32⟩
  | .local _ .vmem, ⟨4, _⟩ => ⟨S1x2048, .f32⟩
  | .local _ .vmem, ⟨5, _⟩ => ⟨S1024x1, .i32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x256, .bf16⟩
  | .local _ .vmem, ⟨16, _⟩ => ⟨S2048x256, .bf16⟩
  | .local _ .vmem, ⟨17, _⟩ => ⟨S2048x256, .bf16⟩
  | .local _ .vmem, ⟨18, _⟩ => ⟨S1x2048, .f32⟩
  | .local _ .vmem, ⟨19, _⟩ => ⟨S1x2048, .f32⟩
  | .local _ .vmem, ⟨20, _⟩ => ⟨S1024x1, .i32⟩
  | .local _ .vmem, ⟨21, _⟩ => ⟨S1x1024x1, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x1, .f32⟩
  | .local _ .vmem, ⟨25, _⟩ => ⟨S1x1024x1, .f32⟩
  | .local _ .vmem, ⟨26, _⟩ => ⟨S1x1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x64, .bf16⟩
  | .local _ .vmem, ⟨31, _⟩ => ⟨S2048x64, .bf16⟩
  | .local _ .vmem, ⟨32, _⟩ => ⟨S2048x64, .bf16⟩
  | .local _ .vmem, ⟨33, _⟩ => ⟨S1x2048, .f32⟩
  | .local _ .vmem, ⟨34, _⟩ => ⟨S1x2048, .f32⟩
  | .local _ .vmem, ⟨35, _⟩ => ⟨S1024x1, .i32⟩
  | .local _ .vmem, ⟨36, _⟩ => ⟨S1x1024x1, .f32⟩
  | .local _ .vmem, ⟨37, _⟩ => ⟨S1x1024x1, .f32⟩
  | .local _ .vmem, ⟨38, _⟩ => ⟨S1x1024x1, .f32⟩
  | .local _ .vmem, ⟨39, _⟩ => ⟨S1x1024x1, .f32⟩
  | .local _ .vmem, ⟨40, _⟩ => ⟨S1x1024x1, .f32⟩
  | .local _ .vmem, ⟨41, _⟩ => ⟨S1x1024x1, .f32⟩
  | .local _ .vmem, ⟨42, _⟩ => ⟨S1024x1, .f32⟩
  | .local _ .vmem, ⟨43, _⟩ => ⟨S1024x1, .f32⟩
  | .local _ .vmem, ⟨44, _⟩ => ⟨S1024x1, .f32⟩
  | .local _ .vmem, ⟨45, _⟩ => ⟨S1024x16, .bf16⟩
  | .local _ .vmem, ⟨46, _⟩ => ⟨S2048x16, .bf16⟩
  | .local _ .vmem, ⟨47, _⟩ => ⟨S2048x16, .bf16⟩
  | .local _ .vmem, ⟨48, _⟩ => ⟨S1x2048, .f32⟩
  | .local _ .vmem, ⟨49, _⟩ => ⟨S1x2048, .f32⟩
  | .local _ .vmem, ⟨50, _⟩ => ⟨S1024x1, .i32⟩
  | .local _ .vmem, ⟨51, _⟩ => ⟨S1x1024x1, .f32⟩
  | .local _ .vmem, ⟨52, _⟩ => ⟨S1x1024x1, .f32⟩
  | .local _ .vmem, ⟨53, _⟩ => ⟨S1x1024x1, .f32⟩
  | .local _ .vmem, ⟨54, _⟩ => ⟨S1x1024x1, .f32⟩
  | .local _ .vmem, ⟨55, _⟩ => ⟨S1x1024x1, .f32⟩
  | .local _ .vmem, ⟨56, _⟩ => ⟨S1x1024x1, .f32⟩
  | .local _ .vmem, ⟨57, _⟩ => ⟨S1024x1, .f32⟩
  | .local _ .vmem, ⟨58, _⟩ => ⟨S1024x1, .f32⟩
  | .local _ .vmem, ⟨59, _⟩ => ⟨S1024x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v0 : Ref sig .tc := ⟨.hbm, 23, rfl⟩
abbrev main_v1 : Ref sig .tc := ⟨.hbm, 24, rfl⟩
abbrev main_c_2 : Ref sig .tc := ⟨.hbm, 25, rfl⟩
abbrev main_call1_v0 : Ref sig .tc := ⟨.hbm, 26, rfl⟩
abbrev main_v2 : Ref sig .tc := ⟨.hbm, 27, rfl⟩
abbrev main_c_3 : Ref sig .tc := ⟨.hbm, 28, rfl⟩
abbrev main_call2_v0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c_4 : Ref sig .tc := ⟨.hbm, 33, rfl⟩
abbrev main_c_5 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v6 : Ref sig .tc := ⟨.hbm, 40, rfl⟩
abbrev main_v7 : Ref sig .tc := ⟨.hbm, 41, rfl⟩
abbrev main_v8_0 : Ref sig .tc := ⟨.hbm, 42, rfl⟩
abbrev main_v8_1 : Ref sig .tc := ⟨.hbm, 43, rfl⟩
abbrev main_v8_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_7 : Ref sig .tc := ⟨.hbm, 96, rfl⟩
abbrev main_v58 : Ref sig .tc := ⟨.hbm, 97, rfl⟩
abbrev main_v59 : Ref sig .tc := ⟨.hbm, 98, rfl⟩
abbrev main_c_8 : Ref sig .tc := ⟨.hbm, 99, rfl⟩
abbrev main_c_9 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v60 : Ref sig .tc := ⟨.hbm, 106, rfl⟩
abbrev main_v61 : Ref sig .tc := ⟨.hbm, 107, rfl⟩
abbrev main_c_10 : Ref sig .tc := ⟨.hbm, 108, rfl⟩
abbrev main_call5_v0 : Ref sig .tc := ⟨.hbm, 109, rfl⟩
abbrev main_v62 : Ref sig .tc := ⟨.hbm, 110, rfl⟩
abbrev main_c_11 : Ref sig .tc := ⟨.hbm, 111, rfl⟩
abbrev main_call6_v0 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c_12 : Ref sig .tc := ⟨.hbm, 116, rfl⟩
abbrev main_c_13 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_v66 : Ref sig .tc := ⟨.hbm, 123, rfl⟩
abbrev main_v67 : Ref sig .tc := ⟨.hbm, 124, rfl⟩
abbrev main_v68_0 : Ref sig .tc := ⟨.hbm, 125, rfl⟩
abbrev main_v68_1 : Ref sig .tc := ⟨.hbm, 126, rfl⟩
abbrev main_v68_2 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_14 : Ref sig .tc := ⟨.hbm, 158, rfl⟩
abbrev main_v99 : Ref sig .tc := ⟨.hbm, 159, rfl⟩
abbrev main_v100 : Ref sig .tc := ⟨.hbm, 160, rfl⟩
abbrev main_c_15 : Ref sig .tc := ⟨.hbm, 161, rfl⟩
abbrev main_c_16 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_v101 : Ref sig .tc := ⟨.hbm, 168, rfl⟩
abbrev main_v102 : Ref sig .tc := ⟨.hbm, 169, rfl⟩
abbrev main_c_17 : Ref sig .tc := ⟨.hbm, 170, rfl⟩
abbrev main_call9_v0 : Ref sig .tc := ⟨.hbm, 171, rfl⟩
abbrev main_v103 : Ref sig .tc := ⟨.hbm, 172, rfl⟩
abbrev main_c_18 : Ref sig .tc := ⟨.hbm, 173, rfl⟩
abbrev main_call10_v0 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_19 : Ref sig .tc := ⟨.hbm, 178, rfl⟩
abbrev main_c_20 : Ref sig .tc := ⟨.hbm, 179, rfl⟩
abbrev main_call11_v0 : Ref sig .tc := ⟨.hbm, 180, rfl⟩
abbrev main_call11_v1 : Ref sig .tc := ⟨.hbm, 181, rfl⟩
abbrev main_call11_v2 : Ref sig .tc := ⟨.hbm, 182, rfl⟩
abbrev main_call11_v3 : Ref sig .tc := ⟨.hbm, 183, rfl⟩
abbrev main_call11_v4 : Ref sig .tc := ⟨.hbm, 184, rfl⟩
abbrev main_v107 : Ref sig .tc := ⟨.hbm, 185, rfl⟩
abbrev main_v108 : Ref sig .tc := ⟨.hbm, 186, rfl⟩
abbrev main_v109_0 : Ref sig .tc := ⟨.hbm, 187, rfl⟩
abbrev main_v109_1 : Ref sig .tc := ⟨.hbm, 188, rfl⟩
abbrev main_v109_2 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_c_21 : Ref sig .tc := ⟨.hbm, 220, rfl⟩
abbrev main_v140 : Ref sig .tc := ⟨.hbm, 221, rfl⟩
abbrev main_v141 : Ref sig .tc := ⟨.hbm, 222, rfl⟩
abbrev main_c_22 : Ref sig .tc := ⟨.hbm, 223, rfl⟩
abbrev main_c_23 : Ref sig .tc := ⟨.hbm, 224, rfl⟩
abbrev main_call12_v0 : Ref sig .tc := ⟨.hbm, 225, rfl⟩
abbrev main_call12_v1 : Ref sig .tc := ⟨.hbm, 226, rfl⟩
abbrev main_call12_v2 : Ref sig .tc := ⟨.hbm, 227, rfl⟩
abbrev main_call12_v3 : Ref sig .tc := ⟨.hbm, 228, rfl⟩
abbrev main_call12_v4 : Ref sig .tc := ⟨.hbm, 229, rfl⟩
abbrev main_v142 : Ref sig .tc := ⟨.hbm, 230, rfl⟩
abbrev main_v143 : Ref sig .tc := ⟨.hbm, 231, rfl⟩
abbrev main_c_24 : Ref sig .tc := ⟨.hbm, 232, rfl⟩
abbrev main_call13_v0 : Ref sig .tc := ⟨.hbm, 233, rfl⟩
abbrev main_v144 : Ref sig .tc := ⟨.hbm, 234, rfl⟩
abbrev main_c_25 : Ref sig .tc := ⟨.hbm, 235, rfl⟩
abbrev main_call14_v0 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_c_26 : Ref sig .tc := ⟨.hbm, 240, rfl⟩
abbrev main_c_27 : Ref sig .tc := ⟨.hbm, 241, rfl⟩
abbrev main_call15_v0 : Ref sig .tc := ⟨.hbm, 242, rfl⟩
abbrev main_call15_v1 : Ref sig .tc := ⟨.hbm, 243, rfl⟩
abbrev main_call15_v2 : Ref sig .tc := ⟨.hbm, 244, rfl⟩
abbrev main_call15_v3 : Ref sig .tc := ⟨.hbm, 245, rfl⟩
abbrev main_call15_v4 : Ref sig .tc := ⟨.hbm, 246, rfl⟩
abbrev main_v148 : Ref sig .tc := ⟨.hbm, 247, rfl⟩
abbrev main_v149 : Ref sig .tc := ⟨.hbm, 248, rfl⟩
abbrev main_v150_0 : Ref sig .tc := ⟨.hbm, 249, rfl⟩
abbrev main_v150_1 : Ref sig .tc := ⟨.hbm, 250, rfl⟩
abbrev main_v150_2 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_c_28 : Ref sig .tc := ⟨.hbm, 286, rfl⟩
abbrev main_v185 : Ref sig .tc := ⟨.hbm, 287, rfl⟩
abbrev main_c_29 : Ref sig .tc := ⟨.hbm, 288, rfl⟩
abbrev main_v186 : Ref sig .tc := ⟨.hbm, 289, rfl⟩
abbrev main_v187 : Ref sig .tc := ⟨.hbm, 290, rfl⟩
abbrev main_c_30 : Ref sig .tc := ⟨.hbm, 291, rfl⟩
abbrev main_v188 : Ref sig .tc := ⟨.hbm, 292, rfl⟩
abbrev main_v189 : Ref sig .tc := ⟨.hbm, 293, rfl⟩
abbrev main_c_31 : Ref sig .tc := ⟨.hbm, 294, rfl⟩
abbrev main_v190 : Ref sig .tc := ⟨.hbm, 295, rfl⟩
abbrev main_v191 : Ref sig .tc := ⟨.hbm, 296, rfl⟩
abbrev main_c_32 : Ref sig .tc := ⟨.hbm, 297, rfl⟩
abbrev main_v192 : Ref sig .tc := ⟨.hbm, 298, rfl⟩
abbrev main_v193 : Ref sig .tc := ⟨.hbm, 299, rfl⟩
abbrev main_c_33 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_call16_v0 : Ref sig .tc := ⟨.hbm, 308, rfl⟩
abbrev main_call16_c : Ref sig .tc := ⟨.hbm, 309, rfl⟩
abbrev main_call16_c_0 : Ref sig .tc := ⟨.hbm, 310, rfl⟩
abbrev main_call16_v1_0 : Ref sig .tc := ⟨.hbm, 311, rfl⟩
abbrev main_v201 : Ref sig .tc := ⟨.hbm, 312, rfl⟩
abbrev main_cst_34 : Ref sig .tc := ⟨.hbm, 313, rfl⟩
abbrev main_v202 : Ref sig .tc := ⟨.hbm, 314, rfl⟩
abbrev main_c_35 : Ref sig .tc := ⟨.hbm, 315, rfl⟩
abbrev main_v203 : Ref sig .tc := ⟨.hbm, 316, rfl⟩
abbrev main_v204 : Ref sig .tc := ⟨.hbm, 317, rfl⟩
abbrev main_c_36 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_c_37 : Ref sig .tc := ⟨.hbm, 322, rfl⟩
abbrev main_v208 : Ref sig .tc := ⟨.hbm, 323, rfl⟩
abbrev main_v209 : Ref sig .tc := ⟨.hbm, 324, rfl⟩
abbrev main_c_38 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_scratch0 : Ref sig .tc := ⟨.vmem, 42, rfl⟩
abbrev cc2_scratch1 : Ref sig .tc := ⟨.vmem, 43, rfl⟩
abbrev cc2_scratch2 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg4_1 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg6_1 : Ref sig .tc := ⟨.vmem, 56, rfl⟩
abbrev cc3_scratch0 : Ref sig .tc := ⟨.vmem, 57, rfl⟩
abbrev cc3_scratch1 : Ref sig .tc := ⟨.vmem, 58, rfl⟩
abbrev cc3_scratch2 : Ref sig .tc := ⟨.vmem, 59, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v58 : BitVec 1 := Scalar.cmpi .eq arg2 c4_i32
  let v59 : BitVec 32 := Scalar.extui v58
  let c0_i32_28 : BitVec 32 := 0#32
  let v60 : BitVec 1 := Scalar.cmpi .ne v59 c0_i32_28
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![2, 1, 5], ![false, false, false]⟩

def k1_cond2 (i : grid1.Coords) : BitVec 1 :=
  let arg2 : BitVec 32 := BitVec.ofNat 32 (i 2).val
  let c4_i32 : BitVec 32 := 4#32
  let v58 : BitVec 1 := Scalar.cmpi .eq arg2 c4_i32
  let v59 : BitVec 32 := Scalar.extui v58
  let c0_i32_28 : BitVec 32 := 0#32
  let v60 : BitVec 1 := Scalar.cmpi .ne v59 c0_i32_28
  v60

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 1 → Memref sig .tc .vmem S1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![2, 1, 40], ![false, false, false]⟩

def k2_cond2 (i : grid2.Coords) : BitVec 1 :=
  let arg2 : BitVec 32 := BitVec.ofNat 32 (i 2).val
  let c39_i32 : BitVec 32 := 39#32
  let v58 : BitVec 1 := Scalar.cmpi .eq arg2 c39_i32
  let v59 : BitVec 32 := Scalar.extui v58
  let c0_i32_28 : BitVec 32 := 0#32
  let v60 : BitVec 1 := Scalar.cmpi .ne v59 c0_i32_28
  v60

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.muli arg0 c40_i32
  let v1 : BitVec 32 := Scalar.addi v0 arg2
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.muli arg0 c40_i32
  let v1 : BitVec 32 := Scalar.addi v0 arg2
  let c0_i32 : BitVec 32 := 0#32
  let c0_i32_0 : BitVec 32 := 0#32
  ![c0_i32.toNat, v1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 1 → Memref sig .tc .vmem S1024x64 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 1 → Memref sig .tc .vmem S1024x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 2 → Memref sig .tc .vmem S1x1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1x1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1x1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![2, 1, 17], ![false, false, false]⟩

def k3_cond2 (i : grid3.Coords) : BitVec 1 :=
  let arg2 : BitVec 32 := BitVec.ofNat 32 (i 2).val
  let c16_i32 : BitVec 32 := 16#32
  let v58 : BitVec 1 := Scalar.cmpi .eq arg2 c16_i32
  let v59 : BitVec 32 := Scalar.extui v58
  let c0_i32_28 : BitVec 32 := 0#32
  let v60 : BitVec 1 := Scalar.cmpi .ne v59 c0_i32_28
  v60

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![c0_i32.toNat, v1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 1 → Memref sig .tc .vmem S1024x16 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, false]

abbrev stage3_1 : Fin 2 → Memref sig .tc .vmem S2048x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 1 → Memref sig .tc .vmem S1024x1 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true, false]

abbrev stage3_4 : Fin 2 → Memref sig .tc .vmem S1x1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1x1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  bcast_S_S1024 : S_.BroadcastsInDim S1024 (![] : Fin 0 → Fin S1024.rank)
  bitsLt_bf16_f32 : FTy.bits .bf16 < FTy.bits .f32
  pads_S20000x1024_S20480x1024_04800_000 : S20000x1024.Pads (![0, 0] : Fin 2 → Nat) ![480, 0] ![0, 0] S20480x1024
  h_S_ : 0 < S_.numel
  pads_S20000_S20480_04800 : S20000.Pads (![0] : Fin 1 → Nat) ![480] ![0] S20480
  shapeCasts_S20480_S1x20480 : S20480.ShapeCasts S1x20480
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  iota_S1024x2048_d1_w32 : S1024x2048.Iotas .tc 32 [1]
  reduces_S1024x2048_S1024 : S1024x2048.Reduces [1] S1024
  broadcasts_S1024x1_S1024x2048 : S1024x1.Broadcasts S1024x2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  transposes_S3x1024_S1024x3_1_0 : S3x1024.Transposes [1, 0] S1024x3
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  reducesTo_S1024x3_S1024_d1 : S1024x3.ReducesTo [1] S1024
  bcast_S1024_S1024x1_0 : S1024.BroadcastsInDim S1024x1 (![0] : Fin 1 → Fin S1024x1.rank)
  bcast_S1024x1_S1024x3_0_1 : S1024x1.BroadcastsInDim S1024x3 (![0, 1] : Fin 2 → Fin S1024x3.rank)
  transposes_S256x1024_S1024x256_1_0 : S256x1024.Transposes [1, 0] S1024x256
  pads_S20000x256_S20480x256_04800_000 : S20000x256.Pads (![0, 0] : Fin 2 → Nat) ![480, 0] ![0, 0] S20480x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S1024x3_S1024x1_0_2 : S1024x3.Slices ![0, 2] S1024x1
  shapeCasts_S1024x1_S1024 : S1024x1.ShapeCasts S1024
  transposes_S64x1024_S1024x64_1_0 : S64x1024.Transposes [1, 0] S1024x64
  pads_S160000x64_S163840x64_038400_000 : S160000x64.Pads (![0, 0] : Fin 2 → Nat) ![3840, 0] ![0, 0] S163840x64
  pads_S160000_S163840_038400 : S160000.Pads (![0] : Fin 1 → Nat) ![3840] ![0] S163840
  shapeCasts_S163840_S1x163840 : S163840.ShapeCasts S1x163840
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S1024x3_S1024x1_0_1 : S1024x3.Slices ![0, 1] S1024x1
  transposes_S16x1024_S1024x16_1_0 : S16x1024.Transposes [1, 0] S1024x16
  pads_S67735x16_S69632x16_018970_000 : S67735x16.Pads (![0, 0] : Fin 2 → Nat) ![1897, 0] ![0, 0] S69632x16
  pads_S67735_S69632_018970 : S67735.Pads (![0] : Fin 1 → Nat) ![1897] ![0] S69632
  shapeCasts_S69632_S1x69632 : S69632.ShapeCasts S1x69632
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  slices_S1024x3_S1024x1_0_0 : S1024x3.Slices ![0, 0] S1024x1
  natLt_1_32 : 1 < 32
  bcast_S1024_S1x1024_1 : S1024.BroadcastsInDim S1x1024 (![1] : Fin 1 → Fin S1x1024.rank)
  concatenates_S1x1024_S1x1024_S1x1024_S1x1024_S1x1024_S5x1024_d0 : Shape.Concatenates [S1x1024, S1x1024, S1x1024, S1x1024, S1x1024] S5x1024 0
  reducesTo_S5x1024_S1024_d0 : S5x1024.ReducesTo [0] S1024
  dot_S1024x1024_S2048x1024_S1024x2048_1_1_0_0_n_n_wf : DotDims.WF S1024x1024 S2048x1024 S1024x2048 [1] [1] [0] [0] [] []
  dot_S1024x1024_S1024x3_S1024x3_1_0_0_1_n_n_wf : DotDims.WF S1024x1024 S1024x3 S1024x3 [1] [0] [0] [1] [] []
  dot_S1024x1024_S1024x256_S1024x256_1_0_0_1_n_n_wf : DotDims.WF S1024x1024 S1024x256 S1024x256 [1] [0] [0] [1] [] []
  dot_S1024x256_S2048x256_S1024x2048_1_1_0_0_n_n_wf : DotDims.WF S1024x256 S2048x256 S1024x2048 [1] [1] [0] [0] [] []
  dot_S1024x1024_S1024x64_S1024x64_1_0_0_1_n_n_wf : DotDims.WF S1024x1024 S1024x64 S1024x64 [1] [0] [0] [1] [] []
  dot_S1024x64_S2048x64_S1024x2048_1_1_0_0_n_n_wf : DotDims.WF S1024x64 S2048x64 S1024x2048 [1] [1] [0] [0] [] []
  dot_S1024x1024_S1024x16_S1024x16_1_0_0_1_n_n_wf : DotDims.WF S1024x1024 S1024x16 S1024x16 [1] [0] [0] [1] [] []
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S20480x1024.size a
  hwx0_1 : ∀ i : grid0.Coords, EltTy.bits .bf16 = 32 ∨ (Rect.block (s := S20480x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x20480.size a
  hwx0_2 : ∀ i : grid0.Coords, EltTy.bits .f32 = 32 ∨ (Rect.block (s := S1x20480) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .i32 = 32 ∨ (Rect.block (s := S1024x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S2x1024x1.size a
  hwx0_6 : ∀ i : grid0.Coords, EltTy.bits .f32 = 32 ∨ (Rect.block (s := S2x1024x1) S1x1024x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .bf16 = 32 ∨ (Rect.block (s := S1024x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S20480x256.size a
  hwx1_1 : ∀ i : grid1.Coords, EltTy.bits .bf16 = 32 ∨ (Rect.block (s := S20480x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x20480.size a
  hwx1_2 : ∀ i : grid1.Coords, EltTy.bits .f32 = 32 ∨ (Rect.block (s := S1x20480) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S1024x1.size a
  hwx1_3 : ∀ i : grid1.Coords, EltTy.bits .i32 = 32 ∨ (Rect.block (s := S1024x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S2x1024x1.size a
  hwx1_4 : ∀ i : grid1.Coords, EltTy.bits .f32 = 32 ∨ (Rect.block (s := S2x1024x1) S1x1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1.size a ≤ S2x1024x1.size a
  hwx1_5 : ∀ i : grid1.Coords, EltTy.bits .f32 = 32 ∨ (Rect.block (s := S2x1024x1) S1x1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1.size a ≤ S2x1024x1.size a
  hwx1_6 : ∀ i : grid1.Coords, EltTy.bits .f32 = 32 ∨ (Rect.block (s := S2x1024x1) S1x1024x1.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .bf16 = 32 ∨ (Rect.block (s := S1024x64) S1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S163840x64.size a
  hwx2_1 : ∀ i : grid2.Coords, EltTy.bits .bf16 = 32 ∨ (Rect.block (s := S163840x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x163840.size a
  hwx2_2 : ∀ i : grid2.Coords, EltTy.bits .f32 = 32 ∨ (Rect.block (s := S1x163840) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S1024x1.size a
  hwx2_3 : ∀ i : grid2.Coords, EltTy.bits .i32 = 32 ∨ (Rect.block (s := S1024x1) S1024x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1.size a ≤ S2x1024x1.size a
  hwx2_4 : ∀ i : grid2.Coords, EltTy.bits .f32 = 32 ∨ (Rect.block (s := S2x1024x1) S1x1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x1.size a ≤ S2x1024x1.size a
  hwx2_5 : ∀ i : grid2.Coords, EltTy.bits .f32 = 32 ∨ (Rect.block (s := S2x1024x1) S1x1024x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x1.size a ≤ S2x1024x1.size a
  hwx2_6 : ∀ i : grid2.Coords, EltTy.bits .f32 = 32 ∨ (Rect.block (s := S2x1024x1) S1x1024x1.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x16.size a ≤ S1024x16.size a
  hwx3_0 : ∀ i : grid3.Coords, EltTy.bits .bf16 = 32 ∨ (Rect.block (s := S1024x16) S1024x16.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S69632x16.size a
  hwx3_1 : ∀ i : grid3.Coords, EltTy.bits .bf16 = 32 ∨ (Rect.block (s := S69632x16) S2048x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x69632.size a
  hwx3_2 : ∀ i : grid3.Coords, EltTy.bits .f32 = 32 ∨ (Rect.block (s := S1x69632) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S1024x1.size a
  hwx3_3 : ∀ i : grid3.Coords, EltTy.bits .i32 = 32 ∨ (Rect.block (s := S1024x1) S1024x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x1.size a ≤ S2x1024x1.size a
  hwx3_4 : ∀ i : grid3.Coords, EltTy.bits .f32 = 32 ∨ (Rect.block (s := S2x1024x1) S1x1024x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x1.size a ≤ S2x1024x1.size a
  hwx3_5 : ∀ i : grid3.Coords, EltTy.bits .f32 = 32 ∨ (Rect.block (s := S2x1024x1) S1x1024x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1024x1.size a ≤ S2x1024x1.size a
  hwx3_6 : ∀ i : grid3.Coords, EltTy.bits .f32 = 32 ∨ (Rect.block (s := S2x1024x1) S1x1024x1.size (cc3_transform_6 i) (hinb3_6 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

abbrev win0_0 : Pipeline.Window sig grid0 :=
  Pipeline.Window.ofSpec (Memref.whole main_v5) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v65) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v62) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1024x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68_0) S1x1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v68_1) S1x1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v68_2) S1x1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v106) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v103) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v108) S1024x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v109_0) S1x1024x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v109_1) S1x1024x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v109_2) S1x1024x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun i => !(k2_cond2 i == 1#1) | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v147) S1024x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v144) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v146) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v149) S1024x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v150_0) S1x1024x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v150_1) S1x1024x1.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v150_2) S1x1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun i => !(k3_cond2 i == 1#1) | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024 : Shape := ⟨1, ![1024]⟩
abbrev S20000x1024 : Shape := ⟨2, ![20000, 1024]⟩
abbrev S20000 : Shape := ⟨1, ![20000]⟩
abbrev S3x1024 : Shape := ⟨2, ![3, 1024]⟩
abbrev S3 : Shape := ⟨1, ![3]⟩
abbrev S256x1024 : Shape := ⟨2, ![256, 1024]⟩
abbrev S20000x256 : Shape := ⟨2, ![20000, 256]⟩
abbrev S64x1024 : Shape := ⟨2, ![64, 1024]⟩
abbrev S160000x64 : Shape := ⟨2, ![160000, 64]⟩
abbrev S160000 : Shape := ⟨1, ![160000]⟩
abbrev S16x1024 : Shape := ⟨2, ![16, 1024]⟩
abbrev S67735x16 : Shape := ⟨2, ![67735, 16]⟩
abbrev S67735 : Shape := ⟨1, ![67735]⟩
abbrev S1024x20000 : Shape := ⟨2, ![1024, 20000]⟩
abbrev S1x20000 : Shape := ⟨2, ![1, 20000]⟩
abbrev S1024x3 : Shape := ⟨2, ![1024, 3]⟩
abbrev S1x3 : Shape := ⟨2, ![1, 3]⟩
abbrev S1024x20003 : Shape := ⟨2, ![1024, 20003]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256 : Shape := ⟨2, ![1024, 256]⟩
abbrev S256x20000 : Shape := ⟨2, ![256, 20000]⟩
abbrev S1024x64 : Shape := ⟨2, ![1024, 64]⟩
abbrev S64x160000 : Shape := ⟨2, ![64, 160000]⟩
abbrev S1024x160000 : Shape := ⟨2, ![1024, 160000]⟩
abbrev S1x160000 : Shape := ⟨2, ![1, 160000]⟩
abbrev S1024x16 : Shape := ⟨2, ![1024, 16]⟩
abbrev S16x67735 : Shape := ⟨2, ![16, 67735]⟩
abbrev S1024x67735 : Shape := ⟨2, ![1024, 67735]⟩
abbrev S1x67735 : Shape := ⟨2, ![1, 67735]⟩
abbrev S1x1024 : Shape := ⟨2, ![1, 1024]⟩
abbrev S5x1024 : Shape := ⟨2, ![5, 1024]⟩

abbrev nBuf : Space → Nat
  | .hbm => 306
  | .vmem => 0
  | .smem => 0
  | _ => 0

abbrev hbmTy0_0 (i : Nat) : BufTy := match i % 128 with
  | 0 => ⟨S1024x1024, .f32⟩
  | 1 => ⟨S1024, .i32⟩
  | 2 => ⟨S20000x1024, .f32⟩
  | 3 => ⟨S20000, .f32⟩
  | 4 => ⟨S3x1024, .f32⟩
  | 5 => ⟨S3, .f32⟩
  | 6 => ⟨S256x1024, .f32⟩
  | 7 => ⟨S20000x256, .f32⟩
  | 8 => ⟨S20000, .f32⟩
  | 9 => ⟨S64x1024, .f32⟩
  | 10 => ⟨S160000x64, .f32⟩
  | 11 => ⟨S160000, .f32⟩
  | 12 => ⟨S16x1024, .f32⟩
  | 13 => ⟨S67735x16, .f32⟩
  | 14 => ⟨S67735, .f32⟩
  | 15 => ⟨S3, .i32⟩
  | 16 => ⟨S1024x20000, .f32⟩
  | 17 => ⟨S1024x20000, .f32⟩
  | 18 => ⟨S1x20000, .f32⟩
  | 19 => ⟨S1024x20000, .f32⟩
  | 20 => ⟨S1024x20000, .f32⟩
  | 21 => ⟨S1024x3, .f32⟩
  | 22 => ⟨S1024x3, .f32⟩
  | 23 => ⟨S1x3, .f32⟩
  | 24 => ⟨S1024x3, .f32⟩
  | 25 => ⟨S1024x3, .f32⟩
  | 26 => ⟨S1024x20003, .f32⟩
  | 27 => ⟨S_, .f32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x20003, .f32⟩
  | 34 => ⟨S1024x20003, .f32⟩
  | 35 => ⟨S1024x20003, .f32⟩
  | 36 => ⟨S_, .f32⟩
  | 37 => ⟨S1024, .f32⟩
  | 38 => ⟨S1024x1, .f32⟩
  | 39 => ⟨S1024x1, .f32⟩
  | 40 => ⟨S1024x20003, .f32⟩
  | 41 => ⟨S1024x20003, .f32⟩
  | 42 => ⟨S1024x1, .i32⟩
  | 43 => ⟨S1x3, .i32⟩
  | 44 => ⟨S1024x3, .i32⟩
  | 45 => ⟨S1024x3, .i32⟩
  | 46 => ⟨S1024x3, .i1⟩
  | 47 => ⟨S1024x3, .i32⟩
  | 48 => ⟨S_, .i32⟩
  | 49 => ⟨S1024, .i32⟩
  | 50 => ⟨S_, .i32⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024x1, .i32⟩
  | 59 => ⟨S_, .i32⟩
  | 60 => ⟨S1024x1, .i32⟩
  | 61 => ⟨S1024x1, .i1⟩
  | 62 => ⟨S_, .i32⟩
  | 63 => ⟨S1024x1, .i32⟩
  | 64 => ⟨S1024x1, .i32⟩
  | 65 => ⟨S1024x1, .i32⟩
  | 66 => ⟨S1024x1x1, .i32⟩
  | 67 => ⟨S1, .i32⟩
  | 68 => ⟨S_, .i32⟩
  | 69 => ⟨S1024x1x1, .i32⟩
  | 70 => ⟨S1024x1x1, .i1⟩
  | 71 => ⟨S1x1x1, .i32⟩
  | 72 => ⟨S1024x1x1, .i32⟩
  | 73 => ⟨S1024x1x1, .i1⟩
  | 74 => ⟨S1024x1x1, .i1⟩
  | 75 => ⟨S_, .i1⟩
  | 76 => ⟨S1024x1, .i1⟩
  | 77 => ⟨S1024x1, .f32⟩
  | 78 => ⟨S_, .f32⟩
  | 79 => ⟨S1024x1, .f32⟩
  | 80 => ⟨S1024x1, .f32⟩
  | 81 => ⟨S1024, .f32⟩
  | 82 => ⟨S1024x256, .f32⟩
  | 83 => ⟨S1024x256, .f32⟩
  | 84 => ⟨S256x20000, .f32⟩
  | 85 => ⟨S1024x20000, .f32⟩
  | 86 => ⟨S1x20000, .f32⟩
  | 87 => ⟨S1024x20000, .f32⟩
  | 88 => ⟨S1024x20000, .f32⟩
  | 89 => ⟨S_, .f32⟩
  | 90 => ⟨S1024, .f32⟩
  | 91 => ⟨S_, .f32⟩
  | 92 => ⟨S1024, .f32⟩
  | 93 => ⟨S1024, .f32⟩
  | 94 => ⟨S1024x1, .f32⟩
  | 95 => ⟨S1024x20000, .f32⟩
  | 96 => ⟨S1024x20000, .f32⟩
  | 97 => ⟨S1024x20000, .f32⟩
  | 98 => ⟨S_, .f32⟩
  | 99 => ⟨S1024, .f32⟩
  | 100 => ⟨S1024x1, .f32⟩
  | 101 => ⟨S1024x1, .f32⟩
  | 102 => ⟨S1024x20000, .f32⟩
  | 103 => ⟨S1024x20000, .f32⟩
  | 104 => ⟨S_, .i32⟩
  | 105 => ⟨S1024, .i32⟩
  | 106 => ⟨S1024, .i32⟩
  | 107 => ⟨S_, .i32⟩
  | 108 => ⟨S_, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S1024x1, .i32⟩
  | 116 => ⟨S_, .i32⟩
  | 117 => ⟨S1024x1, .i32⟩
  | 118 => ⟨S1024x1, .i1⟩
  | 119 => ⟨S_, .i32⟩
  | 120 => ⟨S1024x1, .i32⟩
  | 121 => ⟨S1024x1, .i32⟩
  | 122 => ⟨S1024x1, .i32⟩
  | 123 => ⟨S1024x1x1, .i32⟩
  | 124 => ⟨S1, .i32⟩
  | 125 => ⟨S_, .i32⟩
  | 126 => ⟨S1024x1x1, .i32⟩
  | 127 => ⟨S1024x1x1, .i1⟩
  | _ => ⟨S1024x1024, .f32⟩

abbrev hbmTy0_1 (i : Nat) : BufTy := match i % 128 with
  | 0 => ⟨S1x1x1, .i32⟩
  | 1 => ⟨S1024x1x1, .i32⟩
  | 2 => ⟨S1024x1x1, .i1⟩
  | 3 => ⟨S1024x1x1, .i1⟩
  | 4 => ⟨S_, .i1⟩
  | 5 => ⟨S1024x1, .i1⟩
  | 6 => ⟨S1024x1, .f32⟩
  | 7 => ⟨S_, .f32⟩
  | 8 => ⟨S1024x1, .f32⟩
  | 9 => ⟨S1024x1, .f32⟩
  | 10 => ⟨S1024, .f32⟩
  | 11 => ⟨S1024x1, .f32⟩
  | 12 => ⟨S1024, .f32⟩
  | 13 => ⟨S1024, .f32⟩
  | 14 => ⟨S1024x64, .f32⟩
  | 15 => ⟨S1024x64, .f32⟩
  | 16 => ⟨S64x160000, .f32⟩
  | 17 => ⟨S1024x160000, .f32⟩
  | 18 => ⟨S1x160000, .f32⟩
  | 19 => ⟨S1024x160000, .f32⟩
  | 20 => ⟨S1024x160000, .f32⟩
  | 21 => ⟨S_, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024x160000, .f32⟩
  | 28 => ⟨S1024x160000, .f32⟩
  | 29 => ⟨S1024x160000, .f32⟩
  | 30 => ⟨S_, .f32⟩
  | 31 => ⟨S1024, .f32⟩
  | 32 => ⟨S1024x1, .f32⟩
  | 33 => ⟨S1024x1, .f32⟩
  | 34 => ⟨S1024x160000, .f32⟩
  | 35 => ⟨S1024x160000, .f32⟩
  | 36 => ⟨S_, .i32⟩
  | 37 => ⟨S1024, .i32⟩
  | 38 => ⟨S1024, .i32⟩
  | 39 => ⟨S_, .i32⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i32⟩
  | 47 => ⟨S1024x1, .i32⟩
  | 48 => ⟨S_, .i32⟩
  | 49 => ⟨S1024x1, .i32⟩
  | 50 => ⟨S1024x1, .i1⟩
  | 51 => ⟨S_, .i32⟩
  | 52 => ⟨S1024x1, .i32⟩
  | 53 => ⟨S1024x1, .i32⟩
  | 54 => ⟨S1024x1, .i32⟩
  | 55 => ⟨S1024x1x1, .i32⟩
  | 56 => ⟨S1, .i32⟩
  | 57 => ⟨S_, .i32⟩
  | 58 => ⟨S1024x1x1, .i32⟩
  | 59 => ⟨S1024x1x1, .i1⟩
  | 60 => ⟨S1x1x1, .i32⟩
  | 61 => ⟨S1024x1x1, .i32⟩
  | 62 => ⟨S1024x1x1, .i1⟩
  | 63 => ⟨S1024x1x1, .i1⟩
  | 64 => ⟨S_, .i1⟩
  | 65 => ⟨S1024x1, .i1⟩
  | 66 => ⟨S1024x1, .f32⟩
  | 67 => ⟨S_, .f32⟩
  | 68 => ⟨S1024x1, .f32⟩
  | 69 => ⟨S1024x1, .f32⟩
  | 70 => ⟨S1024, .f32⟩
  | 71 => ⟨S1024x1, .f32⟩
  | 72 => ⟨S1024, .f32⟩
  | 73 => ⟨S1024, .f32⟩
  | 74 => ⟨S1024x16, .f32⟩
  | 75 => ⟨S1024x16, .f32⟩
  | 76 => ⟨S16x67735, .f32⟩
  | 77 => ⟨S1024x67735, .f32⟩
  | 78 => ⟨S1x67735, .f32⟩
  | 79 => ⟨S1024x67735, .f32⟩
  | 80 => ⟨S1024x67735, .f32⟩
  | 81 => ⟨S_, .f32⟩
  | 82 => ⟨S1024, .f32⟩
  | 83 => ⟨S_, .f32⟩
  | 84 => ⟨S1024, .f32⟩
  | 85 => ⟨S1024, .f32⟩
  | 86 => ⟨S1024x1, .f32⟩
  | 87 => ⟨S1024x67735, .f32⟩
  | 88 => ⟨S1024x67735, .f32⟩
  | 89 => ⟨S1024x67735, .f32⟩
  | 90 => ⟨S_, .f32⟩
  | 91 => ⟨S1024, .f32⟩
  | 92 => ⟨S1024x1, .f32⟩
  | 93 => ⟨S1024x1, .f32⟩
  | 94 => ⟨S1024x67735, .f32⟩
  | 95 => ⟨S1024x67735, .f32⟩
  | 96 => ⟨S_, .i32⟩
  | 97 => ⟨S1024, .i32⟩
  | 98 => ⟨S1024, .i32⟩
  | 99 => ⟨S_, .i32⟩
  | 100 => ⟨S_, .i32⟩
  | 101 => ⟨S_, .i32⟩
  | 102 => ⟨S1024, .i32⟩
  | 103 => ⟨S1024, .i32⟩
  | 104 => ⟨S_, .i32⟩
  | 105 => ⟨S1024, .i32⟩
  | 106 => ⟨S1024, .i32⟩
  | 107 => ⟨S1024x1, .i32⟩
  | 108 => ⟨S_, .i32⟩
  | 109 => ⟨S1024x1, .i32⟩
  | 110 => ⟨S1024x1, .i1⟩
  | 111 => ⟨S_, .i32⟩
  | 112 => ⟨S1024x1, .i32⟩
  | 113 => ⟨S1024x1, .i32⟩
  | 114 => ⟨S1024x1, .i32⟩
  | 115 => ⟨S1024x1x1, .i32⟩
  | 116 => ⟨S1, .i32⟩
  | 117 => ⟨S_, .i32⟩
  | 118 => ⟨S1024x1x1, .i32⟩
  | 119 => ⟨S1024x1x1, .i1⟩
  | 120 => ⟨S1x1x1, .i32⟩
  | 121 => ⟨S1024x1x1, .i32⟩
  | 122 => ⟨S1024x1x1, .i1⟩
  | 123 => ⟨S1024x1x1, .i1⟩
  | 124 => ⟨S_, .i1⟩
  | 125 => ⟨S1024x1, .i1⟩
  | 126 => ⟨S1024x1, .f32⟩
  | 127 => ⟨S_, .f32⟩
  | _ => ⟨S1024x1024, .f32⟩

abbrev hbmTy0_2 (i : Nat) : BufTy := match i % 128 with
  | 0 => ⟨S1024x1, .f32⟩
  | 1 => ⟨S1024x1, .f32⟩
  | 2 => ⟨S1024, .f32⟩
  | 3 => ⟨S1024x1, .f32⟩
  | 4 => ⟨S1024, .f32⟩
  | 5 => ⟨S1024, .f32⟩
  | 6 => ⟨S_, .i32⟩
  | 7 => ⟨S1024, .i32⟩
  | 8 => ⟨S1024, .i1⟩
  | 9 => ⟨S_, .i32⟩
  | 10 => ⟨S1024, .i32⟩
  | 11 => ⟨S1024, .i1⟩
  | 12 => ⟨S_, .i32⟩
  | 13 => ⟨S1024, .i32⟩
  | 14 => ⟨S1024, .i1⟩
  | 15 => ⟨S_, .i32⟩
  | 16 => ⟨S1024, .i32⟩
  | 17 => ⟨S1024, .i1⟩
  | 18 => ⟨S_, .i1⟩
  | 19 => ⟨S1024, .i1⟩
  | 20 => ⟨S1x1024, .i1⟩
  | 21 => ⟨S1x1024, .i1⟩
  | 22 => ⟨S1x1024, .i1⟩
  | 23 => ⟨S1x1024, .i1⟩
  | 24 => ⟨S1x1024, .i1⟩
  | 25 => ⟨S5x1024, .i1⟩
  | 26 => ⟨S5x1024, .i32⟩
  | 27 => ⟨S_, .i1⟩
  | 28 => ⟨S_, .i32⟩
  | 29 => ⟨S1024, .i1⟩
  | 30 => ⟨S1024, .i32⟩
  | 31 => ⟨S_, .f32⟩
  | 32 => ⟨S1024, .f32⟩
  | 33 => ⟨S_, .i32⟩
  | 34 => ⟨S1024, .i32⟩
  | 35 => ⟨S1024, .i1⟩
  | 36 => ⟨S_, .i32⟩
  | 37 => ⟨S1024, .i32⟩
  | 38 => ⟨S1024, .i1⟩
  | 39 => ⟨S1024, .f32⟩
  | 40 => ⟨S_, .i32⟩
  | 41 => ⟨S1024, .i32⟩
  | 42 => ⟨S1024, .i1⟩
  | 43 => ⟨S_, .i32⟩
  | 44 => ⟨S1024, .i32⟩
  | 45 => ⟨S1024, .i1⟩
  | 46 => ⟨S1024, .f32⟩
  | 47 => ⟨S1024, .f32⟩
  | 48 => ⟨S1024, .f32⟩
  | 49 => ⟨S1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_0 : Ref sig .tc := ⟨.hbm, 48, rfl⟩
abbrev main_v18 : Ref sig .tc := ⟨.hbm, 49, rfl⟩
abbrev main_c_1 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v19 : Ref sig .tc := ⟨.hbm, 57, rfl⟩
abbrev main_v20 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_call3_cst : Ref sig .tc := ⟨.hbm, 89, rfl⟩
abbrev main_call3_v0 : Ref sig .tc := ⟨.hbm, 90, rfl⟩
abbrev main_call3_cst_0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_cst_1 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_v30 : Ref sig .tc := ⟨.hbm, 103, rfl⟩
abbrev main_c_3 : Ref sig .tc := ⟨.hbm, 104, rfl⟩
abbrev main_v31 : Ref sig .tc := ⟨.hbm, 105, rfl⟩
abbrev main_v32 : Ref sig .tc := ⟨.hbm, 106, rfl⟩
abbrev main_c_4 : Ref sig .tc := ⟨.hbm, 107, rfl⟩
abbrev main_c_5 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v33 : Ref sig .tc := ⟨.hbm, 114, rfl⟩
abbrev main_v34 : Ref sig .tc := ⟨.hbm, 115, rfl⟩
abbrev main_call5_c : Ref sig .tc := ⟨.hbm, 116, rfl⟩
abbrev main_call5_v0 : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_c_1 : Ref sig .tc := ⟨.hbm, 124, rfl⟩
abbrev main_call5_c_2 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_c_3 : Ref sig .tc := ⟨.hbm, 132, rfl⟩
abbrev main_call5_v12 : Ref sig .tc := ⟨.hbm, 133, rfl⟩
abbrev main_call5_v13 : Ref sig .tc := ⟨.hbm, 134, rfl⟩
abbrev main_call5_cst : Ref sig .tc := ⟨.hbm, 135, rfl⟩
abbrev main_call5_v14 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_call6_cst : Ref sig .tc := ⟨.hbm, 149, rfl⟩
abbrev main_call6_v0 : Ref sig .tc := ⟨.hbm, 150, rfl⟩
abbrev main_call6_cst_0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_v6 : Ref sig .tc := ⟨.hbm, 157, rfl⟩
abbrev main_call6_cst_1 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_v47 : Ref sig .tc := ⟨.hbm, 163, rfl⟩
abbrev main_c_6 : Ref sig .tc := ⟨.hbm, 164, rfl⟩
abbrev main_v48 : Ref sig .tc := ⟨.hbm, 165, rfl⟩
abbrev main_v49 : Ref sig .tc := ⟨.hbm, 166, rfl⟩
abbrev main_c_7 : Ref sig .tc := ⟨.hbm, 167, rfl⟩
abbrev main_c_8 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_v50 : Ref sig .tc := ⟨.hbm, 174, rfl⟩
abbrev main_v51 : Ref sig .tc := ⟨.hbm, 175, rfl⟩
abbrev main_call8_c : Ref sig .tc := ⟨.hbm, 176, rfl⟩
abbrev main_call8_v0 : Ref sig .tc := ⟨.hbm, 177, rfl⟩
abbrev main_call8_v1 : Ref sig .tc := ⟨.hbm, 178, rfl⟩
abbrev main_call8_c_0 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_v5 : Ref sig .tc := ⟨.hbm, 183, rfl⟩
abbrev main_call8_c_1 : Ref sig .tc := ⟨.hbm, 184, rfl⟩
abbrev main_call8_c_2 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_c_3 : Ref sig .tc := ⟨.hbm, 192, rfl⟩
abbrev main_call8_v12 : Ref sig .tc := ⟨.hbm, 193, rfl⟩
abbrev main_call8_v13 : Ref sig .tc := ⟨.hbm, 194, rfl⟩
abbrev main_call8_cst : Ref sig .tc := ⟨.hbm, 195, rfl⟩
abbrev main_call8_v14 : Ref sig .tc := ⟨.hbm, 196, rfl⟩
abbrev main_v52 : Ref sig .tc := ⟨.hbm, 197, rfl⟩
abbrev main_v53 : Ref sig .tc := ⟨.hbm, 198, rfl⟩
abbrev main_v54 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_call9_cst : Ref sig .tc := ⟨.hbm, 209, rfl⟩
abbrev main_call9_v0 : Ref sig .tc := ⟨.hbm, 210, rfl⟩
abbrev main_call9_cst_0 : Ref sig .tc := ⟨.hbm, 211, rfl⟩
abbrev main_call9_v1 : Ref sig .tc := ⟨.hbm, 212, rfl⟩
abbrev main_call9_v2 : Ref sig .tc := ⟨.hbm, 213, rfl⟩
abbrev main_call9_v3 : Ref sig .tc := ⟨.hbm, 214, rfl⟩
abbrev main_call9_v4 : Ref sig .tc := ⟨.hbm, 215, rfl⟩
abbrev main_call9_v5 : Ref sig .tc := ⟨.hbm, 216, rfl⟩
abbrev main_call9_v6 : Ref sig .tc := ⟨.hbm, 217, rfl⟩
abbrev main_call9_cst_1 : Ref sig .tc := ⟨.hbm, 218, rfl⟩
abbrev main_call9_v7 : Ref sig .tc := ⟨.hbm, 219, rfl⟩
abbrev main_call9_v8 : Ref sig .tc := ⟨.hbm, 220, rfl⟩
abbrev main_call9_v9 : Ref sig .tc := ⟨.hbm, 221, rfl⟩
abbrev main_call9_v10 : Ref sig .tc := ⟨.hbm, 222, rfl⟩
abbrev main_v64 : Ref sig .tc := ⟨.hbm, 223, rfl⟩
abbrev main_c_9 : Ref sig .tc := ⟨.hbm, 224, rfl⟩
abbrev main_v65 : Ref sig .tc := ⟨.hbm, 225, rfl⟩
abbrev main_v66 : Ref sig .tc := ⟨.hbm, 226, rfl⟩
abbrev main_c_10 : Ref sig .tc := ⟨.hbm, 227, rfl⟩
abbrev main_c_11 : Ref sig .tc := ⟨.hbm, 228, rfl⟩
abbrev main_call10_v0 : Ref sig .tc := ⟨.hbm, 229, rfl⟩
abbrev main_call10_v1 : Ref sig .tc := ⟨.hbm, 230, rfl⟩
abbrev main_call10_v2 : Ref sig .tc := ⟨.hbm, 231, rfl⟩
abbrev main_call10_v3 : Ref sig .tc := ⟨.hbm, 232, rfl⟩
abbrev main_call10_v4 : Ref sig .tc := ⟨.hbm, 233, rfl⟩
abbrev main_v67 : Ref sig .tc := ⟨.hbm, 234, rfl⟩
abbrev main_v68 : Ref sig .tc := ⟨.hbm, 235, rfl⟩
abbrev main_call11_c : Ref sig .tc := ⟨.hbm, 236, rfl⟩
abbrev main_call11_v0 : Ref sig .tc := ⟨.hbm, 237, rfl⟩
abbrev main_call11_v1 : Ref sig .tc := ⟨.hbm, 238, rfl⟩
abbrev main_call11_c_0 : Ref sig .tc := ⟨.hbm, 239, rfl⟩
abbrev main_call11_v2 : Ref sig .tc := ⟨.hbm, 240, rfl⟩
abbrev main_call11_v3 : Ref sig .tc := ⟨.hbm, 241, rfl⟩
abbrev main_call11_v4 : Ref sig .tc := ⟨.hbm, 242, rfl⟩
abbrev main_call11_v5 : Ref sig .tc := ⟨.hbm, 243, rfl⟩
abbrev main_call11_c_1 : Ref sig .tc := ⟨.hbm, 244, rfl⟩
abbrev main_call11_c_2 : Ref sig .tc := ⟨.hbm, 245, rfl⟩
abbrev main_call11_v6 : Ref sig .tc := ⟨.hbm, 246, rfl⟩
abbrev main_call11_v7 : Ref sig .tc := ⟨.hbm, 247, rfl⟩
abbrev main_call11_v8 : Ref sig .tc := ⟨.hbm, 248, rfl⟩
abbrev main_call11_v9 : Ref sig .tc := ⟨.hbm, 249, rfl⟩
abbrev main_call11_v10 : Ref sig .tc := ⟨.hbm, 250, rfl⟩
abbrev main_call11_v11 : Ref sig .tc := ⟨.hbm, 251, rfl⟩
abbrev main_call11_c_3 : Ref sig .tc := ⟨.hbm, 252, rfl⟩
abbrev main_call11_v12 : Ref sig .tc := ⟨.hbm, 253, rfl⟩
abbrev main_call11_v13 : Ref sig .tc := ⟨.hbm, 254, rfl⟩
abbrev main_call11_cst : Ref sig .tc := ⟨.hbm, 255, rfl⟩
abbrev main_call11_v14 : Ref sig .tc := ⟨.hbm, 256, rfl⟩
abbrev main_v69 : Ref sig .tc := ⟨.hbm, 257, rfl⟩
abbrev main_v70 : Ref sig .tc := ⟨.hbm, 258, rfl⟩
abbrev main_v71 : Ref sig .tc := ⟨.hbm, 259, rfl⟩
abbrev main_v72 : Ref sig .tc := ⟨.hbm, 260, rfl⟩
abbrev main_v73 : Ref sig .tc := ⟨.hbm, 261, rfl⟩
abbrev main_c_12 : Ref sig .tc := ⟨.hbm, 262, rfl⟩
abbrev main_v74 : Ref sig .tc := ⟨.hbm, 263, rfl⟩
abbrev main_v75 : Ref sig .tc := ⟨.hbm, 264, rfl⟩
abbrev main_c_13 : Ref sig .tc := ⟨.hbm, 265, rfl⟩
abbrev main_v76 : Ref sig .tc := ⟨.hbm, 266, rfl⟩
abbrev main_v77 : Ref sig .tc := ⟨.hbm, 267, rfl⟩
abbrev main_c_14 : Ref sig .tc := ⟨.hbm, 268, rfl⟩
abbrev main_v78 : Ref sig .tc := ⟨.hbm, 269, rfl⟩
abbrev main_v79 : Ref sig .tc := ⟨.hbm, 270, rfl⟩
abbrev main_c_15 : Ref sig .tc := ⟨.hbm, 271, rfl⟩
abbrev main_v80 : Ref sig .tc := ⟨.hbm, 272, rfl⟩
abbrev main_v81 : Ref sig .tc := ⟨.hbm, 273, rfl⟩
abbrev main_c_16 : Ref sig .tc := ⟨.hbm, 274, rfl⟩
abbrev main_v82 : Ref sig .tc := ⟨.hbm, 275, rfl⟩
abbrev main_v83 : Ref sig .tc := ⟨.hbm, 276, rfl⟩
abbrev main_v84 : Ref sig .tc := ⟨.hbm, 277, rfl⟩
abbrev main_v85 : Ref sig .tc := ⟨.hbm, 278, rfl⟩
abbrev main_v86 : Ref sig .tc := ⟨.hbm, 279, rfl⟩
abbrev main_v87 : Ref sig .tc := ⟨.hbm, 280, rfl⟩
abbrev main_v88 : Ref sig .tc := ⟨.hbm, 281, rfl⟩
abbrev main_call12_v0 : Ref sig .tc := ⟨.hbm, 282, rfl⟩
abbrev main_call12_c : Ref sig .tc := ⟨.hbm, 283, rfl⟩
abbrev main_call12_c_0 : Ref sig .tc := ⟨.hbm, 284, rfl⟩
abbrev main_call12_v1_0 : Ref sig .tc := ⟨.hbm, 285, rfl⟩
abbrev main_v89 : Ref sig .tc := ⟨.hbm, 286, rfl⟩
abbrev main_cst : Ref sig .tc := ⟨.hbm, 287, rfl⟩
abbrev main_v90 : Ref sig .tc := ⟨.hbm, 288, rfl⟩
abbrev main_c_17 : Ref sig .tc := ⟨.hbm, 289, rfl⟩
abbrev main_v91 : Ref sig .tc := ⟨.hbm, 290, rfl⟩
abbrev main_v92 : Ref sig .tc := ⟨.hbm, 291, rfl⟩
abbrev main_c_18 : Ref sig .tc := ⟨.hbm, 292, rfl⟩
abbrev main_v93 : Ref sig .tc := ⟨.hbm, 293, rfl⟩
abbrev main_v94 : Ref sig .tc := ⟨.hbm, 294, rfl⟩
abbrev main_v95 : Ref sig .tc := ⟨.hbm, 295, rfl⟩
abbrev main_c_19 : Ref sig .tc := ⟨.hbm, 296, rfl⟩
abbrev main_v96 : Ref sig .tc := ⟨.hbm, 297, rfl⟩
abbrev main_v97 : Ref sig .tc := ⟨.hbm, 298, rfl⟩
abbrev main_c_20 : Ref sig .tc := ⟨.hbm, 299, rfl⟩
abbrev main_v98 : Ref sig .tc := ⟨.hbm, 300, rfl⟩
abbrev main_v99 : Ref sig .tc := ⟨.hbm, 301, rfl⟩
abbrev main_v100 : Ref sig .tc := ⟨.hbm, 302, rfl⟩
abbrev main_v101 : Ref sig .tc := ⟨.hbm, 303, rfl⟩
abbrev main_v102 : Ref sig .tc := ⟨.hbm, 304, rfl⟩
abbrev main_v103 : Ref sig .tc := ⟨.hbm, 305, rfl⟩

abbrev nD : Nat := 1
abbrev τ : Topo := Topo.v7x

variable {F : FTy → Type} [FloatOps F]

class Facts₀ : Prop where
  transposes_S20000x1024_S1024x20000_1_0 : S20000x1024.Transposes [1, 0] S1024x20000
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  transposes_S3x1024_S1024x3_1_0 : S3x1024.Transposes [1, 0] S1024x3
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  concatenates_S1024x20000_S1024x3_S1024x20003_d1 : Shape.Concatenates [S1024x20000, S1024x3] S1024x20003 1
  reducesTo_S1024x20003_S1024_d1 : S1024x20003.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x20003_0_1 : S1024x1.BroadcastsInDim S1024x20003 (![0, 1] : Fin 2 → Fin S1024x20003.rank)
  bcast_S1024x1_S1024x3_0_1 : S1024x1.BroadcastsInDim S1024x3 (![0, 1] : Fin 2 → Fin S1024x3.rank)
  natLt_1_32 : 1 < 32
  reducesTo_S1024x3_S1024_d1 : S1024x3.ReducesTo [1] S1024
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  transposes_S256x1024_S1024x256_1_0 : S256x1024.Transposes [1, 0] S1024x256
  transposes_S20000x256_S256x20000_1_0 : S20000x256.Transposes [1, 0] S256x20000
  reducesTo_S1024x20000_S1024_d1 : S1024x20000.ReducesTo [1] S1024
  bcast_S1024x1_S1024x20000_0_1 : S1024x1.BroadcastsInDim S1024x20000 (![0, 1] : Fin 2 → Fin S1024x20000.rank)
  slices_S1024x20003_S1024x1_0_20002 : S1024x20003.Slices ![0, 20002] S1024x1
  transposes_S64x1024_S1024x64_1_0 : S64x1024.Transposes [1, 0] S1024x64
  transposes_S160000x64_S64x160000_1_0 : S160000x64.Transposes [1, 0] S64x160000
  bcast_S160000_S1x160000_1 : S160000.BroadcastsInDim S1x160000 (![1] : Fin 1 → Fin S1x160000.rank)
  bcast_S1x160000_S1024x160000_0_1 : S1x160000.BroadcastsInDim S1024x160000 (![0, 1] : Fin 2 → Fin S1024x160000.rank)
  reducesTo_S1024x160000_S1024_d1 : S1024x160000.ReducesTo [1] S1024
  bcast_S1024x1_S1024x160000_0_1 : S1024x1.BroadcastsInDim S1024x160000 (![0, 1] : Fin 2 → Fin S1024x160000.rank)
  slices_S1024x20003_S1024x1_0_20001 : S1024x20003.Slices ![0, 20001] S1024x1
  transposes_S16x1024_S1024x16_1_0 : S16x1024.Transposes [1, 0] S1024x16
  transposes_S67735x16_S16x67735_1_0 : S67735x16.Transposes [1, 0] S16x67735
  bcast_S67735_S1x67735_1 : S67735.BroadcastsInDim S1x67735 (![1] : Fin 1 → Fin S1x67735.rank)
  bcast_S1x67735_S1024x67735_0_1 : S1x67735.BroadcastsInDim S1024x67735 (![0, 1] : Fin 2 → Fin S1024x67735.rank)
  reducesTo_S1024x67735_S1024_d1 : S1024x67735.ReducesTo [1] S1024
  bcast_S1024x1_S1024x67735_0_1 : S1024x1.BroadcastsInDim S1024x67735 (![0, 1] : Fin 2 → Fin S1024x67735.rank)
  slices_S1024x20003_S1024x1_0_20000 : S1024x20003.Slices ![0, 20000] S1024x1
  bcast_S1024_S1x1024_1 : S1024.BroadcastsInDim S1x1024 (![1] : Fin 1 → Fin S1x1024.rank)
  concatenates_S1x1024_S1x1024_S1x1024_S1x1024_S1x1024_S5x1024_d0 : Shape.Concatenates [S1x1024, S1x1024, S1x1024, S1x1024, S1x1024] S5x1024 0
  reducesTo_S5x1024_S1024_d0 : S5x1024.ReducesTo [0] S1024
  dot_S1024x1024_S1024x20000_S1024x20000_1_0_0_1_n_n_wf : DotDims.WF S1024x1024 S1024x20000 S1024x20000 [1] [0] [0] [1] [] []
  dot_S1024x1024_S1024x3_S1024x3_1_0_0_1_n_n_wf : DotDims.WF S1024x1024 S1024x3 S1024x3 [1] [0] [0] [1] [] []
  gather_S1024x20003_S1024x1x1_S1024x1_n_1_0_0_1_2_11_wf : GatherDims.WF S1024x20003 S1024x1x1 S1024x1 [] [1] [0] [1] [0] 2 ![1, 1]
  dot_S1024x1024_S1024x256_S1024x256_1_0_0_1_n_n_wf : DotDims.WF S1024x1024 S1024x256 S1024x256 [1] [0] [0] [1] [] []
  dot_S1024x256_S256x20000_S1024x20000_1_0_0_1_n_n_wf : DotDims.WF S1024x256 S256x20000 S1024x20000 [1] [0] [0] [1] [] []
  gather_S1024x20000_S1024x1x1_S1024x1_n_1_0_0_1_2_11_wf : GatherDims.WF S1024x20000 S1024x1x1 S1024x1 [] [1] [0] [1] [0] 2 ![1, 1]
  dot_S1024x1024_S1024x64_S1024x64_1_0_0_1_n_n_wf : DotDims.WF S1024x1024 S1024x64 S1024x64 [1] [0] [0] [1] [] []
  dot_S1024x64_S64x160000_S1024x160000_1_0_0_1_n_n_wf : DotDims.WF S1024x64 S64x160000 S1024x160000 [1] [0] [0] [1] [] []
  gather_S1024x160000_S1024x1x1_S1024x1_n_1_0_0_1_2_11_wf : GatherDims.WF S1024x160000 S1024x1x1 S1024x1 [] [1] [0] [1] [0] 2 ![1, 1]
  dot_S1024x1024_S1024x16_S1024x16_1_0_0_1_n_n_wf : DotDims.WF S1024x1024 S1024x16 S1024x16 [1] [0] [0] [1] [] []
  dot_S1024x16_S16x67735_S1024x67735_1_0_0_1_n_n_wf : DotDims.WF S1024x16 S16x67735 S1024x67735 [1] [0] [0] [1] [] []
  gather_S1024x67735_S1024x1x1_S1024x1_n_1_0_0_1_2_11_wf : GatherDims.WF S1024x67735 S1024x1x1 S1024x1 [] [1] [0] [1] [0] 2 ![1, 1]

variable [Facts₀]

def dot_S1024x1024_S1024x20000_S1024x20000_1_0_0_1_n_n : DotDims S1024x1024 S1024x20000 S1024x20000 where
  lhsContracting := [1]
  rhsContracting := [0]
  lhsNonContracting := [0]
  rhsNonContracting := [1]
  lhsBatch := []
  rhsBatch := []
  wf := dot_S1024x1024_S1024x20000_S1024x20000_1_0_0_1_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def gather_S1024x20003_S1024x1x1_S1024x1_n_1_0_0_1_2_11 : GatherDims S1024x20003 S1024x1x1 S1024x1 where
  offsetDims := []
  collapsedSliceDims := [1]
  operandBatchingDims := [0]
  startIndicesBatchingDims := [0]
  startIndexMap := [1]
  indexVectorDim := 2
  sliceSizes := ![1, 1]
  wf := gather_S1024x20003_S1024x1x1_S1024x1_n_1_0_0_1_2_11_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x20000_S1024x20000_1_0_0_1_n_n : DotDims S1024x256 S256x20000 S1024x20000 where
  lhsContracting := [1]
  rhsContracting := [0]
  lhsNonContracting := [0]
  rhsNonContracting := [1]
  lhsBatch := []
  rhsBatch := []
  wf := dot_S1024x256_S256x20000_S1024x20000_1_0_0_1_n_n_wf
def gather_S1024x20000_S1024x1x1_S1024x1_n_1_0_0_1_2_11 : GatherDims S1024x20000 S1024x1x1 S1024x1 where
  offsetDims := []
  collapsedSliceDims := [1]
  operandBatchingDims := [0]
  startIndicesBatchingDims := [0]
  startIndexMap := [1]
  indexVectorDim := 2
  sliceSizes := ![1, 1]
  wf := gather_S1024x20000_S1024x1x1_S1024x1_n_1_0_0_1_2_11_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x160000_S1024x160000_1_0_0_1_n_n : DotDims S1024x64 S64x160000 S1024x160000 where
  lhsContracting := [1]
  rhsContracting := [0]
  lhsNonContracting := [0]
  rhsNonContracting := [1]
  lhsBatch := []
  rhsBatch := []
  wf := dot_S1024x64_S64x160000_S1024x160000_1_0_0_1_n_n_wf
def gather_S1024x160000_S1024x1x1_S1024x1_n_1_0_0_1_2_11 : GatherDims S1024x160000 S1024x1x1 S1024x1 where
  offsetDims := []
  collapsedSliceDims := [1]
  operandBatchingDims := [0]
  startIndicesBatchingDims := [0]
  startIndexMap := [1]
  indexVectorDim := 2
  sliceSizes := ![1, 1]
  wf := gather_S1024x160000_S1024x1x1_S1024x1_n_1_0_0_1_2_11_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x67735_S1024x67735_1_0_0_1_n_n : DotDims S1024x16 S16x67735 S1024x67735 where
  lhsContracting := [1]
  rhsContracting := [0]
  lhsNonContracting := [0]
  rhsNonContracting := [1]
  lhsBatch := []
  rhsBatch := []
  wf := dot_S1024x16_S16x67735_S1024x67735_1_0_0_1_n_n_wf
def gather_S1024x67735_S1024x1x1_S1024x1_n_1_0_0_1_2_11 : GatherDims S1024x67735 S1024x1x1 S1024x1 where
  offsetDims := []
  collapsedSliceDims := [1]
  operandBatchingDims := [0]
  startIndicesBatchingDims := [0]
  startIndexMap := [1]
  indexVectorDim := 2
  sliceSizes := ![1, 1]
  wf := gather_S1024x67735_S1024x1x1_S1024x1_n_1_0_0_1_2_11_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.K.R0Runs.lean ====
import proofs.«429142_j41094247088744_3_alg».proof.Proof.Gen.Kernel.Launch
import proofs.«429142_j41094247088744_3_alg».proof.Proof.Gen.Kernel.Skeleton
import proofs.«429142_j41094247088744_3_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

/-- What a sweep carries from block to block: the running row maximum, the running sum of exponentials relative to it, and the target's logit found so far. -/
abbrev S3 (F : FTy → Type) [FloatOps F] : Type :=
  Vec F S1024x1 .f32 × Vec F S1024x1 .f32 × Vec F S1024x1 .f32

theorem off2_zero : (![0, 0] : Fin 2 → Nat) = fun _ => 0 := by funext a; fin_cases a <;> rfl
theorem off3_zero : (![0, 0, 0] : Fin 3 → Nat) = fun _ => 0 := by funext a; fin_cases a <;> rfl

/-- A load through the rectangle that covers a whole array reads the array. -/
theorem readAt_unit {r : ℕ} {sz : Fin r → ℕ} {e : EltTy} (a : Memref sig .tc .vmem ⟨r, sz⟩ e) {off : Fin r → ℕ} (h : off = fun _ => 0)
    (inb : ∀ k, off k + sz k ≤ sz k) (f : a.view.ty.Contents (Elt F)) :
    View.readAt (Elt F) a.view (Rect.unit off sz inb).toLoadRect f = a.view.read (Elt F) f := by
  rw [View.readAt_eq_ld]; exact View.ld_unit_zero h inb _

/-- After a store through that rectangle the array reads the stored value, whatever was written before. -/
theorem read_writes_unit {r : ℕ} {sz : Fin r → ℕ} {e : EltTy} (a : Memref sig .tc .vmem ⟨r, sz⟩ e) (f : a.view.ty.Contents (Elt F)) {off : Fin r → ℕ}
    (h : off = fun _ => 0) (inb : ∀ k, off k + sz k ≤ sz k) (p : Shape.Idx ⟨r, sz⟩ → Elt F e) (L : List (View.Piece (Elt F) ⟨r, sz⟩ e)) :
    a.view.read (Elt F) (a.view.writes (Elt F) f (⟨Rect.unit off sz inb, p⟩ :: L)) = p := by
  rw [View.read_writes_eq_canon _ _ _ (fun y => ⟨_, List.mem_cons_self, View.mem_set_unit_zero h inb y⟩)]
  exact View.canon_cons_unit_zero h inb p L

theorem readCov_unit {r : ℕ} {sz : Fin r → ℕ} {e : EltTy} (a : Memref sig .tc .vmem ⟨r, sz⟩ e) {off : Fin r → ℕ}
    (h : off = fun _ => 0) (inb : ∀ k, off k + sz k ≤ sz k) (p : Shape.Idx ⟨r, sz⟩ → Elt F e) :
    a.view.readCov [(⟨Rect.unit off sz inb, p⟩ : View.Piece (Elt F) ⟨r, sz⟩ e)] (Rect.unit off sz inb).toLoadRect = p :=
  View.readCov_unit_zero a.view h inb p

/-- Three arrays of one shape, owned whole at a triple of contents. -/
abbrev owns3 (c : Dev nD) {sh : Shape} {e : EltTy} (a₁ a₂ a₃ : Memref sig .tc .vmem sh e) (v : Vec F sh e × Vec F sh e × Vec F sh e) : sProp 𝕄 :=
  iprop(owns (c : Thread nD τ) a₁ fullShare v.1 ∗ owns (c : Thread nD τ) a₂ fullShare v.2.1 ∗ owns (c : Thread nD τ) a₃ fullShare v.2.2)

end Shared

/-- The state before a half's first block: maximum −∞, sum 0, target logit 0. -/
def init0 : S3 F := (k0_pay7, k0_pay8, k0_pay9)

/-- One block folded into the state: the maximum with the block's, the sum rescaled to the new maximum plus the block's, the target's logit if its column lies in the block. -/
def step0 (i : grid0.Coords) (x : Vec F S1024x1024 .bf16) (w : Vec F S2048x1024 .bf16) (b : Vec F S1x2048 .f32)
    (tc : Vec F S1024x1 .i32) (s : S3 F) : S3 F :=
  (k0_pay2 (k0_pay13 i x w b s.1),
   k0_pay1 (k0_pay14 i x w b s.1 s.1) (k0_pay15 i x w b s.1) s.2.1,
   k0_pay3 (k0_pay10 i) (k0_pay12 i x w b) tc s.2.2)

/-- The body resets the state at the first block of a half, -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 5 = 0 :=
  (by decide +kernel : ∀ t : Fin grid0.N, cond0_1 (grid0.coords t) ↔ t.val % 5 = 0)

/-- and stores the three results at the last. -/
abbrev cond0_2 (i : grid0.Coords) : Prop := k0_cond2 i = 1#1
theorem hcond0_2 : ∀ t : Fin cfg0.N, cond0_2 (grid0.coords t) ↔ t.val % 5 = 4 :=
  (by decide +kernel : ∀ t : Fin grid0.N, cond0_2 (grid0.coords t) ↔ t.val % 5 = 4)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ rest0 c) ∗ (∃ r, prngReg c r)) := by
  unfold Pipeline.ΦA; rw [scopedRest0_split]; simp only [scM0_0, scM0_1, scM0_2, owns_whole]; try rfl

theorem idle0 : ∀ t : Fin cfg0.N, ¬t.val % 5 = 4 → ∀ w : Fin cfg0.W, 4 ≤ w.val → cfg0.idle w (grid0.coords t) = true ∧ (cfg0.win w).flush t = false := by decide +kernel
theorem live0 : ∀ t : Fin cfg0.N, t.val % 5 = 4 → ∀ w : Fin cfg0.W, cfg0.idle w (grid0.coords t) = false := by decide +kernel

/-- The region's invariant with the carried arrays owned at a known state. -/
abbrev PhiAt0 (c : Dev nD) (s : S3 F) : sProp 𝕄 :=
  iprop(iprop(owns3 c scM0_0 scM0_1 scM0_2 s ∗ rest0 c) ∗ (∃ r, prngReg c r))

theorem PhiA0_elim (c : Dev nD) : (Pipeline.ΦA spec0 c : sProp 𝕄) ⊢ iprop(∃ s, PhiAt0 (F := F) c s) := by
  rw [PhiA0_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA0_intro (c : Dev nD) (s : S3 F) : PhiAt0 c s ⊢ (Pipeline.ΦA spec0 c : sProp 𝕄) := by
  rw [PhiA0_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops0 (c : Dev nD) (arg3 : Memref sig .tc .vmem S1024x1024 .bf16) (arg4 : Memref sig .tc .vmem S2048x1024 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x1024 .bf16) (w : Vec F S2048x1024 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run0 (i : grid0.Coords) (x : Vec F S1024x1024 .bf16) (w : Vec F S2048x1024 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops0 c arg3 arg4 arg5 arg6 arg7 arg8 arg9 arg10 arg11 arg12 x w b tc o4 o5 o6 s
        ∗ (ops0 c arg3 arg4 arg5 arg6 arg7 arg8 arg9 arg10 arg11 arg12 x w b tc o4' o5' o6' s' -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11 arg12 harg12) K

end Cert.Kernel.Hand

end
-- ==== Proof.K.R0RunA.lean ====
import proofs.«429142_j41094247088744_3_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun0_A {i : grid0.Coords} (hc1 : cond0_1 i) (hc2 : ¬cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s o4 o5 o6 (step0 i x w b tc init0) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.Kernel.Hand

end
-- ==== Proof.K.R0RunB.lean ====
import proofs.«429142_j41094247088744_3_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun0_B {i : grid0.Coords} (hc1 : ¬cond0_1 i) (hc2 : ¬cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s o4 o5 o6 (step0 i x w b tc s) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.Kernel.Hand

end
-- ==== Proof.K.R0RunC.lean ====
import proofs.«429142_j41094247088744_3_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun0_C {i : grid0.Coords} (hc1 : ¬cond0_1 i) (hc2 : cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s (k0_pay4 (step0 i x w b tc s).1) (k0_pay5 (step0 i x w b tc s).2.1) (k0_pay6 (step0 i x w b tc s).2.2) (step0 i x w b tc s) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step0, init0]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.Kernel.Hand

end
-- ==== Proof.K.R0Frame.lean ====
import proofs.«429142_j41094247088744_3_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried state after point `n`: reset and stepped at the first block of a half, stepped from the previous point elsewhere. -/
def scr0 (c : Dev nD) : (n : ℕ) → n < cfg0.N → S3 F
  | 0, hn => step0 (grid0.coords ⟨0, hn⟩) (iblk0 V c 0 ⟨0, hn⟩) (iblk0 V c 1 ⟨0, hn⟩) (iblk0 V c 2 ⟨0, hn⟩) (iblk0 V c 3 ⟨0, hn⟩) init0
  | n + 1, hn =>
    if (n + 1) % 5 = 0 then
      step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) init0
    else
      step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (scr0 c n (Nat.lt_of_succ_lt hn))

theorem scr0_first (c : Dev nD) (t : Fin cfg0.N) (h : t.val % 5 = 0) :
    scr0 V c t.val t.isLt = step0 (grid0.coords t) (iblk0 V c 0 t) (iblk0 V c 1 t) (iblk0 V c 2 t) (iblk0 V c 3 t) init0 := by
  obtain ⟨n, hn⟩ := t
  cases n with
  | zero => rfl
  | succ n => exact (if_pos h).trans rfl

theorem scr0_next (c : Dev nD) (t : Fin cfg0.N) (h : ¬t.val % 5 = 0) :
    scr0 V c t.val t.isLt = step0 (grid0.coords t) (iblk0 V c 0 t) (iblk0 V c 1 t) (iblk0 V c 2 t) (iblk0 V c 3 t) (scr0 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS0 (c : Dev nD) : (n : ℕ) → n ≤ cfg0.N → sProp 𝕄
  | 0, _ => Pipeline.ΦA spec0 c
  | n + 1, hn => PhiAt0 c (scr0 V c n hn)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (scr0 V c t.val t.isLt).1
    | ⟨5, _⟩ => k0_pay5 (scr0 V c t.val t.isLt).2.1
    | ⟨6, _⟩ => k0_pay6 (scr0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay4 (scr0 V c t.val t.isLt).1 := by dsimp only [dat0]
theorem after0_5 (c : Dev nD) (t : Fin cfg0.N) : (dat0 V c).after 5 t = k0_pay5 (scr0 V c t.val t.isLt).2.1 := by dsimp only [dat0]
theorem after0_6 (c : Dev nD) (t : Fin cfg0.N) : (dat0 V c).after 6 t = k0_pay6 (scr0 V c t.val t.isLt).2.2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem leaves0_idle (c : Dev nD) (t : Fin cfg0.N) (h4 : ¬t.val % 5 = 4) (w : Fin cfg0.W) (hw : 4 ≤ w.val := by decide) :
    (dat0 V c).leavesExact w t = iprop(∃ d, owns (c : Thread nD τ) ((cfg0.win w).stage (cfg0.slots t w)) fullShare ((dat0 V c).before w t d)) :=
  (dat0 V c).leavesExact_idle w t (idle0 t h4 w hw).1 (idle0 t h4 w hw).2

theorem PhiS0_pos (c : Dev nD) (n : ℕ) (h : n ≤ cfg0.N) (hz : n ≠ 0) : PhiS0 V c n h = PhiAt0 c (scr0 V c (n - 1) (by omega)) := by
  cases n with
  | zero => exact absurd rfl hz
  | succ n => rfl

theorem PhiS0_some (c : Dev nD) (n : ℕ) (h : n ≤ cfg0.N) : PhiS0 V c n h ⊢ iprop(∃ s, PhiAt0 (F := F) c s) := by
  cases n with
  | zero => exact PhiA0_elim c
  | succ n => show PhiAt0 c _ ⊢ _; iintro H; iexists _; iexact H

theorem PhiS0_out (c : Dev nD) (n : ℕ) (h : n ≤ cfg0.N) : PhiS0 V c n h ⊢ (Pipeline.ΦA spec0 c : sProp 𝕄) := by
  cases n with
  | zero => exact .rfl
  | succ n => exact PhiA0_intro c _

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at point `t` takes the invariant at `t` to the invariant at `t + 1`, by the place of `t` in its half. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiAt0 c (scr0 V c t.val t.isLt) from rfl,
    show (dat0 V c).Φ t.castSucc = PhiS0 V c t.val (Nat.le_of_lt t.isLt) from rfl,
    leaves0_live V c 0 t rfl, leaves0_live V c 1 t rfl, leaves0_live V c 2 t rfl, leaves0_live V c 3 t rfl]
  have h : (t.val % 5 = 0 ∧ ¬t.val % 5 = 4) ∨ (¬t.val % 5 = 0 ∧ ¬t.val % 5 = 4) ∨ (¬t.val % 5 = 0 ∧ t.val % 5 = 4) := by omega
  rcases h with ⟨h0, h4⟩ | ⟨h0, h4⟩ | ⟨h0, h4⟩
  on_goal 3 =>
    rw [leaves0_live V c 4 t (live0 t h4 4), leaves0_live V c 5 t (live0 t h4 5), leaves0_live V c 6 t (live0 t h4 6),
      after0_4, after0_5, after0_6, PhiS0_pos V c _ _ (fun e => h0 (by rw [e])), scr0_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_C (fun h => h0 ((hcond0_1 t).mp h)) ((hcond0_2 t).mpr h4) (iblk0 V c 0 t) (iblk0 V c 1 t) (iblk0 V c 2 t) (iblk0 V c 3 t) _ _ _ _ c Set.univ)
  on_goal 2 =>
    rw [leaves0_idle V c t h4 4, leaves0_idle V c t h4 5, leaves0_idle V c t h4 6, PhiS0_pos V c _ _ (fun e => h0 (by rw [e])), scr0_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_B (fun h => h0 ((hcond0_1 t).mp h)) (fun h => h4 ((hcond0_2 t).mp h)) (iblk0 V c 0 t) (iblk0 V c 1 t) (iblk0 V c 2 t) (iblk0 V c 3 t) _ _ _ _ c Set.univ)
  on_goal 1 =>
    rw [leaves0_idle V c t h4 4, leaves0_idle V c t h4 5, leaves0_idle V c t h4 6, scr0_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS0_some V c _ _) $$ HP with ⟨%s, ⟨HS, Hr⟩, Hg⟩
    iapply (kernelRun0_A ((hcond0_1 t).mpr h0) (fun h => h4 ((hcond0_2 t).mp h)) (iblk0 V c 0 t) (iblk0 V c 1 t) (iblk0 V c 2 t) (iblk0 V c 3 t) _ _ _ s c Set.univ)
  all_goals
    unfold ops0
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := PhiS0_out V c cfg0.N le_rfl

end Cert.Kernel.Hand

end
-- ==== Proof.K.R1Runs.lean ====
import proofs.«429142_j41094247088744_3_alg».proof.Proof.Gen.Kernel.Launch
import proofs.«429142_j41094247088744_3_alg».proof.Proof.Gen.Kernel.Skeleton
import proofs.«429142_j41094247088744_3_alg».proof.Proof.Gen.Kernel.Points
import proofs.«429142_j41094247088744_3_alg».proof.Proof.K.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init1 : S3 F := (k1_pay7, k1_pay8, k1_pay9)

/-- One block folded into the state: the maximum with the block's, the sum rescaled to the new maximum plus the block's, the target's logit if its column lies in the block. -/
def step1 (i : grid1.Coords) (x : Vec F S1024x256 .bf16) (w : Vec F S2048x256 .bf16) (b : Vec F S1x2048 .f32)
    (tc : Vec F S1024x1 .i32) (s : S3 F) : S3 F :=
  (k1_pay2 (k1_pay13 i x w b s.1),
   k1_pay1 (k1_pay14 i x w b s.1 s.1) (k1_pay15 i x w b s.1) s.2.1,
   k1_pay3 (k1_pay10 i) (k1_pay12 i x w b) tc s.2.2)

/-- The body resets the state at the first block of a half, -/
abbrev cond1_1 (i : grid1.Coords) : Prop :=
  (Scalar.cmpi .ne (Scalar.extui (Scalar.cmpi .eq (BitVec.ofNat 32 (i 2).val) 0#32)) 0#32) = 1#1
theorem hcond1_1 : ∀ t : Fin cfg1.N, cond1_1 (grid1.coords t) ↔ t.val % 5 = 0 :=
  (by decide +kernel : ∀ t : Fin grid1.N, cond1_1 (grid1.coords t) ↔ t.val % 5 = 0)

/-- and stores the three results at the last. -/
abbrev cond1_2 (i : grid1.Coords) : Prop := k1_cond2 i = 1#1
theorem hcond1_2 : ∀ t : Fin cfg1.N, cond1_2 (grid1.coords t) ↔ t.val % 5 = 4 :=
  (by decide +kernel : ∀ t : Fin grid1.N, cond1_2 (grid1.coords t) ↔ t.val % 5 = 4)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

theorem idle1 : ∀ t : Fin cfg1.N, ¬t.val % 5 = 4 → ∀ w : Fin cfg1.W, 4 ≤ w.val → cfg1.idle w (grid1.coords t) = true ∧ (cfg1.win w).flush t = false := by decide +kernel
theorem live1 : ∀ t : Fin cfg1.N, t.val % 5 = 4 → ∀ w : Fin cfg1.W, cfg1.idle w (grid1.coords t) = false := by decide +kernel

/-- The region's invariant with the carried arrays owned at a known state. -/
abbrev PhiAt1 (c : Dev nD) (s : S3 F) : sProp 𝕄 :=
  iprop(iprop(owns3 c scM1_0 scM1_1 scM1_2 s ∗ rest1 c) ∗ (∃ r, prngReg c r))

theorem PhiA1_elim (c : Dev nD) : (Pipeline.ΦA spec1 c : sProp 𝕄) ⊢ iprop(∃ s, PhiAt1 (F := F) c s) := by
  rw [PhiA1_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA1_intro (c : Dev nD) (s : S3 F) : PhiAt1 c s ⊢ (Pipeline.ΦA spec1 c : sProp 𝕄) := by
  rw [PhiA1_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops1 (c : Dev nD) (arg3 : Memref sig .tc .vmem S1024x256 .bf16) (arg4 : Memref sig .tc .vmem S2048x256 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x256 .bf16) (w : Vec F S2048x256 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run1 (i : grid1.Coords) (x : Vec F S1024x256 .bf16) (w : Vec F S2048x256 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops1 c arg3 arg4 arg5 arg6 arg7 arg8 arg9 arg10 arg11 arg12 x w b tc o4 o5 o6 s
        ∗ (ops1 c arg3 arg4 arg5 arg6 arg7 arg8 arg9 arg10 arg11 arg12 x w b tc o4' o5' o6' s' -∗ K ⟨⟩))
      ⊢ wp frame (wpE (defs₀ (F := F)) Variants.none c none) E (cc1_kernel i arg3 harg3 arg4 harg4 arg5 harg5 arg6 harg6 arg7 harg7 arg8 harg8 arg9 harg9 arg10 harg10 arg11 harg11 arg12 harg12) K

end Cert.Kernel.Hand

end
-- ==== Proof.K.R1RunA.lean ====
import proofs.«429142_j41094247088744_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun1_A {i : grid1.Coords} (hc1 : cond1_1 i) (hc2 : ¬cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s o4 o5 o6 (step1 i x w b tc init1) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.Kernel.Hand

end
-- ==== Proof.K.R1RunB.lean ====
import proofs.«429142_j41094247088744_3_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun1_B {i : grid1.Coords} (hc1 : ¬cond1_1 i) (hc2 : ¬cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s o4 o5 o6 (step1 i x w b tc s) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.Kernel.Hand

end
-- ==== Proof.K.R1RunC.lean ====
import proofs.«429142_j41094247088744_3_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun1_C {i : grid1.Coords} (hc1 : ¬cond1_1 i) (hc2 : cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s (k1_pay4 (step1 i x w b tc s).1) (k1_pay5 (step1 i x w b tc s).2.1) (k1_pay6 (step1 i x w b tc s).2.2) (step1 i x w b tc s) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step1, init1]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.Kernel.Hand

end
-- ==== Proof.K.R1Frame.lean ====
import proofs.«429142_j41094247088744_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after point `n`: reset and stepped at the first block of a half, stepped from the previous point elsewhere. -/
def scr1 (c : Dev nD) : (n : ℕ) → n < cfg1.N → S3 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) init1
  | n + 1, hn =>
    if (n + 1) % 5 = 0 then
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) init1
    else
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn))

theorem scr1_first (c : Dev nD) (t : Fin cfg1.N) (h : t.val % 5 = 0) :
    scr1 V c t.val t.isLt = step1 (grid1.coords t) (iblk1 V c 0 t) (iblk1 V c 1 t) (iblk1 V c 2 t) (iblk1 V c 3 t) init1 := by
  obtain ⟨n, hn⟩ := t
  cases n with
  | zero => rfl
  | succ n => exact (if_pos h).trans rfl

theorem scr1_next (c : Dev nD) (t : Fin cfg1.N) (h : ¬t.val % 5 = 0) :
    scr1 V c t.val t.isLt = step1 (grid1.coords t) (iblk1 V c 0 t) (iblk1 V c 1 t) (iblk1 V c 2 t) (iblk1 V c 3 t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS1 (c : Dev nD) : (n : ℕ) → n ≤ cfg1.N → sProp 𝕄
  | 0, _ => Pipeline.ΦA spec1 c
  | n + 1, hn => PhiAt1 c (scr1 V c n hn)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (scr1 V c t.val t.isLt).1
    | ⟨5, _⟩ => k1_pay5 (scr1 V c t.val t.isLt).2.1
    | ⟨6, _⟩ => k1_pay6 (scr1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = k1_pay4 (scr1 V c t.val t.isLt).1 := by dsimp only [dat1]
theorem after1_5 (c : Dev nD) (t : Fin cfg1.N) : (dat1 V c).after 5 t = k1_pay5 (scr1 V c t.val t.isLt).2.1 := by dsimp only [dat1]
theorem after1_6 (c : Dev nD) (t : Fin cfg1.N) : (dat1 V c).after 6 t = k1_pay6 (scr1 V c t.val t.isLt).2.2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem leaves1_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

theorem leaves1_idle (c : Dev nD) (t : Fin cfg1.N) (h4 : ¬t.val % 5 = 4) (w : Fin cfg1.W) (hw : 4 ≤ w.val := by decide) :
    (dat1 V c).leavesExact w t = iprop(∃ d, owns (c : Thread nD τ) ((cfg1.win w).stage (cfg1.slots t w)) fullShare ((dat1 V c).before w t d)) :=
  (dat1 V c).leavesExact_idle w t (idle1 t h4 w hw).1 (idle1 t h4 w hw).2

theorem PhiS1_pos (c : Dev nD) (n : ℕ) (h : n ≤ cfg1.N) (hz : n ≠ 0) : PhiS1 V c n h = PhiAt1 c (scr1 V c (n - 1) (by omega)) := by
  cases n with
  | zero => exact absurd rfl hz
  | succ n => rfl

theorem PhiS1_some (c : Dev nD) (n : ℕ) (h : n ≤ cfg1.N) : PhiS1 V c n h ⊢ iprop(∃ s, PhiAt1 (F := F) c s) := by
  cases n with
  | zero => exact PhiA1_elim c
  | succ n => show PhiAt1 c _ ⊢ _; iintro H; iexists _; iexact H

theorem PhiS1_out (c : Dev nD) (n : ℕ) (h : n ≤ cfg1.N) : PhiS1 V c n h ⊢ (Pipeline.ΦA spec1 c : sProp 𝕄) := by
  cases n with
  | zero => exact .rfl
  | succ n => exact PhiA1_intro c _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at point `t` takes the invariant at `t` to the invariant at `t + 1`, by the place of `t` in its half. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiAt1 c (scr1 V c t.val t.isLt) from rfl,
    show (dat1 V c).Φ t.castSucc = PhiS1 V c t.val (Nat.le_of_lt t.isLt) from rfl,
    leaves1_live V c 0 t rfl, leaves1_live V c 1 t rfl, leaves1_live V c 2 t rfl, leaves1_live V c 3 t rfl]
  have h : (t.val % 5 = 0 ∧ ¬t.val % 5 = 4) ∨ (¬t.val % 5 = 0 ∧ ¬t.val % 5 = 4) ∨ (¬t.val % 5 = 0 ∧ t.val % 5 = 4) := by omega
  rcases h with ⟨h0, h4⟩ | ⟨h0, h4⟩ | ⟨h0, h4⟩
  on_goal 3 =>
    rw [leaves1_live V c 4 t (live1 t h4 4), leaves1_live V c 5 t (live1 t h4 5), leaves1_live V c 6 t (live1 t h4 6),
      after1_4, after1_5, after1_6, PhiS1_pos V c _ _ (fun e => h0 (by rw [e])), scr1_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_C (fun h => h0 ((hcond1_1 t).mp h)) ((hcond1_2 t).mpr h4) (iblk1 V c 0 t) (iblk1 V c 1 t) (iblk1 V c 2 t) (iblk1 V c 3 t) _ _ _ _ c Set.univ)
  on_goal 2 =>
    rw [leaves1_idle V c t h4 4, leaves1_idle V c t h4 5, leaves1_idle V c t h4 6, PhiS1_pos V c _ _ (fun e => h0 (by rw [e])), scr1_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_B (fun h => h0 ((hcond1_1 t).mp h)) (fun h => h4 ((hcond1_2 t).mp h)) (iblk1 V c 0 t) (iblk1 V c 1 t) (iblk1 V c 2 t) (iblk1 V c 3 t) _ _ _ _ c Set.univ)
  on_goal 1 =>
    rw [leaves1_idle V c t h4 4, leaves1_idle V c t h4 5, leaves1_idle V c t h4 6, scr1_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS1_some V c _ _) $$ HP with ⟨%s, ⟨HS, Hr⟩, Hg⟩
    iapply (kernelRun1_A ((hcond1_1 t).mpr h0) (fun h => h4 ((hcond1_2 t).mp h)) (iblk1 V c 0 t) (iblk1 V c 1 t) (iblk1 V c 2 t) (iblk1 V c 3 t) _ _ _ s c Set.univ)
  all_goals
    unfold ops1
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_out V c cfg1.N le_rfl

end Cert.Kernel.Hand

end
-- ==== Proof.K.R2Runs.lean ====
import proofs.«429142_j41094247088744_3_alg».proof.Proof.Gen.Kernel.Launch
import proofs.«429142_j41094247088744_3_alg».proof.Proof.Gen.Kernel.Skeleton
import proofs.«429142_j41094247088744_3_alg».proof.Proof.Gen.Kernel.Points
import proofs.«429142_j41094247088744_3_alg».proof.Proof.K.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init2 : S3 F := (k2_pay7, k2_pay8, k2_pay9)

/-- One block folded into the state: the maximum with the block's, the sum rescaled to the new maximum plus the block's, the target's logit if its column lies in the block. -/
def step2 (i : grid2.Coords) (x : Vec F S1024x64 .bf16) (w : Vec F S2048x64 .bf16) (b : Vec F S1x2048 .f32)
    (tc : Vec F S1024x1 .i32) (s : S3 F) : S3 F :=
  (k2_pay2 (k2_pay13 i x w b s.1),
   k2_pay1 (k2_pay14 i x w b s.1 s.1) (k2_pay15 i x w b s.1) s.2.1,
   k2_pay3 (k2_pay10 i) (k2_pay12 i x w b) tc s.2.2)

/-- The body resets the state at the first block of a half, -/
abbrev cond2_1 (i : grid2.Coords) : Prop :=
  (Scalar.cmpi .ne (Scalar.extui (Scalar.cmpi .eq (BitVec.ofNat 32 (i 2).val) 0#32)) 0#32) = 1#1
theorem hcond2_1 : ∀ t : Fin cfg2.N, cond2_1 (grid2.coords t) ↔ t.val % 40 = 0 :=
  (by decide +kernel : ∀ t : Fin grid2.N, cond2_1 (grid2.coords t) ↔ t.val % 40 = 0)

/-- and stores the three results at the last. -/
abbrev cond2_2 (i : grid2.Coords) : Prop := k2_cond2 i = 1#1
theorem hcond2_2 : ∀ t : Fin cfg2.N, cond2_2 (grid2.coords t) ↔ t.val % 40 = 39 :=
  (by decide +kernel : ∀ t : Fin grid2.N, cond2_2 (grid2.coords t) ↔ t.val % 40 = 39)

abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1 .f32 := Memref.whole cc2_scratch2

abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA; rw [scopedRest2_split]; simp only [scM2_0, scM2_1, scM2_2, owns_whole]; try rfl

theorem idle2 : ∀ t : Fin cfg2.N, ¬t.val % 40 = 39 → ∀ w : Fin cfg2.W, 4 ≤ w.val → cfg2.idle w (grid2.coords t) = true ∧ (cfg2.win w).flush t = false := by decide +kernel
theorem live2 : ∀ t : Fin cfg2.N, t.val % 40 = 39 → ∀ w : Fin cfg2.W, cfg2.idle w (grid2.coords t) = false := by decide +kernel

/-- The region's invariant with the carried arrays owned at a known state. -/
abbrev PhiAt2 (c : Dev nD) (s : S3 F) : sProp 𝕄 :=
  iprop(iprop(owns3 c scM2_0 scM2_1 scM2_2 s ∗ rest2 c) ∗ (∃ r, prngReg c r))

theorem PhiA2_elim (c : Dev nD) : (Pipeline.ΦA spec2 c : sProp 𝕄) ⊢ iprop(∃ s, PhiAt2 (F := F) c s) := by
  rw [PhiA2_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA2_intro (c : Dev nD) (s : S3 F) : PhiAt2 c s ⊢ (Pipeline.ΦA spec2 c : sProp 𝕄) := by
  rw [PhiA2_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops2 (c : Dev nD) (arg3 : Memref sig .tc .vmem S1024x64 .bf16) (arg4 : Memref sig .tc .vmem S2048x64 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x64 .bf16) (w : Vec F S2048x64 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run2 (i : grid2.Coords) (x : Vec F S1024x64 .bf16) (w : Vec F S2048x64 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops2 c arg3 arg4 arg5 arg6 arg7 arg8 arg9 arg10 arg11 arg12 x w b tc o4 o5 o6 s
        ∗ (ops2 c arg3 arg4 arg5 arg6 arg7 arg8 arg9 arg10 arg11 arg12 x w b tc o4' o5' o6' s' -∗ K ⟨⟩))
      ⊢ wp frame (wpE (defs₀ (F := F)) Variants.none c none) E (cc2_kernel i arg3 harg3 arg4 harg4 arg5 harg5 arg6 harg6 arg7 harg7 arg8 harg8 arg9 harg9 arg10 harg10 arg11 harg11 arg12 harg12) K

end Cert.Kernel.Hand

end
-- ==== Proof.K.R2RunA.lean ====
import proofs.«429142_j41094247088744_3_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun2_A {i : grid2.Coords} (hc1 : cond2_1 i) (hc2 : ¬cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s o4 o5 o6 (step2 i x w b tc init2) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.Kernel.Hand

end
-- ==== Proof.K.R2RunB.lean ====
import proofs.«429142_j41094247088744_3_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun2_B {i : grid2.Coords} (hc1 : ¬cond2_1 i) (hc2 : ¬cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s o4 o5 o6 (step2 i x w b tc s) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.Kernel.Hand

end
-- ==== Proof.K.R2RunC.lean ====
import proofs.«429142_j41094247088744_3_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun2_C {i : grid2.Coords} (hc1 : ¬cond2_1 i) (hc2 : cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s (k2_pay4 (step2 i x w b tc s).1) (k2_pay5 (step2 i x w b tc s).2.1) (k2_pay6 (step2 i x w b tc s).2.2) (step2 i x w b tc s) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step2, init2]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.Kernel.Hand

end
-- ==== Proof.K.R2Frame.lean ====
import proofs.«429142_j41094247088744_3_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The carried state after point `n`: reset and stepped at the first block of a half, stepped from the previous point elsewhere. -/
def scr2 (c : Dev nD) : (n : ℕ) → n < cfg2.N → S3 F
  | 0, hn => step2 (grid2.coords ⟨0, hn⟩) (iblk2 V c 0 ⟨0, hn⟩) (iblk2 V c 1 ⟨0, hn⟩) (iblk2 V c 2 ⟨0, hn⟩) (iblk2 V c 3 ⟨0, hn⟩) init2
  | n + 1, hn =>
    if (n + 1) % 40 = 0 then
      step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) init2
    else
      step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (scr2 c n (Nat.lt_of_succ_lt hn))

theorem scr2_first (c : Dev nD) (t : Fin cfg2.N) (h : t.val % 40 = 0) :
    scr2 V c t.val t.isLt = step2 (grid2.coords t) (iblk2 V c 0 t) (iblk2 V c 1 t) (iblk2 V c 2 t) (iblk2 V c 3 t) init2 := by
  obtain ⟨n, hn⟩ := t
  cases n with
  | zero => rfl
  | succ n => exact (if_pos h).trans rfl

theorem scr2_next (c : Dev nD) (t : Fin cfg2.N) (h : ¬t.val % 40 = 0) :
    scr2 V c t.val t.isLt = step2 (grid2.coords t) (iblk2 V c 0 t) (iblk2 V c 1 t) (iblk2 V c 2 t) (iblk2 V c 3 t) (scr2 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS2 (c : Dev nD) : (n : ℕ) → n ≤ cfg2.N → sProp 𝕄
  | 0, _ => Pipeline.ΦA spec2 c
  | n + 1, hn => PhiAt2 c (scr2 V c n hn)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay4 (scr2 V c t.val t.isLt).1
    | ⟨5, _⟩ => k2_pay5 (scr2 V c t.val t.isLt).2.1
    | ⟨6, _⟩ => k2_pay6 (scr2 V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = k2_pay4 (scr2 V c t.val t.isLt).1 := by dsimp only [dat2]
theorem after2_5 (c : Dev nD) (t : Fin cfg2.N) : (dat2 V c).after 5 t = k2_pay5 (scr2 V c t.val t.isLt).2.1 := by dsimp only [dat2]
theorem after2_6 (c : Dev nD) (t : Fin cfg2.N) : (dat2 V c).after 6 t = k2_pay6 (scr2 V c t.val t.isLt).2.2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

theorem leaves2_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem leaves2_idle (c : Dev nD) (t : Fin cfg2.N) (h4 : ¬t.val % 40 = 39) (w : Fin cfg2.W) (hw : 4 ≤ w.val := by decide) :
    (dat2 V c).leavesExact w t = iprop(∃ d, owns (c : Thread nD τ) ((cfg2.win w).stage (cfg2.slots t w)) fullShare ((dat2 V c).before w t d)) :=
  (dat2 V c).leavesExact_idle w t (idle2 t h4 w hw).1 (idle2 t h4 w hw).2

theorem PhiS2_pos (c : Dev nD) (n : ℕ) (h : n ≤ cfg2.N) (hz : n ≠ 0) : PhiS2 V c n h = PhiAt2 c (scr2 V c (n - 1) (by omega)) := by
  cases n with
  | zero => exact absurd rfl hz
  | succ n => rfl

theorem PhiS2_some (c : Dev nD) (n : ℕ) (h : n ≤ cfg2.N) : PhiS2 V c n h ⊢ iprop(∃ s, PhiAt2 (F := F) c s) := by
  cases n with
  | zero => exact PhiA2_elim c
  | succ n => show PhiAt2 c _ ⊢ _; iintro H; iexists _; iexact H

theorem PhiS2_out (c : Dev nD) (n : ℕ) (h : n ≤ cfg2.N) : PhiS2 V c n h ⊢ (Pipeline.ΦA spec2 c : sProp 𝕄) := by
  cases n with
  | zero => exact .rfl
  | succ n => exact PhiA2_intro c _

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at point `t` takes the invariant at `t` to the invariant at `t + 1`, by the place of `t` in its half. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiAt2 c (scr2 V c t.val t.isLt) from rfl,
    show (dat2 V c).Φ t.castSucc = PhiS2 V c t.val (Nat.le_of_lt t.isLt) from rfl,
    leaves2_live V c 0 t rfl, leaves2_live V c 1 t rfl, leaves2_live V c 2 t rfl, leaves2_live V c 3 t rfl]
  have h : (t.val % 40 = 0 ∧ ¬t.val % 40 = 39) ∨ (¬t.val % 40 = 0 ∧ ¬t.val % 40 = 39) ∨ (¬t.val % 40 = 0 ∧ t.val % 40 = 39) := by omega
  rcases h with ⟨h0, h4⟩ | ⟨h0, h4⟩ | ⟨h0, h4⟩
  on_goal 3 =>
    rw [leaves2_live V c 4 t (live2 t h4 4), leaves2_live V c 5 t (live2 t h4 5), leaves2_live V c 6 t (live2 t h4 6),
      after2_4, after2_5, after2_6, PhiS2_pos V c _ _ (fun e => h0 (by rw [e])), scr2_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2_C (fun h => h0 ((hcond2_1 t).mp h)) ((hcond2_2 t).mpr h4) (iblk2 V c 0 t) (iblk2 V c 1 t) (iblk2 V c 2 t) (iblk2 V c 3 t) _ _ _ _ c Set.univ)
  on_goal 2 =>
    rw [leaves2_idle V c t h4 4, leaves2_idle V c t h4 5, leaves2_idle V c t h4 6, PhiS2_pos V c _ _ (fun e => h0 (by rw [e])), scr2_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2_B (fun h => h0 ((hcond2_1 t).mp h)) (fun h => h4 ((hcond2_2 t).mp h)) (iblk2 V c 0 t) (iblk2 V c 1 t) (iblk2 V c 2 t) (iblk2 V c 3 t) _ _ _ _ c Set.univ)
  on_goal 1 =>
    rw [leaves2_idle V c t h4 4, leaves2_idle V c t h4 5, leaves2_idle V c t h4 6, scr2_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS2_some V c _ _) $$ HP with ⟨%s, ⟨HS, Hr⟩, Hg⟩
    iapply (kernelRun2_A ((hcond2_1 t).mpr h0) (fun h => h4 ((hcond2_2 t).mp h)) (iblk2 V c 0 t) (iblk2 V c 1 t) (iblk2 V c 2 t) (iblk2 V c 3 t) _ _ _ s c Set.univ)
  all_goals
    unfold ops2
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := PhiS2_out V c cfg2.N le_rfl

end Cert.Kernel.Hand

end
-- ==== Proof.K.R3Runs.lean ====
import proofs.«429142_j41094247088744_3_alg».proof.Proof.Gen.Kernel.Launch
import proofs.«429142_j41094247088744_3_alg».proof.Proof.Gen.Kernel.Skeleton
import proofs.«429142_j41094247088744_3_alg».proof.Proof.Gen.Kernel.Points
import proofs.«429142_j41094247088744_3_alg».proof.Proof.K.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init3 : S3 F := (k3_pay7, k3_pay8, k3_pay9)

/-- One block folded into the state: the maximum with the block's, the sum rescaled to the new maximum plus the block's, the target's logit if its column lies in the block. -/
def step3 (i : grid3.Coords) (x : Vec F S1024x16 .bf16) (w : Vec F S2048x16 .bf16) (b : Vec F S1x2048 .f32)
    (tc : Vec F S1024x1 .i32) (s : S3 F) : S3 F :=
  (k3_pay2 (k3_pay13 i x w b s.1),
   k3_pay1 (k3_pay14 i x w b s.1 s.1) (k3_pay15 i x w b s.1) s.2.1,
   k3_pay3 (k3_pay10 i) (k3_pay12 i x w b) tc s.2.2)

/-- The body resets the state at the first block of a half, -/
abbrev cond3_1 (i : grid3.Coords) : Prop :=
  (Scalar.cmpi .ne (Scalar.extui (Scalar.cmpi .eq (BitVec.ofNat 32 (i 2).val) 0#32)) 0#32) = 1#1
theorem hcond3_1 : ∀ t : Fin cfg3.N, cond3_1 (grid3.coords t) ↔ t.val % 17 = 0 :=
  (by decide +kernel : ∀ t : Fin grid3.N, cond3_1 (grid3.coords t) ↔ t.val % 17 = 0)

/-- and stores the three results at the last. -/
abbrev cond3_2 (i : grid3.Coords) : Prop := k3_cond2 i = 1#1
theorem hcond3_2 : ∀ t : Fin cfg3.N, cond3_2 (grid3.coords t) ↔ t.val % 17 = 16 :=
  (by decide +kernel : ∀ t : Fin grid3.N, cond3_2 (grid3.coords t) ↔ t.val % 17 = 16)

abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1 .f32 := Memref.whole cc3_scratch2

abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ rest3 c) ∗ (∃ r, prngReg c r)) := by
  unfold Pipeline.ΦA; rw [scopedRest3_split]; simp only [scM3_0, scM3_1, scM3_2, owns_whole]; try rfl

theorem idle3 : ∀ t : Fin cfg3.N, ¬t.val % 17 = 16 → ∀ w : Fin cfg3.W, 4 ≤ w.val → cfg3.idle w (grid3.coords t) = true ∧ (cfg3.win w).flush t = false := by decide +kernel
theorem live3 : ∀ t : Fin cfg3.N, t.val % 17 = 16 → ∀ w : Fin cfg3.W, cfg3.idle w (grid3.coords t) = false := by decide +kernel

/-- The region's invariant with the carried arrays owned at a known state. -/
abbrev PhiAt3 (c : Dev nD) (s : S3 F) : sProp 𝕄 :=
  iprop(iprop(owns3 c scM3_0 scM3_1 scM3_2 s ∗ rest3 c) ∗ (∃ r, prngReg c r))

theorem PhiA3_elim (c : Dev nD) : (Pipeline.ΦA spec3 c : sProp 𝕄) ⊢ iprop(∃ s, PhiAt3 (F := F) c s) := by
  rw [PhiA3_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA3_intro (c : Dev nD) (s : S3 F) : PhiAt3 c s ⊢ (Pipeline.ΦA spec3 c : sProp 𝕄) := by
  rw [PhiA3_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops3 (c : Dev nD) (arg3 : Memref sig .tc .vmem S1024x16 .bf16) (arg4 : Memref sig .tc .vmem S2048x16 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x16 .bf16) (w : Vec F S2048x16 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run3 (i : grid3.Coords) (x : Vec F S1024x16 .bf16) (w : Vec F S2048x16 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops3 c arg3 arg4 arg5 arg6 arg7 arg8 arg9 arg10 arg11 arg12 x w b tc o4 o5 o6 s
        ∗ (ops3 c arg3 arg4 arg5 arg6 arg7 arg8 arg9 arg10 arg11 arg12 x w b tc o4' o5' o6' s' -∗ K ⟨⟩))
      ⊢ wp frame (wpE (defs₀ (F := F)) Variants.none c none) E (cc3_kernel i arg3 harg3 arg4 harg4 arg5 harg5 arg6 harg6 arg7 harg7 arg8 harg8 arg9 harg9 arg10 harg10 arg11 harg11 arg12 harg12) K

end Cert.Kernel.Hand

end
-- ==== Proof.K.R3RunA.lean ====
import proofs.«429142_j41094247088744_3_alg».proof.Proof.K.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun3_A {i : grid3.Coords} (hc1 : cond3_1 i) (hc2 : ¬cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s o4 o5 o6 (step3 i x w b tc init3) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.Kernel.Hand

end
-- ==== Proof.K.R3RunB.lean ====
import proofs.«429142_j41094247088744_3_alg».proof.Proof.K.R3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun3_B {i : grid3.Coords} (hc1 : ¬cond3_1 i) (hc2 : ¬cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s o4 o5 o6 (step3 i x w b tc s) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.Kernel.Hand

end
-- ==== Proof.K.R3RunC.lean ====
import proofs.«429142_j41094247088744_3_alg».proof.Proof.K.R3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun3_C {i : grid3.Coords} (hc1 : ¬cond3_1 i) (hc2 : cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s (k3_pay4 (step3 i x w b tc s).1) (k3_pay5 (step3 i x w b tc s).2.1) (k3_pay6 (step3 i x w b tc s).2.2) (step3 i x w b tc s) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step3, init3]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.Kernel.Hand

end
-- ==== Proof.K.R3Frame.lean ====
import proofs.«429142_j41094247088744_3_alg».proof.Proof.K.R3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The carried state after point `n`: reset and stepped at the first block of a half, stepped from the previous point elsewhere. -/
def scr3 (c : Dev nD) : (n : ℕ) → n < cfg3.N → S3 F
  | 0, hn => step3 (grid3.coords ⟨0, hn⟩) (iblk3 V c 0 ⟨0, hn⟩) (iblk3 V c 1 ⟨0, hn⟩) (iblk3 V c 2 ⟨0, hn⟩) (iblk3 V c 3 ⟨0, hn⟩) init3
  | n + 1, hn =>
    if (n + 1) % 17 = 0 then
      step3 (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) init3
    else
      step3 (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn))

theorem scr3_first (c : Dev nD) (t : Fin cfg3.N) (h : t.val % 17 = 0) :
    scr3 V c t.val t.isLt = step3 (grid3.coords t) (iblk3 V c 0 t) (iblk3 V c 1 t) (iblk3 V c 2 t) (iblk3 V c 3 t) init3 := by
  obtain ⟨n, hn⟩ := t
  cases n with
  | zero => rfl
  | succ n => exact (if_pos h).trans rfl

theorem scr3_next (c : Dev nD) (t : Fin cfg3.N) (h : ¬t.val % 17 = 0) :
    scr3 V c t.val t.isLt = step3 (grid3.coords t) (iblk3 V c 0 t) (iblk3 V c 1 t) (iblk3 V c 2 t) (iblk3 V c 3 t) (scr3 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS3 (c : Dev nD) : (n : ℕ) → n ≤ cfg3.N → sProp 𝕄
  | 0, _ => Pipeline.ΦA spec3 c
  | n + 1, hn => PhiAt3 c (scr3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay4 (scr3 V c t.val t.isLt).1
    | ⟨5, _⟩ => k3_pay5 (scr3 V c t.val t.isLt).2.1
    | ⟨6, _⟩ => k3_pay6 (scr3 V c t.val t.isLt).2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = k3_pay4 (scr3 V c t.val t.isLt).1 := by dsimp only [dat3]
theorem after3_5 (c : Dev nD) (t : Fin cfg3.N) : (dat3 V c).after 5 t = k3_pay5 (scr3 V c t.val t.isLt).2.1 := by dsimp only [dat3]
theorem after3_6 (c : Dev nD) (t : Fin cfg3.N) : (dat3 V c).after 6 t = k3_pay6 (scr3 V c t.val t.isLt).2.2 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

theorem leaves3_live (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem leaves3_idle (c : Dev nD) (t : Fin cfg3.N) (h4 : ¬t.val % 17 = 16) (w : Fin cfg3.W) (hw : 4 ≤ w.val := by decide) :
    (dat3 V c).leavesExact w t = iprop(∃ d, owns (c : Thread nD τ) ((cfg3.win w).stage (cfg3.slots t w)) fullShare ((dat3 V c).before w t d)) :=
  (dat3 V c).leavesExact_idle w t (idle3 t h4 w hw).1 (idle3 t h4 w hw).2

theorem PhiS3_pos (c : Dev nD) (n : ℕ) (h : n ≤ cfg3.N) (hz : n ≠ 0) : PhiS3 V c n h = PhiAt3 c (scr3 V c (n - 1) (by omega)) := by
  cases n with
  | zero => exact absurd rfl hz
  | succ n => rfl

theorem PhiS3_some (c : Dev nD) (n : ℕ) (h : n ≤ cfg3.N) : PhiS3 V c n h ⊢ iprop(∃ s, PhiAt3 (F := F) c s) := by
  cases n with
  | zero => exact PhiA3_elim c
  | succ n => show PhiAt3 c _ ⊢ _; iintro H; iexists _; iexact H

theorem PhiS3_out (c : Dev nD) (n : ℕ) (h : n ≤ cfg3.N) : PhiS3 V c n h ⊢ (Pipeline.ΦA spec3 c : sProp 𝕄) := by
  cases n with
  | zero => exact .rfl
  | succ n => exact PhiA3_intro c _

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at point `t` takes the invariant at `t` to the invariant at `t + 1`, by the place of `t` in its half. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = PhiAt3 c (scr3 V c t.val t.isLt) from rfl,
    show (dat3 V c).Φ t.castSucc = PhiS3 V c t.val (Nat.le_of_lt t.isLt) from rfl,
    leaves3_live V c 0 t rfl, leaves3_live V c 1 t rfl, leaves3_live V c 2 t rfl, leaves3_live V c 3 t rfl]
  have h : (t.val % 17 = 0 ∧ ¬t.val % 17 = 16) ∨ (¬t.val % 17 = 0 ∧ ¬t.val % 17 = 16) ∨ (¬t.val % 17 = 0 ∧ t.val % 17 = 16) := by omega
  rcases h with ⟨h0, h4⟩ | ⟨h0, h4⟩ | ⟨h0, h4⟩
  on_goal 3 =>
    rw [leaves3_live V c 4 t (live3 t h4 4), leaves3_live V c 5 t (live3 t h4 5), leaves3_live V c 6 t (live3 t h4 6),
      after3_4, after3_5, after3_6, PhiS3_pos V c _ _ (fun e => h0 (by rw [e])), scr3_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun3_C (fun h => h0 ((hcond3_1 t).mp h)) ((hcond3_2 t).mpr h4) (iblk3 V c 0 t) (iblk3 V c 1 t) (iblk3 V c 2 t) (iblk3 V c 3 t) _ _ _ _ c Set.univ)
  on_goal 2 =>
    rw [leaves3_idle V c t h4 4, leaves3_idle V c t h4 5, leaves3_idle V c t h4 6, PhiS3_pos V c _ _ (fun e => h0 (by rw [e])), scr3_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun3_B (fun h => h0 ((hcond3_1 t).mp h)) (fun h => h4 ((hcond3_2 t).mp h)) (iblk3 V c 0 t) (iblk3 V c 1 t) (iblk3 V c 2 t) (iblk3 V c 3 t) _ _ _ _ c Set.univ)
  on_goal 1 =>
    rw [leaves3_idle V c t h4 4, leaves3_idle V c t h4 5, leaves3_idle V c t h4 6, scr3_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS3_some V c _ _) $$ HP with ⟨%s, ⟨HS, Hr⟩, Hg⟩
    iapply (kernelRun3_A ((hcond3_1 t).mpr h0) (fun h => h4 ((hcond3_2 t).mp h)) (iblk3 V c 0 t) (iblk3 V c 1 t) (iblk3 V c 2 t) (iblk3 V c 3 t) _ _ _ s c Set.univ)
  all_goals
    unfold ops3
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_out V c cfg3.N le_rfl

end Cert.Kernel.Hand

end
-- ==== Proof.K.Launch.lean ====
import proofs.«429142_j41094247088744_3_alg».proof.Proof.RegionsK
import proofs.«429142_j41094247088744_3_alg».proof.Proof.K.R0Frame
import proofs.«429142_j41094247088744_3_alg».proof.Proof.K.R1Frame
import proofs.«429142_j41094247088744_3_alg».proof.Proof.K.R2Frame
import proofs.«429142_j41094247088744_3_alg».proof.Proof.K.R3Frame
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

-- A core that owes nothing is within any data's bound where the data owe nothing and bound nothing.
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  iexact HO

theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

-- Three updates of V, each to what X holds there, give X if X is V elsewhere.
theorem update3_eq {α : Type} [DecidableEq α] {β : α → Type} (V X : (a : α) → β a) (r0 r1 r2 : α)
    (h : ∀ b, b ≠ r0 → b ≠ r1 → b ≠ r2 → X b = V b) :
    Function.update (Function.update (Function.update V r0 (X r0)) r1 (X r1)) r2 (X r2) = X := by
  funext b
  by_cases h2 : b = r2
  · subst h2; exact Function.update_self ..
  rw [Function.update_of_ne h2]
  by_cases h1 : b = r1
  · subst h1; exact Function.update_self ..
  rw [Function.update_of_ne h1]
  by_cases h0 : b = r0
  · subst h0; exact Function.update_self ..
  rw [Function.update_of_ne h0, h b h0 h1 h2]

section Region

variable (p : Fin 4) (dat : (c : Dev nD) → Dat τ (Elt F) Unit ℕ (UR sig nD τ) ℕ (cfgs p) c)
  (lf : Pipeline.LaunchFacts (nD := nD) (τ := τ) cfgs p) (Vin : Dev nD → Valuation τ sig (Elt F))
  (hA : ∀ c w, (dat c).A w = Vin c (Pipeline.arrRef (cfgs p).spec w))

-- What region `p` leaves, entered at `Vin`: its arrays at their final contents, every other buffer as entered.
def exitOf (c : Dev nD) : Valuation τ sig (Elt F) :=
  Pipeline.withArrays (cfgs p).spec c (Vin c) fun w => (dat c).arrAt w (cfgs p).N

include lf in
theorem exitOf_arr (c : Dev nD) (w : Fin (cfgs p).W) :
    exitOf p dat Vin c (Proc.devRef .tc (Pipeline.arrRef (cfgs p).spec w)) = (dat c).arrAt w (cfgs p).N :=
  Pipeline.withArrays_arr _ lf.win.arr_inj c _ _ w

include lf hA in
-- An input array keeps its entry contents, so `Vin` set to the exit contents at the output arrays' references is the exit contents.
theorem exit_eq (c : Dev nD) (r0 r1 r2 : Ref sig .tc)
    (ho : ∀ w, ((cfgs p).win w).isOut = true → Pipeline.arrRef (cfgs p).spec w = r0 ∨ Pipeline.arrRef (cfgs p).spec w = r1 ∨ Pipeline.arrRef (cfgs p).spec w = r2)
    {x0 x1 x2} (e0 : x0 = exitOf p dat Vin c r0) (e1 : x1 = exitOf p dat Vin c r1) (e2 : x2 = exitOf p dat Vin c r2) :
    Function.update (Function.update (Function.update (Vin c) r0 x0) r1 x1) r2 x2 = exitOf p dat Vin c := by
  subst e0 e1 e2
  refine update3_eq _ _ _ _ _ fun b h0 h1 h2 => ?_
  by_cases h : ∃ w, Proc.devRef .tc (Pipeline.arrRef (cfgs p).spec w) = b
  · obtain ⟨w, rfl⟩ := h
    cases hw : ((cfgs p).win w).isOut
    · rw [exitOf_arr p dat lf Vin c w, (dat c).arrAt_in w hw, hA]
    · rcases ho w hw with e | e | e <;> rw [e] at h0 h1 h2
      exacts [absurd rfl h0, absurd rfl h1, absurd rfl h2]
  · unfold exitOf Pipeline.withArrays; rw [dif_neg h]

set_option backward.isDefEq.respectTransparency.types false in
-- Region `p` as a segment of @main, for data that owe nothing: the arrays leave the unscoped buffers at entry and come back at exit.
def mkReg (pdats : (p : Fin 4) → (c : Dev nD) → Dat τ (Elt F) Unit ℕ (UR sig nD τ) ℕ (cfgs p) c)
    (p : Fin 4) (lf : Pipeline.LaunchFacts (nD := nD) (τ := τ) cfgs p) (Vin : Dev nD → Valuation τ sig (Elt F))
    (o : Outs (F := F)) (J : ℕ) (r0 r1 r2 : Ref sig .tc)
    (ho : ∀ w, ((cfgs p).win w).isOut = true → Pipeline.arrRef (cfgs p).spec w = r0 ∨ Pipeline.arrRef (cfgs p).spec w = r1 ∨ Pipeline.arrRef (cfgs p).spec w = r2)
    (hx : ∀ r c, o J r c = exitOf p (pdats p) Vin c r)
    (hA : ∀ c w, (pdats p c).A w = Vin c (Pipeline.arrRef (cfgs p).spec w))
    (hq : ∀ c w, (pdats p c).q w = fullShare) (h0 : ∀ c t, (pdats p c).owed t = 0)
    (hr : ∀ c, (pdats p c).recorded 0 = Set.univ)
    (hbody : ∀ c, BodyObligation (pdats p c) (defs₀ (F := F)) Variants.none () Set.univ)
    (hin : ∀ c, (Pipeline.ΦA (cfgs p).spec c : sProp 𝕄) ⊢ (pdats p c).Φ 0)
    (hout : ∀ c, (pdats p c).Φ (Fin.last (cfgs p).N) ⊢ (Pipeline.ΦA (cfgs p).spec c : sProp 𝕄)) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vin c) ∗ R c)
  post c := iprop(StableHlo.held (c : Thread nD τ) (Pipeline.ucRefs τ sig)
    (Function.update (Function.update (Function.update (Vin c) r0 (o J r0 c)) r1 (o J r1 c)) r2 (o J r2 c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hbufs, Hprng, Howes⟩, -, -⟩
    ihave Harr := hsplit $$ Hbufs
    icases Harr with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owesAt_intro (pdats p c) 0 (h0 c 0) (hr c)); iexact Howes
    isplitl [Hprng]; · iexact Hprng
    iexact Hrest
  hin c := (show _ ⊢ (Pipeline.ΦA (cfgs p).spec c : sProp 𝕄) from by
      unfold Pipeline.ΦA
      iintro ⟨Hprng, -, Hscoped⟩
      isplitl [Hscoped]; · iexact Hscoped
      iexact Hprng).trans (hin c)
  hout c := (hout c).trans (by
      rw [Pipeline.ownSems0_none]; unfold Pipeline.ΦA
      iintro ⟨Hscoped, Hprng⟩
      isplitl [Hprng]; · iexact Hprng
      isplitr; · iempintro
      iexact Hscoped)
  hexit c := by
    rw [exit_eq p (pdats p) lf Vin hA c r0 r1 r2 ho (hx r0 c) (hx r1 c) (hx r2 c)]
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => exitOf p (pdats p) Vin c b) ((pdats p c).arrAt · (cfgs p).N)
      (fun w => (exitOf_arr p (pdats p) lf Vin c w).symm)
      (fun b hb => Pipeline.withArrays_of_ne _ c _ _ b fun w e => hb (Finset.mem_image.mpr ⟨w, Finset.mem_univ _, e⟩))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (owesAt_elim (pdats p c) _ (h0 c _)); iexact Howes

end Region

section Next

variable (p : Fin 4)
  (dat : ((c : Dev nD) → (b : Ref sig .tc) → Buf (Elt F) ((c : Thread nD τ).loc b)) → (c : Dev nD) → Dat τ (Elt F) Unit ℕ (UR sig nD τ) ℕ (cfgs p) c)
  (J : ℕ) (Vin : Outs (F := F) → Dev nD → Valuation τ sig (Elt F)) (o : Outs (F := F))

-- The regions' contents `o` with item `J` set to what region `p` leaves when entered at the fold's contents `Vin o`.
def next : Outs (F := F) :=
  fun J' r c => if J' = J then exitOf p (dat fun c b => Vin o c b) (Vin o) c r else o J' r c

theorem next_at (r : Ref sig .tc) (c : Dev nD) : next p dat J Vin o J r c = exitOf p (dat fun c b => Vin o c b) (Vin o) c r := if_pos rfl
theorem next_of_ne (J' : ℕ) (h : J' ≠ J) : next p dat J Vin o J' = o J' := by funext r c; exact if_neg h

end Next

variable (m : (ℓ : Loc nD τ sig) → Buf (Elt F) ℓ)

-- The fold through @main reads the regions' contents only at their own items, each from its region's exit on.
theorem V10_congr (o o' : Outs (F := F)) (h10 : o 10 = o' 10) (c : Dev nD) : V10 m o c = V10 m o' c := by
  unfold V10; rw [h10]
theorem V19_congr (o o' : Outs (F := F)) (h10 : o 10 = o' 10) (c : Dev nD) : V19 m o c = V19 m o' c := by
  unfold V19 V18 V17 V16 V15 V14 V13 V12 V11; rw [V10_congr m o o' h10 c]
theorem V20_congr (o o' : Outs (F := F)) (h10 : o 10 = o' 10) (h20 : o 20 = o' 20) (c : Dev nD) : V20 m o c = V20 m o' c := by
  unfold V20; rw [V19_congr m o o' h10 c, h20]
theorem V29_congr (o o' : Outs (F := F)) (h10 : o 10 = o' 10) (h20 : o 20 = o' 20) (c : Dev nD) : V29 m o c = V29 m o' c := by
  unfold V29 V28 V27 V26 V25 V24 V23 V22 V21; rw [V20_congr m o o' h10 h20 c]
theorem V30_congr (o o' : Outs (F := F)) (h10 : o 10 = o' 10) (h20 : o 20 = o' 20) (h30 : o 30 = o' 30) (c : Dev nD) : V30 m o c = V30 m o' c := by
  unfold V30; rw [V29_congr m o o' h10 h20 c, h30]
theorem V39_congr (o o' : Outs (F := F)) (h10 : o 10 = o' 10) (h20 : o 20 = o' 20) (h30 : o 30 = o' 30) (c : Dev nD) : V39 m o c = V39 m o' c := by
  unfold V39 V38 V37 V36 V35 V34 V33 V32 V31; rw [V30_congr m o o' h10 h20 h30 c]

def outs1 : Outs (F := F) := next 0 dat0 10 (fun _ => V9 m) fun _ r c => m ((c : Thread nD τ).loc r)
def outs2 : Outs (F := F) := next 1 dat1 20 (V19 m) (outs1 m)
def outs3 : Outs (F := F) := next 2 dat2 30 (V29 m) (outs2 m)
-- Each region's output arrays at their final contents, the region entered at the contents the fold through @main holds there.
def outsVal : Outs (F := F) := next 3 dat3 40 (V39 m) (outs3 m)

theorem outsVal_lt40 (J : ℕ) (h : J < 40) : outsVal m J = outs3 m J := next_of_ne _ _ _ _ _ J (Nat.ne_of_lt h)
theorem outsVal_lt30 (J : ℕ) (h : J < 30) : outsVal m J = outs2 m J :=
  (outsVal_lt40 m J (Nat.lt_trans h (by decide))).trans (next_of_ne _ _ _ _ _ J (Nat.ne_of_lt h))
theorem outsVal_lt20 (J : ℕ) (h : J < 20) : outsVal m J = outs1 m J :=
  (outsVal_lt30 m J (Nat.lt_trans h (by decide))).trans (next_of_ne _ _ _ _ _ J (Nat.ne_of_lt h))

-- Each region's entry contents read the earlier regions' items only, so they may be read at the last stage.
theorem Vin1 : V19 m (outsVal m) = V19 m (outs1 m) := funext fun c => V19_congr m _ _ (outsVal_lt20 m 10 (by decide)) c
theorem Vin2 : V29 m (outsVal m) = V29 m (outs2 m) := funext fun c =>
  V29_congr m _ _ (outsVal_lt30 m 10 (by decide)) (outsVal_lt30 m 20 (by decide)) c
theorem Vin3 : V39 m (outsVal m) = V39 m (outs3 m) := funext fun c =>
  V39_congr m _ _ (outsVal_lt40 m 10 (by decide)) (outsVal_lt40 m 20 (by decide)) (outsVal_lt40 m 30 (by decide)) c

-- At a region's own item the last stage holds what the region leaves, entered at the last stage's own fold.
theorem exit0 (r : Ref sig .tc) (c : Dev nD) : outsVal m 10 r c = exitOf 0 (dat0 fun c b => V9 m c b) (V9 m) c r :=
  (congrFun (congrFun (outsVal_lt20 m 10 (by decide)) r) c).trans (next_at ..)
theorem exit1 (r : Ref sig .tc) (c : Dev nD) :
    outsVal m 20 r c = exitOf 1 (dat1 fun c b => V19 m (outsVal m) c b) (V19 m (outsVal m)) c r := by
  rw [Vin1 m]; exact (congrFun (congrFun (outsVal_lt30 m 20 (by decide)) r) c).trans (next_at ..)
theorem exit2 (r : Ref sig .tc) (c : Dev nD) :
    outsVal m 30 r c = exitOf 2 (dat2 fun c b => V29 m (outsVal m) c b) (V29 m (outsVal m)) c r := by
  rw [Vin2 m]; exact (congrFun (congrFun (outsVal_lt40 m 30 (by decide)) r) c).trans (next_at ..)
theorem exit3 (r : Ref sig .tc) (c : Dev nD) :
    outsVal m 40 r c = exitOf 3 (dat3 fun c b => V39 m (outsVal m) c b) (V39 m (outsVal m)) c r := by
  rw [Vin3 m]; exact next_at ..

-- Each region's proof data, at the contents the fold holds at that region's entry.
def pdats : (p : Fin 4) → (c : Dev nD) → Dat τ (Elt F) Unit ℕ (UR sig nD τ) ℕ (cfgs p) c
  | ⟨0, _⟩ => dat0 fun c b => V9 m c b
  | ⟨1, _⟩ => dat1 fun c b => V19 m (outsVal m) c b
  | ⟨2, _⟩ => dat2 fun c b => V29 m (outsVal m) c b
  | ⟨3, _⟩ => dat3 fun c b => V39 m (outsVal m) c b

theorem outsVal_10_0 (c : Dev nD) : outsVal m 10 main_v8_0 c = (dat0 (fun c b => V9 m c b) c).arrAt 4 cfg0.N :=
  (exit0 m _ c).trans (exitOf_arr 0 _ launch0 _ c 4)
theorem outsVal_10_1 (c : Dev nD) : outsVal m 10 main_v8_1 c = (dat0 (fun c b => V9 m c b) c).arrAt 5 cfg0.N :=
  (exit0 m _ c).trans (exitOf_arr 0 _ launch0 _ c 5)
theorem outsVal_10_2 (c : Dev nD) : outsVal m 10 main_v8_2 c = (dat0 (fun c b => V9 m c b) c).arrAt 6 cfg0.N :=
  (exit0 m _ c).trans (exitOf_arr 0 _ launch0 _ c 6)
theorem outsVal_20_0 (c : Dev nD) : outsVal m 20 main_v68_0 c = (dat1 (fun c b => V19 m (outsVal m) c b) c).arrAt 4 cfg1.N :=
  (exit1 m _ c).trans (exitOf_arr 1 _ launch1 _ c 4)
theorem outsVal_20_1 (c : Dev nD) : outsVal m 20 main_v68_1 c = (dat1 (fun c b => V19 m (outsVal m) c b) c).arrAt 5 cfg1.N :=
  (exit1 m _ c).trans (exitOf_arr 1 _ launch1 _ c 5)
theorem outsVal_20_2 (c : Dev nD) : outsVal m 20 main_v68_2 c = (dat1 (fun c b => V19 m (outsVal m) c b) c).arrAt 6 cfg1.N :=
  (exit1 m _ c).trans (exitOf_arr 1 _ launch1 _ c 6)
theorem outsVal_30_0 (c : Dev nD) : outsVal m 30 main_v109_0 c = (dat2 (fun c b => V29 m (outsVal m) c b) c).arrAt 4 cfg2.N :=
  (exit2 m _ c).trans (exitOf_arr 2 _ launch2 _ c 4)
theorem outsVal_30_1 (c : Dev nD) : outsVal m 30 main_v109_1 c = (dat2 (fun c b => V29 m (outsVal m) c b) c).arrAt 5 cfg2.N :=
  (exit2 m _ c).trans (exitOf_arr 2 _ launch2 _ c 5)
theorem outsVal_30_2 (c : Dev nD) : outsVal m 30 main_v109_2 c = (dat2 (fun c b => V29 m (outsVal m) c b) c).arrAt 6 cfg2.N :=
  (exit2 m _ c).trans (exitOf_arr 2 _ launch2 _ c 6)
theorem outsVal_40_0 (c : Dev nD) : outsVal m 40 main_v150_0 c = (dat3 (fun c b => V39 m (outsVal m) c b) c).arrAt 4 cfg3.N :=
  (exit3 m _ c).trans (exitOf_arr 3 _ launch3 _ c 4)
theorem outsVal_40_1 (c : Dev nD) : outsVal m 40 main_v150_1 c = (dat3 (fun c b => V39 m (outsVal m) c b) c).arrAt 5 cfg3.N :=
  (exit3 m _ c).trans (exitOf_arr 3 _ launch3 _ c 5)
theorem outsVal_40_2 (c : Dev nD) : outsVal m 40 main_v150_2 c = (dat3 (fun c b => V39 m (outsVal m) c b) c).arrAt 6 cfg3.N :=
  (exit3 m _ c).trans (exitOf_arr 3 _ launch3 _ c 6)

set_option backward.isDefEq.respectTransparency.types false in
-- Every weakly fair execution of @main from `m` terminates with the result buffer at the fold's last contents and every argument as launched.
theorem run_val (ρ : Dev nD → PrngReg) :
    θ_run defs (onTc (τ := τ) (main (F := F))) ⟨m, fun _ => 0, ρ⟩ (fun r => ∀ c : Dev nD,
      r.2.mem ((c.tc : Thread nD τ).loc main_v215) = V43 m (outsVal m) c main_v215
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m (EP := emb₁) (ι := ()) (𝒱₀ := 𝒱₀) (L := L) (lv := lv) (hL := fun _ _ => rfl) (ρ := ρ) (outs := outsVal m) (pdats := pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, Howes, -, Hprng, -⟩, -⟩
      imodintro
      isplitl [Hprng]
      · iexists _; iexact Hprng
      iexists ∅; iexact Howes)
    (hE4 := fun c => by
      iintro ⟨-, Howes⟩
      iexact Howes)
    (R0 := mkReg (pdats m) 0 launch0 (V9 m) (outsVal m) 10 main_v8_0 main_v8_1 main_v8_2 (by decide) (exit0 m) (fun _ _ => rfl)
      (fun _ _ => rfl) (fun _ _ => rfl) (fun _ => rfl) (body_obligation0 _) (hin0 _) (hout0 _))
    (hpre0 := fun c => .rfl) (hpost0 := fun c => .rfl)
    (R1 := mkReg (pdats m) 1 launch1 (V19 m (outsVal m)) (outsVal m) 20 main_v68_0 main_v68_1 main_v68_2 (by decide) (exit1 m) (fun _ _ => rfl)
      (fun _ _ => rfl) (fun _ _ => rfl) (fun _ => rfl) (body_obligation1 _) (hin1 _) (hout1 _))
    (hpre1 := fun c => .rfl) (hpost1 := fun c => .rfl)
    (R2 := mkReg (pdats m) 2 launch2 (V29 m (outsVal m)) (outsVal m) 30 main_v109_0 main_v109_1 main_v109_2 (by decide) (exit2 m) (fun _ _ => rfl)
      (fun _ _ => rfl) (fun _ _ => rfl) (fun _ => rfl) (body_obligation2 _) (hin2 _) (hout2 _))
    (hpre2 := fun c => .rfl) (hpost2 := fun c => .rfl)
    (R3 := mkReg (pdats m) 3 launch3 (V39 m (outsVal m)) (outsVal m) 40 main_v150_0 main_v150_1 main_v150_2 (by decide) (exit3 m) (fun _ _ => rfl)
      (fun _ _ => rfl) (fun _ _ => rfl) (fun _ => rfl) (body_obligation3 _) (hin3 _) (hout3 _))
    (hpre3 := fun c => .rfl) (hpost3 := fun c => .rfl)

end Cert.Kernel.Hand

end
-- ==== Proof.KI.R0Runs.lean ====
import proofs.«429142_j41094247088744_3_alg».proof.Proof.Gen.KernelIdeal.Launch
import proofs.«429142_j41094247088744_3_alg».proof.Proof.Gen.KernelIdeal.Skeleton
import proofs.«429142_j41094247088744_3_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

/-- What a sweep carries from block to block: the running row maximum, the running sum of exponentials relative to it, and the target's logit found so far. -/
abbrev S3 (F : FTy → Type) [FloatOps F] : Type :=
  Vec F S1024x1 .f32 × Vec F S1024x1 .f32 × Vec F S1024x1 .f32

theorem off2_zero : (![0, 0] : Fin 2 → Nat) = fun _ => 0 := by funext a; fin_cases a <;> rfl
theorem off3_zero : (![0, 0, 0] : Fin 3 → Nat) = fun _ => 0 := by funext a; fin_cases a <;> rfl

/-- A load through the rectangle that covers a whole array reads the array. -/
theorem readAt_unit {r : ℕ} {sz : Fin r → ℕ} {e : EltTy} (a : Memref sig .tc .vmem ⟨r, sz⟩ e) {off : Fin r → ℕ} (h : off = fun _ => 0)
    (inb : ∀ k, off k + sz k ≤ sz k) (f : a.view.ty.Contents (Elt F)) :
    View.readAt (Elt F) a.view (Rect.unit off sz inb).toLoadRect f = a.view.read (Elt F) f := by
  rw [View.readAt_eq_ld]; exact View.ld_unit_zero h inb _

/-- After a store through that rectangle the array reads the stored value, whatever was written before. -/
theorem read_writes_unit {r : ℕ} {sz : Fin r → ℕ} {e : EltTy} (a : Memref sig .tc .vmem ⟨r, sz⟩ e) (f : a.view.ty.Contents (Elt F)) {off : Fin r → ℕ}
    (h : off = fun _ => 0) (inb : ∀ k, off k + sz k ≤ sz k) (p : Shape.Idx ⟨r, sz⟩ → Elt F e) (L : List (View.Piece (Elt F) ⟨r, sz⟩ e)) :
    a.view.read (Elt F) (a.view.writes (Elt F) f (⟨Rect.unit off sz inb, p⟩ :: L)) = p := by
  rw [View.read_writes_eq_canon _ _ _ (fun y => ⟨_, List.mem_cons_self, View.mem_set_unit_zero h inb y⟩)]
  exact View.canon_cons_unit_zero h inb p L

theorem readCov_unit {r : ℕ} {sz : Fin r → ℕ} {e : EltTy} (a : Memref sig .tc .vmem ⟨r, sz⟩ e) {off : Fin r → ℕ}
    (h : off = fun _ => 0) (inb : ∀ k, off k + sz k ≤ sz k) (p : Shape.Idx ⟨r, sz⟩ → Elt F e) :
    a.view.readCov [(⟨Rect.unit off sz inb, p⟩ : View.Piece (Elt F) ⟨r, sz⟩ e)] (Rect.unit off sz inb).toLoadRect = p :=
  View.readCov_unit_zero a.view h inb p

/-- Three arrays of one shape, owned whole at a triple of contents. -/
abbrev owns3 (c : Dev nD) {sh : Shape} {e : EltTy} (a₁ a₂ a₃ : Memref sig .tc .vmem sh e) (v : Vec F sh e × Vec F sh e × Vec F sh e) : sProp 𝕄 :=
  iprop(owns (c : Thread nD τ) a₁ fullShare v.1 ∗ owns (c : Thread nD τ) a₂ fullShare v.2.1 ∗ owns (c : Thread nD τ) a₃ fullShare v.2.2)

end Shared

/-- The state before a half's first block: maximum −∞, sum 0, target logit 0. -/
def init0 : S3 F := (k0_pay7, k0_pay8, k0_pay9)

/-- One block folded into the state: the maximum with the block's, the sum rescaled to the new maximum plus the block's, the target's logit if its column lies in the block. -/
def step0 (i : grid0.Coords) (x : Vec F S1024x1024 .bf16) (w : Vec F S2048x1024 .bf16) (b : Vec F S1x2048 .f32)
    (tc : Vec F S1024x1 .i32) (s : S3 F) : S3 F :=
  (k0_pay2 (k0_pay13 i x w b s.1),
   k0_pay1 (k0_pay14 i x w b s.1 s.1) (k0_pay15 i x w b s.1) s.2.1,
   k0_pay3 (k0_pay10 i) (k0_pay12 i x w b) tc s.2.2)

/-- The body resets the state at the first block of a half, -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 5 = 0 :=
  (by decide +kernel : ∀ t : Fin grid0.N, cond0_1 (grid0.coords t) ↔ t.val % 5 = 0)

/-- and stores the three results at the last. -/
abbrev cond0_2 (i : grid0.Coords) : Prop := k0_cond2 i = 1#1
theorem hcond0_2 : ∀ t : Fin cfg0.N, cond0_2 (grid0.coords t) ↔ t.val % 5 = 4 :=
  (by decide +kernel : ∀ t : Fin grid0.N, cond0_2 (grid0.coords t) ↔ t.val % 5 = 4)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ rest0 c) ∗ (∃ r, prngReg c r)) := by
  unfold Pipeline.ΦA; rw [scopedRest0_split]; simp only [scM0_0, scM0_1, scM0_2, owns_whole]; try rfl

theorem idle0 : ∀ t : Fin cfg0.N, ¬t.val % 5 = 4 → ∀ w : Fin cfg0.W, 4 ≤ w.val → cfg0.idle w (grid0.coords t) = true ∧ (cfg0.win w).flush t = false := by decide +kernel
theorem live0 : ∀ t : Fin cfg0.N, t.val % 5 = 4 → ∀ w : Fin cfg0.W, cfg0.idle w (grid0.coords t) = false := by decide +kernel

/-- The region's invariant with the carried arrays owned at a known state. -/
abbrev PhiAt0 (c : Dev nD) (s : S3 F) : sProp 𝕄 :=
  iprop(iprop(owns3 c scM0_0 scM0_1 scM0_2 s ∗ rest0 c) ∗ (∃ r, prngReg c r))

theorem PhiA0_elim (c : Dev nD) : (Pipeline.ΦA spec0 c : sProp 𝕄) ⊢ iprop(∃ s, PhiAt0 (F := F) c s) := by
  rw [PhiA0_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA0_intro (c : Dev nD) (s : S3 F) : PhiAt0 c s ⊢ (Pipeline.ΦA spec0 c : sProp 𝕄) := by
  rw [PhiA0_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops0 (c : Dev nD) (arg3 : Memref sig .tc .vmem S1024x1024 .bf16) (arg4 : Memref sig .tc .vmem S2048x1024 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x1024 .bf16) (w : Vec F S2048x1024 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run0 (i : grid0.Coords) (x : Vec F S1024x1024 .bf16) (w : Vec F S2048x1024 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops0 c arg3 arg4 arg5 arg6 arg7 arg8 arg9 arg10 arg11 arg12 x w b tc o4 o5 o6 s
        ∗ (ops0 c arg3 arg4 arg5 arg6 arg7 arg8 arg9 arg10 arg11 arg12 x w b tc o4' o5' o6' s' -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11 arg12 harg12) K

end Cert.KernelIdeal.Hand

end
-- ==== Proof.KI.R0RunA.lean ====
import proofs.«429142_j41094247088744_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun0_A {i : grid0.Coords} (hc1 : cond0_1 i) (hc2 : ¬cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s o4 o5 o6 (step0 i x w b tc init0) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.KernelIdeal.Hand

end
-- ==== Proof.KI.R0RunB.lean ====
import proofs.«429142_j41094247088744_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun0_B {i : grid0.Coords} (hc1 : ¬cond0_1 i) (hc2 : ¬cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s o4 o5 o6 (step0 i x w b tc s) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.KernelIdeal.Hand

end
-- ==== Proof.KI.R0RunC.lean ====
import proofs.«429142_j41094247088744_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun0_C {i : grid0.Coords} (hc1 : ¬cond0_1 i) (hc2 : cond0_2 i) (x : Vec F S1024x1024 .bf16) (w : Vec F S2048x1024 .bf16) (b : Vec F S1x2048 .f32) (tc : Vec F S1024x1 .i32)
    (o4 o5 o6 : Vec F S1x1024x1 .f32) (s : S3 F) : Run0 i x w b tc o4 o5 o6 s (k0_pay4 (step0 i x w b tc s).1) (k0_pay5 (step0 i x w b tc s).2.1) (k0_pay6 (step0 i x w b tc s).2.2) (step0 i x w b tc s) := by
  intro c E arg3 harg3 arg4 harg4 arg5 harg5 arg6 harg6 arg7 harg7 arg8 harg8 arg9 harg9 arg10 harg10 arg11 harg11 arg12 harg12 K
  simp only [cc0_kernel_eq_skeleton]; unfold cc0_kernel_skel
  simp only [k0_part1_eq_skeleton]
  unfold ops0 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step0, init0]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step0, init0]

end Cert.KernelIdeal.Hand

end
-- ==== Proof.KI.R0Frame.lean ====
import proofs.«429142_j41094247088744_3_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried state after point `n`: reset and stepped at the first block of a half, stepped from the previous point elsewhere. -/
def scr0 (c : Dev nD) : (n : ℕ) → n < cfg0.N → S3 F
  | 0, hn => step0 (grid0.coords ⟨0, hn⟩) (iblk0 V c 0 ⟨0, hn⟩) (iblk0 V c 1 ⟨0, hn⟩) (iblk0 V c 2 ⟨0, hn⟩) (iblk0 V c 3 ⟨0, hn⟩) init0
  | n + 1, hn =>
    if (n + 1) % 5 = 0 then
      step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) init0
    else
      step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (scr0 c n (Nat.lt_of_succ_lt hn))

theorem scr0_first (c : Dev nD) (t : Fin cfg0.N) (h : t.val % 5 = 0) :
    scr0 V c t.val t.isLt = step0 (grid0.coords t) (iblk0 V c 0 t) (iblk0 V c 1 t) (iblk0 V c 2 t) (iblk0 V c 3 t) init0 := by
  obtain ⟨n, hn⟩ := t
  cases n with
  | zero => rfl
  | succ n => exact (if_pos h).trans rfl

theorem scr0_next (c : Dev nD) (t : Fin cfg0.N) (h : ¬t.val % 5 = 0) :
    scr0 V c t.val t.isLt = step0 (grid0.coords t) (iblk0 V c 0 t) (iblk0 V c 1 t) (iblk0 V c 2 t) (iblk0 V c 3 t) (scr0 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS0 (c : Dev nD) : (n : ℕ) → n ≤ cfg0.N → sProp 𝕄
  | 0, _ => Pipeline.ΦA spec0 c
  | n + 1, hn => PhiAt0 c (scr0 V c n hn)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (scr0 V c t.val t.isLt).1
    | ⟨5, _⟩ => k0_pay5 (scr0 V c t.val t.isLt).2.1
    | ⟨6, _⟩ => k0_pay6 (scr0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay4 (scr0 V c t.val t.isLt).1 := by dsimp only [dat0]
theorem after0_5 (c : Dev nD) (t : Fin cfg0.N) : (dat0 V c).after 5 t = k0_pay5 (scr0 V c t.val t.isLt).2.1 := by dsimp only [dat0]
theorem after0_6 (c : Dev nD) (t : Fin cfg0.N) : (dat0 V c).after 6 t = k0_pay6 (scr0 V c t.val t.isLt).2.2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem leaves0_idle (c : Dev nD) (t : Fin cfg0.N) (h4 : ¬t.val % 5 = 4) (w : Fin cfg0.W) (hw : 4 ≤ w.val := by decide) :
    (dat0 V c).leavesExact w t = iprop(∃ d, owns (c : Thread nD τ) ((cfg0.win w).stage (cfg0.slots t w)) fullShare ((dat0 V c).before w t d)) :=
  (dat0 V c).leavesExact_idle w t (idle0 t h4 w hw).1 (idle0 t h4 w hw).2

theorem PhiS0_pos (c : Dev nD) (n : ℕ) (h : n ≤ cfg0.N) (hz : n ≠ 0) : PhiS0 V c n h = PhiAt0 c (scr0 V c (n - 1) (by omega)) := by
  cases n with
  | zero => exact absurd rfl hz
  | succ n => rfl

theorem PhiS0_some (c : Dev nD) (n : ℕ) (h : n ≤ cfg0.N) : PhiS0 V c n h ⊢ iprop(∃ s, PhiAt0 (F := F) c s) := by
  cases n with
  | zero => exact PhiA0_elim c
  | succ n => show PhiAt0 c _ ⊢ _; iintro H; iexists _; iexact H

theorem PhiS0_out (c : Dev nD) (n : ℕ) (h : n ≤ cfg0.N) : PhiS0 V c n h ⊢ (Pipeline.ΦA spec0 c : sProp 𝕄) := by
  cases n with
  | zero => exact .rfl
  | succ n => exact PhiA0_intro c _

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at point `t` takes the invariant at `t` to the invariant at `t + 1`, by the place of `t` in its half. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiAt0 c (scr0 V c t.val t.isLt) from rfl,
    show (dat0 V c).Φ t.castSucc = PhiS0 V c t.val (Nat.le_of_lt t.isLt) from rfl,
    leaves0_live V c 0 t rfl, leaves0_live V c 1 t rfl, leaves0_live V c 2 t rfl, leaves0_live V c 3 t rfl]
  have h : (t.val % 5 = 0 ∧ ¬t.val % 5 = 4) ∨ (¬t.val % 5 = 0 ∧ ¬t.val % 5 = 4) ∨ (¬t.val % 5 = 0 ∧ t.val % 5 = 4) := by omega
  rcases h with ⟨h0, h4⟩ | ⟨h0, h4⟩ | ⟨h0, h4⟩
  on_goal 3 =>
    rw [leaves0_live V c 4 t (live0 t h4 4), leaves0_live V c 5 t (live0 t h4 5), leaves0_live V c 6 t (live0 t h4 6),
      after0_4, after0_5, after0_6, PhiS0_pos V c _ _ (fun e => h0 (by rw [e])), scr0_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_C (fun h => h0 ((hcond0_1 t).mp h)) ((hcond0_2 t).mpr h4) (iblk0 V c 0 t) (iblk0 V c 1 t) (iblk0 V c 2 t) (iblk0 V c 3 t) _ _ _ _ c Set.univ)
  on_goal 2 =>
    rw [leaves0_idle V c t h4 4, leaves0_idle V c t h4 5, leaves0_idle V c t h4 6, PhiS0_pos V c _ _ (fun e => h0 (by rw [e])), scr0_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_B (fun h => h0 ((hcond0_1 t).mp h)) (fun h => h4 ((hcond0_2 t).mp h)) (iblk0 V c 0 t) (iblk0 V c 1 t) (iblk0 V c 2 t) (iblk0 V c 3 t) _ _ _ _ c Set.univ)
  on_goal 1 =>
    rw [leaves0_idle V c t h4 4, leaves0_idle V c t h4 5, leaves0_idle V c t h4 6, scr0_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS0_some V c _ _) $$ HP with ⟨%s, ⟨HS, Hr⟩, Hg⟩
    iapply (kernelRun0_A ((hcond0_1 t).mpr h0) (fun h => h4 ((hcond0_2 t).mp h)) (iblk0 V c 0 t) (iblk0 V c 1 t) (iblk0 V c 2 t) (iblk0 V c 3 t) _ _ _ s c Set.univ)
  all_goals
    unfold ops0
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := PhiS0_out V c cfg0.N le_rfl

end Cert.KernelIdeal.Hand

end
-- ==== Proof.KI.R1Runs.lean ====
import proofs.«429142_j41094247088744_3_alg».proof.Proof.Gen.KernelIdeal.Launch
import proofs.«429142_j41094247088744_3_alg».proof.Proof.Gen.KernelIdeal.Skeleton
import proofs.«429142_j41094247088744_3_alg».proof.Proof.Gen.KernelIdeal.Points
import proofs.«429142_j41094247088744_3_alg».proof.Proof.KI.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init1 : S3 F := (k1_pay7, k1_pay8, k1_pay9)

/-- One block folded into the state: the maximum with the block's, the sum rescaled to the new maximum plus the block's, the target's logit if its column lies in the block. -/
def step1 (i : grid1.Coords) (x : Vec F S1024x256 .bf16) (w : Vec F S2048x256 .bf16) (b : Vec F S1x2048 .f32)
    (tc : Vec F S1024x1 .i32) (s : S3 F) : S3 F :=
  (k1_pay2 (k1_pay13 i x w b s.1),
   k1_pay1 (k1_pay14 i x w b s.1 s.1) (k1_pay15 i x w b s.1) s.2.1,
   k1_pay3 (k1_pay10 i) (k1_pay12 i x w b) tc s.2.2)

/-- The body resets the state at the first block of a half, -/
abbrev cond1_1 (i : grid1.Coords) : Prop :=
  (Scalar.cmpi .ne (Scalar.extui (Scalar.cmpi .eq (BitVec.ofNat 32 (i 2).val) 0#32)) 0#32) = 1#1
theorem hcond1_1 : ∀ t : Fin cfg1.N, cond1_1 (grid1.coords t) ↔ t.val % 5 = 0 :=
  (by decide +kernel : ∀ t : Fin grid1.N, cond1_1 (grid1.coords t) ↔ t.val % 5 = 0)

/-- and stores the three results at the last. -/
abbrev cond1_2 (i : grid1.Coords) : Prop := k1_cond2 i = 1#1
theorem hcond1_2 : ∀ t : Fin cfg1.N, cond1_2 (grid1.coords t) ↔ t.val % 5 = 4 :=
  (by decide +kernel : ∀ t : Fin grid1.N, cond1_2 (grid1.coords t) ↔ t.val % 5 = 4)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

theorem idle1 : ∀ t : Fin cfg1.N, ¬t.val % 5 = 4 → ∀ w : Fin cfg1.W, 4 ≤ w.val → cfg1.idle w (grid1.coords t) = true ∧ (cfg1.win w).flush t = false := by decide +kernel
theorem live1 : ∀ t : Fin cfg1.N, t.val % 5 = 4 → ∀ w : Fin cfg1.W, cfg1.idle w (grid1.coords t) = false := by decide +kernel

/-- The region's invariant with the carried arrays owned at a known state. -/
abbrev PhiAt1 (c : Dev nD) (s : S3 F) : sProp 𝕄 :=
  iprop(iprop(owns3 c scM1_0 scM1_1 scM1_2 s ∗ rest1 c) ∗ (∃ r, prngReg c r))

theorem PhiA1_elim (c : Dev nD) : (Pipeline.ΦA spec1 c : sProp 𝕄) ⊢ iprop(∃ s, PhiAt1 (F := F) c s) := by
  rw [PhiA1_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA1_intro (c : Dev nD) (s : S3 F) : PhiAt1 c s ⊢ (Pipeline.ΦA spec1 c : sProp 𝕄) := by
  rw [PhiA1_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops1 (c : Dev nD) (arg3 : Memref sig .tc .vmem S1024x256 .bf16) (arg4 : Memref sig .tc .vmem S2048x256 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x256 .bf16) (w : Vec F S2048x256 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run1 (i : grid1.Coords) (x : Vec F S1024x256 .bf16) (w : Vec F S2048x256 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops1 c arg3 arg4 arg5 arg6 arg7 arg8 arg9 arg10 arg11 arg12 x w b tc o4 o5 o6 s
        ∗ (ops1 c arg3 arg4 arg5 arg6 arg7 arg8 arg9 arg10 arg11 arg12 x w b tc o4' o5' o6' s' -∗ K ⟨⟩))
      ⊢ wp frame (wpE (defs₀ (F := F)) Variants.none c none) E (cc1_kernel i arg3 harg3 arg4 harg4 arg5 harg5 arg6 harg6 arg7 harg7 arg8 harg8 arg9 harg9 arg10 harg10 arg11 harg11 arg12 harg12) K

end Cert.KernelIdeal.Hand

end
-- ==== Proof.KI.R1RunA.lean ====
import proofs.«429142_j41094247088744_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun1_A {i : grid1.Coords} (hc1 : cond1_1 i) (hc2 : ¬cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s o4 o5 o6 (step1 i x w b tc init1) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.KernelIdeal.Hand

end
-- ==== Proof.KI.R1RunB.lean ====
import proofs.«429142_j41094247088744_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun1_B {i : grid1.Coords} (hc1 : ¬cond1_1 i) (hc2 : ¬cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s o4 o5 o6 (step1 i x w b tc s) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.KernelIdeal.Hand

end
-- ==== Proof.KI.R1RunC.lean ====
import proofs.«429142_j41094247088744_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun1_C {i : grid1.Coords} (hc1 : ¬cond1_1 i) (hc2 : cond1_2 i) (x : Vec F S1024x256 .bf16) (w : Vec F S2048x256 .bf16) (b : Vec F S1x2048 .f32) (tc : Vec F S1024x1 .i32)
    (o4 o5 o6 : Vec F S1x1024x1 .f32) (s : S3 F) : Run1 i x w b tc o4 o5 o6 s (k1_pay4 (step1 i x w b tc s).1) (k1_pay5 (step1 i x w b tc s).2.1) (k1_pay6 (step1 i x w b tc s).2.2) (step1 i x w b tc s) := by
  intro c E arg3 harg3 arg4 harg4 arg5 harg5 arg6 harg6 arg7 harg7 arg8 harg8 arg9 harg9 arg10 harg10 arg11 harg11 arg12 harg12 K
  simp only [cc1_kernel_eq_skeleton]; unfold cc1_kernel_skel
  simp only [k1_part1_eq_skeleton]
  unfold ops1 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step1, init1]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step1, init1]

end Cert.KernelIdeal.Hand

end
-- ==== Proof.KI.R1Frame.lean ====
import proofs.«429142_j41094247088744_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after point `n`: reset and stepped at the first block of a half, stepped from the previous point elsewhere. -/
def scr1 (c : Dev nD) : (n : ℕ) → n < cfg1.N → S3 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) init1
  | n + 1, hn =>
    if (n + 1) % 5 = 0 then
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) init1
    else
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn))

theorem scr1_first (c : Dev nD) (t : Fin cfg1.N) (h : t.val % 5 = 0) :
    scr1 V c t.val t.isLt = step1 (grid1.coords t) (iblk1 V c 0 t) (iblk1 V c 1 t) (iblk1 V c 2 t) (iblk1 V c 3 t) init1 := by
  obtain ⟨n, hn⟩ := t
  cases n with
  | zero => rfl
  | succ n => exact (if_pos h).trans rfl

theorem scr1_next (c : Dev nD) (t : Fin cfg1.N) (h : ¬t.val % 5 = 0) :
    scr1 V c t.val t.isLt = step1 (grid1.coords t) (iblk1 V c 0 t) (iblk1 V c 1 t) (iblk1 V c 2 t) (iblk1 V c 3 t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS1 (c : Dev nD) : (n : ℕ) → n ≤ cfg1.N → sProp 𝕄
  | 0, _ => Pipeline.ΦA spec1 c
  | n + 1, hn => PhiAt1 c (scr1 V c n hn)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (scr1 V c t.val t.isLt).1
    | ⟨5, _⟩ => k1_pay5 (scr1 V c t.val t.isLt).2.1
    | ⟨6, _⟩ => k1_pay6 (scr1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = k1_pay4 (scr1 V c t.val t.isLt).1 := by dsimp only [dat1]
theorem after1_5 (c : Dev nD) (t : Fin cfg1.N) : (dat1 V c).after 5 t = k1_pay5 (scr1 V c t.val t.isLt).2.1 := by dsimp only [dat1]
theorem after1_6 (c : Dev nD) (t : Fin cfg1.N) : (dat1 V c).after 6 t = k1_pay6 (scr1 V c t.val t.isLt).2.2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem leaves1_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

theorem leaves1_idle (c : Dev nD) (t : Fin cfg1.N) (h4 : ¬t.val % 5 = 4) (w : Fin cfg1.W) (hw : 4 ≤ w.val := by decide) :
    (dat1 V c).leavesExact w t = iprop(∃ d, owns (c : Thread nD τ) ((cfg1.win w).stage (cfg1.slots t w)) fullShare ((dat1 V c).before w t d)) :=
  (dat1 V c).leavesExact_idle w t (idle1 t h4 w hw).1 (idle1 t h4 w hw).2

theorem PhiS1_pos (c : Dev nD) (n : ℕ) (h : n ≤ cfg1.N) (hz : n ≠ 0) : PhiS1 V c n h = PhiAt1 c (scr1 V c (n - 1) (by omega)) := by
  cases n with
  | zero => exact absurd rfl hz
  | succ n => rfl

theorem PhiS1_some (c : Dev nD) (n : ℕ) (h : n ≤ cfg1.N) : PhiS1 V c n h ⊢ iprop(∃ s, PhiAt1 (F := F) c s) := by
  cases n with
  | zero => exact PhiA1_elim c
  | succ n => show PhiAt1 c _ ⊢ _; iintro H; iexists _; iexact H

theorem PhiS1_out (c : Dev nD) (n : ℕ) (h : n ≤ cfg1.N) : PhiS1 V c n h ⊢ (Pipeline.ΦA spec1 c : sProp 𝕄) := by
  cases n with
  | zero => exact .rfl
  | succ n => exact PhiA1_intro c _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at point `t` takes the invariant at `t` to the invariant at `t + 1`, by the place of `t` in its half. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiAt1 c (scr1 V c t.val t.isLt) from rfl,
    show (dat1 V c).Φ t.castSucc = PhiS1 V c t.val (Nat.le_of_lt t.isLt) from rfl,
    leaves1_live V c 0 t rfl, leaves1_live V c 1 t rfl, leaves1_live V c 2 t rfl, leaves1_live V c 3 t rfl]
  have h : (t.val % 5 = 0 ∧ ¬t.val % 5 = 4) ∨ (¬t.val % 5 = 0 ∧ ¬t.val % 5 = 4) ∨ (¬t.val % 5 = 0 ∧ t.val % 5 = 4) := by omega
  rcases h with ⟨h0, h4⟩ | ⟨h0, h4⟩ | ⟨h0, h4⟩
  on_goal 3 =>
    rw [leaves1_live V c 4 t (live1 t h4 4), leaves1_live V c 5 t (live1 t h4 5), leaves1_live V c 6 t (live1 t h4 6),
      after1_4, after1_5, after1_6, PhiS1_pos V c _ _ (fun e => h0 (by rw [e])), scr1_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_C (fun h => h0 ((hcond1_1 t).mp h)) ((hcond1_2 t).mpr h4) (iblk1 V c 0 t) (iblk1 V c 1 t) (iblk1 V c 2 t) (iblk1 V c 3 t) _ _ _ _ c Set.univ)
  on_goal 2 =>
    rw [leaves1_idle V c t h4 4, leaves1_idle V c t h4 5, leaves1_idle V c t h4 6, PhiS1_pos V c _ _ (fun e => h0 (by rw [e])), scr1_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_B (fun h => h0 ((hcond1_1 t).mp h)) (fun h => h4 ((hcond1_2 t).mp h)) (iblk1 V c 0 t) (iblk1 V c 1 t) (iblk1 V c 2 t) (iblk1 V c 3 t) _ _ _ _ c Set.univ)
  on_goal 1 =>
    rw [leaves1_idle V c t h4 4, leaves1_idle V c t h4 5, leaves1_idle V c t h4 6, scr1_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS1_some V c _ _) $$ HP with ⟨%s, ⟨HS, Hr⟩, Hg⟩
    iapply (kernelRun1_A ((hcond1_1 t).mpr h0) (fun h => h4 ((hcond1_2 t).mp h)) (iblk1 V c 0 t) (iblk1 V c 1 t) (iblk1 V c 2 t) (iblk1 V c 3 t) _ _ _ s c Set.univ)
  all_goals
    unfold ops1
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_out V c cfg1.N le_rfl

end Cert.KernelIdeal.Hand

end
-- ==== Proof.KI.R2Runs.lean ====
import proofs.«429142_j41094247088744_3_alg».proof.Proof.Gen.KernelIdeal.Launch
import proofs.«429142_j41094247088744_3_alg».proof.Proof.Gen.KernelIdeal.Skeleton
import proofs.«429142_j41094247088744_3_alg».proof.Proof.Gen.KernelIdeal.Points
import proofs.«429142_j41094247088744_3_alg».proof.Proof.KI.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init2 : S3 F := (k2_pay7, k2_pay8, k2_pay9)

/-- One block folded into the state: the maximum with the block's, the sum rescaled to the new maximum plus the block's, the target's logit if its column lies in the block. -/
def step2 (i : grid2.Coords) (x : Vec F S1024x64 .bf16) (w : Vec F S2048x64 .bf16) (b : Vec F S1x2048 .f32)
    (tc : Vec F S1024x1 .i32) (s : S3 F) : S3 F :=
  (k2_pay2 (k2_pay13 i x w b s.1),
   k2_pay1 (k2_pay14 i x w b s.1 s.1) (k2_pay15 i x w b s.1) s.2.1,
   k2_pay3 (k2_pay10 i) (k2_pay12 i x w b) tc s.2.2)

/-- The body resets the state at the first block of a half, -/
abbrev cond2_1 (i : grid2.Coords) : Prop :=
  (Scalar.cmpi .ne (Scalar.extui (Scalar.cmpi .eq (BitVec.ofNat 32 (i 2).val) 0#32)) 0#32) = 1#1
theorem hcond2_1 : ∀ t : Fin cfg2.N, cond2_1 (grid2.coords t) ↔ t.val % 40 = 0 :=
  (by decide +kernel : ∀ t : Fin grid2.N, cond2_1 (grid2.coords t) ↔ t.val % 40 = 0)

/-- and stores the three results at the last. -/
abbrev cond2_2 (i : grid2.Coords) : Prop := k2_cond2 i = 1#1
theorem hcond2_2 : ∀ t : Fin cfg2.N, cond2_2 (grid2.coords t) ↔ t.val % 40 = 39 :=
  (by decide +kernel : ∀ t : Fin grid2.N, cond2_2 (grid2.coords t) ↔ t.val % 40 = 39)

abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1 .f32 := Memref.whole cc2_scratch2

abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA; rw [scopedRest2_split]; simp only [scM2_0, scM2_1, scM2_2, owns_whole]; try rfl

theorem idle2 : ∀ t : Fin cfg2.N, ¬t.val % 40 = 39 → ∀ w : Fin cfg2.W, 4 ≤ w.val → cfg2.idle w (grid2.coords t) = true ∧ (cfg2.win w).flush t = false := by decide +kernel
theorem live2 : ∀ t : Fin cfg2.N, t.val % 40 = 39 → ∀ w : Fin cfg2.W, cfg2.idle w (grid2.coords t) = false := by decide +kernel

/-- The region's invariant with the carried arrays owned at a known state. -/
abbrev PhiAt2 (c : Dev nD) (s : S3 F) : sProp 𝕄 :=
  iprop(iprop(owns3 c scM2_0 scM2_1 scM2_2 s ∗ rest2 c) ∗ (∃ r, prngReg c r))

theorem PhiA2_elim (c : Dev nD) : (Pipeline.ΦA spec2 c : sProp 𝕄) ⊢ iprop(∃ s, PhiAt2 (F := F) c s) := by
  rw [PhiA2_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA2_intro (c : Dev nD) (s : S3 F) : PhiAt2 c s ⊢ (Pipeline.ΦA spec2 c : sProp 𝕄) := by
  rw [PhiA2_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops2 (c : Dev nD) (arg3 : Memref sig .tc .vmem S1024x64 .bf16) (arg4 : Memref sig .tc .vmem S2048x64 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x64 .bf16) (w : Vec F S2048x64 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run2 (i : grid2.Coords) (x : Vec F S1024x64 .bf16) (w : Vec F S2048x64 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops2 c arg3 arg4 arg5 arg6 arg7 arg8 arg9 arg10 arg11 arg12 x w b tc o4 o5 o6 s
        ∗ (ops2 c arg3 arg4 arg5 arg6 arg7 arg8 arg9 arg10 arg11 arg12 x w b tc o4' o5' o6' s' -∗ K ⟨⟩))
      ⊢ wp frame (wpE (defs₀ (F := F)) Variants.none c none) E (cc2_kernel i arg3 harg3 arg4 harg4 arg5 harg5 arg6 harg6 arg7 harg7 arg8 harg8 arg9 harg9 arg10 harg10 arg11 harg11 arg12 harg12) K

end Cert.KernelIdeal.Hand

end
-- ==== Proof.KI.R2RunA.lean ====
import proofs.«429142_j41094247088744_3_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun2_A {i : grid2.Coords} (hc1 : cond2_1 i) (hc2 : ¬cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s o4 o5 o6 (step2 i x w b tc init2) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.KernelIdeal.Hand

end
-- ==== Proof.KI.R2RunB.lean ====
import proofs.«429142_j41094247088744_3_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun2_B {i : grid2.Coords} (hc1 : ¬cond2_1 i) (hc2 : ¬cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s o4 o5 o6 (step2 i x w b tc s) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.KernelIdeal.Hand

end
-- ==== Proof.KI.R2RunC.lean ====
import proofs.«429142_j41094247088744_3_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun2_C {i : grid2.Coords} (hc1 : ¬cond2_1 i) (hc2 : cond2_2 i) (x : Vec F S1024x64 .bf16) (w : Vec F S2048x64 .bf16) (b : Vec F S1x2048 .f32) (tc : Vec F S1024x1 .i32)
    (o4 o5 o6 : Vec F S1x1024x1 .f32) (s : S3 F) : Run2 i x w b tc o4 o5 o6 s (k2_pay4 (step2 i x w b tc s).1) (k2_pay5 (step2 i x w b tc s).2.1) (k2_pay6 (step2 i x w b tc s).2.2) (step2 i x w b tc s) := by
  intro c E arg3 harg3 arg4 harg4 arg5 harg5 arg6 harg6 arg7 harg7 arg8 harg8 arg9 harg9 arg10 harg10 arg11 harg11 arg12 harg12 K
  simp only [cc2_kernel_eq_skeleton]; unfold cc2_kernel_skel
  simp only [k2_part1_eq_skeleton]
  unfold ops2 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step2, init2]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step2, init2]

end Cert.KernelIdeal.Hand

end
-- ==== Proof.KI.R2Frame.lean ====
import proofs.«429142_j41094247088744_3_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The carried state after point `n`: reset and stepped at the first block of a half, stepped from the previous point elsewhere. -/
def scr2 (c : Dev nD) : (n : ℕ) → n < cfg2.N → S3 F
  | 0, hn => step2 (grid2.coords ⟨0, hn⟩) (iblk2 V c 0 ⟨0, hn⟩) (iblk2 V c 1 ⟨0, hn⟩) (iblk2 V c 2 ⟨0, hn⟩) (iblk2 V c 3 ⟨0, hn⟩) init2
  | n + 1, hn =>
    if (n + 1) % 40 = 0 then
      step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) init2
    else
      step2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (scr2 c n (Nat.lt_of_succ_lt hn))

theorem scr2_first (c : Dev nD) (t : Fin cfg2.N) (h : t.val % 40 = 0) :
    scr2 V c t.val t.isLt = step2 (grid2.coords t) (iblk2 V c 0 t) (iblk2 V c 1 t) (iblk2 V c 2 t) (iblk2 V c 3 t) init2 := by
  obtain ⟨n, hn⟩ := t
  cases n with
  | zero => rfl
  | succ n => exact (if_pos h).trans rfl

theorem scr2_next (c : Dev nD) (t : Fin cfg2.N) (h : ¬t.val % 40 = 0) :
    scr2 V c t.val t.isLt = step2 (grid2.coords t) (iblk2 V c 0 t) (iblk2 V c 1 t) (iblk2 V c 2 t) (iblk2 V c 3 t) (scr2 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS2 (c : Dev nD) : (n : ℕ) → n ≤ cfg2.N → sProp 𝕄
  | 0, _ => Pipeline.ΦA spec2 c
  | n + 1, hn => PhiAt2 c (scr2 V c n hn)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay4 (scr2 V c t.val t.isLt).1
    | ⟨5, _⟩ => k2_pay5 (scr2 V c t.val t.isLt).2.1
    | ⟨6, _⟩ => k2_pay6 (scr2 V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = k2_pay4 (scr2 V c t.val t.isLt).1 := by dsimp only [dat2]
theorem after2_5 (c : Dev nD) (t : Fin cfg2.N) : (dat2 V c).after 5 t = k2_pay5 (scr2 V c t.val t.isLt).2.1 := by dsimp only [dat2]
theorem after2_6 (c : Dev nD) (t : Fin cfg2.N) : (dat2 V c).after 6 t = k2_pay6 (scr2 V c t.val t.isLt).2.2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

theorem leaves2_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem leaves2_idle (c : Dev nD) (t : Fin cfg2.N) (h4 : ¬t.val % 40 = 39) (w : Fin cfg2.W) (hw : 4 ≤ w.val := by decide) :
    (dat2 V c).leavesExact w t = iprop(∃ d, owns (c : Thread nD τ) ((cfg2.win w).stage (cfg2.slots t w)) fullShare ((dat2 V c).before w t d)) :=
  (dat2 V c).leavesExact_idle w t (idle2 t h4 w hw).1 (idle2 t h4 w hw).2

theorem PhiS2_pos (c : Dev nD) (n : ℕ) (h : n ≤ cfg2.N) (hz : n ≠ 0) : PhiS2 V c n h = PhiAt2 c (scr2 V c (n - 1) (by omega)) := by
  cases n with
  | zero => exact absurd rfl hz
  | succ n => rfl

theorem PhiS2_some (c : Dev nD) (n : ℕ) (h : n ≤ cfg2.N) : PhiS2 V c n h ⊢ iprop(∃ s, PhiAt2 (F := F) c s) := by
  cases n with
  | zero => exact PhiA2_elim c
  | succ n => show PhiAt2 c _ ⊢ _; iintro H; iexists _; iexact H

theorem PhiS2_out (c : Dev nD) (n : ℕ) (h : n ≤ cfg2.N) : PhiS2 V c n h ⊢ (Pipeline.ΦA spec2 c : sProp 𝕄) := by
  cases n with
  | zero => exact .rfl
  | succ n => exact PhiA2_intro c _

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at point `t` takes the invariant at `t` to the invariant at `t + 1`, by the place of `t` in its half. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiAt2 c (scr2 V c t.val t.isLt) from rfl,
    show (dat2 V c).Φ t.castSucc = PhiS2 V c t.val (Nat.le_of_lt t.isLt) from rfl,
    leaves2_live V c 0 t rfl, leaves2_live V c 1 t rfl, leaves2_live V c 2 t rfl, leaves2_live V c 3 t rfl]
  have h : (t.val % 40 = 0 ∧ ¬t.val % 40 = 39) ∨ (¬t.val % 40 = 0 ∧ ¬t.val % 40 = 39) ∨ (¬t.val % 40 = 0 ∧ t.val % 40 = 39) := by omega
  rcases h with ⟨h0, h4⟩ | ⟨h0, h4⟩ | ⟨h0, h4⟩
  on_goal 3 =>
    rw [leaves2_live V c 4 t (live2 t h4 4), leaves2_live V c 5 t (live2 t h4 5), leaves2_live V c 6 t (live2 t h4 6),
      after2_4, after2_5, after2_6, PhiS2_pos V c _ _ (fun e => h0 (by rw [e])), scr2_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2_C (fun h => h0 ((hcond2_1 t).mp h)) ((hcond2_2 t).mpr h4) (iblk2 V c 0 t) (iblk2 V c 1 t) (iblk2 V c 2 t) (iblk2 V c 3 t) _ _ _ _ c Set.univ)
  on_goal 2 =>
    rw [leaves2_idle V c t h4 4, leaves2_idle V c t h4 5, leaves2_idle V c t h4 6, PhiS2_pos V c _ _ (fun e => h0 (by rw [e])), scr2_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun2_B (fun h => h0 ((hcond2_1 t).mp h)) (fun h => h4 ((hcond2_2 t).mp h)) (iblk2 V c 0 t) (iblk2 V c 1 t) (iblk2 V c 2 t) (iblk2 V c 3 t) _ _ _ _ c Set.univ)
  on_goal 1 =>
    rw [leaves2_idle V c t h4 4, leaves2_idle V c t h4 5, leaves2_idle V c t h4 6, scr2_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS2_some V c _ _) $$ HP with ⟨%s, ⟨HS, Hr⟩, Hg⟩
    iapply (kernelRun2_A ((hcond2_1 t).mpr h0) (fun h => h4 ((hcond2_2 t).mp h)) (iblk2 V c 0 t) (iblk2 V c 1 t) (iblk2 V c 2 t) (iblk2 V c 3 t) _ _ _ s c Set.univ)
  all_goals
    unfold ops2
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := PhiS2_out V c cfg2.N le_rfl

end Cert.KernelIdeal.Hand

end
-- ==== Proof.KI.R3Runs.lean ====
import proofs.«429142_j41094247088744_3_alg».proof.Proof.Gen.KernelIdeal.Launch
import proofs.«429142_j41094247088744_3_alg».proof.Proof.Gen.KernelIdeal.Skeleton
import proofs.«429142_j41094247088744_3_alg».proof.Proof.Gen.KernelIdeal.Points
import proofs.«429142_j41094247088744_3_alg».proof.Proof.KI.R0Runs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state before a half's first block: maximum −∞, sum 0, target logit 0. -/
def init3 : S3 F := (k3_pay7, k3_pay8, k3_pay9)

/-- One block folded into the state: the maximum with the block's, the sum rescaled to the new maximum plus the block's, the target's logit if its column lies in the block. -/
def step3 (i : grid3.Coords) (x : Vec F S1024x16 .bf16) (w : Vec F S2048x16 .bf16) (b : Vec F S1x2048 .f32)
    (tc : Vec F S1024x1 .i32) (s : S3 F) : S3 F :=
  (k3_pay2 (k3_pay13 i x w b s.1),
   k3_pay1 (k3_pay14 i x w b s.1 s.1) (k3_pay15 i x w b s.1) s.2.1,
   k3_pay3 (k3_pay10 i) (k3_pay12 i x w b) tc s.2.2)

/-- The body resets the state at the first block of a half, -/
abbrev cond3_1 (i : grid3.Coords) : Prop :=
  (Scalar.cmpi .ne (Scalar.extui (Scalar.cmpi .eq (BitVec.ofNat 32 (i 2).val) 0#32)) 0#32) = 1#1
theorem hcond3_1 : ∀ t : Fin cfg3.N, cond3_1 (grid3.coords t) ↔ t.val % 17 = 0 :=
  (by decide +kernel : ∀ t : Fin grid3.N, cond3_1 (grid3.coords t) ↔ t.val % 17 = 0)

/-- and stores the three results at the last. -/
abbrev cond3_2 (i : grid3.Coords) : Prop := k3_cond2 i = 1#1
theorem hcond3_2 : ∀ t : Fin cfg3.N, cond3_2 (grid3.coords t) ↔ t.val % 17 = 16 :=
  (by decide +kernel : ∀ t : Fin grid3.N, cond3_2 (grid3.coords t) ↔ t.val % 17 = 16)

abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1 .f32 := Memref.whole cc3_scratch2

abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ rest3 c) ∗ (∃ r, prngReg c r)) := by
  unfold Pipeline.ΦA; rw [scopedRest3_split]; simp only [scM3_0, scM3_1, scM3_2, owns_whole]; try rfl

theorem idle3 : ∀ t : Fin cfg3.N, ¬t.val % 17 = 16 → ∀ w : Fin cfg3.W, 4 ≤ w.val → cfg3.idle w (grid3.coords t) = true ∧ (cfg3.win w).flush t = false := by decide +kernel
theorem live3 : ∀ t : Fin cfg3.N, t.val % 17 = 16 → ∀ w : Fin cfg3.W, cfg3.idle w (grid3.coords t) = false := by decide +kernel

/-- The region's invariant with the carried arrays owned at a known state. -/
abbrev PhiAt3 (c : Dev nD) (s : S3 F) : sProp 𝕄 :=
  iprop(iprop(owns3 c scM3_0 scM3_1 scM3_2 s ∗ rest3 c) ∗ (∃ r, prngReg c r))

theorem PhiA3_elim (c : Dev nD) : (Pipeline.ΦA spec3 c : sProp 𝕄) ⊢ iprop(∃ s, PhiAt3 (F := F) c s) := by
  rw [PhiA3_eq]
  iintro ⟨⟨⟨⟨%d0, H0⟩, ⟨%d1, H1⟩, ⟨%d2, H2⟩⟩, Hr⟩, Hg⟩
  iexists (d0, d1, d2)
  isplitr [Hg]; swap; · iexact Hg
  isplitr [Hr]; swap; · iexact Hr
  isplitl [H0]; · iexact H0
  isplitl [H1]; · iexact H1
  iexact H2

theorem PhiA3_intro (c : Dev nD) (s : S3 F) : PhiAt3 c s ⊢ (Pipeline.ΦA spec3 c : sProp 𝕄) := by
  rw [PhiA3_eq]
  iintro ⟨⟨⟨H0, H1, H2⟩, Hr⟩, Hg⟩
  isplitr [Hg]; swap; · iexact Hg
  isplitr [Hr]; swap; · iexact Hr
  isplitl [H0]; · iexists _; iexact H0
  isplitl [H1]; · iexists _; iexact H1
  iexists _; iexact H2

/-- The body's ten operands owned whole: four inputs, three results, the three carried arrays. -/
def ops3 (c : Dev nD) (arg3 : Memref sig .tc .vmem S1024x16 .bf16) (arg4 : Memref sig .tc .vmem S2048x16 .bf16) (arg5 : Memref sig .tc .vmem S1x2048 .f32) (arg6 : Memref sig .tc .vmem S1024x1 .i32)
    (arg7 arg8 arg9 : Memref sig .tc .vmem S1x1024x1 .f32) (arg10 arg11 arg12 : Memref sig .tc .vmem S1024x1 .f32)
    (x : Vec F S1024x16 .bf16) (w : Vec F S2048x16 .bf16) (b : Vec F S1x2048 .f32) (tc : Vec F S1024x1 .i32) (o4 o5 o6 : Vec F S1x1024x1 .f32) (s : S3 F) : sProp 𝕄 :=
  iprop((owns (c : Thread nD τ) arg3 fullShare x ∗ owns (c : Thread nD τ) arg4 fullShare w ∗ owns (c : Thread nD τ) arg5 fullShare b ∗ owns (c : Thread nD τ) arg6 fullShare tc)
    ∗ owns3 c arg7 arg8 arg9 (o4, o5, o6) ∗ owns3 c arg10 arg11 arg12 s)

/-- From results `o` and state `s` the body ends at results `o'` and state `s'`, for any operands and any continuation. -/
def Run3 (i : grid3.Coords) (x : Vec F S1024x16 .bf16) (w : Vec F S2048x16 .bf16) (b : Vec F S1x2048 .f32) (tc : Vec F S1024x1 .i32)
    (o4 o5 o6 : Vec F S1x1024x1 .f32) (s : S3 F) (o4' o5' o6' : Vec F S1x1024x1 .f32) (s' : S3 F) : Prop :=
  ∀ (c : Dev nD) (E : Set ℕ) arg3 harg3 arg4 harg4 arg5 harg5 arg6 harg6 arg7 harg7 arg8 harg8 arg9 harg9 arg10 harg10 arg11 harg11 arg12 harg12 (K : PUnit → sProp 𝕄),
    iprop(ops3 c arg3 arg4 arg5 arg6 arg7 arg8 arg9 arg10 arg11 arg12 x w b tc o4 o5 o6 s
        ∗ (ops3 c arg3 arg4 arg5 arg6 arg7 arg8 arg9 arg10 arg11 arg12 x w b tc o4' o5' o6' s' -∗ K ⟨⟩))
      ⊢ wp frame (wpE (defs₀ (F := F)) Variants.none c none) E (cc3_kernel i arg3 harg3 arg4 harg4 arg5 harg5 arg6 harg6 arg7 harg7 arg8 harg8 arg9 harg9 arg10 harg10 arg11 harg11 arg12 harg12) K

end Cert.KernelIdeal.Hand

end
-- ==== Proof.KI.R3RunA.lean ====
import proofs.«429142_j41094247088744_3_alg».proof.Proof.KI.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's first block: the state is reset, then stepped; the results are left as they were. -/
theorem kernelRun3_A {i : grid3.Coords} (hc1 : cond3_1 i) (hc2 : ¬cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s o4 o5 o6 (step3 i x w b tc init3) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.KernelIdeal.Hand

end
-- ==== Proof.KI.R3RunB.lean ====
import proofs.«429142_j41094247088744_3_alg».proof.Proof.KI.R3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle block: the state is stepped; the results are left as they were. -/
theorem kernelRun3_B {i : grid3.Coords} (hc1 : ¬cond3_1 i) (hc2 : ¬cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s o4 o5 o6 (step3 i x w b tc s) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]; · sl_close
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.KernelIdeal.Hand

end
-- ==== Proof.KI.R3RunC.lean ====
import proofs.«429142_j41094247088744_3_alg».proof.Proof.KI.R3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A half's last block: the state is stepped and the three results are stored from it. -/
theorem kernelRun3_C {i : grid3.Coords} (hc1 : ¬cond3_1 i) (hc2 : cond3_2 i) (x : Vec F S1024x16 .bf16) (w : Vec F S2048x16 .bf16) (b : Vec F S1x2048 .f32) (tc : Vec F S1024x1 .i32)
    (o4 o5 o6 : Vec F S1x1024x1 .f32) (s : S3 F) : Run3 i x w b tc o4 o5 o6 s (k3_pay4 (step3 i x w b tc s).1) (k3_pay5 (step3 i x w b tc s).2.1) (k3_pay6 (step3 i x w b tc s).2.2) (step3 i x w b tc s) := by
  intro c E arg3 harg3 arg4 harg4 arg5 harg5 arg6 harg6 arg7 harg7 arg8 harg8 arg9 harg9 arg10 harg10 arg11 harg11 arg12 harg12 K
  simp only [cc3_kernel_eq_skeleton]; unfold cc3_kernel_skel
  simp only [k3_part1_eq_skeleton]
  unfold ops3 owns3 owns
  iintro ⟨⟨⟨⟨%f3, %hf3, H3⟩, ⟨%f4, %hf4, H4⟩, ⟨%f5, %hf5, H5⟩, ⟨%f6, %hf6, H6⟩⟩, ⟨⟨%f7, %hf7, H7⟩, ⟨%f8, %hf8, H8⟩, ⟨%f9, %hf9, H9⟩⟩, ⟨%f10, %hf10, H10⟩, ⟨%f11, %hf11, H11⟩, ⟨%f12, %hf12, H12⟩⟩, Hk⟩
  sl_exec (disch := first | exact hc1 | exact hc2)
  sl_step
  iapply Hk
  isplitl [H3 H4 H5 H6]; · sl_close
  isplitl [H7 H8 H9]
  · isplitl [H7]; rotate_left; isplitl [H8]
    all_goals
      iexists _; isplitr; swap; · iassumption
      ipureintro; sl_unfold_run_names
      simp only [read_writes_unit _ _ off2_zero, read_writes_unit _ _ off3_zero, readAt_unit _ off2_zero, readCov_unit _ off2_zero, hf3, hf4, hf5, hf6, hf10, hf11, hf12, step3, init3]
  isplitl [H10]; rotate_left; isplitl [H11]
  all_goals
    iexists _; isplitr; swap; · iassumption
    ipureintro; sl_unfold_run_names
    simp only [read_writes_unit _ _ off2_zero, read_writes_unit _ _ off3_zero, readAt_unit _ off2_zero, readCov_unit _ off2_zero, hf3, hf4, hf5, hf6, hf10, hf11, hf12, step3, init3]

end Cert.KernelIdeal.Hand

end
-- ==== Proof.KI.R3Frame.lean ====
import proofs.«429142_j41094247088744_3_alg».proof.Proof.KI.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input `w` that grid point `t` reads, cut from the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The carried state after point `n`: reset and stepped at the first block of a half, stepped from the previous point elsewhere. -/
def scr3 (c : Dev nD) : (n : ℕ) → n < cfg3.N → S3 F
  | 0, hn => step3 (grid3.coords ⟨0, hn⟩) (iblk3 V c 0 ⟨0, hn⟩) (iblk3 V c 1 ⟨0, hn⟩) (iblk3 V c 2 ⟨0, hn⟩) (iblk3 V c 3 ⟨0, hn⟩) init3
  | n + 1, hn =>
    if (n + 1) % 17 = 0 then
      step3 (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) init3
    else
      step3 (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn))

theorem scr3_first (c : Dev nD) (t : Fin cfg3.N) (h : t.val % 17 = 0) :
    scr3 V c t.val t.isLt = step3 (grid3.coords t) (iblk3 V c 0 t) (iblk3 V c 1 t) (iblk3 V c 2 t) (iblk3 V c 3 t) init3 := by
  obtain ⟨n, hn⟩ := t
  cases n with
  | zero => rfl
  | succ n => exact (if_pos h).trans rfl

theorem scr3_next (c : Dev nD) (t : Fin cfg3.N) (h : ¬t.val % 17 = 0) :
    scr3 V c t.val t.isLt = step3 (grid3.coords t) (iblk3 V c 0 t) (iblk3 V c 1 t) (iblk3 V c 2 t) (iblk3 V c 3 t) (scr3 V c (t.val - 1) (Nat.lt_of_le_of_lt (Nat.sub_le _ _) t.isLt)) := by
  obtain ⟨n, hn⟩ := t
  cases n with
  | zero => exact absurd (Nat.zero_mod _) h
  | succ n => exact (if_neg h).trans rfl

def PhiS3 (c : Dev nD) : (n : ℕ) → n ≤ cfg3.N → sProp 𝕄
  | 0, _ => Pipeline.ΦA spec3 c
  | n + 1, hn => PhiAt3 c (scr3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay4 (scr3 V c t.val t.isLt).1
    | ⟨5, _⟩ => k3_pay5 (scr3 V c t.val t.isLt).2.1
    | ⟨6, _⟩ => k3_pay6 (scr3 V c t.val t.isLt).2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = k3_pay4 (scr3 V c t.val t.isLt).1 := by dsimp only [dat3]
theorem after3_5 (c : Dev nD) (t : Fin cfg3.N) : (dat3 V c).after 5 t = k3_pay5 (scr3 V c t.val t.isLt).2.1 := by dsimp only [dat3]
theorem after3_6 (c : Dev nD) (t : Fin cfg3.N) : (dat3 V c).after 6 t = k3_pay6 (scr3 V c t.val t.isLt).2.2 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

theorem leaves3_live (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem leaves3_idle (c : Dev nD) (t : Fin cfg3.N) (h4 : ¬t.val % 17 = 16) (w : Fin cfg3.W) (hw : 4 ≤ w.val := by decide) :
    (dat3 V c).leavesExact w t = iprop(∃ d, owns (c : Thread nD τ) ((cfg3.win w).stage (cfg3.slots t w)) fullShare ((dat3 V c).before w t d)) :=
  (dat3 V c).leavesExact_idle w t (idle3 t h4 w hw).1 (idle3 t h4 w hw).2

theorem PhiS3_pos (c : Dev nD) (n : ℕ) (h : n ≤ cfg3.N) (hz : n ≠ 0) : PhiS3 V c n h = PhiAt3 c (scr3 V c (n - 1) (by omega)) := by
  cases n with
  | zero => exact absurd rfl hz
  | succ n => rfl

theorem PhiS3_some (c : Dev nD) (n : ℕ) (h : n ≤ cfg3.N) : PhiS3 V c n h ⊢ iprop(∃ s, PhiAt3 (F := F) c s) := by
  cases n with
  | zero => exact PhiA3_elim c
  | succ n => show PhiAt3 c _ ⊢ _; iintro H; iexists _; iexact H

theorem PhiS3_out (c : Dev nD) (n : ℕ) (h : n ≤ cfg3.N) : PhiS3 V c n h ⊢ (Pipeline.ΦA spec3 c : sProp 𝕄) := by
  cases n with
  | zero => exact .rfl
  | succ n => exact PhiA3_intro c _

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at point `t` takes the invariant at `t` to the invariant at `t + 1`, by the place of `t` in its half. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = PhiAt3 c (scr3 V c t.val t.isLt) from rfl,
    show (dat3 V c).Φ t.castSucc = PhiS3 V c t.val (Nat.le_of_lt t.isLt) from rfl,
    leaves3_live V c 0 t rfl, leaves3_live V c 1 t rfl, leaves3_live V c 2 t rfl, leaves3_live V c 3 t rfl]
  have h : (t.val % 17 = 0 ∧ ¬t.val % 17 = 16) ∨ (¬t.val % 17 = 0 ∧ ¬t.val % 17 = 16) ∨ (¬t.val % 17 = 0 ∧ t.val % 17 = 16) := by omega
  rcases h with ⟨h0, h4⟩ | ⟨h0, h4⟩ | ⟨h0, h4⟩
  on_goal 3 =>
    rw [leaves3_live V c 4 t (live3 t h4 4), leaves3_live V c 5 t (live3 t h4 5), leaves3_live V c 6 t (live3 t h4 6),
      after3_4, after3_5, after3_6, PhiS3_pos V c _ _ (fun e => h0 (by rw [e])), scr3_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun3_C (fun h => h0 ((hcond3_1 t).mp h)) ((hcond3_2 t).mpr h4) (iblk3 V c 0 t) (iblk3 V c 1 t) (iblk3 V c 2 t) (iblk3 V c 3 t) _ _ _ _ c Set.univ)
  on_goal 2 =>
    rw [leaves3_idle V c t h4 4, leaves3_idle V c t h4 5, leaves3_idle V c t h4 6, PhiS3_pos V c _ _ (fun e => h0 (by rw [e])), scr3_next V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun3_B (fun h => h0 ((hcond3_1 t).mp h)) (fun h => h4 ((hcond3_2 t).mp h)) (iblk3 V c 0 t) (iblk3 V c 1 t) (iblk3 V c 2 t) (iblk3 V c 3 t) _ _ _ _ c Set.univ)
  on_goal 1 =>
    rw [leaves3_idle V c t h4 4, leaves3_idle V c t h4 5, leaves3_idle V c t h4 6, scr3_first V c t h0]
    iintro ⟨HP, Ho, ⟨%d0, H0⟩, ⟨%d1, H1⟩, ⟨%d2, H2⟩, ⟨%d3, H3⟩, ⟨%d4, H4⟩, ⟨%d5, H5⟩, ⟨%d6, H6⟩⟩
    icases (PhiS3_some V c _ _) $$ HP with ⟨%s, ⟨HS, Hr⟩, Hg⟩
    iapply (kernelRun3_A ((hcond3_1 t).mpr h0) (fun h => h4 ((hcond3_2 t).mp h)) (iblk3 V c 0 t) (iblk3 V c 1 t) (iblk3 V c 2 t) (iblk3 V c 3 t) _ _ _ s c Set.univ)
  all_goals
    unfold ops3
    isplitl [H0 H1 H2 H3 H4 H5 H6 HS]
    · isplitl [H0 H1 H2 H3]
      · isplitl [H0]; · iexact H0
        isplitl [H1]; · iexact H1
        isplitl [H2]; · iexact H2
        iexact H3
      isplitl [H4 H5 H6]
      · isplitl [H4]; · iexact H4
        isplitl [H5]; · iexact H5
        iexact H6
      iexact HS
    iintro ⟨⟨H0, H1, H2, H3⟩, ⟨H4, H5, H6⟩, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · first | iexact H4 | (iexists _; iexact H4)
    isplitl [H5]; · first | iexact H5 | (iexists _; iexact H5)
    first | iexact H6 | (iexists _; iexact H6)

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_out V c cfg3.N le_rfl

end Cert.KernelIdeal.Hand

end
-- ==== Proof.KI.Launch.lean ====
import proofs.«429142_j41094247088744_3_alg».proof.Proof.RegionsKI
import proofs.«429142_j41094247088744_3_alg».proof.Proof.KI.R0Frame
import proofs.«429142_j41094247088744_3_alg».proof.Proof.KI.R1Frame
import proofs.«429142_j41094247088744_3_alg».proof.Proof.KI.R2Frame
import proofs.«429142_j41094247088744_3_alg».proof.Proof.KI.R3Frame
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

-- A core that owes nothing is within any data's bound where the data owe nothing and bound nothing.
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  iexact HO

theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

-- Three updates of V, each to what X holds there, give X if X is V elsewhere.
theorem update3_eq {α : Type} [DecidableEq α] {β : α → Type} (V X : (a : α) → β a) (r0 r1 r2 : α)
    (h : ∀ b, b ≠ r0 → b ≠ r1 → b ≠ r2 → X b = V b) :
    Function.update (Function.update (Function.update V r0 (X r0)) r1 (X r1)) r2 (X r2) = X := by
  funext b
  by_cases h2 : b = r2
  · subst h2; exact Function.update_self ..
  rw [Function.update_of_ne h2]
  by_cases h1 : b = r1
  · subst h1; exact Function.update_self ..
  rw [Function.update_of_ne h1]
  by_cases h0 : b = r0
  · subst h0; exact Function.update_self ..
  rw [Function.update_of_ne h0, h b h0 h1 h2]

section Region

variable (p : Fin 4) (dat : (c : Dev nD) → Dat τ (Elt F) Unit ℕ (UR sig nD τ) ℕ (cfgs p) c)
  (lf : Pipeline.LaunchFacts (nD := nD) (τ := τ) cfgs p) (Vin : Dev nD → Valuation τ sig (Elt F))
  (hA : ∀ c w, (dat c).A w = Vin c (Pipeline.arrRef (cfgs p).spec w))

-- What region `p` leaves, entered at `Vin`: its arrays at their final contents, every other buffer as entered.
def exitOf (c : Dev nD) : Valuation τ sig (Elt F) :=
  Pipeline.withArrays (cfgs p).spec c (Vin c) fun w => (dat c).arrAt w (cfgs p).N

include lf in
theorem exitOf_arr (c : Dev nD) (w : Fin (cfgs p).W) :
    exitOf p dat Vin c (Proc.devRef .tc (Pipeline.arrRef (cfgs p).spec w)) = (dat c).arrAt w (cfgs p).N :=
  Pipeline.withArrays_arr _ lf.win.arr_inj c _ _ w

include lf hA in
-- An input array keeps its entry contents, so `Vin` set to the exit contents at the output arrays' references is the exit contents.
theorem exit_eq (c : Dev nD) (r0 r1 r2 : Ref sig .tc)
    (ho : ∀ w, ((cfgs p).win w).isOut = true → Pipeline.arrRef (cfgs p).spec w = r0 ∨ Pipeline.arrRef (cfgs p).spec w = r1 ∨ Pipeline.arrRef (cfgs p).spec w = r2)
    {x0 x1 x2} (e0 : x0 = exitOf p dat Vin c r0) (e1 : x1 = exitOf p dat Vin c r1) (e2 : x2 = exitOf p dat Vin c r2) :
    Function.update (Function.update (Function.update (Vin c) r0 x0) r1 x1) r2 x2 = exitOf p dat Vin c := by
  subst e0 e1 e2
  refine update3_eq _ _ _ _ _ fun b h0 h1 h2 => ?_
  by_cases h : ∃ w, Proc.devRef .tc (Pipeline.arrRef (cfgs p).spec w) = b
  · obtain ⟨w, rfl⟩ := h
    cases hw : ((cfgs p).win w).isOut
    · rw [exitOf_arr p dat lf Vin c w, (dat c).arrAt_in w hw, hA]
    · rcases ho w hw with e | e | e <;> rw [e] at h0 h1 h2
      exacts [absurd rfl h0, absurd rfl h1, absurd rfl h2]
  · unfold exitOf Pipeline.withArrays; rw [dif_neg h]

set_option backward.isDefEq.respectTransparency.types false in
-- Region `p` as a segment of @main, for data that owe nothing: the arrays leave the unscoped buffers at entry and come back at exit.
def mkReg (pdats : (p : Fin 4) → (c : Dev nD) → Dat τ (Elt F) Unit ℕ (UR sig nD τ) ℕ (cfgs p) c)
    (p : Fin 4) (lf : Pipeline.LaunchFacts (nD := nD) (τ := τ) cfgs p) (Vin : Dev nD → Valuation τ sig (Elt F))
    (o : Outs (F := F)) (J : ℕ) (r0 r1 r2 : Ref sig .tc)
    (ho : ∀ w, ((cfgs p).win w).isOut = true → Pipeline.arrRef (cfgs p).spec w = r0 ∨ Pipeline.arrRef (cfgs p).spec w = r1 ∨ Pipeline.arrRef (cfgs p).spec w = r2)
    (hx : ∀ r c, o J r c = exitOf p (pdats p) Vin c r)
    (hA : ∀ c w, (pdats p c).A w = Vin c (Pipeline.arrRef (cfgs p).spec w))
    (hq : ∀ c w, (pdats p c).q w = fullShare) (h0 : ∀ c t, (pdats p c).owed t = 0)
    (hr : ∀ c, (pdats p c).recorded 0 = Set.univ)
    (hbody : ∀ c, BodyObligation (pdats p c) (defs₀ (F := F)) Variants.none () Set.univ)
    (hin : ∀ c, (Pipeline.ΦA (cfgs p).spec c : sProp 𝕄) ⊢ (pdats p c).Φ 0)
    (hout : ∀ c, (pdats p c).Φ (Fin.last (cfgs p).N) ⊢ (Pipeline.ΦA (cfgs p).spec c : sProp 𝕄)) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vin c) ∗ R c)
  post c := iprop(StableHlo.held (c : Thread nD τ) (Pipeline.ucRefs τ sig)
    (Function.update (Function.update (Function.update (Vin c) r0 (o J r0 c)) r1 (o J r1 c)) r2 (o J r2 c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hbufs, Hprng, Howes⟩, -, -⟩
    ihave Harr := hsplit $$ Hbufs
    icases Harr with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owesAt_intro (pdats p c) 0 (h0 c 0) (hr c)); iexact Howes
    isplitl [Hprng]; · iexact Hprng
    iexact Hrest
  hin c := (show _ ⊢ (Pipeline.ΦA (cfgs p).spec c : sProp 𝕄) from by
      unfold Pipeline.ΦA
      iintro ⟨Hprng, -, Hscoped⟩
      isplitl [Hscoped]; · iexact Hscoped
      iexact Hprng).trans (hin c)
  hout c := (hout c).trans (by
      rw [Pipeline.ownSems0_none]; unfold Pipeline.ΦA
      iintro ⟨Hscoped, Hprng⟩
      isplitl [Hprng]; · iexact Hprng
      isplitr; · iempintro
      iexact Hscoped)
  hexit c := by
    rw [exit_eq p (pdats p) lf Vin hA c r0 r1 r2 ho (hx r0 c) (hx r1 c) (hx r2 c)]
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => exitOf p (pdats p) Vin c b) ((pdats p c).arrAt · (cfgs p).N)
      (fun w => (exitOf_arr p (pdats p) lf Vin c w).symm)
      (fun b hb => Pipeline.withArrays_of_ne _ c _ _ b fun w e => hb (Finset.mem_image.mpr ⟨w, Finset.mem_univ _, e⟩))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (owesAt_elim (pdats p c) _ (h0 c _)); iexact Howes

end Region

section Next

variable (p : Fin 4)
  (dat : ((c : Dev nD) → (b : Ref sig .tc) → Buf (Elt F) ((c : Thread nD τ).loc b)) → (c : Dev nD) → Dat τ (Elt F) Unit ℕ (UR sig nD τ) ℕ (cfgs p) c)
  (J : ℕ) (Vin : Outs (F := F) → Dev nD → Valuation τ sig (Elt F)) (o : Outs (F := F))

-- The regions' contents `o` with item `J` set to what region `p` leaves when entered at the fold's contents `Vin o`.
def next : Outs (F := F) :=
  fun J' r c => if J' = J then exitOf p (dat fun c b => Vin o c b) (Vin o) c r else o J' r c

theorem next_at (r : Ref sig .tc) (c : Dev nD) : next p dat J Vin o J r c = exitOf p (dat fun c b => Vin o c b) (Vin o) c r := if_pos rfl
theorem next_of_ne (J' : ℕ) (h : J' ≠ J) : next p dat J Vin o J' = o J' := by funext r c; exact if_neg h

end Next

variable (m : (ℓ : Loc nD τ sig) → Buf (Elt F) ℓ)

-- The fold through @main reads the regions' contents only at their own items, each from its region's exit on.
theorem V10_congr (o o' : Outs (F := F)) (h10 : o 10 = o' 10) (c : Dev nD) : V10 m o c = V10 m o' c := by
  unfold V10; rw [h10]
theorem V19_congr (o o' : Outs (F := F)) (h10 : o 10 = o' 10) (c : Dev nD) : V19 m o c = V19 m o' c := by
  unfold V19 V18 V17 V16 V15 V14 V13 V12 V11; rw [V10_congr m o o' h10 c]
theorem V20_congr (o o' : Outs (F := F)) (h10 : o 10 = o' 10) (h20 : o 20 = o' 20) (c : Dev nD) : V20 m o c = V20 m o' c := by
  unfold V20; rw [V19_congr m o o' h10 c, h20]
theorem V29_congr (o o' : Outs (F := F)) (h10 : o 10 = o' 10) (h20 : o 20 = o' 20) (c : Dev nD) : V29 m o c = V29 m o' c := by
  unfold V29 V28 V27 V26 V25 V24 V23 V22 V21; rw [V20_congr m o o' h10 h20 c]
theorem V30_congr (o o' : Outs (F := F)) (h10 : o 10 = o' 10) (h20 : o 20 = o' 20) (h30 : o 30 = o' 30) (c : Dev nD) : V30 m o c = V30 m o' c := by
  unfold V30; rw [V29_congr m o o' h10 h20 c, h30]
theorem V39_congr (o o' : Outs (F := F)) (h10 : o 10 = o' 10) (h20 : o 20 = o' 20) (h30 : o 30 = o' 30) (c : Dev nD) : V39 m o c = V39 m o' c := by
  unfold V39 V38 V37 V36 V35 V34 V33 V32 V31; rw [V30_congr m o o' h10 h20 h30 c]

def outs1 : Outs (F := F) := next 0 dat0 10 (fun _ => V9 m) fun _ r c => m ((c : Thread nD τ).loc r)
def outs2 : Outs (F := F) := next 1 dat1 20 (V19 m) (outs1 m)
def outs3 : Outs (F := F) := next 2 dat2 30 (V29 m) (outs2 m)
-- Each region's output arrays at their final contents, the region entered at the contents the fold through @main holds there.
def outsVal : Outs (F := F) := next 3 dat3 40 (V39 m) (outs3 m)

theorem outsVal_lt40 (J : ℕ) (h : J < 40) : outsVal m J = outs3 m J := next_of_ne _ _ _ _ _ J (Nat.ne_of_lt h)
theorem outsVal_lt30 (J : ℕ) (h : J < 30) : outsVal m J = outs2 m J :=
  (outsVal_lt40 m J (Nat.lt_trans h (by decide))).trans (next_of_ne _ _ _ _ _ J (Nat.ne_of_lt h))
theorem outsVal_lt20 (J : ℕ) (h : J < 20) : outsVal m J = outs1 m J :=
  (outsVal_lt30 m J (Nat.lt_trans h (by decide))).trans (next_of_ne _ _ _ _ _ J (Nat.ne_of_lt h))

-- Each region's entry contents read the earlier regions' items only, so they may be read at the last stage.
theorem Vin1 : V19 m (outsVal m) = V19 m (outs1 m) := funext fun c => V19_congr m _ _ (outsVal_lt20 m 10 (by decide)) c
theorem Vin2 : V29 m (outsVal m) = V29 m (outs2 m) := funext fun c =>
  V29_congr m _ _ (outsVal_lt30 m 10 (by decide)) (outsVal_lt30 m 20 (by decide)) c
theorem Vin3 : V39 m (outsVal m) = V39 m (outs3 m) := funext fun c =>
  V39_congr m _ _ (outsVal_lt40 m 10 (by decide)) (outsVal_lt40 m 20 (by decide)) (outsVal_lt40 m 30 (by decide)) c

-- At a region's own item the last stage holds what the region leaves, entered at the last stage's own fold.
theorem exit0 (r : Ref sig .tc) (c : Dev nD) : outsVal m 10 r c = exitOf 0 (dat0 fun c b => V9 m c b) (V9 m) c r :=
  (congrFun (congrFun (outsVal_lt20 m 10 (by decide)) r) c).trans (next_at ..)
theorem exit1 (r : Ref sig .tc) (c : Dev nD) :
    outsVal m 20 r c = exitOf 1 (dat1 fun c b => V19 m (outsVal m) c b) (V19 m (outsVal m)) c r := by
  rw [Vin1 m]; exact (congrFun (congrFun (outsVal_lt30 m 20 (by decide)) r) c).trans (next_at ..)
theorem exit2 (r : Ref sig .tc) (c : Dev nD) :
    outsVal m 30 r c = exitOf 2 (dat2 fun c b => V29 m (outsVal m) c b) (V29 m (outsVal m)) c r := by
  rw [Vin2 m]; exact (congrFun (congrFun (outsVal_lt40 m 30 (by decide)) r) c).trans (next_at ..)
theorem exit3 (r : Ref sig .tc) (c : Dev nD) :
    outsVal m 40 r c = exitOf 3 (dat3 fun c b => V39 m (outsVal m) c b) (V39 m (outsVal m)) c r := by
  rw [Vin3 m]; exact next_at ..

-- Each region's proof data, at the contents the fold holds at that region's entry.
def pdats : (p : Fin 4) → (c : Dev nD) → Dat τ (Elt F) Unit ℕ (UR sig nD τ) ℕ (cfgs p) c
  | ⟨0, _⟩ => dat0 fun c b => V9 m c b
  | ⟨1, _⟩ => dat1 fun c b => V19 m (outsVal m) c b
  | ⟨2, _⟩ => dat2 fun c b => V29 m (outsVal m) c b
  | ⟨3, _⟩ => dat3 fun c b => V39 m (outsVal m) c b

theorem outsVal_10_0 (c : Dev nD) : outsVal m 10 main_v8_0 c = (dat0 (fun c b => V9 m c b) c).arrAt 4 cfg0.N :=
  (exit0 m _ c).trans (exitOf_arr 0 _ launch0 _ c 4)
theorem outsVal_10_1 (c : Dev nD) : outsVal m 10 main_v8_1 c = (dat0 (fun c b => V9 m c b) c).arrAt 5 cfg0.N :=
  (exit0 m _ c).trans (exitOf_arr 0 _ launch0 _ c 5)
theorem outsVal_10_2 (c : Dev nD) : outsVal m 10 main_v8_2 c = (dat0 (fun c b => V9 m c b) c).arrAt 6 cfg0.N :=
  (exit0 m _ c).trans (exitOf_arr 0 _ launch0 _ c 6)
theorem outsVal_20_0 (c : Dev nD) : outsVal m 20 main_v68_0 c = (dat1 (fun c b => V19 m (outsVal m) c b) c).arrAt 4 cfg1.N :=
  (exit1 m _ c).trans (exitOf_arr 1 _ launch1 _ c 4)
theorem outsVal_20_1 (c : Dev nD) : outsVal m 20 main_v68_1 c = (dat1 (fun c b => V19 m (outsVal m) c b) c).arrAt 5 cfg1.N :=
  (exit1 m _ c).trans (exitOf_arr 1 _ launch1 _ c 5)
theorem outsVal_20_2 (c : Dev nD) : outsVal m 20 main_v68_2 c = (dat1 (fun c b => V19 m (outsVal m) c b) c).arrAt 6 cfg1.N :=
  (exit1 m _ c).trans (exitOf_arr 1 _ launch1 _ c 6)
theorem outsVal_30_0 (c : Dev nD) : outsVal m 30 main_v109_0 c = (dat2 (fun c b => V29 m (outsVal m) c b) c).arrAt 4 cfg2.N :=
  (exit2 m _ c).trans (exitOf_arr 2 _ launch2 _ c 4)
theorem outsVal_30_1 (c : Dev nD) : outsVal m 30 main_v109_1 c = (dat2 (fun c b => V29 m (outsVal m) c b) c).arrAt 5 cfg2.N :=
  (exit2 m _ c).trans (exitOf_arr 2 _ launch2 _ c 5)
theorem outsVal_30_2 (c : Dev nD) : outsVal m 30 main_v109_2 c = (dat2 (fun c b => V29 m (outsVal m) c b) c).arrAt 6 cfg2.N :=
  (exit2 m _ c).trans (exitOf_arr 2 _ launch2 _ c 6)
theorem outsVal_40_0 (c : Dev nD) : outsVal m 40 main_v150_0 c = (dat3 (fun c b => V39 m (outsVal m) c b) c).arrAt 4 cfg3.N :=
  (exit3 m _ c).trans (exitOf_arr 3 _ launch3 _ c 4)
theorem outsVal_40_1 (c : Dev nD) : outsVal m 40 main_v150_1 c = (dat3 (fun c b => V39 m (outsVal m) c b) c).arrAt 5 cfg3.N :=
  (exit3 m _ c).trans (exitOf_arr 3 _ launch3 _ c 5)
theorem outsVal_40_2 (c : Dev nD) : outsVal m 40 main_v150_2 c = (dat3 (fun c b => V39 m (outsVal m) c b) c).arrAt 6 cfg3.N :=
  (exit3 m _ c).trans (exitOf_arr 3 _ launch3 _ c 6)

set_option backward.isDefEq.respectTransparency.types false in
-- Every weakly fair execution of @main from `m` terminates with the result buffer at the fold's last contents and every argument as launched.
theorem run_val (ρ : Dev nD → PrngReg) :
    θ_run defs (onTc (τ := τ) (main (F := F))) ⟨m, fun _ => 0, ρ⟩ (fun r => ∀ c : Dev nD,
      r.2.mem ((c.tc : Thread nD τ).loc main_v215) = V43 m (outsVal m) c main_v215
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m (EP := emb₁) (ι := ()) (𝒱₀ := 𝒱₀) (L := L) (lv := lv) (hL := fun _ _ => rfl) (ρ := ρ) (outs := outsVal m) (pdats := pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, Howes, -, Hprng, -⟩, -⟩
      imodintro
      isplitl [Hprng]
      · iexists _; iexact Hprng
      iexists ∅; iexact Howes)
    (hE4 := fun c => by
      iintro ⟨-, Howes⟩
      iexact Howes)
    (R0 := mkReg (pdats m) 0 launch0 (V9 m) (outsVal m) 10 main_v8_0 main_v8_1 main_v8_2 (by decide) (exit0 m) (fun _ _ => rfl)
      (fun _ _ => rfl) (fun _ _ => rfl) (fun _ => rfl) (body_obligation0 _) (hin0 _) (hout0 _))
    (hpre0 := fun c => .rfl) (hpost0 := fun c => .rfl)
    (R1 := mkReg (pdats m) 1 launch1 (V19 m (outsVal m)) (outsVal m) 20 main_v68_0 main_v68_1 main_v68_2 (by decide) (exit1 m) (fun _ _ => rfl)
      (fun _ _ => rfl) (fun _ _ => rfl) (fun _ => rfl) (body_obligation1 _) (hin1 _) (hout1 _))
    (hpre1 := fun c => .rfl) (hpost1 := fun c => .rfl)
    (R2 := mkReg (pdats m) 2 launch2 (V29 m (outsVal m)) (outsVal m) 30 main_v109_0 main_v109_1 main_v109_2 (by decide) (exit2 m) (fun _ _ => rfl)
      (fun _ _ => rfl) (fun _ _ => rfl) (fun _ => rfl) (body_obligation2 _) (hin2 _) (hout2 _))
    (hpre2 := fun c => .rfl) (hpost2 := fun c => .rfl)
    (R3 := mkReg (pdats m) 3 launch3 (V39 m (outsVal m)) (outsVal m) 40 main_v150_0 main_v150_1 main_v150_2 (by decide) (exit3 m) (fun _ _ => rfl)
      (fun _ _ => rfl) (fun _ _ => rfl) (fun _ => rfl) (body_obligation3 _) (hin3 _) (hout3 _))
    (hpre3 := fun c => .rfl) (hpost3 := fun c => .rfl)

end Cert.KernelIdeal.Hand

end
-- ==== Proof.RI.Res.lean ====
import proofs.«429142_j41094247088744_3_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape S and element type e over the float values F. -/
abbrev C (F : FTy → Type) (S : Shape) (e : EltTy) := (⟨S, e⟩ : BufTy).Contents (Elt F)

abbrev Mem (F : FTy → Type) := (ℓ : Loc nD τ sig) → Buf (Elt F) ℓ

abbrev Sh2 (a b : ℕ) : Shape := ⟨2, ![a, b]⟩
abbrev Sh1 (a : ℕ) : Shape := ⟨1, ![a]⟩

/-- The fifteen argument arrays of the program. -/
abbrev a0 (m : Mem F) (c : Dev nD) : C F S1024x1024 .f32 := m ((c.tc : Thread nD τ).loc main_arg0)
abbrev a1 (m : Mem F) (c : Dev nD) : C F S1024 .i32 := m ((c.tc : Thread nD τ).loc main_arg1)
abbrev a2 (m : Mem F) (c : Dev nD) : C F S20000x1024 .f32 := m ((c.tc : Thread nD τ).loc main_arg2)
abbrev a3 (m : Mem F) (c : Dev nD) : C F S20000 .f32 := m ((c.tc : Thread nD τ).loc main_arg3)
abbrev a4 (m : Mem F) (c : Dev nD) : C F S3x1024 .f32 := m ((c.tc : Thread nD τ).loc main_arg4)
abbrev a5 (m : Mem F) (c : Dev nD) : C F S3 .f32 := m ((c.tc : Thread nD τ).loc main_arg5)
abbrev a6 (m : Mem F) (c : Dev nD) : C F S256x1024 .f32 := m ((c.tc : Thread nD τ).loc main_arg6)
abbrev a7 (m : Mem F) (c : Dev nD) : C F S20000x256 .f32 := m ((c.tc : Thread nD τ).loc main_arg7)
abbrev a8 (m : Mem F) (c : Dev nD) : C F S20000 .f32 := m ((c.tc : Thread nD τ).loc main_arg8)
abbrev a9 (m : Mem F) (c : Dev nD) : C F S64x1024 .f32 := m ((c.tc : Thread nD τ).loc main_arg9)
abbrev a10 (m : Mem F) (c : Dev nD) : C F S160000x64 .f32 := m ((c.tc : Thread nD τ).loc main_arg10)
abbrev a11 (m : Mem F) (c : Dev nD) : C F S160000 .f32 := m ((c.tc : Thread nD τ).loc main_arg11)
abbrev a12 (m : Mem F) (c : Dev nD) : C F S16x1024 .f32 := m ((c.tc : Thread nD τ).loc main_arg12)
abbrev a13 (m : Mem F) (c : Dev nD) : C F S67735x16 .f32 := m ((c.tc : Thread nD τ).loc main_arg13)
abbrev a14 (m : Mem F) (c : Dev nD) : C F S67735 .f32 := m ((c.tc : Thread nD τ).loc main_arg14)

section Width

variable {W : ℕ}

/-- Each row less its maximum. -/
def sh (hb : S1024x1.BroadcastsInDim (Sh2 1024 W) (![0, 1] : Fin 2 → Fin (Sh2 1024 W).rank)) (hr : (Sh2 1024 W).ReducesTo [1] S1024)
    (x : C F (Sh2 1024 W) .f32) : C F (Sh2 1024 W) .f32 :=
  subf x (broadcastInDim (Sh2 1024 W) ![0, 1] hb (broadcastInDim S1024x1 ![0] bcast_S1024_S1024x1_0
    (maximumf (broadcastInDim S1024 ![] bcast_S_S1024 (constant S_ .f32 0xFF800000#32))
      (Host.reduce FloatOps.maximumf x (constant S_ .f32 0xFF800000#32) hr h_S_))))

/-- Each shifted row less the logarithm of the sum of its exponentials. -/
def lsm (hb : S1024x1.BroadcastsInDim (Sh2 1024 W) (![0, 1] : Fin 2 → Fin (Sh2 1024 W).rank)) (hr : (Sh2 1024 W).ReducesTo [1] S1024)
    (x : C F (Sh2 1024 W) .f32) : C F (Sh2 1024 W) .f32 :=
  subf (sh hb hr x) (broadcastInDim (Sh2 1024 W) ![0, 1] hb (Host.log (broadcastInDim S1024x1 ![0] bcast_S1024_S1024x1_0
    (Host.reduceAdd (Host.exp (sh hb hr x)) (constant S_ .f32 0x00000000#32) hr h_S_))))

/-- A vector of integers clipped to lo … hi. -/
def clip (x : C F S1024 .i32) (lo hi : C F S_ .i32) : C F S1024 .i32 :=
  minsi (broadcastInDim S1024 ![] bcast_S_S1024 (id hi)) (maxsi (broadcastInDim S1024 ![] bcast_S_S1024 (id lo)) x)

/-- A negative column index has the width w added. -/
def wrap (w : BitVec 32) (i : C F S1024x1 .i32) : C F S1024x1x1 .i32 :=
  fun j => shapeCast S1024x1x1 (select (cmpi .slt i (broadcastInDim S1024x1 ![] bcast_S_S1024x1 (constantI S_ 32 0#32)))
    (addi i (broadcastInDim S1024x1 ![] bcast_S_S1024x1 (constantI S_ 32 w))) i) shapeCasts_S1024x1_S1024x1x1 j

/-- Whether each index lies in 0 … hi. -/
def inb (hi : BitVec 32) (i : C F S1024x1x1 .i32) : C F S1024x1 .i1 :=
  Host.reduce IntOp.andi (andi (cmpi .sge i (broadcastInDim S1024x1x1 ![] bcast_S_S1024x1x1 (constantI S_ 32 0#32)))
      (cmpi .sle i (broadcastInDim S1024x1x1 ![0, 1, 2] bcast_S1x1x1_S1024x1x1_0_1_2 (broadcastInDim S1x1x1 ![2] bcast_S1_S1x1x1_2 (constantI S1 32 hi)))))
    (constantI S_ 1 1#1) reducesTo_S1024x1x1_S1024x1_d2 h_S_

/-- Each row read at its index where that lies in 0 … hi, a NaN elsewhere. -/
def take (g : GatherDims (Sh2 1024 W) S1024x1x1 S1024x1) (w hi : BitVec 32) (x : C F (Sh2 1024 W) .f32) (i : C F S1024x1 .i32) : C F S1024x1 .f32 :=
  select (inb hi (wrap w i)) (Host.gather g x (wrap w i)) (broadcastInDim S1024x1 ![] bcast_S_S1024x1 (constant S_ .f32 0x7FC00000#32))

variable {D : ℕ}

/-- The hidden states projected to D features, times the transposed table of W rows, plus the bias row. -/
def clusterLogits (t1 : (Sh2 D 1024).Transposes [1, 0] (Sh2 1024 D)) (d1 : DotDims S1024x1024 (Sh2 1024 D) (Sh2 1024 D))
    (t2 : (Sh2 W D).Transposes [1, 0] (Sh2 D W)) (d2 : DotDims (Sh2 1024 D) (Sh2 D W) (Sh2 1024 W))
    (b1 : (Sh1 W).BroadcastsInDim (Sh2 1 W) (![1] : Fin 1 → Fin (Sh2 1 W).rank))
    (b2 : (Sh2 1 W).BroadcastsInDim (Sh2 1024 W) (![0, 1] : Fin 2 → Fin (Sh2 1024 W).rank))
    (x : C F S1024x1024 .f32) (p : C F (Sh2 D 1024) .f32) (w : C F (Sh2 W D) .f32) (b : C F (Sh1 W) .f32) : C F (Sh2 1024 W) .f32 :=
  addf (Host.dotGeneral d2 none (Host.dotGeneral d1 none x (transpose (Sh2 1024 D) [1, 0] p t1)) (transpose (Sh2 D W) [1, 0] w t2))
    (broadcastInDim (Sh2 1024 W) ![0, 1] b2 (broadcastInDim (Sh2 1 W) ![1] b1 b))

/-- Column col of the head's log-probabilities plus the cluster's log-probability at the target less off, clipped to 0 … hi. -/
def candidate (col : ℕ) (hs : S1024x20003.Slices ![0, col] S1024x1) (g : GatherDims (Sh2 1024 W) S1024x1x1 S1024x1) (w hi off : BitVec 32)
    (h : C F S1024x20003 .f32) (l : C F (Sh2 1024 W) .f32) (t : C F S1024 .i32) : C F S1024 .f32 :=
  addf (fun i => shapeCast S1024 (extractStridedSlice S1024x1 ![0, col] h hs) shapeCasts_S1024x1_S1024 i)
    (fun i => shapeCast S1024 (take g w hi l (broadcastInDim S1024x1 ![0] bcast_S1024_S1024x1_0
      (clip (subi t (broadcastInDim S1024 ![] bcast_S_S1024 (constantI S_ 32 off))) (constantI S_ 32 0#32) (constantI S_ 32 hi)))) shapeCasts_S1024x1_S1024 i)

end Width

/-- Two blocks of columns side by side. -/
def headCat (a : C F S1024x20000 .f32) (b : C F S1024x3 .f32) : C F S1024x20003 .f32 :=
  concatenate S1024x20003 1 [⟨S1024x20000, a⟩, ⟨S1024x3, b⟩] concatenates_S1024x20000_S1024x3_S1024x20003_d1

/-- The head's logits: the 20000 head columns beside the 3 cluster columns. -/
def res_v10 (m : Mem F) (c : Dev nD) : C F S1024x20003 .f32 :=
  headCat
    (addf (Host.dotGeneral dot_S1024x1024_S1024x20000_S1024x20000_1_0_0_1_n_n none (a0 m c) (transpose S1024x20000 [1, 0] (a2 m c) transposes_S20000x1024_S1024x20000_1_0))
      (broadcastInDim S1024x20000 ![0, 1] bcast_S1x20000_S1024x20000_0_1 (broadcastInDim S1x20000 ![1] bcast_S20000_S1x20000_1 (a3 m c))))
    (addf (Host.dotGeneral dot_S1024x1024_S1024x3_S1024x3_1_0_0_1_n_n none (a0 m c) (transpose S1024x3 [1, 0] (a4 m c) transposes_S3x1024_S1024x3_1_0))
      (broadcastInDim S1024x3 ![0, 1] bcast_S1x3_S1024x3_0_1 (broadcastInDim S1x3 ![1] bcast_S3_S1x3_1 (a5 m c))))

def res_v11 (m : Mem F) (c : Dev nD) : C F S1024x20003 .f32 :=
  lsm (W := 20003) bcast_S1024x1_S1024x20003_0_1 reducesTo_S1024x20003_S1024_d1 (res_v10 m c)

def res_v29 (m : Mem F) (c : Dev nD) : C F S1024x20000 .f32 :=
  clusterLogits (D := 256) (W := 20000) transposes_S256x1024_S1024x256_1_0 dot_S1024x1024_S1024x256_S1024x256_1_0_0_1_n_n
    transposes_S20000x256_S256x20000_1_0 dot_S1024x256_S256x20000_S1024x20000_1_0_0_1_n_n bcast_S20000_S1x20000_1 bcast_S1x20000_S1024x20000_0_1
    (a0 m c) (a6 m c) (a7 m c) (a8 m c)

def res_v30 (m : Mem F) (c : Dev nD) : C F S1024x20000 .f32 :=
  lsm (W := 20000) bcast_S1024x1_S1024x20000_0_1 reducesTo_S1024x20000_S1024_d1 (res_v29 m c)

def res_v46 (m : Mem F) (c : Dev nD) : C F S1024x160000 .f32 :=
  clusterLogits (D := 64) (W := 160000) transposes_S64x1024_S1024x64_1_0 dot_S1024x1024_S1024x64_S1024x64_1_0_0_1_n_n
    transposes_S160000x64_S64x160000_1_0 dot_S1024x64_S64x160000_S1024x160000_1_0_0_1_n_n bcast_S160000_S1x160000_1 bcast_S1x160000_S1024x160000_0_1
    (a0 m c) (a9 m c) (a10 m c) (a11 m c)

def res_v47 (m : Mem F) (c : Dev nD) : C F S1024x160000 .f32 :=
  lsm (W := 160000) bcast_S1024x1_S1024x160000_0_1 reducesTo_S1024x160000_S1024_d1 (res_v46 m c)

def res_v63 (m : Mem F) (c : Dev nD) : C F S1024x67735 .f32 :=
  clusterLogits (D := 16) (W := 67735) transposes_S16x1024_S1024x16_1_0 dot_S1024x1024_S1024x16_S1024x16_1_0_0_1_n_n
    transposes_S67735x16_S16x67735_1_0 dot_S1024x16_S16x67735_S1024x67735_1_0_0_1_n_n bcast_S67735_S1x67735_1 bcast_S1x67735_S1024x67735_0_1
    (a0 m c) (a12 m c) (a13 m c) (a14 m c)

def res_v64 (m : Mem F) (c : Dev nD) : C F S1024x67735 .f32 :=
  lsm (W := 67735) bcast_S1024x1_S1024x67735_0_1 reducesTo_S1024x67735_S1024_d1 (res_v63 m c)

def res_v22 (m : Mem F) (c : Dev nD) : C F S1024 .f32 :=
  fun i => shapeCast S1024 (take (W := 20003) gather_S1024x20003_S1024x1x1_S1024x1_n_1_0_0_1_2_11 20003#32 20002#32 (res_v11 m c)
    (broadcastInDim S1024x1 ![0] bcast_S1024_S1024x1_0 (clip (a1 m c) (constantI S_ 32 0#32) (constantI S_ 32 19999#32)))) shapeCasts_S1024x1_S1024 i

def res_v39 (m : Mem F) (c : Dev nD) : C F S1024 .f32 :=
  candidate (W := 20000) 20002 slices_S1024x20003_S1024x1_0_20002 gather_S1024x20000_S1024x1x1_S1024x1_n_1_0_0_1_2_11 20000#32 19999#32 20000#32
    (res_v11 m c) (res_v30 m c) (a1 m c)

def res_v56 (m : Mem F) (c : Dev nD) : C F S1024 .f32 :=
  candidate (W := 160000) 20001 slices_S1024x20003_S1024x1_0_20001 gather_S1024x160000_S1024x1x1_S1024x1_n_1_0_0_1_2_11 160000#32 159999#32 40000#32
    (res_v11 m c) (res_v47 m c) (a1 m c)

def res_v73 (m : Mem F) (c : Dev nD) : C F S1024 .f32 :=
  candidate (W := 67735) 20000 slices_S1024x20003_S1024x1_0_20000 gather_S1024x67735_S1024x1x1_S1024x1_n_1_0_0_1_2_11 67735#32 67734#32 200000#32
    (res_v11 m c) (res_v64 m c) (a1 m c)

/-- How many of the three cut-offs the target has reached. -/
def res_v18 (m : Mem F) (c : Dev nD) : C F S1024 .i32 :=
  Host.reduce IntOp.addi (extui 32 (cmpi .sge
      (broadcastInDim S1024x3 ![0, 1] bcast_S1024x1_S1024x3_0_1 (broadcastInDim S1024x1 ![0] bcast_S1024_S1024x1_0 (a1 m c)))
      (broadcastInDim S1024x3 ![0, 1] bcast_S1x3_S1024x3_0_1 (broadcastInDim S1x3 ![1] bcast_S3_S1x3_1 (fun i => lit0 (S3.rowMajor i))))) natLt_1_32)
    (constantI S_ 32 0#32) reducesTo_S1024x3_S1024_d1 h_S_

def isRow (n : BitVec 32) (m : Mem F) (c : Dev nD) : C F S1x1024 .i1 :=
  broadcastInDim S1x1024 ![1] bcast_S1024_S1x1024_1 (cmpi .eq (res_v18 m c) (broadcastInDim S1024 ![] bcast_S_S1024 (constantI S_ 32 n)))

def stack5 (r0 r1 r2 r3 r4 : C F S1x1024 .i1) : C F S5x1024 .i1 :=
  concatenate S5x1024 0 [⟨S1x1024, r0⟩, ⟨S1x1024, r1⟩, ⟨S1x1024, r2⟩, ⟨S1x1024, r3⟩, ⟨S1x1024, r4⟩]
    concatenates_S1x1024_S1x1024_S1x1024_S1x1024_S1x1024_S5x1024_d0

def res_v88 (m : Mem F) (c : Dev nD) : C F S5x1024 .i1 :=
  stack5 (broadcastInDim S1x1024 ![1] bcast_S1024_S1x1024_1 (broadcastInDim S1024 ![] bcast_S_S1024 (constantI S_ 1 0#1)))
    (isRow 0#32 m c) (isRow 1#32 m c) (isRow 2#32 m c) (isRow 3#32 m c)

/-- The number of the first of the five stacked masks that holds. -/
def res_v89 (m : Mem F) (c : Dev nD) : C F S1024 .i32 :=
  fun j => (Host.reduce2 reducer_argmax_i1_i32 (res_v88 m c) (iotaInDim S5x1024 32 0) (constantI S_ 1 0#1) (constantI S_ 32 0#32) reducesTo_S5x1024_S1024_d0 h_S_ j).2

def below (n : BitVec 32) (m : Mem F) (c : Dev nD) : C F S1024 .i1 :=
  cmpi .slt (res_v89 m c) (broadcastInDim S1024 ![] bcast_S_S1024 (constantI S_ 32 n))

/-- The candidate the count selects, negated. -/
def resR (m : Mem F) (c : Dev nD) : C F S1024 .f32 :=
  Host.negf (select (below 2#32 m c)
    (select (below 1#32 m c) (broadcastInDim S1024 ![] bcast_S_S1024 (constant S_ .f32 0x00000000#32)) (res_v22 m c))
    (select (below 3#32 m c) (res_v39 m c) (select (below 4#32 m c) (res_v56 m c) (res_v73 m c))))

end Cert.ReferenceIdeal.Hand

end
-- ==== Proof.RI.Segs.lean ====
import proofs.«429142_j41094247088744_3_alg».proof.Proof.RI.Res
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- If each operation writes exactly the buffer listed beside it, the line writes listed buffers only. -/
theorem writes_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset := by
  suffices H : ∀ W' : List (Ref sig .tc), (∀ y ∈ W, y ∈ W') →
      ops.Forall fun op => op.writes ⊆ (W'.map (Proc.devRef (τ := τ) .tc)).toFinset from H W fun _ hy => hy
  intro W'
  induction h with
  | nil => exact fun _ => trivial
  | cons e _ ih =>
    intro hW
    rw [List.forall_cons]
    exact ⟨e ▸ Finset.singleton_subset_iff.mpr (List.mem_toFinset.mpr (List.mem_map_of_mem (hW _ List.mem_cons_self))),
      ih fun y hy => hW y (List.mem_cons_of_mem _ hy)⟩

abbrev sg0_v10 : List (HloOp τ sig (Elt F)) :=
  [ StableHlo.nullary main_c (fun i => lit0 (S3.rowMajor i)),
    StableHlo.unary main_arg2 main_v0 ((transpose S1024x20000 [1, 0] · transposes_S20000x1024_S1024x20000_1_0) : (⟨S20000x1024, .f32⟩ : BufTy).Contents (Elt F) → (⟨S1024x20000, .f32⟩ : BufTy).Contents (Elt F)),
    StableHlo.binary main_arg0 main_v0 main_v1 ((fun l r => Host.dotGeneral dot_S1024x1024_S1024x20000_S1024x20000_1_0_0_1_n_n none l r) : (⟨S1024x1024, .f32⟩ : BufTy).Contents (Elt F) → (⟨S1024x20000, .f32⟩ : BufTy).Contents (Elt F) → (⟨S1024x20000, .f32⟩ : BufTy).Contents (Elt F)),
    StableHlo.unary main_arg3 main_v2 (broadcastInDim S1x20000 ![1] bcast_S20000_S1x20000_1 : (⟨S20000, .f32⟩ : BufTy).Contents (Elt F) → (⟨S1x20000, .f32⟩ : BufTy).Contents (Elt F)),
    StableHlo.unary main_v2 main_v3 (broadcastInDim S1024x20000 ![0, 1] bcast_S1x20000_S1024x20000_0_1 : (⟨S1x20000, .f32⟩ : BufTy).Contents (Elt F) → (⟨S1024x20000, .f32⟩ : BufTy).Contents (Elt F)),
    StableHlo.binary main_v1 main_v3 main_v4 (addf : (⟨S1024x20000, .f32⟩ : BufTy).Contents (Elt F) → (⟨S1024x20000, .f32⟩ : BufTy).Contents (Elt F) → (⟨S1024x20000, .f32⟩ : BufTy).Contents (Elt F)),
    StableHlo.unary main_arg4 main_v5 ((transpose S1024x3 [1, 0] · transposes_S3x1024_S1024x3_1_0) : (⟨S3x1024, .f32⟩ : BufTy).Contents (Elt F) → (⟨S1024x3, .f32⟩ : BufTy).Contents (Elt F)),
    StableHlo.binary main_arg0 main_v5 main_v6 ((fun l r => Host.dotGeneral dot_S1024x1024_S1024x3_S1024x3_1_0_0_1_n_n none l r) : (⟨S1024x1024, .f32⟩ : BufTy).Contents (Elt F) → (⟨S1024x3, .f32⟩ : BufTy).Contents (Elt F) → (⟨S1024x3, .f32⟩ : BufTy).Contents (Elt F)),
    StableHlo.unary main_arg5 main_v7 (broadcastInDim S1x3 ![1] bcast_S3_S1x3_1 : (⟨S3, .f32⟩ : BufTy).Contents (Elt F) → (⟨S1x3, .f32⟩ : BufTy).Contents (Elt F)),
    StableHlo.unary main_v7 main_v8 (broadcastInDim S1024x3 ![0, 1] bcast_S1x3_S1024x3_0_1 : (⟨S1x3, .f32⟩ : BufTy).Contents (Elt F) → (⟨S1024x3, .f32⟩ : BufTy).Contents (Elt F)),
    StableHlo.binary main_v6 main_v8 main_v9 (addf : (⟨S1024x3, .f32⟩ : BufTy).Contents (Elt F) → (⟨S1024x3, .f32⟩ : BufTy).Contents (Elt F) → (⟨S1024x3, .f32⟩ : BufTy).Contents (Elt F)),
    StableHlo.binary main_v4 main_v9 main_v10 (headCat : (⟨S1024x20000, .f32⟩ : BufTy).Contents (Elt F) → (⟨S1024x3, .f32⟩ : BufTy).Contents (Elt F) → (⟨S1024x20003, .f32⟩ : BufTy).Contents (Elt F)) ]

abbrev sg0_v10_W : List (Ref sig .tc) := [main_c, main_v0, main_v1, main_v2, main_v3, main_v4, main_v5, main_v6, main_v7, main_v8, main_v9, main_v10]
theorem sg0_v10_writes : (sg0_v10 : List (HloOp τ sig (Elt F))).Forall fun op => op.writes ⊆ (sg0_v10_W.map (Proc.devRef (τ := τ) .tc)).toFinset :=
  writes_of_forall₂ (by repeat' constructor)

abbrev sg0_v11a : List (HloOp τ sig (Elt F)) :=
  [ StableHlo.TRef.nullary main_call0.cst (constant S_ .f32 0xFF800000#32),
    StableHlo.TRef.binary (.of main_v10 : StableHlo.TRef sig ⟨S1024x20003, .f32⟩) main_call0.cst main_call0.v0 (fun x v => Host.reduce FloatOps.maximumf x v reducesTo_S1024x20003_S1024_d1 h_S_),
    StableHlo.TRef.nullary main_call0.cst_0 (constant S_ .f32 0xFF800000#32),
    StableHlo.TRef.unary main_call0.cst_0 main_call0.v1 (broadcastInDim S1024 ![] bcast_S_S1024),
    StableHlo.TRef.binary main_call0.v1 main_call0.v0 main_call0.v2 maximumf,
    StableHlo.TRef.unary main_call0.v2 main_call0.v3 (broadcastInDim S1024x1 ![0] bcast_S1024_S1024x1_0),
    StableHlo.TRef.unary main_call0.v3 main_call0.v4 (broadcastInDim S1024x20003 ![0, 1] bcast_S1024x1_S1024x20003_0_1),
    StableHlo.TRef.binary (.of main_v10 : StableHlo.TRef sig ⟨S1024x20003, .f32⟩) main_call0.v4 main_call0.v5 subf ]

abbrev sg0_v11a_W : List (Ref sig .tc) := [main_call0.cst.ref, main_call0.v0.ref, main_call0.cst_0.ref, main_call0.v1.ref, main_call0.v2.ref, main_call0.v3.ref, main_call0.v4.ref, main_call0.v5.ref]
theorem sg0_v11a_writes : (sg0_v11a : List (HloOp τ sig (Elt F))).Forall fun op => op.writes ⊆ (sg0_v11a_W.map (Proc.devRef (τ := τ) .tc)).toFinset :=
  writes_of_forall₂ (by repeat' constructor)

abbrev sg0_v11b : List (HloOp τ sig (Elt F)) :=
  [ StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S1024x20003_S1024_d1 h_S_),
    StableHlo.TRef.unary main_call0.v7 main_call0.v8 (broadcastInDim S1024x1 ![0] bcast_S1024_S1024x1_0),
    StableHlo.TRef.unary main_call0.v8 main_call0.v9 Host.log,
    StableHlo.TRef.unary main_call0.v9 main_call0.v10 (broadcastInDim S1024x20003 ![0, 1] bcast_S1024x1_S1024x20003_0_1) ]

abbrev sg0_v11b_W : List (Ref sig .tc) := [main_call0.v6.ref, main_call0.cst_1.ref, main_call0.v7.ref, main_call0.v8.ref, main_call0.v9.ref, main_call0.v10.ref]
theorem sg0_v11b_writes : (sg0_v11b : List (HloOp τ sig (Elt F))).Forall fun op => op.writes ⊆ (sg0_v11b_W.map (Proc.devRef (τ := τ) .tc)).toFinset :=
  writes_of_forall₂ (by repeat' constructor)

abbrev sg0_v11 : List (HloOp τ sig (Elt F)) :=
  [ StableHlo.TRef.binary main_call0.v5 main_call0.v10 main_call0.v11 subf ]

abbrev sg0_v11_W : List (Ref sig .tc) := [main_call0.v11.ref]
theorem sg0_v11_writes : (sg0_v11 : List (HloOp τ sig (Elt F))).Forall fun op => op.writes ⊆ (sg0_v11_W.map (Proc.devRef (τ := τ) .tc)).toFinset :=
  writes_of_forall₂ (by repeat' constructor)

abbrev sg0_v18 : List (HloOp τ sig (Elt F)) :=
  [ StableHlo.unary main_arg1 main_v12 (broadcastInDim S1024x1 ![0] bcast_S1024_S1024x1_0 : (⟨S1024, .i32⟩ : BufTy).Contents (Elt F) → (⟨S1024x1, .i32⟩ : BufTy).Contents (Elt F)),
    StableHlo.unary main_c main_v13 (broadcastInDim S1x3 ![1] bcast_S3_S1x3_1 : (⟨S3, .i32⟩ : BufTy).Contents (Elt F) → (⟨S1x3, .i32⟩ : BufTy).Contents (Elt F)),
    StableHlo.unary main_v12 main_v14 (broadcastInDim S1024x3 ![0, 1] bcast_S1024x1_S1024x3_0_1 : (⟨S1024x1, .i32⟩ : BufTy).Contents (Elt F) → (⟨S1024x3, .i32⟩ : BufTy).Contents (Elt F)),
    StableHlo.unary main_v13 main_v15 (broadcastInDim S1024x3 ![0, 1] bcast_S1x3_S1024x3_0_1 : (⟨S1x3, .i32⟩ : BufTy).Contents (Elt F) → (⟨S1024x3, .i32⟩ : BufTy).Contents (Elt F)),
    StableHlo.binary main_v14 main_v15 main_v16 (cmpi .sge : (⟨S1024x3, .i32⟩ : BufTy).Contents (Elt F) → (⟨S1024x3, .i32⟩ : BufTy).Contents (Elt F) → (⟨S1024x3, .i1⟩ : BufTy).Contents (Elt F)),
    StableHlo.unary main_v16 main_v17 ((extui 32 · natLt_1_32) : (⟨S1024x3, .i1⟩ : BufTy).Contents (Elt F) → (⟨S1024x3, .i32⟩ : BufTy).Contents (Elt F)),
    StableHlo.nullary main_c_0 (constantI S_ 32 0#32),
    StableHlo.binary main_v17 main_c_0 main_v18 ((fun x v => Host.reduce IntOp.addi x v reducesTo_S1024x3_S1024_d1 h_S_) : (⟨S1024x3, .i32⟩ : BufTy).Contents (Elt F) → (⟨S_, .i32⟩ : BufTy).Contents (Elt F) → (⟨S1024, .i32⟩ : BufTy).Contents (Elt F)) ]

abbrev sg0_v18_W : List (Ref sig .tc) := [main_v12, main_v13, main_v14, main_v15, main_v16, main_v17, main_c_0, main_v18]
theorem sg0_v18_writes : (sg0_v18 : List (HloOp τ sig (Elt F))).Forall fun op => op.writes ⊆ (sg0_v18_W.map (Proc.devRef (τ := τ) .tc)).toFinset :=
  writes_of_forall₂ (by repeat' constructor)

abbrev sg0_v19 : List (HloOp τ sig (Elt F)) :=
  [ StableHlo.nullary main_c_1 (constantI S_ 32 0#32),
    StableHlo.nullary main_c_2 (constantI S_ 32 19999#32),
    StableHlo.TRef.unary (.of main_c_1 : StableHlo.TRef sig ⟨S_, .i32⟩) main_call1.v0 id,
    StableHlo.TRef.unary main_call1.v0 main_call1.v1 (broadcastInDim S1024 ![] bcast_S_S1024),
    StableHlo.TRef.binary main_call1.v1 (.of main_arg1 : StableHlo.TRef sig ⟨S1024, .i32⟩) main_call1.v2 maxsi,
    StableHlo.TRef.unary (.of main_c_2 : StableHlo.TRef sig ⟨S_, .i32⟩) main_call1.v3 id,
    StableHlo.TRef.unary main_call1.v3 main_call1.v4 (broadcastInDim S1024 ![] bcast_S_S1024),
    StableHlo.TRef.binary main_call1.v4 main_call1.v2 main_call1.v5 minsi ]

abbrev sg0_v19_W : List (Ref sig .tc) := [main_c_1, main_c_2, main_call1.v0.ref, main_call1.v1.ref, main_call1.v2.ref, main_call1.v3.ref, main_call1.v4.ref, main_call1.v5.ref]
theorem sg0_v19_writes : (sg0_v19 : List (HloOp τ sig (Elt F))).Forall fun op => op.writes ⊆ (sg0_v19_W.map (Proc.devRef (τ := τ) .tc)).toFinset :=
  writes_of_forall₂ (by repeat' constructor)

abbrev sg0_v20 : List (HloOp τ sig (Elt F)) :=
  [ StableHlo.unary main_v19 main_v20 (broadcastInDim S1024x1 ![0] bcast_S1024_S1024x1_0 : (⟨S1024, .i32⟩ : BufTy).Contents (Elt F) → (⟨S1024x1, .i32⟩ : BufTy).Contents (Elt F)) ]

abbrev sg0_v20_W : List (Ref sig .tc) := [main_v20]
theorem sg0_v20_writes : (sg0_v20 : List (HloOp τ sig (Elt F))).Forall fun op => op.writes ⊆ (sg0_v20_W.map (Proc.devRef (τ := τ) .tc)).toFinset :=
  writes_of_forall₂ (by repeat' constructor)

abbrev sg0_v21 : List (HloOp τ sig (Elt F)) :=
  [ StableHlo.TRef.nullary main_call2.c (constantI S_ 32 0#32),
    StableHlo.TRef.unary main_call2.c main_call2.v0 (broadcastInDim S1024x1 ![] bcast_S_S1024x1),
    StableHlo.TRef.binary (.of main_v20 : StableHlo.TRef sig ⟨S1024x1, .i32⟩) main_call2.v0 main_call2.v1 (cmpi .slt),
    StableHlo.TRef.nullary main_call2.c_0 (constantI S_ 32 20003#32),
    StableHlo.TRef.unary main_call2.c_0 main_call2.v2 (broadcastInDim S1024x1 ![] bcast_S_S1024x1),
    StableHlo.TRef.binary (.of main_v20 : StableHlo.TRef sig ⟨S1024x1, .i32⟩) main_call2.v2 main_call2.v3 addi,
    StableHlo.TRef.ternary main_call2.v1 main_call2.v3 (.of main_v20 : StableHlo.TRef sig ⟨S1024x1, .i32⟩) main_call2.v4 select,
    StableHlo.TRef.reshape main_call2.v4 main_call2.v5 rfl shapeCasts_S1024x1_S1024x1x1,
    StableHlo.TRef.nullary main_call2.c_1 (constantI S1 32 20002#32),
    StableHlo.TRef.nullary main_call2.c_2 (constantI S_ 32 0#32),
    StableHlo.TRef.unary main_call2.c_2 main_call2.v6 (broadcastInDim S1024x1x1 ![] bcast_S_S1024x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x1x1 ![0, 1, 2] bcast_S1x1x1_S1024x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x1x1_S1024x1_d2 h_S_),
    StableHlo.TRef.binary (.of main_v11 : StableHlo.TRef sig ⟨S1024x20003, .f32⟩) main_call2.v5 main_call2.v13 (fun x i => Host.gather gather_S1024x20003_S1024x1x1_S1024x1_n_1_0_0_1_2_11 x i),
    StableHlo.TRef.nullary main_call2.cst (constant S_ .f32 0x7FC00000#32),
    StableHlo.TRef.unary main_call2.cst main_call2.v14 (broadcastInDim S1024x1 ![] bcast_S_S1024x1),
    StableHlo.TRef.ternary main_call2.v12 main_call2.v13 main_call2.v14 main_call2.v15 select ]

abbrev sg0_v21_W : List (Ref sig .tc) := [main_call2.c.ref, main_call2.v0.ref, main_call2.v1.ref, main_call2.c_0.ref, main_call2.v2.ref, main_call2.v3.ref, main_call2.v4.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.cst.ref, main_call2.v14.ref, main_call2.v15.ref]
theorem sg0_v21_writes : (sg0_v21 : List (HloOp τ sig (Elt F))).Forall fun op => op.writes ⊆ (sg0_v21_W.map (Proc.devRef (τ := τ) .tc)).toFinset :=
  writes_of_forall₂ (by repeat' constructor)

abbrev sg0_v22 : List (HloOp τ sig (Elt F)) :=
  [ StableHlo.reshape main_v21 main_v22 rfl shapeCasts_S1024x1_S1024 ]

abbrev sg0_v22_W : List (Ref sig .tc) := [main_v22]
theorem sg0_v22_writes : (sg0_v22 : List (HloOp τ sig (Elt F))).Forall fun op => op.writes ⊆ (sg0_v22_W.map (Proc.devRef (τ := τ) .tc)).toFinset :=
  writes_of_forall₂ (by repeat' constructor)

abbrev sg0_v29 : List (HloOp τ sig (Elt F)) :=
  [ StableHlo.unary main_arg6 main_v23 ((transpose S1024x256 [1, 0] · transposes_S256x1024_S1024x256_1_0) : (⟨S256x1024, .f32⟩ : BufTy).Contents (Elt F) → (⟨S1024x256, .f32⟩ : BufTy).Contents (Elt F)),
    StableHlo.binary main_arg0 main_v23 main_v24 ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F)),
    StableHlo.unary main_arg7 main_v25 ((transpose S256x20000 [1, 0] · transposes_S20000x256_S256x20000_1_0) : (⟨S20000x256, .f32⟩ : BufTy).Contents (Elt F) → (⟨S256x20000, .f32⟩ : BufTy).Contents (Elt F)),
    StableHlo.binary main_v24 main_v25 main_v26 ((fun l r => Host.dotGeneral dot_S1024x256_S256x20000_S1024x20000_1_0_0_1_n_n none l r) : (⟨S1024x256, .f32⟩ : BufTy).Contents (Elt F) → (⟨S256x20000, .f32⟩ : BufTy).Contents (Elt F) → (⟨S1024x20000, .f32⟩ : BufTy).Contents (Elt F)),
    StableHlo.unary main_arg8 main_v27 (broadcastInDim S1x20000 ![1] bcast_S20000_S1x20000_1 : (⟨S20000, .f32⟩ : BufTy).Contents (Elt F) → (⟨S1x20000, .f32⟩ : BufTy).Contents (Elt F)),
    StableHlo.unary main_v27 main_v28 (broadcastInDim S1024x20000 ![0, 1] bcast_S1x20000_S1024x20000_0_1 : (⟨S1x20000, .f32⟩ : BufTy).Contents (Elt F) → (⟨S1024x20000, .f32⟩ : BufTy).Contents (Elt F)),
    StableHlo.binary main_v26 main_v28 main_v29 (addf : (⟨S1024x20000, .f32⟩ : BufTy).Contents (Elt F) → (⟨S1024x20000, .f32⟩ : BufTy).Contents (Elt F) → (⟨S1024x20000, .f32⟩ : BufTy).Contents (Elt F)) ]

abbrev sg0_v29_W : List (Ref sig .tc) := [main_v23, main_v24, main_v25, main_v26, main_v27, main_v28, main_v29]
theorem sg0_v29_writes : (sg0_v29 : List (HloOp τ sig (Elt F))).Forall fun op => op.writes ⊆ (sg0_v29_W.map (Proc.devRef (τ := τ) .tc)).toFinset :=
  writes_of_forall₂ (by repeat' constructor)

abbrev sg0_v30a : List (HloOp τ sig (Elt F)) :=
  [ StableHlo.TRef.nullary main_call3.cst (constant S_ .f32 0xFF800000#32),
    StableHlo.TRef.binary (.of main_v29 : StableHlo.TRef sig ⟨S1024x20000, .f32⟩) main_call3.cst main_call3.v0 (fun x v => Host.reduce FloatOps.maximumf x v reducesTo_S1024x20000_S1024_d1 h_S_),
    StableHlo.TRef.nullary main_call3.cst_0 (constant S_ .f32 0xFF800000#32),
    StableHlo.TRef.unary main_call3.cst_0 main_call3.v1 (broadcastInDim S1024 ![] bcast_S_S1024),
    StableHlo.TRef.binary main_call3.v1 main_call3.v0 main_call3.v2 maximumf,
    StableHlo.TRef.unary main_call3.v2 main_call3.v3 (broadcastInDim S1024x1 ![0] bcast_S1024_S1024x1_0),
    StableHlo.TRef.unary main_call3.v3 main_call3.v4 (broadcastInDim S1024x20000 ![0, 1] bcast_S1024x1_S1024x20000_0_1),
    StableHlo.TRef.binary (.of main_v29 : StableHlo.TRef sig ⟨S1024x20000, .f32⟩) main_call3.v4 main_call3.v5 subf ]

abbrev sg0_v30a_W : List (Ref sig .tc) := [main_call3.cst.ref, main_call3.v0.ref, main_call3.cst_0.ref, main_call3.v1.ref, main_call3.v2.ref, main_call3.v3.ref, main_call3.v4.ref, main_call3.v5.ref]
theorem sg0_v30a_writes : (sg0_v30a : List (HloOp τ sig (Elt F))).Forall fun op => op.writes ⊆ (sg0_v30a_W.map (Proc.devRef (τ := τ) .tc)).toFinset :=
  writes_of_forall₂ (by repeat' constructor)

abbrev sg0_v30b : List (HloOp τ sig (Elt F)) :=
  [ StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S1024x20000_S1024_d1 h_S_),
    StableHlo.TRef.unary main_call3.v7 main_call3.v8 (broadcastInDim S1024x1 ![0] bcast_S1024_S1024x1_0),
    StableHlo.TRef.unary main_call3.v8 main_call3.v9 Host.log,
    StableHlo.TRef.unary main_call3.v9 main_call3.v10 (broadcastInDim S1024x20000 ![0, 1] bcast_S1024x1_S1024x20000_0_1) ]

abbrev sg0_v30b_W : List (Ref sig .tc) := [main_call3.v6.ref, main_call3.cst_1.ref, main_call3.v7.ref, main_call3.v8.ref, main_call3.v9.ref, main_call3.v10.ref]
theorem sg0_v30b_writes : (sg0_v30b : List (HloOp τ sig (Elt F))).Forall fun op => op.writes ⊆ (sg0_v30b_W.map (Proc.devRef (τ := τ) .tc)).toFinset :=
  writes_of_forall₂ (by repeat' constructor)

abbrev sg0_v30 : List (HloOp τ sig (Elt F)) :=
  [ StableHlo.TRef.binary main_call3.v5 main_call3.v10 main_call3.v11 subf ]

abbrev sg0_v30_W : List (Ref sig .tc) := [main_call3.v11.ref]
theorem sg0_v30_writes : (sg0_v30 : List (HloOp τ sig (Elt F))).Forall fun op => op.writes ⊆ (sg0_v30_W.map (Proc.devRef (τ := τ) .tc)).toFinset :=
  writes_of_forall₂ (by repeat' constructor)

abbrev sg0_v32 : List (HloOp τ sig (Elt F)) :=
  [ StableHlo.nullary main_c_3 (constantI S_ 32 20000#32),
    StableHlo.unary main_c_3 main_v31 (broadcastInDim S1024 ![] bcast_S_S1024 : (⟨S_, .i32⟩ : BufTy).Contents (Elt F) → (⟨S1024, .i32⟩ : BufTy).Contents (Elt F)),
    StableHlo.binary main_arg1 main_v31 main_v32 (subi : (⟨S1024, .i32⟩ : BufTy).Contents (Elt F) → (⟨S1024, .i32⟩ : BufTy).Contents (Elt F) → (⟨S1024, .i32⟩ : BufTy).Contents (Elt F)) ]

abbrev sg0_v32_W : List (Ref sig .tc) := [main_c_3, main_v31, main_v32]
theorem sg0_v32_writes : (sg0_v32 : List (HloOp τ sig (Elt F))).Forall fun op => op.writes ⊆ (sg0_v32_W.map (Proc.devRef (τ := τ) .tc)).toFinset :=
  writes_of_forall₂ (by repeat' constructor)

abbrev sg0_v33 : List (HloOp τ sig (Elt F)) :=
  [ StableHlo.nullary main_c_4 (constantI S_ 32 0#32),
    StableHlo.nullary main_c_5 (constantI S_ 32 19999#32),
    StableHlo.TRef.unary (.of main_c_4 : StableHlo.TRef sig ⟨S_, .i32⟩) main_call4.v0 id,
    StableHlo.TRef.unary main_call4.v0 main_call4.v1 (broadcastInDim S1024 ![] bcast_S_S1024),
    StableHlo.TRef.binary main_call4.v1 (.of main_v32 : StableHlo.TRef sig ⟨S1024, .i32⟩) main_call4.v2 maxsi,
    StableHlo.TRef.unary (.of main_c_5 : StableHlo.TRef sig ⟨S_, .i32⟩) main_call4.v3 id,
    StableHlo.TRef.unary main_call4.v3 main_call4.v4 (broadcastInDim S1024 ![] bcast_S_S1024),
    StableHlo.TRef.binary main_call4.v4 main_call4.v2 main_call4.v5 minsi ]

abbrev sg0_v33_W : List (Ref sig .tc) := [main_c_4, main_c_5, main_call4.v0.ref, main_call4.v1.ref, main_call4.v2.ref, main_call4.v3.ref, main_call4.v4.ref, main_call4.v5.ref]
theorem sg0_v33_writes : (sg0_v33 : List (HloOp τ sig (Elt F))).Forall fun op => op.writes ⊆ (sg0_v33_W.map (Proc.devRef (τ := τ) .tc)).toFinset :=
  writes_of_forall₂ (by repeat' constructor)

abbrev sg0_v34 : List (HloOp τ sig (Elt F)) :=
  [ StableHlo.unary main_v33 main_v34 (broadcastInDim S1024x1 ![0] bcast_S1024_S1024x1_0 : (⟨S1024, .i32⟩ : BufTy).Contents (Elt F) → (⟨S1024x1, .i32⟩ : BufTy).Contents (Elt F)) ]

abbrev sg0_v34_W : List (Ref sig .tc) := [main_v34]
theorem sg0_v34_writes : (sg0_v34 : List (HloOp τ sig (Elt F))).Forall fun op => op.writes ⊆ (sg0_v34_W.map (Proc.devRef (τ := τ) .tc)).toFinset :=
  writes_of_forall₂ (by repeat' constructor)

abbrev sg0_v35 : List (HloOp τ sig (Elt F)) :=
  [ StableHlo.TRef.nullary main_call5.c (constantI S_ 32 0#32),
    StableHlo.TRef.unary main_call5.c main_call5.v0 (broadcastInDim S1024x1 ![] bcast_S_S1024x1),
    StableHlo.TRef.binary (.of main_v34 : StableHlo.TRef sig ⟨S1024x1, .i32⟩) main_call5.v0 main_call5.v1 (cmpi .slt),
    StableHlo.TRef.nullary main_call5.c_0 (constantI S_ 32 20000#32),
    StableHlo.TRef.unary main_call5.c_0 main_call5.v2 (broadcastInDim S1024x1 ![] bcast_S_S1024x1),
    StableHlo.TRef.binary (.of main_v34 : StableHlo.TRef sig ⟨S1024x1, .i32⟩) main_call5.v2 main_call5.v3 addi,
    StableHlo.TRef.ternary main_call5.v1 main_call5.v3 (.of main_v34 : StableHlo.TRef sig ⟨S1024x1, .i32⟩) main_call5.v4 select,
    StableHlo.TRef.reshape main_call5.v4 main_call5.v5 rfl shapeCasts_S1024x1_S1024x1x1,
    StableHlo.TRef.nullary main_call5.c_1 (constantI S1 32 19999#32),
    StableHlo.TRef.nullary main_call5.c_2 (constantI S_ 32 0#32),
    StableHlo.TRef.unary main_call5.c_2 main_call5.v6 (broadcastInDim S1024x1x1 ![] bcast_S_S1024x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x1x1 ![0, 1, 2] bcast_S1x1x1_S1024x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x1x1_S1024x1_d2 h_S_),
    StableHlo.TRef.binary (.of main_v30 : StableHlo.TRef sig ⟨S1024x20000, .f32⟩) main_call5.v5 main_call5.v13 (fun x i => Host.gather gather_S1024x20000_S1024x1x1_S1024x1_n_1_0_0_1_2_11 x i),
    StableHlo.TRef.nullary main_call5.cst (constant S_ .f32 0x7FC00000#32),
    StableHlo.TRef.unary main_call5.cst main_call5.v14 (broadcastInDim S1024x1 ![] bcast_S_S1024x1),
    StableHlo.TRef.ternary main_call5.v12 main_call5.v13 main_call5.v14 main_call5.v15 select ]

abbrev sg0_v35_W : List (Ref sig .tc) := [main_call5.c.ref, main_call5.v0.ref, main_call5.v1.ref, main_call5.c_0.ref, main_call5.v2.ref, main_call5.v3.ref, main_call5.v4.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.cst.ref, main_call5.v14.ref, main_call5.v15.ref]
theorem sg0_v35_writes : (sg0_v35 : List (HloOp τ sig (Elt F))).Forall fun op => op.writes ⊆ (sg0_v35_W.map (Proc.devRef (τ := τ) .tc)).toFinset :=
  writes_of_forall₂ (by repeat' constructor)

abbrev sg0_v39 : List (HloOp τ sig (Elt F)) :=
  [ StableHlo.reshape main_v35 main_v36 rfl shapeCasts_S1024x1_S1024,
    StableHlo.unary main_v11 main_v37 ((extractStridedSlice S1024x1 ![0, 20002] · slices_S1024x20003_S1024x1_0_20002) : (⟨S1024x20003, .f32⟩ : BufTy).Contents (Elt F) → (⟨S1024x1, .f32⟩ : BufTy).Contents (Elt F)),
    StableHlo.reshape main_v37 main_v38 rfl shapeCasts_S1024x1_S1024,
    StableHlo.binary main_v38 main_v36 main_v39 (addf : (⟨S1024, .f32⟩ : BufTy).Contents (Elt F) → (⟨S1024, .f32⟩ : BufTy).Contents (Elt F) → (⟨S1024, .f32⟩ : BufTy).Contents (Elt F)) ]

abbrev sg0_v39_W : List (Ref sig .tc) := [main_v36, main_v37, main_v38, main_v39]
theorem sg0_v39_writes : (sg0_v39 : List (HloOp τ sig (Elt F))).Forall fun op => op.writes ⊆ (sg0_v39_W.map (Proc.devRef (τ := τ) .tc)).toFinset :=
  writes_of_forall₂ (by repeat' constructor)

abbrev sg0_v46 : List (HloOp τ sig (Elt F)) :=
  [ StableHlo.unary main_arg9 main_v40 ((transpose S1024x64 [1, 0] · transposes_S64x1024_S1024x64_1_0) : (⟨S64x1024, .f32⟩ : BufTy).Contents (Elt F) → (⟨S1024x64, .f32⟩ : BufTy).Contents (Elt F)),
    StableHlo.binary main_arg0 main_v40 main_v41 ((fun l r => Host.dotGeneral dot_S1024x1024_S1024x64_S1024x64_1_0_0_1_n_n none l r) : (⟨S1024x1024, .f32⟩ : BufTy).Contents (Elt F) → (⟨S1024x64, .f32⟩ : BufTy).Contents (Elt F) → (⟨S1024x64, .f32⟩ : BufTy).Contents (Elt F)),
    StableHlo.unary main_arg10 main_v42 ((transpose S64x160000 [1, 0] · transposes_S160000x64_S64x160000_1_0) : (⟨S160000x64, .f32⟩ : BufTy).Contents (Elt F) → (⟨S64x160000, .f32⟩ : BufTy).Contents (Elt F)),
    StableHlo.binary main_v41 main_v42 main_v43 ((fun l r => Host.dotGeneral dot_S1024x64_S64x160000_S1024x160000_1_0_0_1_n_n none l r) : (⟨S1024x64, .f32⟩ : BufTy).Contents (Elt F) → (⟨S64x160000, .f32⟩ : BufTy).Contents (Elt F) → (⟨S1024x160000, .f32⟩ : BufTy).Contents (Elt F)),
    StableHlo.unary main_arg11 main_v44 (broadcastInDim S1x160000 ![1] bcast_S160000_S1x160000_1 : (⟨S160000, .f32⟩ : BufTy).Contents (Elt F) → (⟨S1x160000, .f32⟩ : BufTy).Contents (Elt F)),
    StableHlo.unary main_v44 main_v45 (broadcastInDim S1024x160000 ![0, 1] bcast_S1x160000_S1024x160000_0_1 : (⟨S1x160000, .f32⟩ : BufTy).Contents (Elt F) → (⟨S1024x160000, .f32⟩ : BufTy).Contents (Elt F)),
    StableHlo.binary main_v43 main_v45 main_v46 (addf : (⟨S1024x160000, .f32⟩ : BufTy).Contents (Elt F) → (⟨S1024x160000, .f32⟩ : BufTy).Contents (Elt F) → (⟨S1024x160000, .f32⟩ : BufTy).Contents (Elt F)) ]

abbrev sg0_v46_W : List (Ref sig .tc) := [main_v40, main_v41, main_v42, main_v43, main_v44, main_v45, main_v46]
theorem sg0_v46_writes : (sg0_v46 : List (HloOp τ sig (Elt F))).Forall fun op => op.writes ⊆ (sg0_v46_W.map (Proc.devRef (τ := τ) .tc)).toFinset :=
  writes_of_forall₂ (by repeat' constructor)

abbrev sg0_v47a : List (HloOp τ sig (Elt F)) :=
  [ StableHlo.TRef.nullary main_call6.cst (constant S_ .f32 0xFF800000#32),
    StableHlo.TRef.binary (.of main_v46 : StableHlo.TRef sig ⟨S1024x160000, .f32⟩) main_call6.cst main_call6.v0 (fun x v => Host.reduce FloatOps.maximumf x v reducesTo_S1024x160000_S1024_d1 h_S_),
    StableHlo.TRef.nullary main_call6.cst_0 (constant S_ .f32 0xFF800000#32),
    StableHlo.TRef.unary main_call6.cst_0 main_call6.v1 (broadcastInDim S1024 ![] bcast_S_S1024),
    StableHlo.TRef.binary main_call6.v1 main_call6.v0 main_call6.v2 maximumf,
    StableHlo.TRef.unary main_call6.v2 main_call6.v3 (broadcastInDim S1024x1 ![0] bcast_S1024_S1024x1_0),
    StableHlo.TRef.unary main_call6.v3 main_call6.v4 (broadcastInDim S1024x160000 ![0, 1] bcast_S1024x1_S1024x160000_0_1),
    StableHlo.TRef.binary (.of main_v46 : StableHlo.TRef sig ⟨S1024x160000, .f32⟩) main_call6.v4 main_call6.v5 subf ]

abbrev sg0_v47a_W : List (Ref sig .tc) := [main_call6.cst.ref, main_call6.v0.ref, main_call6.cst_0.ref, main_call6.v1.ref, main_call6.v2.ref, main_call6.v3.ref, main_call6.v4.ref, main_call6.v5.ref]
theorem sg0_v47a_writes : (sg0_v47a : List (HloOp τ sig (Elt F))).Forall fun op => op.writes ⊆ (sg0_v47a_W.map (Proc.devRef (τ := τ) .tc)).toFinset :=
  writes_of_forall₂ (by repeat' constructor)

abbrev sg0_v47b : List (HloOp τ sig (Elt F)) :=
  [ StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S1024x160000_S1024_d1 h_S_),
    StableHlo.TRef.unary main_call6.v7 main_call6.v8 (broadcastInDim S1024x1 ![0] bcast_S1024_S1024x1_0),
    StableHlo.TRef.unary main_call6.v8 main_call6.v9 Host.log,
    StableHlo.TRef.unary main_call6.v9 main_call6.v10 (broadcastInDim S1024x160000 ![0, 1] bcast_S1024x1_S1024x160000_0_1) ]

abbrev sg0_v47b_W : List (Ref sig .tc) := [main_call6.v6.ref, main_call6.cst_1.ref, main_call6.v7.ref, main_call6.v8.ref, main_call6.v9.ref, main_call6.v10.ref]
theorem sg0_v47b_writes : (sg0_v47b : List (HloOp τ sig (Elt F))).Forall fun op => op.writes ⊆ (sg0_v47b_W.map (Proc.devRef (τ := τ) .tc)).toFinset :=
  writes_of_forall₂ (by repeat' constructor)

abbrev sg0_v47 : List (HloOp τ sig (Elt F)) :=
  [ StableHlo.TRef.binary main_call6.v5 main_call6.v10 main_call6.v11 subf ]

abbrev sg0_v47_W : List (Ref sig .tc) := [main_call6.v11.ref]
theorem sg0_v47_writes : (sg0_v47 : List (HloOp τ sig (Elt F))).Forall fun op => op.writes ⊆ (sg0_v47_W.map (Proc.devRef (τ := τ) .tc)).toFinset :=
  writes_of_forall₂ (by repeat' constructor)

abbrev sg0_v49 : List (HloOp τ sig (Elt F)) :=
  [ StableHlo.nullary main_c_6 (constantI S_ 32 40000#32),
    StableHlo.unary main_c_6 main_v48 (broadcastInDim S1024 ![] bcast_S_S1024 : (⟨S_, .i32⟩ : BufTy).Contents (Elt F) → (⟨S1024, .i32⟩ : BufTy).Contents (Elt F)),
    StableHlo.binary main_arg1 main_v48 main_v49 (subi : (⟨S1024, .i32⟩ : BufTy).Contents (Elt F) → (⟨S1024, .i32⟩ : BufTy).Contents (Elt F) → (⟨S1024, .i32⟩ : BufTy).Contents (Elt F)) ]

abbrev sg0_v49_W : List (Ref sig .tc) := [main_c_6, main_v48, main_v49]
theorem sg0_v49_writes : (sg0_v49 : List (HloOp τ sig (Elt F))).Forall fun op => op.writes ⊆ (sg0_v49_W.map (Proc.devRef (τ := τ) .tc)).toFinset :=
  writes_of_forall₂ (by repeat' constructor)

abbrev sg0_c8 : List (HloOp τ sig (Elt F)) :=
  [ StableHlo.nullary main_c_7 (constantI S_ 32 0#32),
    StableHlo.nullary main_c_8 (constantI S_ 32 159999#32) ]

abbrev sg0_c8_W : List (Ref sig .tc) := [main_c_7, main_c_8]
theorem sg0_c8_writes : (sg0_c8 : List (HloOp τ sig (Elt F))).Forall fun op => op.writes ⊆ (sg0_c8_W.map (Proc.devRef (τ := τ) .tc)).toFinset :=
  writes_of_forall₂ (by repeat' constructor)

abbrev sg1_v50 : List (HloOp τ sig (Elt F)) :=
  [ StableHlo.TRef.unary (.of main_c_7 : StableHlo.TRef sig ⟨S_, .i32⟩) main_call7.v0 id,
    StableHlo.TRef.unary main_call7.v0 main_call7.v1 (broadcastInDim S1024 ![] bcast_S_S1024),
    StableHlo.TRef.binary main_call7.v1 (.of main_v49 : StableHlo.TRef sig ⟨S1024, .i32⟩) main_call7.v2 maxsi,
    StableHlo.TRef.unary (.of main_c_8 : StableHlo.TRef sig ⟨S_, .i32⟩) main_call7.v3 id,
    StableHlo.TRef.unary main_call7.v3 main_call7.v4 (broadcastInDim S1024 ![] bcast_S_S1024),
    StableHlo.TRef.binary main_call7.v4 main_call7.v2 main_call7.v5 minsi ]

abbrev sg1_v50_W : List (Ref sig .tc) := [main_call7.v0.ref, main_call7.v1.ref, main_call7.v2.ref, main_call7.v3.ref, main_call7.v4.ref, main_call7.v5.ref]
theorem sg1_v50_writes : (sg1_v50 : List (HloOp τ sig (Elt F))).Forall fun op => op.writes ⊆ (sg1_v50_W.map (Proc.devRef (τ := τ) .tc)).toFinset :=
  writes_of_forall₂ (by repeat' constructor)

abbrev sg1_v51 : List (HloOp τ sig (Elt F)) :=
  [ StableHlo.unary main_v50 main_v51 (broadcastInDim S1024x1 ![0] bcast_S1024_S1024x1_0 : (⟨S1024, .i32⟩ : BufTy).Contents (Elt F) → (⟨S1024x1, .i32⟩ : BufTy).Contents (Elt F)) ]

abbrev sg1_v51_W : List (Ref sig .tc) := [main_v51]
theorem sg1_v51_writes : (sg1_v51 : List (HloOp τ sig (Elt F))).Forall fun op => op.writes ⊆ (sg1_v51_W.map (Proc.devRef (τ := τ) .tc)).toFinset :=
  writes_of_forall₂ (by repeat' constructor)

abbrev sg1_v52 : List (HloOp τ sig (Elt F)) :=
  [ StableHlo.TRef.nullary main_call8.c (constantI S_ 32 0#32),
    StableHlo.TRef.unary main_call8.c main_call8.v0 (broadcastInDim S1024x1 ![] bcast_S_S1024x1),
    StableHlo.TRef.binary (.of main_v51 : StableHlo.TRef sig ⟨S1024x1, .i32⟩) main_call8.v0 main_call8.v1 (cmpi .slt),
    StableHlo.TRef.nullary main_call8.c_0 (constantI S_ 32 160000#32),
    StableHlo.TRef.unary main_call8.c_0 main_call8.v2 (broadcastInDim S1024x1 ![] bcast_S_S1024x1),
    StableHlo.TRef.binary (.of main_v51 : StableHlo.TRef sig ⟨S1024x1, .i32⟩) main_call8.v2 main_call8.v3 addi,
    StableHlo.TRef.ternary main_call8.v1 main_call8.v3 (.of main_v51 : StableHlo.TRef sig ⟨S1024x1, .i32⟩) main_call8.v4 select,
    StableHlo.TRef.reshape main_call8.v4 main_call8.v5 rfl shapeCasts_S1024x1_S1024x1x1,
    StableHlo.TRef.nullary main_call8.c_1 (constantI S1 32 159999#32),
    StableHlo.TRef.nullary main_call8.c_2 (constantI S_ 32 0#32),
    StableHlo.TRef.unary main_call8.c_2 main_call8.v6 (broadcastInDim S1024x1x1 ![] bcast_S_S1024x1x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S1024x1x1 ![0, 1, 2] bcast_S1x1x1_S1024x1x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1024x1x1_S1024x1_d2 h_S_),
    StableHlo.TRef.binary (.of main_v47 : StableHlo.TRef sig ⟨S1024x160000, .f32⟩) main_call8.v5 main_call8.v13 (fun x i => Host.gather gather_S1024x160000_S1024x1x1_S1024x1_n_1_0_0_1_2_11 x i),
    StableHlo.TRef.nullary main_call8.cst (constant S_ .f32 0x7FC00000#32),
    StableHlo.TRef.unary main_call8.cst main_call8.v14 (broadcastInDim S1024x1 ![] bcast_S_S1024x1),
    StableHlo.TRef.ternary main_call8.v12 main_call8.v13 main_call8.v14 main_call8.v15 select ]

abbrev sg1_v52_W : List (Ref sig .tc) := [main_call8.c.ref, main_call8.v0.ref, main_call8.v1.ref, main_call8.c_0.ref, main_call8.v2.ref, main_call8.v3.ref, main_call8.v4.ref, main_call8.v5.ref, main_call8.c_1.ref, main_call8.c_2.ref, main_call8.v6.ref, main_call8.v7.ref, main_call8.v8.ref, main_call8.v9.ref, main_call8.v10.ref, main_call8.v11.ref, main_call8.c_3.ref, main_call8.v12.ref, main_call8.v13.ref, main_call8.cst.ref, main_call8.v14.ref, main_call8.v15.ref]
theorem sg1_v52_writes : (sg1_v52 : List (HloOp τ sig (Elt F))).Forall fun op => op.writes ⊆ (sg1_v52_W.map (Proc.devRef (τ := τ) .tc)).toFinset :=
  writes_of_forall₂ (by repeat' constructor)

abbrev sg1_v56 : List (HloOp τ sig (Elt F)) :=
  [ StableHlo.reshape main_v52 main_v53 rfl shapeCasts_S1024x1_S1024,
    StableHlo.unary main_v11 main_v54 ((extractStridedSlice S1024x1 ![0, 20001] · slices_S1024x20003_S1024x1_0_20001) : (⟨S1024x20003, .f32⟩ : BufTy).Contents (Elt F) → (⟨S1024x1, .f32⟩ : BufTy).Contents (Elt F)),
    StableHlo.reshape main_v54 main_v55 rfl shapeCasts_S1024x1_S1024,
    StableHlo.binary main_v55 main_v53 main_v56 (addf : (⟨S1024, .f32⟩ : BufTy).Contents (Elt F) → (⟨S1024, .f32⟩ : BufTy).Contents (Elt F) → (⟨S1024, .f32⟩ : BufTy).Contents (Elt F)) ]

abbrev sg1_v56_W : List (Ref sig .tc) := [main_v53, main_v54, main_v55, main_v56]
theorem sg1_v56_writes : (sg1_v56 : List (HloOp τ sig (Elt F))).Forall fun op => op.writes ⊆ (sg1_v56_W.map (Proc.devRef (τ := τ) .tc)).toFinset :=
  writes_of_forall₂ (by repeat' constructor)

abbrev sg1_v63 : List (HloOp τ sig (Elt F)) :=
  [ StableHlo.unary main_arg12 main_v57 ((transpose S1024x16 [1, 0] · transposes_S16x1024_S1024x16_1_0) : (⟨S16x1024, .f32⟩ : BufTy).Contents (Elt F) → (⟨S1024x16, .f32⟩ : BufTy).Contents (Elt F)),
    StableHlo.binary main_arg0 main_v57 main_v58 ((fun l r => Host.dotGeneral dot_S1024x1024_S1024x16_S1024x16_1_0_0_1_n_n none l r) : (⟨S1024x1024, .f32⟩ : BufTy).Contents (Elt F) → (⟨S1024x16, .f32⟩ : BufTy).Contents (Elt F) → (⟨S1024x16, .f32⟩ : BufTy).Contents (Elt F)),
    StableHlo.unary main_arg13 main_v59 ((transpose S16x67735 [1, 0] · transposes_S67735x16_S16x67735_1_0) : (⟨S67735x16, .f32⟩ : BufTy).Contents (Elt F) → (⟨S16x67735, .f32⟩ : BufTy).Contents (Elt F)),
    StableHlo.binary main_v58 main_v59 main_v60 ((fun l r => Host.dotGeneral dot_S1024x16_S16x67735_S1024x67735_1_0_0_1_n_n none l r) : (⟨S1024x16, .f32⟩ : BufTy).Contents (Elt F) → (⟨S16x67735, .f32⟩ : BufTy).Contents (Elt F) → (⟨S1024x67735, .f32⟩ : BufTy).Contents (Elt F)),
    StableHlo.unary main_arg14 main_v61 (broadcastInDim S1x67735 ![1] bcast_S67735_S1x67735_1 : (⟨S67735, .f32⟩ : BufTy).Contents (Elt F) → (⟨S1x67735, .f32⟩ : BufTy).Contents (Elt F)),
    StableHlo.unary main_v61 main_v62 (broadcastInDim S1024x67735 ![0, 1] bcast_S1x67735_S1024x67735_0_1 : (⟨S1x67735, .f32⟩ : BufTy).Contents (Elt F) → (⟨S1024x67735, .f32⟩ : BufTy).Contents (Elt F)),
    StableHlo.binary main_v60 main_v62 main_v63 (addf : (⟨S1024x67735, .f32⟩ : BufTy).Contents (Elt F) → (⟨S1024x67735, .f32⟩ : BufTy).Contents (Elt F) → (⟨S1024x67735, .f32⟩ : BufTy).Contents (Elt F)) ]

abbrev sg1_v63_W : List (Ref sig .tc) := [main_v57, main_v58, main_v59, main_v60, main_v61, main_v62, main_v63]
theorem sg1_v63_writes : (sg1_v63 : List (HloOp τ sig (Elt F))).Forall fun op => op.writes ⊆ (sg1_v63_W.map (Proc.devRef (τ := τ) .tc)).toFinset :=
  writes_of_forall₂ (by repeat' constructor)

abbrev sg1_v64a : List (HloOp τ sig (Elt F)) :=
  [ StableHlo.TRef.nullary main_call9.cst (constant S_ .f32 0xFF800000#32),
    StableHlo.TRef.binary (.of main_v63 : StableHlo.TRef sig ⟨S1024x67735, .f32⟩) main_call9.cst main_call9.v0 (fun x v => Host.reduce FloatOps.maximumf x v reducesTo_S1024x67735_S1024_d1 h_S_),
    StableHlo.TRef.nullary main_call9.cst_0 (constant S_ .f32 0xFF800000#32),
    StableHlo.TRef.unary main_call9.cst_0 main_call9.v1 (broadcastInDim S1024 ![] bcast_S_S1024),
    StableHlo.TRef.binary main_call9.v1 main_call9.v0 main_call9.v2 maximumf,
    StableHlo.TRef.unary main_call9.v2 main_call9.v3 (broadcastInDim S1024x1 ![0] bcast_S1024_S1024x1_0),
    StableHlo.TRef.unary main_call9.v3 main_call9.v4 (broadcastInDim S1024x67735 ![0, 1] bcast_S1024x1_S1024x67735_0_1),
    StableHlo.TRef.binary (.of main_v63 : StableHlo.TRef sig ⟨S1024x67735, .f32⟩) main_call9.v4 main_call9.v5 subf ]

abbrev sg1_v64a_W : List (Ref sig .tc) := [main_call9.cst.ref, main_call9.v0.ref, main_call9.cst_0.ref, main_call9.v1.ref, main_call9.v2.ref, main_call9.v3.ref, main_call9.v4.ref, main_call9.v5.ref]
theorem sg1_v64a_writes : (sg1_v64a : List (HloOp τ sig (Elt F))).Forall fun op => op.writes ⊆ (sg1_v64a_W.map (Proc.devRef (τ := τ) .tc)).toFinset :=
  writes_of_forall₂ (by repeat' constructor)

abbrev sg1_v64b : List (HloOp τ sig (Elt F)) :=
  [ StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S1024x67735_S1024_d1 h_S_),
    StableHlo.TRef.unary main_call9.v7 main_call9.v8 (broadcastInDim S1024x1 ![0] bcast_S1024_S1024x1_0),
    StableHlo.TRef.unary main_call9.v8 main_call9.v9 Host.log,
    StableHlo.TRef.unary main_call9.v9 main_call9.v10 (broadcastInDim S1024x67735 ![0, 1] bcast_S1024x1_S1024x67735_0_1) ]

abbrev sg1_v64b_W : List (Ref sig .tc) := [main_call9.v6.ref, main_call9.cst_1.ref, main_call9.v7.ref, main_call9.v8.ref, main_call9.v9.ref, main_call9.v10.ref]
theorem sg1_v64b_writes : (sg1_v64b : List (HloOp τ sig (Elt F))).Forall fun op => op.writes ⊆ (sg1_v64b_W.map (Proc.devRef (τ := τ) .tc)).toFinset :=
  writes_of_forall₂ (by repeat' constructor)

abbrev sg1_v64 : List (HloOp τ sig (Elt F)) :=
  [ StableHlo.TRef.binary main_call9.v5 main_call9.v10 main_call9.v11 subf ]

abbrev sg1_v64_W : List (Ref sig .tc) := [main_call9.v11.ref]
theorem sg1_v64_writes : (sg1_v64 : List (HloOp τ sig (Elt F))).Forall fun op => op.writes ⊆ (sg1_v64_W.map (Proc.devRef (τ := τ) .tc)).toFinset :=
  writes_of_forall₂ (by repeat' constructor)

abbrev sg1_v66 : List (HloOp τ sig (Elt F)) :=
  [ StableHlo.nullary main_c_9 (constantI S_ 32 200000#32),
    StableHlo.unary main_c_9 main_v65 (broadcastInDim S1024 ![] bcast_S_S1024 : (⟨S_, .i32⟩ : BufTy).Contents (Elt F) → (⟨S1024, .i32⟩ : BufTy).Contents (Elt F)),
    StableHlo.binary main_arg1 main_v65 main_v66 (subi : (⟨S1024, .i32⟩ : BufTy).Contents (Elt F) → (⟨S1024, .i32⟩ : BufTy).Contents (Elt F) → (⟨S1024, .i32⟩ : BufTy).Contents (Elt F)) ]

abbrev sg1_v66_W : List (Ref sig .tc) := [main_c_9, main_v65, main_v66]
theorem sg1_v66_writes : (sg1_v66 : List (HloOp τ sig (Elt F))).Forall fun op => op.writes ⊆ (sg1_v66_W.map (Proc.devRef (τ := τ) .tc)).toFinset :=
  writes_of_forall₂ (by repeat' constructor)

abbrev sg1_v67 : List (HloOp τ sig (Elt F)) :=
  [ StableHlo.nullary main_c_10 (constantI S_ 32 0#32),
    StableHlo.nullary main_c_11 (constantI S_ 32 67734#32),
    StableHlo.TRef.unary (.of main_c_10 : StableHlo.TRef sig ⟨S_, .i32⟩) main_call10.v0 id,
    StableHlo.TRef.unary main_call10.v0 main_call10.v1 (broadcastInDim S1024 ![] bcast_S_S1024),
    StableHlo.TRef.binary main_call10.v1 (.of main_v66 : StableHlo.TRef sig ⟨S1024, .i32⟩) main_call10.v2 maxsi,
    StableHlo.TRef.unary (.of main_c_11 : StableHlo.TRef sig ⟨S_, .i32⟩) main_call10.v3 id,
    StableHlo.TRef.unary main_call10.v3 main_call10.v4 (broadcastInDim S1024 ![] bcast_S_S1024),
    StableHlo.TRef.binary main_call10.v4 main_call10.v2 main_call10.v5 minsi ]

abbrev sg1_v67_W : List (Ref sig .tc) := [main_c_10, main_c_11, main_call10.v0.ref, main_call10.v1.ref, main_call10.v2.ref, main_call10.v3.ref, main_call10.v4.ref, main_call10.v5.ref]
theorem sg1_v67_writes : (sg1_v67 : List (HloOp τ sig (Elt F))).Forall fun op => op.writes ⊆ (sg1_v67_W.map (Proc.devRef (τ := τ) .tc)).toFinset :=
  writes_of_forall₂ (by repeat' constructor)

abbrev sg1_v69 : List (HloOp τ sig (Elt F)) :=
  [ StableHlo.unary main_v67 main_v68 (broadcastInDim S1024x1 ![0] bcast_S1024_S1024x1_0 : (⟨S1024, .i32⟩ : BufTy).Contents (Elt F) → (⟨S1024x1, .i32⟩ : BufTy).Contents (Elt F)),
    StableHlo.TRef.nullary main_call11.c (constantI S_ 32 0#32),
    StableHlo.TRef.unary main_call11.c main_call11.v0 (broadcastInDim S1024x1 ![] bcast_S_S1024x1),
    StableHlo.TRef.binary (.of main_v68 : StableHlo.TRef sig ⟨S1024x1, .i32⟩) main_call11.v0 main_call11.v1 (cmpi .slt),
    StableHlo.TRef.nullary main_call11.c_0 (constantI S_ 32 67735#32),
    StableHlo.TRef.unary main_call11.c_0 main_call11.v2 (broadcastInDim S1024x1 ![] bcast_S_S1024x1),
    StableHlo.TRef.binary (.of main_v68 : StableHlo.TRef sig ⟨S1024x1, .i32⟩) main_call11.v2 main_call11.v3 addi,
    StableHlo.TRef.ternary main_call11.v1 main_call11.v3 (.of main_v68 : StableHlo.TRef sig ⟨S1024x1, .i32⟩) main_call11.v4 select,
    StableHlo.TRef.reshape main_call11.v4 main_call11.v5 rfl shapeCasts_S1024x1_S1024x1x1,
    StableHlo.TRef.nullary main_call11.c_1 (constantI S1 32 67734#32),
    StableHlo.TRef.nullary main_call11.c_2 (constantI S_ 32 0#32),
    StableHlo.TRef.unary main_call11.c_2 main_call11.v6 (broadcastInDim S1024x1x1 ![] bcast_S_S1024x1x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S1024x1x1 ![0, 1, 2] bcast_S1x1x1_S1024x1x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1024x1x1_S1024x1_d2 h_S_),
    StableHlo.TRef.binary (.of main_v64 : StableHlo.TRef sig ⟨S1024x67735, .f32⟩) main_call11.v5 main_call11.v13 (fun x i => Host.gather gather_S1024x67735_S1024x1x1_S1024x1_n_1_0_0_1_2_11 x i),
    StableHlo.TRef.nullary main_call11.cst (constant S_ .f32 0x7FC00000#32),
    StableHlo.TRef.unary main_call11.cst main_call11.v14 (broadcastInDim S1024x1 ![] bcast_S_S1024x1),
    StableHlo.TRef.ternary main_call11.v12 main_call11.v13 main_call11.v14 main_call11.v15 select ]

abbrev sg1_v69_W : List (Ref sig .tc) := [main_v68, main_call11.c.ref, main_call11.v0.ref, main_call11.v1.ref, main_call11.c_0.ref, main_call11.v2.ref, main_call11.v3.ref, main_call11.v4.ref, main_call11.v5.ref, main_call11.c_1.ref, main_call11.c_2.ref, main_call11.v6.ref, main_call11.v7.ref, main_call11.v8.ref, main_call11.v9.ref, main_call11.v10.ref, main_call11.v11.ref, main_call11.c_3.ref, main_call11.v12.ref, main_call11.v13.ref, main_call11.cst.ref, main_call11.v14.ref, main_call11.v15.ref]
theorem sg1_v69_writes : (sg1_v69 : List (HloOp τ sig (Elt F))).Forall fun op => op.writes ⊆ (sg1_v69_W.map (Proc.devRef (τ := τ) .tc)).toFinset :=
  writes_of_forall₂ (by repeat' constructor)

abbrev sg1_v73 : List (HloOp τ sig (Elt F)) :=
  [ StableHlo.reshape main_v69 main_v70 rfl shapeCasts_S1024x1_S1024,
    StableHlo.unary main_v11 main_v71 ((extractStridedSlice S1024x1 ![0, 20000] · slices_S1024x20003_S1024x1_0_20000) : (⟨S1024x20003, .f32⟩ : BufTy).Contents (Elt F) → (⟨S1024x1, .f32⟩ : BufTy).Contents (Elt F)),
    StableHlo.reshape main_v71 main_v72 rfl shapeCasts_S1024x1_S1024,
    StableHlo.binary main_v72 main_v70 main_v73 (addf : (⟨S1024, .f32⟩ : BufTy).Contents (Elt F) → (⟨S1024, .f32⟩ : BufTy).Contents (Elt F) → (⟨S1024, .f32⟩ : BufTy).Contents (Elt F)) ]

abbrev sg1_v73_W : List (Ref sig .tc) := [main_v70, main_v71, main_v72, main_v73]
theorem sg1_v73_writes : (sg1_v73 : List (HloOp τ sig (Elt F))).Forall fun op => op.writes ⊆ (sg1_v73_W.map (Proc.devRef (τ := τ) .tc)).toFinset :=
  writes_of_forall₂ (by repeat' constructor)

abbrev sg1_v88 : List (HloOp τ sig (Elt F)) :=
  [ StableHlo.nullary main_c_12 (constantI S_ 32 0#32),
    StableHlo.unary main_c_12 main_v74 (broadcastInDim S1024 ![] bcast_S_S1024 : (⟨S_, .i32⟩ : BufTy).Contents (Elt F) → (⟨S1024, .i32⟩ : BufTy).Contents (Elt F)),
    StableHlo.binary main_v18 main_v74 main_v75 (cmpi .eq : (⟨S1024, .i32⟩ : BufTy).Contents (Elt F) → (⟨S1024, .i32⟩ : BufTy).Contents (Elt F) → (⟨S1024, .i1⟩ : BufTy).Contents (Elt F)),
    StableHlo.nullary main_c_13 (constantI S_ 32 1#32),
    StableHlo.unary main_c_13 main_v76 (broadcastInDim S1024 ![] bcast_S_S1024 : (⟨S_, .i32⟩ : BufTy).Contents (Elt F) → (⟨S1024, .i32⟩ : BufTy).Contents (Elt F)),
    StableHlo.binary main_v18 main_v76 main_v77 (cmpi .eq : (⟨S1024, .i32⟩ : BufTy).Contents (Elt F) → (⟨S1024, .i32⟩ : BufTy).Contents (Elt F) → (⟨S1024, .i1⟩ : BufTy).Contents (Elt F)),
    StableHlo.nullary main_c_14 (constantI S_ 32 2#32),
    StableHlo.unary main_c_14 main_v78 (broadcastInDim S1024 ![] bcast_S_S1024 : (⟨S_, .i32⟩ : BufTy).Contents (Elt F) → (⟨S1024, .i32⟩ : BufTy).Contents (Elt F)),
    StableHlo.binary main_v18 main_v78 main_v79 (cmpi .eq : (⟨S1024, .i32⟩ : BufTy).Contents (Elt F) → (⟨S1024, .i32⟩ : BufTy).Contents (Elt F) → (⟨S1024, .i1⟩ : BufTy).Contents (Elt F)),
    StableHlo.nullary main_c_15 (constantI S_ 32 3#32),
    StableHlo.unary main_c_15 main_v80 (broadcastInDim S1024 ![] bcast_S_S1024 : (⟨S_, .i32⟩ : BufTy).Contents (Elt F) → (⟨S1024, .i32⟩ : BufTy).Contents (Elt F)),
    StableHlo.binary main_v18 main_v80 main_v81 (cmpi .eq : (⟨S1024, .i32⟩ : BufTy).Contents (Elt F) → (⟨S1024, .i32⟩ : BufTy).Contents (Elt F) → (⟨S1024, .i1⟩ : BufTy).Contents (Elt F)),
    StableHlo.nullary main_c_16 (constantI S_ 1 0#1),
    StableHlo.unary main_c_16 main_v82 (broadcastInDim S1024 ![] bcast_S_S1024 : (⟨S_, .i1⟩ : BufTy).Contents (Elt F) → (⟨S1024, .i1⟩ : BufTy).Contents (Elt F)),
    StableHlo.unary main_v82 main_v83 (broadcastInDim S1x1024 ![1] bcast_S1024_S1x1024_1 : (⟨S1024, .i1⟩ : BufTy).Contents (Elt F) → (⟨S1x1024, .i1⟩ : BufTy).Contents (Elt F)),
    StableHlo.unary main_v75 main_v84 (broadcastInDim S1x1024 ![1] bcast_S1024_S1x1024_1 : (⟨S1024, .i1⟩ : BufTy).Contents (Elt F) → (⟨S1x1024, .i1⟩ : BufTy).Contents (Elt F)),
    StableHlo.unary main_v77 main_v85 (broadcastInDim S1x1024 ![1] bcast_S1024_S1x1024_1 : (⟨S1024, .i1⟩ : BufTy).Contents (Elt F) → (⟨S1x1024, .i1⟩ : BufTy).Contents (Elt F)),
    StableHlo.unary main_v79 main_v86 (broadcastInDim S1x1024 ![1] bcast_S1024_S1x1024_1 : (⟨S1024, .i1⟩ : BufTy).Contents (Elt F) → (⟨S1x1024, .i1⟩ : BufTy).Contents (Elt F)),
    StableHlo.unary main_v81 main_v87 (broadcastInDim S1x1024 ![1] bcast_S1024_S1x1024_1 : (⟨S1024, .i1⟩ : BufTy).Contents (Elt F) → (⟨S1x1024, .i1⟩ : BufTy).Contents (Elt F)),
    StableHlo.nary ![main_v83, main_v84, main_v85, main_v86, main_v87] main_v88 (fun u => stack5 (u 0) (u 1) (u 2) (u 3) (u 4)) ]

abbrev sg1_v88_W : List (Ref sig .tc) := [main_c_12, main_v74, main_v75, main_c_13, main_v76, main_v77, main_c_14, main_v78, main_v79, main_c_15, main_v80, main_v81, main_c_16, main_v82, main_v83, main_v84, main_v85, main_v86, main_v87, main_v88]
theorem sg1_v88_writes : (sg1_v88 : List (HloOp τ sig (Elt F))).Forall fun op => op.writes ⊆ (sg1_v88_W.map (Proc.devRef (τ := τ) .tc)).toFinset :=
  writes_of_forall₂ (by repeat' constructor)

abbrev sg1_v89 : List (HloOp τ sig (Elt F)) :=
  [ StableHlo.TRef.nullary main_call12.v0 (iotaInDim S5x1024 32 0),
    StableHlo.TRef.nullary main_call12.c (constantI S_ 1 0#1),
    StableHlo.TRef.nullary main_call12.c_0 (constantI S_ 32 0#32),
    StableHlo.TRef.quaternary (.of main_v88 : StableHlo.TRef sig ⟨S5x1024, .i1⟩) main_call12.v0 main_call12.c main_call12.c_0 main_call12.v1_0 (fun x y u v j => (Host.reduce2 reducer_argmax_i1_i32 x y u v reducesTo_S5x1024_S1024_d0 h_S_ j).1),
    StableHlo.TRef.quaternary (.of main_v88 : StableHlo.TRef sig ⟨S5x1024, .i1⟩) main_call12.v0 main_call12.c main_call12.c_0 main_call12.v1_1 (fun x y u v j => (Host.reduce2 reducer_argmax_i1_i32 x y u v reducesTo_S5x1024_S1024_d0 h_S_ j).2) ]

abbrev sg1_v89_W : List (Ref sig .tc) := [main_call12.v0.ref, main_call12.c.ref, main_call12.c_0.ref, main_call12.v1_0.ref, main_call12.v1_1.ref]
theorem sg1_v89_writes : (sg1_v89 : List (HloOp τ sig (Elt F))).Forall fun op => op.writes ⊆ (sg1_v89_W.map (Proc.devRef (τ := τ) .tc)).toFinset :=
  writes_of_forall₂ (by repeat' constructor)

abbrev sg1_v92 : List (HloOp τ sig (Elt F)) :=
  [ StableHlo.nullary main_cst (constant S_ .f32 0x00000000#32),
    StableHlo.unary main_cst main_v90 (broadcastInDim S1024 ![] bcast_S_S1024 : (⟨S_, .f32⟩ : BufTy).Contents (Elt F) → (⟨S1024, .f32⟩ : BufTy).Contents (Elt F)),
    StableHlo.nullary main_c_17 (constantI S_ 32 2#32),
    StableHlo.unary main_c_17 main_v91 (broadcastInDim S1024 ![] bcast_S_S1024 : (⟨S_, .i32⟩ : BufTy).Contents (Elt F) → (⟨S1024, .i32⟩ : BufTy).Contents (Elt F)),
    StableHlo.binary main_v89 main_v91 main_v92 (cmpi .slt : (⟨S1024, .i32⟩ : BufTy).Contents (Elt F) → (⟨S1024, .i32⟩ : BufTy).Contents (Elt F) → (⟨S1024, .i1⟩ : BufTy).Contents (Elt F)) ]

abbrev sg1_v92_W : List (Ref sig .tc) := [main_cst, main_v90, main_c_17, main_v91, main_v92]
theorem sg1_v92_writes : (sg1_v92 : List (HloOp τ sig (Elt F))).Forall fun op => op.writes ⊆ (sg1_v92_W.map (Proc.devRef (τ := τ) .tc)).toFinset :=
  writes_of_forall₂ (by repeat' constructor)

abbrev sg1_v95 : List (HloOp τ sig (Elt F)) :=
  [ StableHlo.nullary main_c_18 (constantI S_ 32 1#32),
    StableHlo.unary main_c_18 main_v93 (broadcastInDim S1024 ![] bcast_S_S1024 : (⟨S_, .i32⟩ : BufTy).Contents (Elt F) → (⟨S1024, .i32⟩ : BufTy).Contents (Elt F)),
    StableHlo.binary main_v89 main_v93 main_v94 (cmpi .slt : (⟨S1024, .i32⟩ : BufTy).Contents (Elt F) → (⟨S1024, .i32⟩ : BufTy).Contents (Elt F) → (⟨S1024, .i1⟩ : BufTy).Contents (Elt F)),
    StableHlo.ternary main_v94 main_v90 main_v22 main_v95 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)) ]

abbrev sg1_v95_W : List (Ref sig .tc) := [main_c_18, main_v93, main_v94, main_v95]
theorem sg1_v95_writes : (sg1_v95 : List (HloOp τ sig (Elt F))).Forall fun op => op.writes ⊆ (sg1_v95_W.map (Proc.devRef (τ := τ) .tc)).toFinset :=
  writes_of_forall₂ (by repeat' constructor)

abbrev sg1_v97 : List (HloOp τ sig (Elt F)) :=
  [ StableHlo.nullary main_c_19 (constantI S_ 32 3#32),
    StableHlo.unary main_c_19 main_v96 (broadcastInDim S1024 ![] bcast_S_S1024 : (⟨S_, .i32⟩ : BufTy).Contents (Elt F) → (⟨S1024, .i32⟩ : BufTy).Contents (Elt F)),
    StableHlo.binary main_v89 main_v96 main_v97 (cmpi .slt : (⟨S1024, .i32⟩ : BufTy).Contents (Elt F) → (⟨S1024, .i32⟩ : BufTy).Contents (Elt F) → (⟨S1024, .i1⟩ : BufTy).Contents (Elt F)) ]

abbrev sg1_v97_W : List (Ref sig .tc) := [main_c_19, main_v96, main_v97]
theorem sg1_v97_writes : (sg1_v97 : List (HloOp τ sig (Elt F))).Forall fun op => op.writes ⊆ (sg1_v97_W.map (Proc.devRef (τ := τ) .tc)).toFinset :=
  writes_of_forall₂ (by repeat' constructor)

abbrev sg2_v103 : List (HloOp τ sig (Elt F)) :=
  [ StableHlo.nullary main_c_20 (constantI S_ 32 4#32),
    StableHlo.unary main_c_20 main_v98 (broadcastInDim S1024 ![] bcast_S_S1024 : (⟨S_, .i32⟩ : BufTy).Contents (Elt F) → (⟨S1024, .i32⟩ : BufTy).Contents (Elt F)),
    StableHlo.binary main_v89 main_v98 main_v99 (cmpi .slt : (⟨S1024, .i32⟩ : BufTy).Contents (Elt F) → (⟨S1024, .i32⟩ : BufTy).Contents (Elt F) → (⟨S1024, .i1⟩ : BufTy).Contents (Elt F)),
    StableHlo.ternary main_v99 main_v56 main_v73 main_v100 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    StableHlo.ternary main_v97 main_v39 main_v100 main_v101 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    StableHlo.ternary main_v92 main_v95 main_v101 main_v102 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    StableHlo.unary main_v102 main_v103 (Host.negf : (⟨S1024, .f32⟩ : BufTy).Contents (Elt F) → (⟨S1024, .f32⟩ : BufTy).Contents (Elt F)) ]

abbrev sg2_v103_W : List (Ref sig .tc) := [main_c_20, main_v98, main_v99, main_v100, main_v101, main_v102, main_v103]
theorem sg2_v103_writes : (sg2_v103 : List (HloOp τ sig (Elt F))).Forall fun op => op.writes ⊆ (sg2_v103_W.map (Proc.devRef (τ := τ) .tc)).toFinset :=
  writes_of_forall₂ (by repeat' constructor)

end Cert.ReferenceIdeal.Hand

end
-- ==== Proof.RI.Ops.lean ====
import proofs.«429142_j41094247088744_3_alg».proof.Proof.RI.Segs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) := sg0_v10 ++ (sg0_v11a ++ (sg0_v11b ++ (sg0_v11 ++ (sg0_v18 ++ (sg0_v19 ++ (sg0_v20 ++ (sg0_v21 ++ (sg0_v22 ++ (sg0_v29 ++ (sg0_v30a ++ (sg0_v30b ++ (sg0_v30 ++ (sg0_v32 ++ (sg0_v33 ++ (sg0_v34 ++ (sg0_v35 ++ (sg0_v39 ++ (sg0_v46 ++ (sg0_v47a ++ (sg0_v47b ++ (sg0_v47 ++ (sg0_v49 ++ (sg0_c8)))))))))))))))))))))))
theorem ops0_cut : (ops0 : List (HloOp τ sig (Elt F))) = sg0_v10 ++ (sg0_v11a ++ (sg0_v11b ++ (sg0_v11 ++ (sg0_v18 ++ (sg0_v19 ++ (sg0_v20 ++ (sg0_v21 ++ (sg0_v22 ++ (sg0_v29 ++ (sg0_v30a ++ (sg0_v30b ++ (sg0_v30 ++ (sg0_v32 ++ (sg0_v33 ++ (sg0_v34 ++ (sg0_v35 ++ (sg0_v39 ++ (sg0_v46 ++ (sg0_v47a ++ (sg0_v47b ++ (sg0_v47 ++ (sg0_v49 ++ (sg0_c8))))))))))))))))))))))) := rfl
theorem ops0_sub : (ops0 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., nullary_bufs_sub ..⟩

abbrev ops1 : List (HloOp τ sig (Elt F)) := sg1_v50 ++ (sg1_v51 ++ (sg1_v52 ++ (sg1_v56 ++ (sg1_v63 ++ (sg1_v64a ++ (sg1_v64b ++ (sg1_v64 ++ (sg1_v66 ++ (sg1_v67 ++ (sg1_v69 ++ (sg1_v73 ++ (sg1_v88 ++ (sg1_v89 ++ (sg1_v92 ++ (sg1_v95 ++ (sg1_v97))))))))))))))))
theorem ops1_cut : (ops1 : List (HloOp τ sig (Elt F))) = sg1_v50 ++ (sg1_v51 ++ (sg1_v52 ++ (sg1_v56 ++ (sg1_v63 ++ (sg1_v64a ++ (sg1_v64b ++ (sg1_v64 ++ (sg1_v66 ++ (sg1_v67 ++ (sg1_v69 ++ (sg1_v73 ++ (sg1_v88 ++ (sg1_v89 ++ (sg1_v92 ++ (sg1_v95 ++ (sg1_v97)))))))))))))))) := rfl
theorem ops1_sub : (ops1 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., reshape_bufs_sub .., binary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., unary_bufs_sub .., unary_bufs_sub .., nary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

abbrev ops2 : List (HloOp τ sig (Elt F)) := sg2_v103
theorem ops2_cut : (ops2 : List (HloOp τ sig (Elt F))) = sg2_v103 := rfl
theorem ops2_sub : (ops2 : List (HloOp τ sig (Elt F))).Forall fun op => op.bufs ⊆ tcRefs τ sig :=
  ⟨nullary_bufs_sub .., unary_bufs_sub .., binary_bufs_sub .., ternary_bufs_sub .., ternary_bufs_sub .., ternary_bufs_sub .., unary_bufs_sub ..⟩

abbrev ops : List (HloOp τ sig (Elt F)) := ops0 ++ ops1 ++ ops2

end Cert.ReferenceIdeal.Hand

end
-- ==== Proof.RI.Keep.lean ====
import proofs.«429142_j41094247088744_3_alg».proof.Proof.RI.Res
import proofs.«429142_j41094247088744_3_alg».proof.Proof.RI.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops_after (V : Valuation τ sig (Elt F)) : after ops V = after ops2 (after ops1 (after ops0 V)) := by
  simp only [ops, StableHlo.after_append]

abbrev argRefs : List (Ref sig .tc) := [main_arg0, main_arg1, main_arg2, main_arg3, main_arg4, main_arg5, main_arg6, main_arg7, main_arg8, main_arg9, main_arg10, main_arg11, main_arg12, main_arg13, main_arg14]

abbrev ops0_W : List (Ref sig .tc) := sg0_v10_W ++ (sg0_v11a_W ++ (sg0_v11b_W ++ (sg0_v11_W ++ (sg0_v18_W ++ (sg0_v19_W ++ (sg0_v20_W ++ (sg0_v21_W ++ (sg0_v22_W ++ (sg0_v29_W ++ (sg0_v30a_W ++ (sg0_v30b_W ++ (sg0_v30_W ++ (sg0_v32_W ++ (sg0_v33_W ++ (sg0_v34_W ++ (sg0_v35_W ++ (sg0_v39_W ++ (sg0_v46_W ++ (sg0_v47a_W ++ (sg0_v47b_W ++ (sg0_v47_W ++ (sg0_v49_W ++ (sg0_c8_W)))))))))))))))))))))))
abbrev ops1_W : List (Ref sig .tc) := sg1_v50_W ++ (sg1_v51_W ++ (sg1_v52_W ++ (sg1_v56_W ++ (sg1_v63_W ++ (sg1_v64a_W ++ (sg1_v64b_W ++ (sg1_v64_W ++ (sg1_v66_W ++ (sg1_v67_W ++ (sg1_v69_W ++ (sg1_v73_W ++ (sg1_v88_W ++ (sg1_v89_W ++ (sg1_v92_W ++ (sg1_v95_W ++ (sg1_v97_W))))))))))))))))

/-- No argument's buffer is among the buffers a window writes, so every argument keeps its contents. -/
theorem ops0_keep (V : Valuation τ sig (Elt F)) (r : Ref sig .tc) (hr : r ∈ argRefs) :
    after ops0 V (r : DevRef τ sig) = V (r : DevRef τ sig) :=
  after_of_writes_sub ops0 V (W := ops0_W) (writes_of_forall₂ (by repeat' constructor)) ((by decide : ∀ r ∈ argRefs, r ∉ ops0_W) r hr)

theorem ops1_keep (V : Valuation τ sig (Elt F)) (r : Ref sig .tc) (hr : r ∈ argRefs) :
    after ops1 V (r : DevRef τ sig) = V (r : DevRef τ sig) :=
  after_of_writes_sub ops1 V (W := ops1_W) (writes_of_forall₂ (by repeat' constructor)) ((by decide : ∀ r ∈ argRefs, r ∉ ops1_W) r hr)

theorem ops2_keep (V : Valuation τ sig (Elt F)) (r : Ref sig .tc) (hr : r ∈ argRefs) :
    after ops2 V (r : DevRef τ sig) = V (r : DevRef τ sig) :=
  after_of_writes_sub ops2 V sg2_v103_writes ((by decide : ∀ r ∈ argRefs, r ∉ sg2_v103_W) r hr)

theorem ops_keep (V : Valuation τ sig (Elt F)) (r : Ref sig .tc) (hr : r ∈ argRefs) :
    after ops V (r : DevRef τ sig) = V (r : DevRef τ sig) := by
  rw [ops_after, ops2_keep _ r hr, ops1_keep _ r hr, ops0_keep _ r hr]

end Cert.ReferenceIdeal.Hand

end
-- ==== Proof.RI.ReadBack0.lean ====
import proofs.«429142_j41094247088744_3_alg».proof.Proof.RI.Segs
import proofs.«429142_j41094247088744_3_alg».proof.Proof.RI.Keep

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Pieces

variable (V : Valuation τ sig (Elt F))

theorem ofBuf_toBuf {T : BufTy} (t : TRef sig T) (x : T.Contents (Elt F)) : t.ofBuf (t.toBuf x) = x := by
  obtain ⟨r, h, h1, h2⟩ := t
  subst h
  rfl

/-- A row's log-softmax from its pieces: the shifted row, the broadcast logarithm of the sum of its exponentials, their difference. -/
theorem lsm_of_pieces {W : ℕ} (hb : S1024x1.BroadcastsInDim (Sh2 1024 W) (![0, 1] : Fin 2 → Fin (Sh2 1024 W).rank))
    (hr : (Sh2 1024 W).ReducesTo [1] S1024) (x a5 b5 b10 out : C F (Sh2 1024 W) .f32) (ha : a5 = sh hb hr x) (hk : b5 = a5)
    (h10 : b10 = broadcastInDim (Sh2 1024 W) ![0, 1] hb (Host.log (broadcastInDim S1024x1 ![0] bcast_S1024_S1024x1_0
      (Host.reduceAdd (Host.exp a5) (constant S_ .f32 0x00000000#32) hr h_S_))))
    (ho : out = subf b5 b10) : out = lsm hb hr x := by
  subst ha hk h10 ho
  rfl

def headLogits (x : C F S1024x1024 .f32) (w : C F S20000x1024 .f32) (b : C F S20000 .f32) (wc : C F S3x1024 .f32)
    (bc : C F S3 .f32) : C F S1024x20003 .f32 :=
  headCat
    (addf (Host.dotGeneral dot_S1024x1024_S1024x20000_S1024x20000_1_0_0_1_n_n none x (transpose S1024x20000 [1, 0] w transposes_S20000x1024_S1024x20000_1_0))
      (broadcastInDim S1024x20000 ![0, 1] bcast_S1x20000_S1024x20000_0_1 (broadcastInDim S1x20000 ![1] bcast_S20000_S1x20000_1 b)))
    (addf (Host.dotGeneral dot_S1024x1024_S1024x3_S1024x3_1_0_0_1_n_n none x (transpose S1024x3 [1, 0] wc transposes_S3x1024_S1024x3_1_0))
      (broadcastInDim S1024x3 ![0, 1] bcast_S1x3_S1024x3_0_1 (broadcastInDim S1x3 ![1] bcast_S3_S1x3_1 bc)))

def countCuts (t : C F S1024 .i32) (cuts : C F S3 .i32) : C F S1024 .i32 :=
  Host.reduce IntOp.addi (extui 32 (cmpi .sge
      (broadcastInDim S1024x3 ![0, 1] bcast_S1024x1_S1024x3_0_1 (broadcastInDim S1024x1 ![0] bcast_S1024_S1024x1_0 t))
      (broadcastInDim S1024x3 ![0, 1] bcast_S1x3_S1024x3_0_1 (broadcastInDim S1x3 ![1] bcast_S3_S1x3_1 cuts))) natLt_1_32)
    (constantI S_ 32 0#32) reducesTo_S1024x3_S1024_d1 h_S_

set_option maxHeartbeats 4000000 in
theorem rb0_c : after sg0_v10 V (main_c : DevRef τ sig) = fun i => lit0 (S3.rowMajor i) := by
  after_results_simp
  rfl

set_option maxHeartbeats 4000000 in
theorem rb0_v10 :
    after sg0_v10 V (main_v10 : DevRef τ sig)
      = headLogits (V main_arg0) (V main_arg2) (V main_arg3) (V main_arg4) (V main_arg5) := by
  after_results_simp
  rfl

set_option maxHeartbeats 4000000 in
theorem rb0_v11a :
    after sg0_v11a V (main_call0_v5 : DevRef τ sig)
      = sh (W := 20003) bcast_S1024x1_S1024x20003_0_1 reducesTo_S1024x20003_S1024_d1 (V main_v10) := by
  after_results_simp
  simp only [ofBuf_toBuf]
  have ein : ∀ y, (TRef.of main_v10 : TRef sig ⟨S1024x20003, .f32⟩).ofBuf (Val := Elt F) y = y := fun _ => rfl
  have eout : ∀ x, (TRef.of main_call0_v5 : TRef sig ⟨S1024x20003, .f32⟩).toBuf (Val := Elt F) x = x := fun _ => rfl
  rw [ein]
  refine (eout _).trans ?_
  unfold sh
  with_reducible rfl

set_option maxHeartbeats 4000000 in
theorem rb0_v11b :
    after sg0_v11b V (main_call0_v10 : DevRef τ sig)
      = broadcastInDim (Sh2 1024 20003) ![0, 1] bcast_S1024x1_S1024x20003_0_1 (Host.log (broadcastInDim S1024x1 ![0] bcast_S1024_S1024x1_0
          (Host.reduceAdd (Host.exp (V main_call0_v5 : C F (Sh2 1024 20003) .f32)) (constant S_ .f32 0x00000000#32)
            reducesTo_S1024x20003_S1024_d1 h_S_))) := by
  after_results_simp
  rfl

theorem rb0_v11 :
    after sg0_v11 V (main_v11 : DevRef τ sig)
      = subf (V main_call0_v5 : C F (Sh2 1024 20003) .f32) (V main_call0_v10 : C F (Sh2 1024 20003) .f32) := by
  after_results_simp
  rfl

set_option maxHeartbeats 4000000 in
theorem rb0_v18 :
    after sg0_v18 V (main_v18 : DevRef τ sig) = countCuts (V main_arg1) (V main_c) := by
  after_results_simp
  rfl

set_option maxHeartbeats 4000000 in
theorem rb0_v19 :
    after sg0_v19 V (main_v19 : DevRef τ sig) = clip (V main_arg1) (constantI S_ 32 0#32) (constantI S_ 32 19999#32) := by
  after_results_simp
  rfl

theorem rb0_v20 :
    after sg0_v20 V (main_v20 : DevRef τ sig)
      = broadcastInDim S1024x1 ![0] bcast_S1024_S1024x1_0 (V main_v19 : C F S1024 .i32) := by
  after_results_simp

set_option maxHeartbeats 4000000 in
theorem rb0_v21 :
    after sg0_v21 V (main_v21 : DevRef τ sig)
      = take (W := 20003) gather_S1024x20003_S1024x1x1_S1024x1_n_1_0_0_1_2_11 20003#32 20002#32 (V main_v11) (V main_v20) := by
  after_results_simp
  rfl

theorem rb0_v22 :
    after sg0_v22 V (main_v22 : DevRef τ sig)
      = fun i => shapeCast S1024 (V main_v21 : C F S1024x1 .f32) shapeCasts_S1024x1_S1024 i := by
  after_results_simp
  rfl

set_option maxHeartbeats 4000000 in
theorem rb0_v29 :
    after sg0_v29 V (main_v29 : DevRef τ sig)
      = clusterLogits (D := 256) (W := 20000) transposes_S256x1024_S1024x256_1_0 dot_S1024x1024_S1024x256_S1024x256_1_0_0_1_n_n
          transposes_S20000x256_S256x20000_1_0 dot_S1024x256_S256x20000_S1024x20000_1_0_0_1_n_n bcast_S20000_S1x20000_1
          bcast_S1x20000_S1024x20000_0_1 (V main_arg0) (V main_arg6) (V main_arg7) (V main_arg8) := by
  after_results_simp
  rfl

set_option maxHeartbeats 4000000 in
theorem rb0_v30a :
    after sg0_v30a V (main_call3_v5 : DevRef τ sig)
      = sh (W := 20000) bcast_S1024x1_S1024x20000_0_1 reducesTo_S1024x20000_S1024_d1 (V main_v29) := by
  after_results_simp
  simp only [ofBuf_toBuf]
  have ein : ∀ y, (TRef.of main_v29 : TRef sig ⟨S1024x20000, .f32⟩).ofBuf (Val := Elt F) y = y := fun _ => rfl
  have eout : ∀ x, (TRef.of main_call3_v5 : TRef sig ⟨S1024x20000, .f32⟩).toBuf (Val := Elt F) x = x := fun _ => rfl
  rw [ein]
  refine (eout _).trans ?_
  unfold sh
  with_reducible rfl

set_option maxHeartbeats 4000000 in
theorem rb0_v30b :
    after sg0_v30b V (main_call3_v10 : DevRef τ sig)
      = broadcastInDim (Sh2 1024 20000) ![0, 1] bcast_S1024x1_S1024x20000_0_1 (Host.log (broadcastInDim S1024x1 ![0] bcast_S1024_S1024x1_0
          (Host.reduceAdd (Host.exp (V main_call3_v5 : C F (Sh2 1024 20000) .f32)) (constant S_ .f32 0x00000000#32)
            reducesTo_S1024x20000_S1024_d1 h_S_))) := by
  after_results_simp
  rfl

theorem rb0_v30 :
    after sg0_v30 V (main_v30 : DevRef τ sig)
      = subf (V main_call3_v5 : C F (Sh2 1024 20000) .f32) (V main_call3_v10 : C F (Sh2 1024 20000) .f32) := by
  after_results_simp
  rfl

theorem rb0_v32 :
    after sg0_v32 V (main_v32 : DevRef τ sig)
      = subi (V main_arg1 : C F S1024 .i32) (broadcastInDim S1024 ![] bcast_S_S1024 (constantI S_ 32 20000#32)) := by
  after_results_simp

set_option maxHeartbeats 4000000 in
theorem rb0_v33 :
    after sg0_v33 V (main_v33 : DevRef τ sig) = clip (V main_v32) (constantI S_ 32 0#32) (constantI S_ 32 19999#32) := by
  after_results_simp
  rfl

theorem rb0_v34 :
    after sg0_v34 V (main_v34 : DevRef τ sig)
      = broadcastInDim S1024x1 ![0] bcast_S1024_S1024x1_0 (V main_v33 : C F S1024 .i32) := by
  after_results_simp

set_option maxHeartbeats 4000000 in
theorem rb0_v35 :
    after sg0_v35 V (main_v35 : DevRef τ sig)
      = take (W := 20000) gather_S1024x20000_S1024x1x1_S1024x1_n_1_0_0_1_2_11 20000#32 19999#32 (V main_v30) (V main_v34) := by
  after_results_simp
  rfl

theorem rb0_v39 :
    after sg0_v39 V (main_v39 : DevRef τ sig)
      = addf (fun i => shapeCast S1024 (extractStridedSlice S1024x1 ![0, 20002] (V main_v11 : C F S1024x20003 .f32)
            slices_S1024x20003_S1024x1_0_20002) shapeCasts_S1024x1_S1024 i)
          (fun i => shapeCast S1024 (V main_v35 : C F S1024x1 .f32) shapeCasts_S1024x1_S1024 i) := by
  after_results_simp
  rfl

set_option maxHeartbeats 4000000 in
theorem rb0_v46 :
    after sg0_v46 V (main_v46 : DevRef τ sig)
      = clusterLogits (D := 64) (W := 160000) transposes_S64x1024_S1024x64_1_0 dot_S1024x1024_S1024x64_S1024x64_1_0_0_1_n_n
          transposes_S160000x64_S64x160000_1_0 dot_S1024x64_S64x160000_S1024x160000_1_0_0_1_n_n bcast_S160000_S1x160000_1
          bcast_S1x160000_S1024x160000_0_1 (V main_arg0) (V main_arg9) (V main_arg10) (V main_arg11) := by
  after_results_simp
  rfl

set_option maxHeartbeats 4000000 in
theorem rb0_v47a :
    after sg0_v47a V (main_call6_v5 : DevRef τ sig)
      = sh (W := 160000) bcast_S1024x1_S1024x160000_0_1 reducesTo_S1024x160000_S1024_d1 (V main_v46) := by
  after_results_simp
  simp only [ofBuf_toBuf]
  have ein : ∀ y, (TRef.of main_v46 : TRef sig ⟨S1024x160000, .f32⟩).ofBuf (Val := Elt F) y = y := fun _ => rfl
  have eout : ∀ x, (TRef.of main_call6_v5 : TRef sig ⟨S1024x160000, .f32⟩).toBuf (Val := Elt F) x = x := fun _ => rfl
  rw [ein]
  refine (eout _).trans ?_
  unfold sh
  with_reducible rfl

set_option maxHeartbeats 4000000 in
theorem rb0_v47b :
    after sg0_v47b V (main_call6_v10 : DevRef τ sig)
      = broadcastInDim (Sh2 1024 160000) ![0, 1] bcast_S1024x1_S1024x160000_0_1 (Host.log (broadcastInDim S1024x1 ![0] bcast_S1024_S1024x1_0
          (Host.reduceAdd (Host.exp (V main_call6_v5 : C F (Sh2 1024 160000) .f32)) (constant S_ .f32 0x00000000#32)
            reducesTo_S1024x160000_S1024_d1 h_S_))) := by
  after_results_simp
  rfl

theorem rb0_v47 :
    after sg0_v47 V (main_v47 : DevRef τ sig)
      = subf (V main_call6_v5 : C F (Sh2 1024 160000) .f32) (V main_call6_v10 : C F (Sh2 1024 160000) .f32) := by
  after_results_simp
  rfl

theorem rb0_v49 :
    after sg0_v49 V (main_v49 : DevRef τ sig)
      = subi (V main_arg1 : C F S1024 .i32) (broadcastInDim S1024 ![] bcast_S_S1024 (constantI S_ 32 40000#32)) := by
  after_results_simp

theorem rb0_c7 : after sg0_c8 V (main_c_7 : DevRef τ sig) = constantI S_ 32 0#32 := by
  after_results_simp

theorem rb0_c8 : after sg0_c8 V (main_c_8 : DevRef τ sig) = constantI S_ 32 159999#32 := by
  after_results_simp

end Pieces

variable (m : Mem F) (c : Dev nD)

abbrev U_in : Valuation τ sig (Elt F) := launchContents m c
abbrev U_v10 : Valuation τ sig (Elt F) := after sg0_v10 (U_in m c)
abbrev U_v11a : Valuation τ sig (Elt F) := after sg0_v11a (U_v10 m c)
abbrev U_v11b : Valuation τ sig (Elt F) := after sg0_v11b (U_v11a m c)
abbrev U_v11 : Valuation τ sig (Elt F) := after sg0_v11 (U_v11b m c)
abbrev U_v18 : Valuation τ sig (Elt F) := after sg0_v18 (U_v11 m c)
abbrev U_v19 : Valuation τ sig (Elt F) := after sg0_v19 (U_v18 m c)
abbrev U_v20 : Valuation τ sig (Elt F) := after sg0_v20 (U_v19 m c)
abbrev U_v21 : Valuation τ sig (Elt F) := after sg0_v21 (U_v20 m c)
abbrev U_v22 : Valuation τ sig (Elt F) := after sg0_v22 (U_v21 m c)
abbrev U_v29 : Valuation τ sig (Elt F) := after sg0_v29 (U_v22 m c)
abbrev U_v30a : Valuation τ sig (Elt F) := after sg0_v30a (U_v29 m c)
abbrev U_v30b : Valuation τ sig (Elt F) := after sg0_v30b (U_v30a m c)
abbrev U_v30 : Valuation τ sig (Elt F) := after sg0_v30 (U_v30b m c)
abbrev U_v32 : Valuation τ sig (Elt F) := after sg0_v32 (U_v30 m c)
abbrev U_v33 : Valuation τ sig (Elt F) := after sg0_v33 (U_v32 m c)
abbrev U_v34 : Valuation τ sig (Elt F) := after sg0_v34 (U_v33 m c)
abbrev U_v35 : Valuation τ sig (Elt F) := after sg0_v35 (U_v34 m c)
abbrev U_v39 : Valuation τ sig (Elt F) := after sg0_v39 (U_v35 m c)
abbrev U_v46 : Valuation τ sig (Elt F) := after sg0_v46 (U_v39 m c)
abbrev U_v47a : Valuation τ sig (Elt F) := after sg0_v47a (U_v46 m c)
abbrev U_v47b : Valuation τ sig (Elt F) := after sg0_v47b (U_v47a m c)
abbrev U_v47 : Valuation τ sig (Elt F) := after sg0_v47 (U_v47b m c)
abbrev U_v49 : Valuation τ sig (Elt F) := after sg0_v49 (U_v47 m c)
abbrev U_c8 : Valuation τ sig (Elt F) := after sg0_c8 (U_v49 m c)

theorem ops0_after : after ops0 (launchContents m c) = U_c8 m c := by
  rw [ops0_cut]
  simp only [after_append]

macro "kdn1" : tactic => `(tactic| first
  | (rw [after_of_writes_sub sg0_c8 _ sg0_c8_writes]; rotate_left; decide)
  | (rw [after_of_writes_sub sg0_v49 _ sg0_v49_writes]; rotate_left; decide)
  | (rw [after_of_writes_sub sg0_v47 _ sg0_v47_writes]; rotate_left; decide)
  | (rw [after_of_writes_sub sg0_v47b _ sg0_v47b_writes]; rotate_left; decide)
  | (rw [after_of_writes_sub sg0_v47a _ sg0_v47a_writes]; rotate_left; decide)
  | (rw [after_of_writes_sub sg0_v46 _ sg0_v46_writes]; rotate_left; decide)
  | (rw [after_of_writes_sub sg0_v39 _ sg0_v39_writes]; rotate_left; decide)
  | (rw [after_of_writes_sub sg0_v35 _ sg0_v35_writes]; rotate_left; decide)
  | (rw [after_of_writes_sub sg0_v34 _ sg0_v34_writes]; rotate_left; decide)
  | (rw [after_of_writes_sub sg0_v33 _ sg0_v33_writes]; rotate_left; decide)
  | (rw [after_of_writes_sub sg0_v32 _ sg0_v32_writes]; rotate_left; decide)
  | (rw [after_of_writes_sub sg0_v30 _ sg0_v30_writes]; rotate_left; decide)
  | (rw [after_of_writes_sub sg0_v30b _ sg0_v30b_writes]; rotate_left; decide)
  | (rw [after_of_writes_sub sg0_v30a _ sg0_v30a_writes]; rotate_left; decide)
  | (rw [after_of_writes_sub sg0_v29 _ sg0_v29_writes]; rotate_left; decide)
  | (rw [after_of_writes_sub sg0_v22 _ sg0_v22_writes]; rotate_left; decide)
  | (rw [after_of_writes_sub sg0_v21 _ sg0_v21_writes]; rotate_left; decide)
  | (rw [after_of_writes_sub sg0_v20 _ sg0_v20_writes]; rotate_left; decide)
  | (rw [after_of_writes_sub sg0_v19 _ sg0_v19_writes]; rotate_left; decide)
  | (rw [after_of_writes_sub sg0_v18 _ sg0_v18_writes]; rotate_left; decide)
  | (rw [after_of_writes_sub sg0_v11 _ sg0_v11_writes]; rotate_left; decide)
  | (rw [after_of_writes_sub sg0_v11b _ sg0_v11b_writes]; rotate_left; decide)
  | (rw [after_of_writes_sub sg0_v11a _ sg0_v11a_writes]; rotate_left; decide)
  | (rw [after_of_writes_sub sg0_v10 _ sg0_v10_writes]; rotate_left; decide))

macro "kdn" : tactic => `(tactic| repeat kdn1)

macro "ustrip" : tactic => `(tactic| (dsimp only [U_c8, U_v49, U_v47, U_v47b, U_v47a, U_v46, U_v39, U_v35, U_v34, U_v33, U_v32, U_v30, U_v30b, U_v30a, U_v29, U_v22, U_v21, U_v20, U_v19, U_v18, U_v11, U_v11b, U_v11a, U_v10, U_in]; kdn))

theorem c0_v10 : U_v10 m c (main_v10 : DevRef τ sig) = res_v10 m c := by
  refine (rb0_v10 (U_in m c)).trans ?_
  rfl

theorem c0_c : U_v10 m c (main_c : DevRef τ sig) = fun i => lit0 (S3.rowMajor i) := rb0_c (U_in m c)

theorem c0_v11 : U_v11 m c (main_v11 : DevRef τ sig) = res_v11 m c :=
  lsm_of_pieces bcast_S1024x1_S1024x20003_0_1 reducesTo_S1024x20003_S1024_d1 (res_v10 m c) _ _ _ _
    ((rb0_v11a (U_v10 m c)).trans (by rw [c0_v10])) (after_of_writes_sub sg0_v11b _ sg0_v11b_writes (by decide))
    (rb0_v11b (U_v11a m c)) (rb0_v11 (U_v11b m c))

theorem c0_v18 : U_v18 m c (main_v18 : DevRef τ sig) = res_v18 m c := by
  refine (rb0_v18 (U_v11 m c)).trans ?_
  have h1 : U_v11 m c (main_arg1 : DevRef τ sig) = a1 m c := by
    ustrip
  have h2 : U_v11 m c (main_c : DevRef τ sig) = fun i => lit0 (S3.rowMajor i) := by
    dsimp only [U_v11, U_v11b, U_v11a]; kdn; exact c0_c m c
  rw [h1, h2]
  rfl

theorem c0_v22 : U_v22 m c (main_v22 : DevRef τ sig) = res_v22 m c := by
  have h1 : U_v18 m c (main_arg1 : DevRef τ sig) = a1 m c := by ustrip
  have h11 : U_v20 m c (main_v11 : DevRef τ sig) = res_v11 m c := by ustrip; exact c0_v11 m c
  refine (rb0_v22 (U_v21 m c)).trans ?_
  rw [show U_v21 m c (main_v21 : DevRef τ sig) = _ from rb0_v21 (U_v20 m c), h11,
    show U_v20 m c (main_v20 : DevRef τ sig) = _ from rb0_v20 (U_v19 m c),
    show U_v19 m c (main_v19 : DevRef τ sig) = _ from rb0_v19 (U_v18 m c), h1]
  rfl

theorem c0_v29 : U_v29 m c (main_v29 : DevRef τ sig) = res_v29 m c := by
  refine (rb0_v29 (U_v22 m c)).trans ?_
  have h0 : U_v22 m c (main_arg0 : DevRef τ sig) = a0 m c := by ustrip
  have h6 : U_v22 m c (main_arg6 : DevRef τ sig) = a6 m c := by ustrip
  have h7 : U_v22 m c (main_arg7 : DevRef τ sig) = a7 m c := by ustrip
  have h8 : U_v22 m c (main_arg8 : DevRef τ sig) = a8 m c := by ustrip
  rw [h0, h6, h7, h8]
  rfl

theorem c0_v30 : U_v30 m c (main_v30 : DevRef τ sig) = res_v30 m c :=
  lsm_of_pieces bcast_S1024x1_S1024x20000_0_1 reducesTo_S1024x20000_S1024_d1 (res_v29 m c) _ _ _ _
    ((rb0_v30a (U_v29 m c)).trans (by rw [c0_v29])) (after_of_writes_sub sg0_v30b _ sg0_v30b_writes (by decide))
    (rb0_v30b (U_v30a m c)) (rb0_v30 (U_v30b m c))

theorem c0_v39 : U_v39 m c (main_v39 : DevRef τ sig) = res_v39 m c := by
  have h1 : U_v30 m c (main_arg1 : DevRef τ sig) = a1 m c := by ustrip
  have h30 : U_v34 m c (main_v30 : DevRef τ sig) = res_v30 m c := by ustrip; exact c0_v30 m c
  have h11 : U_v35 m c (main_v11 : DevRef τ sig) = res_v11 m c := by ustrip; exact c0_v11 m c
  refine (rb0_v39 (U_v35 m c)).trans ?_
  rw [h11, show U_v35 m c (main_v35 : DevRef τ sig) = _ from rb0_v35 (U_v34 m c), h30,
    show U_v34 m c (main_v34 : DevRef τ sig) = _ from rb0_v34 (U_v33 m c),
    show U_v33 m c (main_v33 : DevRef τ sig) = _ from rb0_v33 (U_v32 m c),
    show U_v32 m c (main_v32 : DevRef τ sig) = _ from rb0_v32 (U_v30 m c), h1]
  rfl

theorem c0_v46 : U_v46 m c (main_v46 : DevRef τ sig) = res_v46 m c := by
  refine (rb0_v46 (U_v39 m c)).trans ?_
  have h0 : U_v39 m c (main_arg0 : DevRef τ sig) = a0 m c := by ustrip
  have h9 : U_v39 m c (main_arg9 : DevRef τ sig) = a9 m c := by ustrip
  have h10 : U_v39 m c (main_arg10 : DevRef τ sig) = a10 m c := by ustrip
  have h11 : U_v39 m c (main_arg11 : DevRef τ sig) = a11 m c := by ustrip
  rw [h0, h9, h10, h11]
  rfl

theorem c0_v47 : U_v47 m c (main_v47 : DevRef τ sig) = res_v47 m c :=
  lsm_of_pieces bcast_S1024x1_S1024x160000_0_1 reducesTo_S1024x160000_S1024_d1 (res_v46 m c) _ _ _ _
    ((rb0_v47a (U_v46 m c)).trans (by rw [c0_v46])) (after_of_writes_sub sg0_v47b _ sg0_v47b_writes (by decide))
    (rb0_v47b (U_v47a m c)) (rb0_v47 (U_v47b m c))

theorem c0_v49 :
    U_v49 m c (main_v49 : DevRef τ sig) = subi (a1 m c) (broadcastInDim S1024 ![] bcast_S_S1024 (constantI S_ 32 40000#32)) := by
  refine (rb0_v49 (U_v47 m c)).trans ?_
  have h1 : U_v47 m c (main_arg1 : DevRef τ sig) = a1 m c := by ustrip
  rw [h1]

theorem win0 (m : Mem F) (c : Dev nD) :
    let V1 := after ops0 (launchContents m c)
    V1 (main_v11 : DevRef τ sig) = res_v11 m c ∧ V1 (main_v18 : DevRef τ sig) = res_v18 m c ∧ V1 (main_v22 : DevRef τ sig) = res_v22 m c
    ∧ V1 (main_v39 : DevRef τ sig) = res_v39 m c ∧ V1 (main_v47 : DevRef τ sig) = res_v47 m c
    ∧ V1 (main_v49 : DevRef τ sig) = subi (a1 m c) (broadcastInDim S1024 ![] bcast_S_S1024 (constantI S_ 32 40000#32))
    ∧ V1 (main_c_7 : DevRef τ sig) = constantI S_ 32 0#32 ∧ V1 (main_c_8 : DevRef τ sig) = constantI S_ 32 159999#32 := by
  dsimp only
  rw [ops0_after m c]
  refine ⟨?_, ?_, ?_, ?_, ?_, ?_, ?_, ?_⟩
  · ustrip; exact c0_v11 m c
  · ustrip; exact c0_v18 m c
  · ustrip; exact c0_v22 m c
  · ustrip; exact c0_v39 m c
  · ustrip; exact c0_v47 m c
  · ustrip; exact c0_v49 m c
  · exact rb0_c7 (U_v49 m c)
  · exact rb0_c8 (U_v49 m c)

end Cert.ReferenceIdeal.Hand

end
-- ==== Proof.RI.ReadBack1.lean ====
import proofs.«429142_j41094247088744_3_alg».proof.Proof.RI.Segs
import proofs.«429142_j41094247088744_3_alg».proof.Proof.RI.Keep
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem rb1_v50 (V : Valuation τ sig (Elt F)) :
    after sg1_v50 V (main_v50 : DevRef τ sig) = clip (V (main_v49 : DevRef τ sig)) (V (main_c_7 : DevRef τ sig)) (V (main_c_8 : DevRef τ sig)) := by
  after_results_simp
  rfl

theorem rb1_v51 (V : Valuation τ sig (Elt F)) :
    after sg1_v51 V (main_v51 : DevRef τ sig) = broadcastInDim S1024x1 ![0] bcast_S1024_S1024x1_0 (V (main_v50 : DevRef τ sig)) := by
  after_results_simp

theorem rb1_v52 (V : Valuation τ sig (Elt F)) :
    after sg1_v52 V (main_v52 : DevRef τ sig) = take (W := 160000) gather_S1024x160000_S1024x1x1_S1024x1_n_1_0_0_1_2_11 160000#32 159999#32 (V (main_v47 : DevRef τ sig)) (V (main_v51 : DevRef τ sig)) := by
  after_results_simp
  rfl

theorem rb1_v56 (V : Valuation τ sig (Elt F)) :
    after sg1_v56 V (main_v56 : DevRef τ sig) = addf (fun i => shapeCast S1024 (extractStridedSlice S1024x1 ![0, 20001] (V (main_v11 : DevRef τ sig)) slices_S1024x20003_S1024x1_0_20001) shapeCasts_S1024x1_S1024 i) (fun i => shapeCast S1024 (V (main_v52 : DevRef τ sig)) shapeCasts_S1024x1_S1024 i) := by
  after_results_simp
  rfl

theorem rb1_v63 (V : Valuation τ sig (Elt F)) :
    after sg1_v63 V (main_v63 : DevRef τ sig) = clusterLogits (D := 16) (W := 67735) transposes_S16x1024_S1024x16_1_0 dot_S1024x1024_S1024x16_S1024x16_1_0_0_1_n_n
      transposes_S67735x16_S16x67735_1_0 dot_S1024x16_S16x67735_S1024x67735_1_0_0_1_n_n bcast_S67735_S1x67735_1 bcast_S1x67735_S1024x67735_0_1
      (V (main_arg0 : DevRef τ sig)) (V (main_arg12 : DevRef τ sig)) (V (main_arg13 : DevRef τ sig)) (V (main_arg14 : DevRef τ sig)) := by
  after_results_simp
  rfl

theorem lsm_eq {W : ℕ} (hb : S1024x1.BroadcastsInDim (Sh2 1024 W) (![0, 1] : Fin 2 → Fin (Sh2 1024 W).rank)) (hr : (Sh2 1024 W).ReducesTo [1] S1024)
    (x : C F (Sh2 1024 W) .f32) :
    lsm hb hr x = subf (sh hb hr x) (broadcastInDim (Sh2 1024 W) ![0, 1] hb (Host.log (broadcastInDim S1024x1 ![0] bcast_S1024_S1024x1_0
      (Host.reduceAdd (Host.exp (sh hb hr x)) (constant S_ .f32 0x00000000#32) hr h_S_)))) := rfl

theorem tref_roundtrip {T : BufTy} (t : TRef sig T) (x : T.Contents (Elt F)) : t.ofBuf (t.toBuf x) = x := by
  obtain ⟨r, h, _, _⟩ := t
  subst h
  rfl

theorem ofBuf_v63 (p1 p2 p3) (v : (TRef.of main_v63 p1 p2 p3 : TRef sig ⟨S1024x67735, .f32⟩).ref.ty.Contents (Elt F)) :
    (TRef.of main_v63 p1 p2 p3 : TRef sig ⟨S1024x67735, .f32⟩).ofBuf v = v := rfl

theorem toBuf_c9v5 (p1 p2 p3) (v : (⟨S1024x67735, .f32⟩ : BufTy).Contents (Elt F)) :
    (TRef.of main_call9_v5 p1 p2 p3 : TRef sig ⟨S1024x67735, .f32⟩).toBuf v = v := rfl

theorem rb1_v64a (V : Valuation τ sig (Elt F)) :
    after sg1_v64a V (main_call9_v5 : DevRef τ sig) = sh (W := 67735) bcast_S1024x1_S1024x67735_0_1 reducesTo_S1024x67735_S1024_d1 (V (main_v63 : DevRef τ sig)) := by
  after_results_simp
  simp only [tref_roundtrip, ofBuf_v63, toBuf_c9v5]
  unfold sh
  with_reducible rfl

theorem rb1_v64b (V : Valuation τ sig (Elt F)) :
    after sg1_v64b V (main_call9_v10 : DevRef τ sig) = broadcastInDim (Sh2 1024 67735) ![0, 1] bcast_S1024x1_S1024x67735_0_1 (Host.log (broadcastInDim S1024x1 ![0] bcast_S1024_S1024x1_0
      (Host.reduceAdd (Host.exp (V (main_call9_v5 : DevRef τ sig))) (constant S_ .f32 0x00000000#32) reducesTo_S1024x67735_S1024_d1 h_S_))) := by
  after_results_simp
  rfl

theorem rb1_v64 (V : Valuation τ sig (Elt F)) :
    after sg1_v64 V (main_v64 : DevRef τ sig) = subf (V (main_call9_v5 : DevRef τ sig)) (V (main_call9_v10 : DevRef τ sig)) := by
  after_results_simp
  rfl

theorem rb1_v66 (V : Valuation τ sig (Elt F)) :
    after sg1_v66 V (main_v66 : DevRef τ sig) = subi (V (main_arg1 : DevRef τ sig)) (broadcastInDim S1024 ![] bcast_S_S1024 (constantI S_ 32 200000#32)) := by
  after_results_simp

theorem rb1_v67 (V : Valuation τ sig (Elt F)) :
    after sg1_v67 V (main_v67 : DevRef τ sig) = clip (V (main_v66 : DevRef τ sig)) (constantI S_ 32 0#32) (constantI S_ 32 67734#32) := by
  after_results_simp
  rfl

theorem rb1_v69 (V : Valuation τ sig (Elt F)) :
    after sg1_v69 V (main_v69 : DevRef τ sig) = take (W := 67735) gather_S1024x67735_S1024x1x1_S1024x1_n_1_0_0_1_2_11 67735#32 67734#32 (V (main_v64 : DevRef τ sig))
      (broadcastInDim S1024x1 ![0] bcast_S1024_S1024x1_0 (V (main_v67 : DevRef τ sig))) := by
  after_results_simp
  rfl

theorem rb1_v73 (V : Valuation τ sig (Elt F)) :
    after sg1_v73 V (main_v73 : DevRef τ sig) = addf (fun i => shapeCast S1024 (extractStridedSlice S1024x1 ![0, 20000] (V (main_v11 : DevRef τ sig)) slices_S1024x20003_S1024x1_0_20000) shapeCasts_S1024x1_S1024 i) (fun i => shapeCast S1024 (V (main_v69 : DevRef τ sig)) shapeCasts_S1024x1_S1024 i) := by
  after_results_simp
  rfl

theorem rb1_v89 (V : Valuation τ sig (Elt F)) :
    after sg1_v89 V (main_v89 : DevRef τ sig) = fun j => (Host.reduce2 reducer_argmax_i1_i32 (V (main_v88 : DevRef τ sig)) (iotaInDim S5x1024 32 0) (constantI S_ 1 0#1) (constantI S_ 32 0#32) reducesTo_S5x1024_S1024_d0 h_S_ j).2 := by
  after_results_simp
  rfl

theorem rb1_v90 (V : Valuation τ sig (Elt F)) :
    after sg1_v92 V (main_v90 : DevRef τ sig) = broadcastInDim S1024 ![] bcast_S_S1024 (constant S_ .f32 0x00000000#32) := by
  after_results_simp

theorem rb1_v92 (V : Valuation τ sig (Elt F)) :
    after sg1_v92 V (main_v92 : DevRef τ sig) = cmpi .slt (V (main_v89 : DevRef τ sig)) (broadcastInDim S1024 ![] bcast_S_S1024 (constantI S_ 32 2#32)) := by
  after_results_simp

theorem rb1_v95 (V : Valuation τ sig (Elt F)) :
    after sg1_v95 V (main_v95 : DevRef τ sig) = select (cmpi .slt (V (main_v89 : DevRef τ sig)) (broadcastInDim S1024 ![] bcast_S_S1024 (constantI S_ 32 1#32))) (V (main_v90 : DevRef τ sig)) (V (main_v22 : DevRef τ sig)) := by
  after_results_simp

theorem rb1_v97 (V : Valuation τ sig (Elt F)) :
    after sg1_v97 V (main_v97 : DevRef τ sig) = cmpi .slt (V (main_v89 : DevRef τ sig)) (broadcastInDim S1024 ![] bcast_S_S1024 (constantI S_ 32 3#32)) := by
  after_results_simp

set_option maxRecDepth 65536 in

theorem rb1_v88 (V : Valuation τ sig (Elt F)) :
    after sg1_v88 V (main_v88 : DevRef τ sig) = stack5 (broadcastInDim S1x1024 ![1] bcast_S1024_S1x1024_1 (broadcastInDim S1024 ![] bcast_S_S1024 (constantI S_ 1 0#1)))
      (broadcastInDim S1x1024 ![1] bcast_S1024_S1x1024_1 (cmpi .eq (V (main_v18 : DevRef τ sig)) (broadcastInDim S1024 ![] bcast_S_S1024 (constantI S_ 32 0#32)))) (broadcastInDim S1x1024 ![1] bcast_S1024_S1x1024_1 (cmpi .eq (V (main_v18 : DevRef τ sig)) (broadcastInDim S1024 ![] bcast_S_S1024 (constantI S_ 32 1#32))))
      (broadcastInDim S1x1024 ![1] bcast_S1024_S1x1024_1 (cmpi .eq (V (main_v18 : DevRef τ sig)) (broadcastInDim S1024 ![] bcast_S_S1024 (constantI S_ 32 2#32)))) (broadcastInDim S1x1024 ![1] bcast_S1024_S1x1024_1 (cmpi .eq (V (main_v18 : DevRef τ sig)) (broadcastInDim S1024 ![] bcast_S_S1024 (constantI S_ 32 3#32)))) := by
  after_results_simp
  simp only [Matrix.cons_val]
  after_results_simp

theorem rb2_v103 (V : Valuation τ sig (Elt F)) :
    after sg2_v103 V (main_v103 : DevRef τ sig) = Host.negf (select (V (main_v92 : DevRef τ sig)) (V (main_v95 : DevRef τ sig))
      (select (V (main_v97 : DevRef τ sig)) (V (main_v39 : DevRef τ sig)) (select (cmpi .slt (V (main_v89 : DevRef τ sig)) (broadcastInDim S1024 ![] bcast_S_S1024 (constantI S_ 32 4#32))) (V (main_v56 : DevRef τ sig)) (V (main_v73 : DevRef τ sig))))) := by
  after_results_simp

macro "walk1" : tactic => `(tactic| first
  | rw [rb1_v50]
  | rw [rb1_v51]
  | rw [rb1_v52]
  | rw [rb1_v56]
  | rw [rb1_v63]
  | rw [rb1_v64a]
  | rw [rb1_v64b]
  | rw [rb1_v64]
  | rw [rb1_v66]
  | rw [rb1_v67]
  | rw [rb1_v69]
  | rw [rb1_v73]
  | rw [rb1_v89]
  | rw [rb1_v90]
  | rw [rb1_v92]
  | rw [rb1_v95]
  | rw [rb1_v97]
  | rw [rb1_v88]
  | (rw [after_of_writes_sub sg1_v50 _ sg1_v50_writes]; rotate_left; decide)
  | (rw [after_of_writes_sub sg1_v51 _ sg1_v51_writes]; rotate_left; decide)
  | (rw [after_of_writes_sub sg1_v52 _ sg1_v52_writes]; rotate_left; decide)
  | (rw [after_of_writes_sub sg1_v56 _ sg1_v56_writes]; rotate_left; decide)
  | (rw [after_of_writes_sub sg1_v63 _ sg1_v63_writes]; rotate_left; decide)
  | (rw [after_of_writes_sub sg1_v64a _ sg1_v64a_writes]; rotate_left; decide)
  | (rw [after_of_writes_sub sg1_v64b _ sg1_v64b_writes]; rotate_left; decide)
  | (rw [after_of_writes_sub sg1_v64 _ sg1_v64_writes]; rotate_left; decide)
  | (rw [after_of_writes_sub sg1_v66 _ sg1_v66_writes]; rotate_left; decide)
  | (rw [after_of_writes_sub sg1_v67 _ sg1_v67_writes]; rotate_left; decide)
  | (rw [after_of_writes_sub sg1_v69 _ sg1_v69_writes]; rotate_left; decide)
  | (rw [after_of_writes_sub sg1_v73 _ sg1_v73_writes]; rotate_left; decide)
  | (rw [after_of_writes_sub sg1_v88 _ sg1_v88_writes]; rotate_left; decide)
  | (rw [after_of_writes_sub sg1_v89 _ sg1_v89_writes]; rotate_left; decide)
  | (rw [after_of_writes_sub sg1_v92 _ sg1_v92_writes]; rotate_left; decide)
  | (rw [after_of_writes_sub sg1_v95 _ sg1_v95_writes]; rotate_left; decide)
  | (rw [after_of_writes_sub sg1_v97 _ sg1_v97_writes]; rotate_left; decide))

macro "walk" : tactic => `(tactic| repeat walk1)

theorem ops1_after (V : Valuation τ sig (Elt F)) :
    after ops1 V = after sg1_v97 (after sg1_v95 (after sg1_v92 (after sg1_v89 (after sg1_v88 (after sg1_v73 (after sg1_v69 (after sg1_v67 (after sg1_v66 (after sg1_v64 (after sg1_v64b (after sg1_v64a (after sg1_v63 (after sg1_v56 (after sg1_v52 (after sg1_v51 (after sg1_v50 (V))))))))))))))))) := by
  simp only [ops1_cut, StableHlo.after_append]

set_option maxRecDepth 65536 in
set_option maxHeartbeats 4000000 in

theorem win1 (m : Mem F) (c : Dev nD) (V1 : Valuation τ sig (Elt F))
    (h11 : V1 (main_v11 : DevRef τ sig) = res_v11 m c) (h18 : V1 (main_v18 : DevRef τ sig) = res_v18 m c) (h22 : V1 (main_v22 : DevRef τ sig) = res_v22 m c)
    (h39 : V1 (main_v39 : DevRef τ sig) = res_v39 m c) (h47 : V1 (main_v47 : DevRef τ sig) = res_v47 m c)
    (h49 : V1 (main_v49 : DevRef τ sig) = subi (a1 m c) (broadcastInDim S1024 ![] bcast_S_S1024 (constantI S_ 32 40000#32)))
    (hc7 : V1 (main_c_7 : DevRef τ sig) = constantI S_ 32 0#32) (hc8 : V1 (main_c_8 : DevRef τ sig) = constantI S_ 32 159999#32)
    (ha : ∀ r ∈ argRefs, V1 (r : DevRef τ sig) = launchContents m c (r : DevRef τ sig)) :
    after ops1 V1 (main_v89 : DevRef τ sig) = res_v89 m c ∧ after ops1 V1 (main_v56 : DevRef τ sig) = res_v56 m c ∧ after ops1 V1 (main_v73 : DevRef τ sig) = res_v73 m c
    ∧ after ops1 V1 (main_v39 : DevRef τ sig) = res_v39 m c ∧ after ops1 V1 (main_v92 : DevRef τ sig) = below 2#32 m c ∧ after ops1 V1 (main_v97 : DevRef τ sig) = below 3#32 m c
    ∧ after ops1 V1 (main_v95 : DevRef τ sig) = select (below 1#32 m c) (broadcastInDim S1024 ![] bcast_S_S1024 (constant S_ .f32 0x00000000#32)) (res_v22 m c) := by
  have ha0 := ha main_arg0 (by decide)
  have ha1 := ha main_arg1 (by decide)
  have ha12 := ha main_arg12 (by decide)
  have ha13 := ha main_arg13 (by decide)
  have ha14 := ha main_arg14 (by decide)
  rw [ops1_after]
  refine ⟨?_, ?_, ?_, ?_, ?_, ?_, ?_⟩ <;> walk <;>
    simp only [← lsm_eq, h11, h18, h22, h39, h47, h49, hc7, hc8, ha0, ha1, ha12, ha13, ha14] <;> rfl

theorem win2 (m : Mem F) (c : Dev nD) (V2 : Valuation τ sig (Elt F))
    (h89 : V2 (main_v89 : DevRef τ sig) = res_v89 m c) (h56 : V2 (main_v56 : DevRef τ sig) = res_v56 m c) (h73 : V2 (main_v73 : DevRef τ sig) = res_v73 m c)
    (h39 : V2 (main_v39 : DevRef τ sig) = res_v39 m c) (h92 : V2 (main_v92 : DevRef τ sig) = below 2#32 m c) (h97 : V2 (main_v97 : DevRef τ sig) = below 3#32 m c)
    (h95 : V2 (main_v95 : DevRef τ sig) = select (below 1#32 m c) (broadcastInDim S1024 ![] bcast_S_S1024 (constant S_ .f32 0x00000000#32)) (res_v22 m c)) :
    after ops2 V2 (main_v103 : DevRef τ sig) = resR m c := by
  rw [ops2_cut, rb2_v103, h92, h95, h97, h39, h89, h56, h73]
  rfl

end Cert.ReferenceIdeal.Hand

end
-- ==== Proof.RI.Run.lean ====
import proofs.«429142_j41094247088744_3_alg».proof.Proof.RI.ReadBack0
import proofs.«429142_j41094247088744_3_alg».proof.Proof.RI.ReadBack1
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in

theorem main_part0_eq (c : Dev nD) : main_part0 (F := F) c = seq ops0 := by
  simp only [main_part0, fn_log_softmax.body, fn_clip.body, fn_take_along_axis.body, fn_log_softmax_0.body, fn_clip_1.body,
    fn_take_along_axis_2.body, fn_log_softmax_3.body, ops0, seq_append, seq, bind_assoc, pure_bind]
  rfl

set_option maxRecDepth 65536 in
set_option maxHeartbeats 4000000 in

theorem main_part1_eq (c : Dev nD) : main_part1 (F := F) c = seq ops1 := by
  simp only [main_part1, fn_clip_1.body, fn_take_along_axis_4.body, fn_log_softmax_5.body, fn_take_along_axis_6.body, fn_argmax.body,
    ops1, seq_append, seq, bind_assoc, pure_bind]
  rfl

theorem main_part2_eq (c : Dev nD) : main_part2 (F := F) c = seq ops2 := by
  simp only [main_part2, seq, bind_assoc, pure_bind]

/-- @main is the straight line of its 291 operations: callees unfolded at their calls, sequencing re-associated. -/
theorem main_eq (c : Dev nD) : main (F := F) c = seq ops := by
  simp only [main, ops, seq_append, main_part0_eq, main_part1_eq, main_part2_eq, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨ops0_sub, ops1_sub⟩, ops2_sub⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.mp h).elim (fun h => (List.mem_append.mp h).elim (ops0_fresh op) (ops1_fresh op)) (ops2_fresh op)

/-- At the result buffer the fold over the line is the composed term: each window feeds the next. -/
theorem out_eq (m : Mem F) (c : Dev nD) :
    after ops (launchContents m c) (main_v103 : DevRef τ sig) = resR m c := by
  rw [ops_after]
  obtain ⟨h11, h18, h22, h39, h47, h49, hc7, hc8⟩ := win0 m c
  obtain ⟨h89, h56, h73, h39', h92, h97, h95⟩ :=
    win1 m c (after ops0 (launchContents m c)) h11 h18 h22 h39 h47 h49 hc7 hc8 (fun r hr => ops0_keep _ r hr)
  exact win2 m c _ h89 h56 h73 h39' h92 h97 h95

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v103).trans (out_eq m c),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide))⟩)
    (run_seq scopedRefs_eq scopedSems_eq defs main (fun _ => ops) main_eq (fun _ => ops_sub) m ρ (fun _ => ops_fresh))

end Cert.ReferenceIdeal.Hand

end
-- ==== Proof.Spec.lean ====
import Idealize.ShloMosaic.PureOps.Ideal

noncomputable section

namespace Cert.Spec

open Idealize.ShloMosaic

/-- A large negative finite number: the stand-in for `-∞` on the columns from `vreal` on. -/
def NEG : EReal := Ideal.ofBits .f32 0xFF333332#32

/-- `lg` on the first `vreal` columns, `NEG` beyond. -/
def msk (vreal : ℕ) (lg : ℕ → EReal) (j : ℕ) : EReal := if j < vreal then lg j else NEG

/-- `sup` of the masked row over the `len` columns from `lo`. -/
def segMax (vreal : ℕ) (lg : ℕ → EReal) (lo len : ℕ) : EReal :=
  (Finset.range len).sup fun j => msk vreal lg (lo + j)

/-- `∑ exp (lg j - mx)` over those of the `len` columns from `lo` that lie below `vreal`. -/
def segSum (vreal : ℕ) (lg : ℕ → EReal) (lo len : ℕ) (mx : EReal) : EReal :=
  ∑ j ∈ Finset.range len, if lo + j < vreal then Ideal.exp (lg (lo + j) - mx) else 0

/-- The masked row at `t` when the segment contains `t`, else `0`, written as a sum over the segment. -/
def segGat (vreal : ℕ) (lg : ℕ → EReal) (lo len : ℕ) (t : ℕ) : EReal :=
  ∑ j ∈ Finset.range len, if lo + j = t then msk vreal lg (lo + j) else 0

/-- `log (L0 · exp M0 + L1 · exp M1)`, computed relative to `max M0 M1`. -/
def joinLse (M0 L0 M1 L1 : EReal) : EReal :=
  max M0 M1 + Ideal.log (L0 * Ideal.exp (M0 - max M0 M1) + L1 * Ideal.exp (M1 - max M0 M1))

/-- `log (exp a + exp b)`, computed as `max a b + log1p (exp (-|a - b|))`. -/
def logAddExp (a b : EReal) : EReal := max a b + Ideal.log1p (Ideal.exp (-(max (a - b) (-(a - b)))))

def rowMax (n : ℕ) (lg : ℕ → EReal) : EReal := (Finset.range n).sup lg

/-- `lg t - log ∑ exp (lg j)` over the first `n` columns, computed relative to the row's maximum. -/
def lsm (n : ℕ) (lg : ℕ → EReal) (t : ℕ) : EReal :=
  (lg t - rowMax n lg) - Ideal.log (∑ j ∈ Finset.range n, Ideal.exp (lg j - rowMax n lg))

/-- `log ∑ exp (lg j)` over the first `n` columns. -/
def lse (n : ℕ) (lg : ℕ → EReal) : EReal := Ideal.log (∑ j ∈ Finset.range n, Ideal.exp (lg j))

end Cert.Spec

end
-- ==== Proof.RI.ReadLemmas.lean ====
import Idealize.ShloMosaic.Lib.IdealHost
import Idealize.ShloMosaic.Lib.Pipeline.Value
import Idealize.ShloMosaic.Lib.ValueLayout
import Idealize.ShloMosaic.Lib.StackMember
import Idealize.ShloMosaic.Lib.KernelVsHost
import Idealize.ShloMosaic.PureOps.Reduce
import proofs.«429142_j41094247088744_3_alg».proof.Proof.Spec

noncomputable section

namespace Cert.Hand.ReadLemmas

open Idealize.ShloMosaic Idealize.ShloMosaic.ValueIdx

/-- Row n of a matrix as a function of the column number, 0 past the last column. -/
def rowOf {V : ℕ} (x : FVec Ideal ⟨2, ![1024, V]⟩ .f32) (n : Fin 1024) (j : ℕ) : EReal :=
  if h : j < V then x (ix2 n ⟨j, h⟩) else 0

theorem rowOf_of_lt {V : ℕ} (x : FVec Ideal ⟨2, ![1024, V]⟩ .f32) (n : Fin 1024) {j : ℕ} (h : j < V) :
    rowOf x n j = x (ix2 n ⟨j, h⟩) := dif_pos h

theorem rowOf_val {V : ℕ} (x : FVec Ideal ⟨2, ![1024, V]⟩ .f32) (n : Fin 1024) (j : Fin V) :
    rowOf x n j.val = x (ix2 n j) := by
  rw [rowOf_of_lt x n j.isLt]

/-- A fold of max from b is the larger of b and the supremum. -/
theorem fold_eq_max_sup {ι : Type} [DecidableEq ι] (op : EReal → EReal → EReal) [Std.Commutative op] [Std.Associative op]
    (hop : ∀ a b, op a b = max a b) (s : Finset ι) (f : ι → EReal) (b : EReal) :
    s.fold op b f = max b (s.sup f) := by
  induction s using Finset.induction_on with
  | empty => simp
  | insert a s ha ih =>
    rw [Finset.fold_insert ha, ih, hop, Finset.sup_insert]
    exact max_left_comm _ _ _

/-- A supremum over Fin V is the supremum over the first V numbers. -/
theorem sup_univ_eq_sup_range {V : ℕ} (g : ℕ → EReal) :
    (Finset.univ : Finset (Fin V)).sup (fun k => g k.val) = (Finset.range V).sup g := by
  apply le_antisymm
  · exact Finset.sup_le fun k _ => Finset.le_sup (f := g) (Finset.mem_range.2 k.isLt)
  · exact Finset.sup_le fun j hj =>
      Finset.le_sup (f := fun k : Fin V => g k.val) (Finset.mem_univ ⟨j, Finset.mem_range.1 hj⟩)

/-- A vector made a column: entry (n, 0) is entry n. -/
theorem bcast_col_apply {α : Type} (h : (⟨1, ![1024]⟩ : Shape).BroadcastsInDim ⟨2, ![1024, 1]⟩ ![0])
    (x : (⟨1, ![1024]⟩ : Shape).Idx → α) (n : Fin 1024) (z : Fin 1) :
    broadcastInDim ⟨2, ![1024, 1]⟩ ![0] h x (ix2 n z) = x (ix1 n) := by
  refine broadcastInDim_apply _ h x _ _ fun a => ?_
  fin_cases a
  show n.val = if (1024 : ℕ) = 1 then 0 else n.val
  simp

/-- A column repeated over V columns: entry (n, j) is the column's entry n. -/
theorem bcast_row_apply {α : Type} {V : ℕ} (h : (⟨2, ![1024, 1]⟩ : Shape).BroadcastsInDim ⟨2, ![1024, V]⟩ ![0, 1])
    (x : (⟨2, ![1024, 1]⟩ : Shape).Idx → α) (n : Fin 1024) (j : Fin V) :
    broadcastInDim ⟨2, ![1024, V]⟩ ![0, 1] h x (ix2 n j) = x (ix2 n (0 : Fin 1)) := by
  refine broadcastInDim_apply _ h x _ _ fun a => ?_
  fin_cases a
  · show n.val = if (1024 : ℕ) = 1 then 0 else n.val
    simp
  · show (0 : ℕ) = if (1 : ℕ) = 1 then 0 else j.val
    simp

/-- A bias vector repeated over the rows: entry (n, j) is the bias at j. -/
theorem bcast_bias_apply {α : Type} {V : ℕ} (h1 : (⟨1, ![V]⟩ : Shape).BroadcastsInDim ⟨2, ![1, V]⟩ ![1])
    (h2 : (⟨2, ![1, V]⟩ : Shape).BroadcastsInDim ⟨2, ![1024, V]⟩ ![0, 1]) (b : (⟨1, ![V]⟩ : Shape).Idx → α)
    (n : Fin 1024) (j : Fin V) :
    broadcastInDim ⟨2, ![1024, V]⟩ ![0, 1] h2 (broadcastInDim ⟨2, ![1, V]⟩ ![1] h1 b) (ix2 n j) = b (ix1 j) := by
  rw [broadcastInDim_oneRow_apply h2 _ n j]
  refine broadcastInDim_apply _ h1 b _ _ fun a => ?_
  fin_cases a
  show j.val = if V = 1 then 0 else j.val
  split_ifs with hV
  · have := j.isLt; omega
  · rfl

/-- A column read as a vector, and as a table with two unit axes: the same entries, at the same row-major positions. -/
theorem shapeCast_col_vec_apply {α : Type} (y : (⟨2, ![1024, 1]⟩ : Shape).Idx → α)
    (h : (⟨2, ![1024, 1]⟩ : Shape).ShapeCasts ⟨1, ![1024]⟩) (n : Fin 1024) :
    shapeCast ⟨1, ![1024]⟩ y h (ix1 n) = y (ix2 n (0 : Fin 1)) := by
  refine shapeCast_apply y h _ _ ?_
  rw [Shape.rowMajor_val_two, Shape.rowMajor_val_one]
  show n.val * 1 + 0 = n.val
  omega

theorem shapeCast_col_tab_apply {α : Type} (y : (⟨2, ![1024, 1]⟩ : Shape).Idx → α)
    (h : (⟨2, ![1024, 1]⟩ : Shape).ShapeCasts ⟨3, ![1024, 1, 1]⟩) (n : Fin 1024) :
    shapeCast ⟨3, ![1024, 1, 1]⟩ y h (ix3 n (0 : Fin 1) (0 : Fin 1)) = y (ix2 n (0 : Fin 1)) := by
  refine shapeCast_apply y h _ _ ?_
  rw [Shape.rowMajor_val_two, Shape.rowMajor_val_three]
  show n.val * 1 + 0 = (n.val * 1 + 0) * 1 + 0
  omega

/-- Column o of a matrix cut out as a column. -/
theorem slice_col_apply {α : Type} {V o : ℕ} (x : (⟨2, ![1024, V]⟩ : Shape).Idx → α)
    (h : (⟨2, ![1024, V]⟩ : Shape).Slices ![0, o] ⟨2, ![1024, 1]⟩) (ho : o < V) (n : Fin 1024) :
    extractStridedSlice ⟨2, ![1024, 1]⟩ ![0, o] x h (ix2 n (0 : Fin 1)) = x (ix2 n ⟨o, ho⟩) := by
  refine extractStridedSlice_apply _ x h _ _ fun a => ?_
  fin_cases a
  · show n.val = 0 + n.val
    omega
  · show o = o + 0
    omega

section Rows
variable {V : ℕ}

theorem lift_eq_ix2 (hr : (⟨2, ![1024, V]⟩ : Shape).Reduces [1] ⟨1, ![1024]⟩) (n : Fin 1024) (k : Fin V) :
    hr.lift (ix1 n) k = ix2 n k := by
  funext a
  match a with
  | ⟨0, _⟩ => exact Fin.ext rfl
  | ⟨1, _⟩ => exact Fin.ext rfl

/-- The maximum of row n from init: the larger of init and the row's supremum. -/
theorem reduceMax_row (x : FVec Ideal ⟨2, ![1024, V]⟩ .f32) (init : FVec Ideal ⟨0, ![]⟩ .f32)
    (hr' : (⟨2, ![1024, V]⟩ : Shape).ReducesTo [1] ⟨1, ![1024]⟩) (hr : (⟨2, ![1024, V]⟩ : Shape).Reduces [1] ⟨1, ![1024]⟩)
    (hu : 0 < (⟨0, ![]⟩ : Shape).numel) (n : Fin 1024) :
    Host.reduce (FloatOps.maximumf (F := Ideal) (φ := .f32)) x init hr' hu (ix1 n)
      = max (init (Shape.Idx.first hu)) (Cert.Spec.rowMax V (rowOf x n)) := by
  rw [Host.reduce_eq_fold_single (FloatOps.maximumf (F := Ideal) (φ := .f32)) x init hr' hr hu (ix1 n)]
  refine (fold_eq_max_sup (ι := Fin V) (FloatOps.maximumf (F := Ideal) (φ := .f32)) (fun _ _ => rfl) Finset.univ
    (x ∘ hr.lift (ix1 n)) _).trans (congrArg (max _) ?_)
  refine (Finset.sup_congr rfl fun k _ => ?_).trans (sup_univ_eq_sup_range (V := V) (rowOf x n))
  show x (hr.lift (ix1 n) k) = rowOf x n k.val
  rw [lift_eq_ix2 hr n k]
  exact (rowOf_val x n k).symm

/-- The sum of row n added to init. -/
theorem reduceAdd_row (y : FVec Ideal ⟨2, ![1024, V]⟩ .f32) (init : FVec Ideal ⟨0, ![]⟩ .f32)
    (hr' : (⟨2, ![1024, V]⟩ : Shape).ReducesTo [1] ⟨1, ![1024]⟩) (hr : (⟨2, ![1024, V]⟩ : Shape).Reduces [1] ⟨1, ![1024]⟩)
    (hu : 0 < (⟨0, ![]⟩ : Shape).numel) (n : Fin 1024) :
    Host.reduceAdd y init hr' hu (ix1 n) = init (Shape.Idx.first hu) + ∑ k : Fin V, y (ix2 n k) := by
  rw [hostReduceAdd_apply, Ideal.hostReduceAdd_single hr' hr]
  congr 1
  show ∑ k : Fin V, y (hr.lift (ix1 n) k) = _
  exact Finset.sum_congr rfl fun k _ => by rw [lift_eq_ix2 hr n k]

end Rows

theorem ofBits_neg_inf : Ideal.ofBits .f32 0xFF800000#32 = ⊥ := by simp [Ideal.ofBits, Ideal.ieee]

theorem toInt_zero32 : (0#32 : BitVec 32).toInt = 0 := by decide

/-- A word clipped to 0 … hi reads, signed, a number in that range. -/
theorem clip_bounds (hi t : BitVec 32) (hhi : 0 ≤ hi.toInt) :
    0 ≤ (IntOp.minsi hi (IntOp.maxsi 0#32 t)).toInt ∧ (IntOp.minsi hi (IntOp.maxsi 0#32 t)).toInt ≤ hi.toInt := by
  have hm : 0 ≤ (IntOp.maxsi 0#32 t).toInt := by
    unfold IntOp.maxsi
    by_cases h : t.slt 0#32 = true
    · rw [if_pos h, toInt_zero32]
    · rw [if_neg h]
      have h' : ¬ t.toInt < (0#32 : BitVec 32).toInt := by simpa [BitVec.slt] using h
      rw [toInt_zero32] at h'
      omega
  unfold IntOp.minsi
  by_cases h : hi.slt (IntOp.maxsi 0#32 t) = true
  · rw [if_pos h]; exact ⟨hhi, le_refl _⟩
  · rw [if_neg h]
    have h' : ¬ hi.toInt < (IntOp.maxsi 0#32 t).toInt := by simpa [BitVec.slt] using h
    exact ⟨hm, by omega⟩

/-- A word that reads a non-negative number signed reads the same number unsigned. -/
theorem toInt_toNat_of_nonneg (i : BitVec 32) (h : 0 ≤ i.toInt) : i.toInt.toNat = i.toNat := by
  have h1 := BitVec.toInt_eq_toNat_cond i
  have h2 := i.isLt
  split at h1 <;> omega

theorem cmpi_slt_zero_of_nonneg (i : BitVec 32) (h : 0 ≤ i.toInt) : IntOp.cmpi .slt i 0#32 = 0#1 := by
  have : i.slt 0#32 = false := by
    simp only [BitVec.slt, toInt_zero32, decide_eq_false_iff_not]; omega
  show BitVec.ofBool (i.slt 0#32) = 0#1
  rw [this]; rfl

theorem cmpi_sge_zero_of_nonneg (i : BitVec 32) (h : 0 ≤ i.toInt) : IntOp.cmpi .sge i 0#32 = 1#1 := by
  have : (0#32 : BitVec 32).sle i = true := by
    simp only [BitVec.sle, toInt_zero32, decide_eq_true_eq]; exact h
  show BitVec.ofBool ((0#32 : BitVec 32).sle i) = 1#1
  rw [this]; rfl

theorem cmpi_sle_of_le (i hi : BitVec 32) (h : i.toInt ≤ hi.toInt) : IntOp.cmpi .sle i hi = 1#1 := by
  have : i.sle hi = true := by
    simp only [BitVec.sle, decide_eq_true_eq]; exact h
  show BitVec.ofBool (i.sle hi) = 1#1
  rw [this]; rfl

/-- The dimension numbers of reading each of 1024 rows at the row's own column index. -/
abbrev rowTakeDims (V : ℕ)
    (wf : GatherDims.WF ⟨2, ![1024, V]⟩ ⟨3, ![1024, 1, 1]⟩ ⟨2, ![1024, 1]⟩ [] [1] [0] [1] [0] 2 ![1, 1]) :
    GatherDims ⟨2, ![1024, V]⟩ ⟨3, ![1024, 1, 1]⟩ ⟨2, ![1024, 1]⟩ where
  offsetDims := []
  collapsedSliceDims := [1]
  operandBatchingDims := [0]
  startIndicesBatchingDims := [0]
  startIndexMap := [1]
  indexVectorDim := 2
  sliceSizes := ![1, 1]
  wf := wf

section Gather
variable {α : Type} {V w : ℕ}
  (wf : GatherDims.WF ⟨2, ![1024, V]⟩ ⟨3, ![1024, 1, 1]⟩ ⟨2, ![1024, 1]⟩ [] [1] [0] [1] [0] 2 ![1, 1])

theorem rowTake_axis0 (idx : IVec ⟨3, ![1024, 1, 1]⟩ w) (n : Fin 1024) :
    ((rowTakeDims V wf).operandIdx (ix2 n (0 : Fin 1)) idx (0 : Fin 2)).val = n.val := by
  show (rowTakeDims V wf).start (ix2 n (0 : Fin 1)) idx (0 : Fin 2) + (rowTakeDims V wf).batchCoord (ix2 n (0 : Fin 1)) (0 : Fin 2)
    + (rowTakeDims V wf).offCoord (ix2 n (0 : Fin 1)) (0 : Fin 2) = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (List.mem_singleton.mpr rfl)]
  rfl

theorem rowTake_axis1 (idx : IVec ⟨3, ![1024, 1, 1]⟩ w) (n : Fin 1024) :
    ((rowTakeDims V wf).operandIdx (ix2 n (0 : Fin 1)) idx (1 : Fin 2)).val
      = min (idx (ix3 n (0 : Fin 1) (0 : Fin 1))).toInt.toNat (V - 1) := by
  show (rowTakeDims V wf).start (ix2 n (0 : Fin 1)) idx (1 : Fin 2) + (rowTakeDims V wf).batchCoord (ix2 n (0 : Fin 1)) (1 : Fin 2)
    + (rowTakeDims V wf).offCoord (ix2 n (0 : Fin 1)) (1 : Fin 2) = _
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowTakeDims V wf).startIndexMap from List.mem_singleton.mpr rfl)]
  have hsi : (rowTakeDims V wf).siIdx (ix2 n (0 : Fin 1)) ⟨List.idxOf (1 : Fin 2) (rowTakeDims V wf).startIndexMap,
      List.idxOf_lt_length_iff.2 (List.mem_singleton.mpr rfl)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- Such a gather at row n: the row's entry at the column its index names, read signed and kept inside 0 … V - 1. -/
theorem gather_row_apply (hV : 0 < V) (x : (⟨2, ![1024, V]⟩ : Shape).Idx → α) (idx : IVec ⟨3, ![1024, 1, 1]⟩ w) (n : Fin 1024) :
    Host.gather (rowTakeDims V wf) x idx (ix2 n (0 : Fin 1))
      = x (ix2 n ⟨min (idx (ix3 n (0 : Fin 1) (0 : Fin 1))).toInt.toNat (V - 1), by omega⟩) := by
  unfold Host.gather
  congr 1
  funext a
  refine Fin.ext ?_
  match a with
  | ⟨0, _⟩ => exact rowTake_axis0 wf idx n
  | ⟨1, _⟩ => exact rowTake_axis1 wf idx n

end Gather

theorem fold_univ_fin1 {β : Type} (op : β → β → β) [Std.Commutative op] [Std.Associative op] (f : Fin 1 → β) (b : β) :
    (Finset.univ : Finset (Fin 1)).fold op b f = op (f 0) b := by
  rw [Finset.univ_unique, Finset.fold_singleton]
  rfl

/-- A conjunction over an axis of one entry is that entry and the initial value. -/
theorem reduceAnd_unit (y : IVec ⟨3, ![1024, 1, 1]⟩ 1) (init : IVec ⟨0, ![]⟩ 1)
    (hr' : (⟨3, ![1024, 1, 1]⟩ : Shape).ReducesTo [2] ⟨2, ![1024, 1]⟩) (hr : (⟨3, ![1024, 1, 1]⟩ : Shape).Reduces [2] ⟨2, ![1024, 1]⟩)
    (hu : 0 < (⟨0, ![]⟩ : Shape).numel) (n : Fin 1024) :
    Host.reduce IntOp.andi y init hr' hu (ix2 n (0 : Fin 1))
      = IntOp.andi (y (ix3 n (0 : Fin 1) (0 : Fin 1))) (init (Shape.Idx.first hu)) := by
  rw [Host.reduce_eq_fold_single IntOp.andi y init hr' hr hu (ix2 n (0 : Fin 1))]
  refine (fold_univ_fin1 IntOp.andi (y ∘ hr.lift (ix2 n (0 : Fin 1))) _).trans ?_
  show IntOp.andi (y (hr.lift (ix2 n (0 : Fin 1)) (0 : Fin 1))) _ = _
  congr 2
  funext a
  match a with
  | ⟨0, _⟩ => exact Fin.ext rfl
  | ⟨1, _⟩ => exact Fin.ext rfl
  | ⟨2, _⟩ => exact Fin.ext rfl

/-- A plain matrix product at an entry: row a against column b. -/
theorem dot_apply {M K N : ℕ} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (a : Fin M) (b : Fin N) :
    Host.dotGeneral d none A B (ix2 a b) = ∑ c : Fin K, A (ix2 a c) * B (ix2 c b) := by
  subst hd
  exact StackMember.dotGeneral_plain_apply none A B a b

/-- The input times the transposed table plus the bias row, at (n, j). -/
theorem linear_apply {K V : ℕ} (d : DotDims ⟨2, ![1024, K]⟩ ⟨2, ![K, V]⟩ ⟨2, ![1024, V]⟩) (hd : d = DotDims.plain 1024 K V)
    (ht : (⟨2, ![V, K]⟩ : Shape).Transposes [1, 0] ⟨2, ![K, V]⟩)
    (h1 : (⟨1, ![V]⟩ : Shape).BroadcastsInDim ⟨2, ![1, V]⟩ ![1])
    (h2 : (⟨2, ![1, V]⟩ : Shape).BroadcastsInDim ⟨2, ![1024, V]⟩ ![0, 1])
    (x : FVec Ideal ⟨2, ![1024, K]⟩ .f32) (wt : FVec Ideal ⟨2, ![V, K]⟩ .f32) (b : FVec Ideal ⟨1, ![V]⟩ .f32)
    (n : Fin 1024) (j : Fin V) :
    addf (Host.dotGeneral d none x (transpose ⟨2, ![K, V]⟩ [1, 0] wt ht))
        (broadcastInDim ⟨2, ![1024, V]⟩ ![0, 1] h2 (broadcastInDim ⟨2, ![1, V]⟩ ![1] h1 b)) (ix2 n j)
      = (∑ k : Fin K, x (ix2 n k) * wt (ix2 j k)) + b (ix1 j) := by
  show Host.dotGeneral d none x (transpose ⟨2, ![K, V]⟩ [1, 0] wt ht) (ix2 n j)
    + broadcastInDim ⟨2, ![1024, V]⟩ ![0, 1] h2 (broadcastInDim ⟨2, ![1, V]⟩ ![1] h1 b) (ix2 n j) = _
  rw [dot_apply d hd, bcast_bias_apply h1 h2 b n j]
  congr 1
  exact Finset.sum_congr rfl fun k _ => by rw [transpose_ix2_apply wt ht k j]

/-- The input times the transposed projection matrix, at (n, k). -/
theorem proj_apply {K D : ℕ} (d : DotDims ⟨2, ![1024, K]⟩ ⟨2, ![K, D]⟩ ⟨2, ![1024, D]⟩) (hd : d = DotDims.plain 1024 K D)
    (ht : (⟨2, ![D, K]⟩ : Shape).Transposes [1, 0] ⟨2, ![K, D]⟩)
    (x : FVec Ideal ⟨2, ![1024, K]⟩ .f32) (p : FVec Ideal ⟨2, ![D, K]⟩ .f32) (n : Fin 1024) (k : Fin D) :
    Host.dotGeneral d none x (transpose ⟨2, ![K, D]⟩ [1, 0] p ht) (ix2 n k) = ∑ e : Fin K, x (ix2 n e) * p (ix2 k e) := by
  rw [dot_apply d hd]
  exact Finset.sum_congr rfl fun e _ => by rw [transpose_ix2_apply p ht e k]

end Cert.Hand.ReadLemmas

end
-- ==== Proof.Tail.lean ====
import Idealize.ShloMosaic.PureOps
import Idealize.ShloMosaic.PureOps.Ideal

noncomputable section

namespace Cert.Tail

open Idealize.ShloMosaic

abbrev T_ : Shape := ⟨0, ![]⟩
abbrev T3 : Shape := ⟨1, ![3]⟩
abbrev T1024 : Shape := ⟨1, ![1024]⟩
abbrev T1024x1 : Shape := ⟨2, ![1024, 1]⟩
abbrev T1x3 : Shape := ⟨2, ![1, 3]⟩
abbrev T1024x3 : Shape := ⟨2, ![1024, 3]⟩
abbrev T1x1024 : Shape := ⟨2, ![1, 1024]⟩
abbrev T5x1024 : Shape := ⟨2, ![5, 1024]⟩

structure TailFacts : Prop where
  h_ : 0 < T_.numel
  b_1024 : T_.BroadcastsInDim T1024 (![] : Fin 0 → Fin T1024.rank)
  b1024_1024x1 : T1024.BroadcastsInDim T1024x1 (![0] : Fin 1 → Fin T1024x1.rank)
  b3_1x3 : T3.BroadcastsInDim T1x3 (![1] : Fin 1 → Fin T1x3.rank)
  b1024x1_1024x3 : T1024x1.BroadcastsInDim T1024x3 (![0, 1] : Fin 2 → Fin T1024x3.rank)
  b1x3_1024x3 : T1x3.BroadcastsInDim T1024x3 (![0, 1] : Fin 2 → Fin T1024x3.rank)
  r1024x3 : T1024x3.ReducesTo [1] T1024
  b1024_1x1024 : T1024.BroadcastsInDim T1x1024 (![1] : Fin 1 → Fin T1x1024.rank)
  cat : Shape.Concatenates [T1x1024, T1x1024, T1x1024, T1x1024, T1x1024] T5x1024 0
  r5x1024 : T5x1024.ReducesTo [0] T1024
  lt_1_32 : 1 < 32

/-- The cluster boundaries. -/
def cutPoints : Fin 3 → BitVec 32 := fun
  | 0 => 20000#32 | 1 => 40000#32 | 2 => 200000#32
  | _ => 0#32

/-- Lexicographic choice between two (flag, position) pairs: flag descending, then position ascending. -/
def argmaxRed : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- For each target, the number of boundaries it is at or above. -/
def clusterId (hf : TailFacts) (tgt : IVec T1024 32) : IVec T1024 32 :=
  let v179 : IVec T1024x1 32 := broadcastInDim T1024x1 ![0] hf.b1024_1024x1 tgt
  let v180 : IVec T1x3 32 := broadcastInDim T1x3 ![1] hf.b3_1x3 (fun i => cutPoints (T3.rowMajor i))
  let v181 : IVec T1024x3 32 := broadcastInDim T1024x3 ![0, 1] hf.b1024x1_1024x3 v179
  let v182 : IVec T1024x3 32 := broadcastInDim T1024x3 ![0, 1] hf.b1x3_1024x3 v180
  let v183 : IVec T1024x3 1 := cmpi .sge v181 v182
  let v184 : IVec T1024x3 32 := extui 32 v183 hf.lt_1_32
  Host.reduce IntOp.addi v184 (constantI T_ 32 0#32) hf.r1024x3 hf.h_

/-- One plus the cluster number: the first `true` among the tests `cid = 0, …, 3` stacked below a row of `false`. -/
def pick (hf : TailFacts) (cid : IVec T1024 32) : IVec T1024 32 :=
  let v187 : IVec T1024 1 := cmpi .eq cid (broadcastInDim T1024 ![] hf.b_1024 (constantI T_ 32 0#32))
  let v189 : IVec T1024 1 := cmpi .eq cid (broadcastInDim T1024 ![] hf.b_1024 (constantI T_ 32 1#32))
  let v191 : IVec T1024 1 := cmpi .eq cid (broadcastInDim T1024 ![] hf.b_1024 (constantI T_ 32 2#32))
  let v193 : IVec T1024 1 := cmpi .eq cid (broadcastInDim T1024 ![] hf.b_1024 (constantI T_ 32 3#32))
  let v194 : IVec T1024 1 := broadcastInDim T1024 ![] hf.b_1024 (constantI T_ 1 0#1)
  let v195 : IVec T1x1024 1 := broadcastInDim T1x1024 ![1] hf.b1024_1x1024 v194
  let v196 : IVec T1x1024 1 := broadcastInDim T1x1024 ![1] hf.b1024_1x1024 v187
  let v197 : IVec T1x1024 1 := broadcastInDim T1x1024 ![1] hf.b1024_1x1024 v189
  let v198 : IVec T1x1024 1 := broadcastInDim T1x1024 ![1] hf.b1024_1x1024 v191
  let v199 : IVec T1x1024 1 := broadcastInDim T1x1024 ![1] hf.b1024_1x1024 v193
  let v200 : IVec T5x1024 1 := concatenate T5x1024 0 [⟨T1x1024, v195⟩, ⟨T1x1024, v196⟩, ⟨T1x1024, v197⟩, ⟨T1x1024, v198⟩, ⟨T1x1024, v199⟩] hf.cat
  fun j => (Host.reduce2 argmaxRed v200 (iotaInDim T5x1024 32 0) (constantI T_ 1 0#1) (constantI T_ 32 0#32) hf.r5x1024 hf.h_ j).2

/-- Minus the candidate numbered `p - 1` (zero for `p = 0`, the last one for `p ≥ 4`). -/
def choose (hf : TailFacts) (p : IVec T1024 32) (lp0 lp1 lp2 lp3 : FVec Ideal T1024 .f32) : FVec Ideal T1024 .f32 :=
  let v202 : FVec Ideal T1024 .f32 := broadcastInDim T1024 ![] hf.b_1024 (constant (F := Ideal) T_ .f32 0x00000000#32)
  let v204 : IVec T1024 1 := cmpi .slt p (broadcastInDim T1024 ![] hf.b_1024 (constantI T_ 32 2#32))
  let v206 : IVec T1024 1 := cmpi .slt p (broadcastInDim T1024 ![] hf.b_1024 (constantI T_ 32 1#32))
  let v207 : FVec Ideal T1024 .f32 := select v206 v202 lp0
  let v209 : IVec T1024 1 := cmpi .slt p (broadcastInDim T1024 ![] hf.b_1024 (constantI T_ 32 3#32))
  let v211 : IVec T1024 1 := cmpi .slt p (broadcastInDim T1024 ![] hf.b_1024 (constantI T_ 32 4#32))
  let v212 : FVec Ideal T1024 .f32 := select v211 lp2 lp3
  let v213 : FVec Ideal T1024 .f32 := select v209 lp1 v212
  let v214 : FVec Ideal T1024 .f32 := select v204 v207 v213
  Host.negf (F := Ideal) v214

def tail (hf : TailFacts) (tgt : IVec T1024 32) (lp0 lp1 lp2 lp3 : FVec Ideal T1024 .f32) : FVec Ideal T1024 .f32 :=
  choose hf (pick hf (clusterId hf tgt)) lp0 lp1 lp2 lp3

end Cert.Tail

end
-- ==== Proof.SpecLemmas.lean ====
import proofs.«429142_j41094247088744_3_alg».proof.Proof.Spec

noncomputable section

namespace Cert.Spec

open Idealize.ShloMosaic

/-- The first `n` columns are real numbers. -/
def RealRow (n : ℕ) (lg : ℕ → EReal) : Prop := ∀ j, j < n → ∃ r : ℝ, lg j = (r : EReal)

theorem RealRow.mono {n m : ℕ} {lg : ℕ → EReal} (h : RealRow n lg) (hmn : m ≤ n) : RealRow m lg :=
  fun j hj => h j (lt_of_lt_of_le hj hmn)

theorem RealRow.append {a b : ℕ} {f g : ℕ → EReal} (hf : RealRow a f) (hg : RealRow b g) :
    RealRow (a + b) (fun j => if j < a then f j else g (j - a)) := by
  intro j hj
  by_cases hja : j < a
  · simp only [if_pos hja]
    exact hf j hja
  · simp only [if_neg hja]
    exact hg (j - a) (by omega)

theorem NEG_real : ∃ r : ℝ, NEG = (r : EReal) := by
  have hb : NEG ≠ ⊥ := by simp [NEG, Ideal.ofBits, Ideal.ieee, -EReal.coe_mul]
  have ht : NEG ≠ ⊤ := by simp [NEG, Ideal.ofBits, Ideal.ieee, -EReal.coe_mul]
  exact ⟨NEG.toReal, (EReal.coe_toReal ht hb).symm⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem msk_real {vreal : ℕ} {lg : ℕ → EReal} (h : RealRow vreal lg) (j : ℕ) :
    ∃ r : ℝ, msk vreal lg j = (r : EReal) := by
  unfold msk
  split_ifs with hj
  · exact h j hj
  · exact NEG_real

theorem msk_of_lt {vreal : ℕ} (lg : ℕ → EReal) {j : ℕ} (hj : j < vreal) : msk vreal lg j = lg j := by
  simp [msk, hj]

/-- The maximum of finitely many (at least one) real numbers is one of them. -/
theorem sup_real {n : ℕ} (hn : 0 < n) {g : ℕ → EReal} (hg : ∀ j, j < n → ∃ r : ℝ, g j = (r : EReal)) :
    ∃ r : ℝ, (Finset.range n).sup g = (r : EReal) := by
  obtain ⟨i, hi, his⟩ := Finset.exists_mem_eq_sup (Finset.range n) (Finset.nonempty_range_iff.mpr hn.ne') g
  obtain ⟨r, hr⟩ := hg i (Finset.mem_range.mp hi)
  exact ⟨r, by rw [his, hr]⟩

theorem segMax_real {vreal : ℕ} {lg : ℕ → EReal} (h : RealRow vreal lg) (lo : ℕ) {len : ℕ} (hlen : 0 < len) :
    ∃ r : ℝ, segMax vreal lg lo len = (r : EReal) :=
  sup_real hlen fun j _ => msk_real h (lo + j)

theorem rowMax_real {n : ℕ} {lg : ℕ → EReal} (h : RealRow n lg) (hn : 0 < n) :
    ∃ r : ℝ, rowMax n lg = (r : EReal) :=
  sup_real hn h

def rsum (vreal : ℕ) (f : ℕ → ℝ) (lo len : ℕ) (mx : ℝ) : ℝ :=
  ∑ j ∈ Finset.range len, if lo + j < vreal then Real.exp (f (lo + j) - mx) else 0

theorem segSum_coe {vreal : ℕ} {lg : ℕ → EReal} {f : ℕ → ℝ} (hf : ∀ j, j < vreal → lg j = (f j : EReal))
    (lo len : ℕ) (mx : ℝ) :
    segSum vreal lg lo len (mx : EReal) = ((rsum vreal f lo len mx : ℝ) : EReal) := by
  unfold segSum rsum
  rw [coe_sum]
  apply Finset.sum_congr rfl
  intro j _
  split_ifs with hj
  · rw [hf _ hj, ← EReal.coe_sub, Ideal.exp_coe]
  · simp

/-- `∑ exp (f j - mx') = (∑ exp (f j - mx)) · exp (mx - mx')`. -/
theorem rsum_shift (vreal : ℕ) (f : ℕ → ℝ) (lo len : ℕ) (mx mx' : ℝ) :
    rsum vreal f lo len mx' = rsum vreal f lo len mx * Real.exp (mx - mx') := by
  unfold rsum
  rw [Finset.sum_mul]
  apply Finset.sum_congr rfl
  intro j _
  split_ifs
  · rw [← Real.exp_add]; congr 1; ring
  · simp

theorem segMax_zero (vreal : ℕ) (lg : ℕ → EReal) (lo : ℕ) : segMax vreal lg lo 0 = ⊥ := by
  simp [segMax]
theorem segSum_zero (vreal : ℕ) (lg : ℕ → EReal) (lo : ℕ) (mx : EReal) : segSum vreal lg lo 0 mx = 0 := by
  simp [segSum]
theorem segGat_zero (vreal : ℕ) (lg : ℕ → EReal) (lo t : ℕ) : segGat vreal lg lo 0 t = 0 := by
  simp [segGat]

theorem segMax_append (vreal : ℕ) (lg : ℕ → EReal) (lo a b : ℕ) :
    segMax vreal lg lo (a + b) = max (segMax vreal lg lo a) (segMax vreal lg (lo + a) b) := by
  unfold segMax
  induction b with
  | zero => simp
  | succ b ih =>
    rw [← Nat.add_assoc, Finset.range_add_one, Finset.sup_insert, ih, Finset.range_add_one, Finset.sup_insert]
    rw [Nat.add_assoc lo a b]
    exact max_left_comm _ _ _

theorem segSum_append (vreal : ℕ) (lg : ℕ → EReal) (lo a b : ℕ) (mx : EReal) :
    segSum vreal lg lo (a + b) mx = segSum vreal lg lo a mx + segSum vreal lg (lo + a) b mx := by
  unfold segSum
  rw [Finset.sum_range_add]
  simp only [Nat.add_assoc]

theorem segGat_append (vreal : ℕ) (lg : ℕ → EReal) (lo a b t : ℕ) :
    segGat vreal lg lo (a + b) t = segGat vreal lg lo a t + segGat vreal lg (lo + a) b t := by
  unfold segGat
  rw [Finset.sum_range_add]
  simp only [Nat.add_assoc]

/-- Extending a segment by `b` columns rescales its sum by `exp (old maximum - new maximum)` and adds the new columns' terms. -/
theorem segSum_step {vreal : ℕ} {lg : ℕ → EReal} (h : RealRow vreal lg) (lo a b : ℕ) :
    segSum vreal lg lo (a + b) (segMax vreal lg lo (a + b))
      = segSum vreal lg lo a (segMax vreal lg lo a)
            * Ideal.exp (segMax vreal lg lo a - segMax vreal lg lo (a + b))
          + segSum vreal lg (lo + a) b (segMax vreal lg lo (a + b)) := by
  rcases Nat.eq_zero_or_pos a with ha | ha
  · subst ha
    simp only [Nat.zero_add, Nat.add_zero, segSum_zero, zero_mul, zero_add]
  · obtain ⟨m, hm⟩ := segMax_real h lo ha
    obtain ⟨m', hm'⟩ := segMax_real h lo (Nat.add_pos_left ha b)
    have h' := h
    choose! f hf using h'
    rw [hm, hm', segSum_append, segSum_coe hf, segSum_coe hf, segSum_coe hf, ← EReal.coe_sub,
      Ideal.exp_coe, ← EReal.coe_mul, ← EReal.coe_add, ← EReal.coe_add, rsum_shift vreal f lo a m m']

theorem segGat_eq (vreal : ℕ) (lg : ℕ → EReal) (lo len t : ℕ) :
    segGat vreal lg lo len t = if lo ≤ t ∧ t < lo + len then msk vreal lg t else 0 := by
  unfold segGat
  split_ifs with hc
  · obtain ⟨h1, h2⟩ := hc
    have e : lo + (t - lo) = t := by omega
    rw [Finset.sum_eq_single (t - lo)]
    · rw [if_pos e, e]
    · intro j _ hj
      have hne : lo + j ≠ t := by omega
      rw [if_neg hne]
    · intro hn
      exact absurd (Finset.mem_range.mpr (by omega)) hn
  · apply Finset.sum_eq_zero
    intro j hj
    have hj' := Finset.mem_range.mp hj
    have hne : lo + j ≠ t := by
      intro e
      exact hc ⟨by omega, by omega⟩
    rw [if_neg hne]

theorem segGat_halves (vreal : ℕ) (lg : ℕ → EReal) (a b t : ℕ) (ht : t < vreal) (hcov : vreal ≤ a + b) :
    segGat vreal lg 0 a t + segGat vreal lg a b t = lg t := by
  rw [segGat_eq, segGat_eq, msk_of_lt lg ht]
  by_cases hta : t < a
  · have c1 : 0 ≤ t ∧ t < 0 + a := ⟨Nat.zero_le _, by omega⟩
    have c2 : ¬ (a ≤ t ∧ t < a + b) := by omega
    rw [if_pos c1, if_neg c2, add_zero]
  · have c1 : ¬ (0 ≤ t ∧ t < 0 + a) := by omega
    have c2 : a ≤ t ∧ t < a + b := ⟨by omega, by omega⟩
    rw [if_neg c1, if_pos c2, zero_add]

theorem coe_max (x y : ℝ) : ((max x y : ℝ) : EReal) = max (x : EReal) (y : EReal) :=
  EReal.coe_strictMono.monotone.map_max

theorem log_coe_pos {r : ℝ} (hr : 0 < r) : Ideal.log (r : EReal) = ((Real.log r : ℝ) : EReal) := by
  rw [Ideal.log_coe, if_neg (not_le.mpr hr)]

theorem sumExp_coe {n : ℕ} {lg : ℕ → EReal} {f : ℕ → ℝ} (hf : ∀ j, j < n → lg j = (f j : EReal)) (c : ℝ) :
    (∑ j ∈ Finset.range n, Ideal.exp (lg j - (c : EReal)))
      = ((∑ j ∈ Finset.range n, Real.exp (f j - c) : ℝ) : EReal) := by
  rw [coe_sum]
  apply Finset.sum_congr rfl
  intro j hj
  rw [hf j (Finset.mem_range.mp hj), ← EReal.coe_sub, Ideal.exp_coe]

theorem sumExp0_coe {n : ℕ} {lg : ℕ → EReal} {f : ℕ → ℝ} (hf : ∀ j, j < n → lg j = (f j : EReal)) :
    (∑ j ∈ Finset.range n, Ideal.exp (lg j)) = ((∑ j ∈ Finset.range n, Real.exp (f j) : ℝ) : EReal) := by
  rw [coe_sum]
  apply Finset.sum_congr rfl
  intro j hj
  rw [hf j (Finset.mem_range.mp hj), Ideal.exp_coe]

theorem rexp_pos {n : ℕ} (hn : 0 < n) (f : ℕ → ℝ) : 0 < ∑ j ∈ Finset.range n, Real.exp (f j) :=
  Finset.sum_pos (fun j _ => Real.exp_pos _) (Finset.nonempty_range_iff.mpr (Nat.pos_iff_ne_zero.mp hn))

theorem sumExp_real {n : ℕ} {lg : ℕ → EReal} (h : RealRow n lg) (hn : 0 < n) (c : ℝ) :
    ∃ r : ℝ, 0 < r ∧ (∑ j ∈ Finset.range n, Ideal.exp (lg j - (c : EReal))) = (r : EReal) := by
  choose! f hf using h
  exact ⟨_, rexp_pos hn (fun j => f j - c), sumExp_coe hf c⟩

theorem lse_coe {n : ℕ} {lg : ℕ → EReal} {f : ℕ → ℝ} (hf : ∀ j, j < n → lg j = (f j : EReal)) (hn : 0 < n) :
    lse n lg = ((Real.log (∑ j ∈ Finset.range n, Real.exp (f j)) : ℝ) : EReal) := by
  unfold lse
  rw [sumExp0_coe hf, log_coe_pos (rexp_pos hn f)]

/-- `c + log ∑ exp (lg j - c) = log ∑ exp (lg j)` for a real `c`. -/
theorem lse_shift {n : ℕ} {lg : ℕ → EReal} (h : RealRow n lg) (hn : 0 < n) (c : ℝ) :
    (c : EReal) + Ideal.log (∑ j ∈ Finset.range n, Ideal.exp (lg j - (c : EReal))) = lse n lg := by
  choose! f hf using h
  have hSc : 0 < ∑ j ∈ Finset.range n, Real.exp (f j - c) := rexp_pos hn (fun j => f j - c)
  have key : ∑ j ∈ Finset.range n, Real.exp (f j) = Real.exp c * ∑ j ∈ Finset.range n, Real.exp (f j - c) := by
    rw [Finset.mul_sum]
    apply Finset.sum_congr rfl
    intro j _
    rw [← Real.exp_add]
    congr 1
    ring
  rw [lse_coe hf hn, sumExp_coe hf c, log_coe_pos hSc, ← EReal.coe_add, key,
    Real.log_mul (Real.exp_pos c).ne' hSc.ne', Real.log_exp]

theorem lse_rowMax_shift {n : ℕ} {lg : ℕ → EReal} (h : RealRow n lg) (hn : 0 < n) :
    rowMax n lg + Ideal.log (∑ j ∈ Finset.range n, Ideal.exp (lg j - rowMax n lg)) = lse n lg := by
  obtain ⟨m, hm⟩ := rowMax_real h hn
  rw [hm]
  exact lse_shift h hn m

theorem lsm_eq {n : ℕ} {lg : ℕ → EReal} (h : RealRow n lg) (hn : 0 < n) (t : ℕ) (ht : t < n) :
    lsm n lg t = lg t - lse n lg := by
  obtain ⟨m, hm⟩ := rowMax_real h hn
  obtain ⟨s, hs, hsum⟩ := sumExp_real h hn m
  obtain ⟨x, hx⟩ := h t ht
  rw [← lse_shift h hn m]
  unfold lsm
  rw [hm, hsum, log_coe_pos hs, hx, ← EReal.coe_sub, ← EReal.coe_sub, ← EReal.coe_add, ← EReal.coe_sub]
  congr 1
  ring

theorem rsum_cover (vreal : ℕ) (f : ℕ → ℝ) (a b : ℕ) (mx : ℝ) (hcov : vreal ≤ a + b) :
    rsum vreal f 0 a mx + rsum vreal f a b mx = ∑ j ∈ Finset.range vreal, Real.exp (f j - mx) := by
  have e : rsum vreal f 0 a mx + rsum vreal f a b mx = rsum vreal f 0 (a + b) mx := by
    unfold rsum
    rw [Finset.sum_range_add]
    simp only [Nat.zero_add]
  rw [e]
  unfold rsum
  simp only [Nat.zero_add]
  rw [← Finset.sum_subset (Finset.range_subset_range.mpr hcov)]
  · apply Finset.sum_congr rfl
    intro j hj
    rw [if_pos (Finset.mem_range.mp hj)]
  · intro j _ hj
    have hj' : ¬ j < vreal := fun hlt => hj (Finset.mem_range.mpr hlt)
    rw [if_neg hj']

/-- Two segments that cover the real columns join to the row's log-sum-exp. -/
theorem joinLse_halves {vreal : ℕ} {lg : ℕ → EReal} (h : RealRow vreal lg) (a b : ℕ)
    (ha : 0 < a) (hb : 0 < b) (hv : 0 < vreal) (hcov : vreal ≤ a + b) :
    joinLse (segMax vreal lg 0 a) (segSum vreal lg 0 a (segMax vreal lg 0 a))
            (segMax vreal lg a b) (segSum vreal lg a b (segMax vreal lg a b)) = lse vreal lg := by
  obtain ⟨m0, hm0⟩ := segMax_real h 0 ha
  obtain ⟨m1, hm1⟩ := segMax_real h a hb
  have h' := h
  choose! f hf using h'
  unfold joinLse
  rw [hm0, hm1, ← coe_max, segSum_coe hf, segSum_coe hf, ← EReal.coe_sub, ← EReal.coe_sub, Ideal.exp_coe,
    Ideal.exp_coe, ← EReal.coe_mul, ← EReal.coe_mul, ← EReal.coe_add,
    ← rsum_shift vreal f 0 a m0 (max m0 m1), ← rsum_shift vreal f a b m1 (max m0 m1),
    rsum_cover vreal f a b (max m0 m1) hcov, ← sumExp_coe hf]
  exact lse_shift h hv (max m0 m1)

theorem logAddExp_real (x y : ℝ) :
    logAddExp (x : EReal) (y : EReal) = ((Real.log (Real.exp x + Real.exp y) : ℝ) : EReal) := by
  have h1 : (x : EReal) - (y : EReal) = ((x - y : ℝ) : EReal) := (EReal.coe_sub x y).symm
  have h2 : -(((x - y : ℝ)) : EReal) = ((-(x - y) : ℝ) : EReal) := (EReal.coe_neg _).symm
  have h3 : max (((x - y : ℝ)) : EReal) ((-(x - y) : ℝ) : EReal) = ((max (x - y) (-(x - y)) : ℝ) : EReal) :=
    (coe_max _ _).symm
  have h4 : -(((max (x - y) (-(x - y)) : ℝ)) : EReal) = ((-(max (x - y) (-(x - y))) : ℝ) : EReal) :=
    (EReal.coe_neg _).symm
  have h5 : max (x : EReal) (y : EReal) = ((max x y : ℝ) : EReal) := (coe_max _ _).symm
  have hpos : 0 < 1 + Real.exp (-(max (x - y) (-(x - y)))) := by positivity
  unfold logAddExp Ideal.log1p
  rw [h1, h2, h3, h4, h5, Ideal.exp_coe, ← EReal.coe_one, ← EReal.coe_add, log_coe_pos hpos, ← EReal.coe_add]
  congr 1
  rcases le_total x y with hxy | hxy
  · have e : Real.exp y * (1 + Real.exp (x - y)) = Real.exp x + Real.exp y := by
      rw [mul_add, mul_one, ← Real.exp_add, show y + (x - y) = x by ring, add_comm]
    rw [max_eq_right hxy, max_eq_right (by linarith : x - y ≤ -(x - y)), neg_neg, ← e,
      Real.log_mul (Real.exp_pos y).ne' (by positivity), Real.log_exp]
  · have e : Real.exp x * (1 + Real.exp (-(x - y))) = Real.exp x + Real.exp y := by
      rw [mul_add, mul_one, ← Real.exp_add, show x + -(x - y) = y by ring]
    rw [max_eq_left hxy, max_eq_left (by linarith : -(x - y) ≤ x - y), ← e,
      Real.log_mul (Real.exp_pos x).ne' (by positivity), Real.log_exp]

/-- `logAddExp` of two rows' log-sum-exps is the log-sum-exp of the rows laid end to end. -/
theorem logAddExp_lse {a b : ℕ} {f g : ℕ → EReal} (hf : RealRow a f) (hg : RealRow b g)
    (ha : 0 < a) (hb : 0 < b) :
    logAddExp (lse a f) (lse b g) = lse (a + b) (fun j => if j < a then f j else g (j - a)) := by
  choose! f' hf' using hf
  choose! g' hg' using hg
  have hA : 0 < ∑ j ∈ Finset.range a, Real.exp (f' j) := rexp_pos ha f'
  have hB : 0 < ∑ j ∈ Finset.range b, Real.exp (g' j) := rexp_pos hb g'
  have e3 : lse (a + b) (fun j => if j < a then f j else g (j - a))
      = ((Real.log ((∑ j ∈ Finset.range a, Real.exp (f' j)) + ∑ j ∈ Finset.range b, Real.exp (g' j)) : ℝ) : EReal) := by
    have s1 : ∑ x ∈ Finset.range a, Ideal.exp (if x < a then f x else g (x - a))
        = ((∑ j ∈ Finset.range a, Real.exp (f' j) : ℝ) : EReal) := by
      rw [coe_sum]
      apply Finset.sum_congr rfl
      intro j hj
      have hlt := Finset.mem_range.mp hj
      rw [if_pos hlt, hf' j hlt, Ideal.exp_coe]
    have s2 : ∑ x ∈ Finset.range b, Ideal.exp (if a + x < a then f (a + x) else g (a + x - a))
        = ((∑ j ∈ Finset.range b, Real.exp (g' j) : ℝ) : EReal) := by
      rw [coe_sum]
      apply Finset.sum_congr rfl
      intro j hj
      have hlt := Finset.mem_range.mp hj
      have hnl : ¬ a + j < a := by omega
      rw [if_neg hnl, Nat.add_sub_cancel_left, hg' j hlt, Ideal.exp_coe]
    unfold lse
    rw [Finset.sum_range_add, s1, s2, ← EReal.coe_add, log_coe_pos (add_pos hA hB)]
  rw [lse_coe hf' ha, lse_coe hg' hb, e3, logAddExp_real, Real.exp_log hA, Real.exp_log hB]

end Cert.Spec

end
-- ==== Proof.Rows.lean ====
import proofs.«429142_j41094247088744_3_alg».proof.Proof.Spec
import proofs.«429142_j41094247088744_3_alg».proof.Proof.SpecLemmas
import Idealize.ShloMosaic.Lib.ValueIdx
import Idealize.ShloMosaic.PureOps.Ideal

noncomputable section

namespace Cert.Hand.Rows

open Idealize.ShloMosaic Idealize.ShloMosaic.ValueIdx

/-- Row n of the input against row j of the head table, plus the head bias at j; 0 past the last column. -/
def headLogit (a0 : FVec Ideal ⟨2, ![1024, 1024]⟩ .f32) (a2 : FVec Ideal ⟨2, ![20000, 1024]⟩ .f32)
    (a3 : FVec Ideal ⟨1, ![20000]⟩ .f32) (n : Fin 1024) (j : ℕ) : EReal :=
  if h : j < 20000 then (∑ k : Fin 1024, a0 (ix2 n k) * a2 (ix2 ⟨j, h⟩ k)) + a3 (ix1 ⟨j, h⟩) else 0

def clusLogit (a0 : FVec Ideal ⟨2, ![1024, 1024]⟩ .f32) (a4 : FVec Ideal ⟨2, ![3, 1024]⟩ .f32)
    (a5 : FVec Ideal ⟨1, ![3]⟩ .f32) (n : Fin 1024) (j : ℕ) : EReal :=
  if h : j < 3 then (∑ k : Fin 1024, a0 (ix2 n k) * a4 (ix2 ⟨j, h⟩ k)) + a5 (ix1 ⟨j, h⟩) else 0

/-- The head's row of 20003 columns: the 20000 head logits, then the 3 cluster logits. -/
def headRow (a0 : FVec Ideal ⟨2, ![1024, 1024]⟩ .f32) (a2 : FVec Ideal ⟨2, ![20000, 1024]⟩ .f32)
    (a3 : FVec Ideal ⟨1, ![20000]⟩ .f32) (a4 : FVec Ideal ⟨2, ![3, 1024]⟩ .f32) (a5 : FVec Ideal ⟨1, ![3]⟩ .f32)
    (n : Fin 1024) (j : ℕ) : EReal :=
  if j < 20000 then headLogit a0 a2 a3 n j else clusLogit a0 a4 a5 n (j - 20000)

/-- Coordinate k of input row n projected: the row against row k of the projection matrix. -/
def proj1 (a0 : FVec Ideal ⟨2, ![1024, 1024]⟩ .f32) (a6 : FVec Ideal ⟨2, ![256, 1024]⟩ .f32)
    (n : Fin 1024) (k : Fin 256) : EReal :=
  ∑ e : Fin 1024, a0 (ix2 n e) * a6 (ix2 k e)

def proj2 (a0 : FVec Ideal ⟨2, ![1024, 1024]⟩ .f32) (a9 : FVec Ideal ⟨2, ![64, 1024]⟩ .f32)
    (n : Fin 1024) (k : Fin 64) : EReal :=
  ∑ e : Fin 1024, a0 (ix2 n e) * a9 (ix2 k e)

def proj3 (a0 : FVec Ideal ⟨2, ![1024, 1024]⟩ .f32) (a12 : FVec Ideal ⟨2, ![16, 1024]⟩ .f32)
    (n : Fin 1024) (k : Fin 16) : EReal :=
  ∑ e : Fin 1024, a0 (ix2 n e) * a12 (ix2 k e)

/-- The projected row against row j of the cluster's table, plus its bias at j; 0 past the last column. -/
def tailLogit1 (a0 : FVec Ideal ⟨2, ![1024, 1024]⟩ .f32) (a6 : FVec Ideal ⟨2, ![256, 1024]⟩ .f32)
    (a7 : FVec Ideal ⟨2, ![20000, 256]⟩ .f32) (a8 : FVec Ideal ⟨1, ![20000]⟩ .f32) (n : Fin 1024) (j : ℕ) : EReal :=
  if h : j < 20000 then (∑ k : Fin 256, proj1 a0 a6 n k * a7 (ix2 ⟨j, h⟩ k)) + a8 (ix1 ⟨j, h⟩) else 0

def tailLogit2 (a0 : FVec Ideal ⟨2, ![1024, 1024]⟩ .f32) (a9 : FVec Ideal ⟨2, ![64, 1024]⟩ .f32)
    (a10 : FVec Ideal ⟨2, ![160000, 64]⟩ .f32) (a11 : FVec Ideal ⟨1, ![160000]⟩ .f32) (n : Fin 1024) (j : ℕ) : EReal :=
  if h : j < 160000 then (∑ k : Fin 64, proj2 a0 a9 n k * a10 (ix2 ⟨j, h⟩ k)) + a11 (ix1 ⟨j, h⟩) else 0

def tailLogit3 (a0 : FVec Ideal ⟨2, ![1024, 1024]⟩ .f32) (a12 : FVec Ideal ⟨2, ![16, 1024]⟩ .f32)
    (a13 : FVec Ideal ⟨2, ![67735, 16]⟩ .f32) (a14 : FVec Ideal ⟨1, ![67735]⟩ .f32) (n : Fin 1024) (j : ℕ) : EReal :=
  if h : j < 67735 then (∑ k : Fin 16, proj3 a0 a12 n k * a13 (ix2 ⟨j, h⟩ k)) + a14 (ix1 ⟨j, h⟩) else 0

theorem headLogit_of_lt (a0 : FVec Ideal ⟨2, ![1024, 1024]⟩ .f32) (a2 : FVec Ideal ⟨2, ![20000, 1024]⟩ .f32)
    (a3 : FVec Ideal ⟨1, ![20000]⟩ .f32) (n : Fin 1024) {j : ℕ} (h : j < 20000) :
    headLogit a0 a2 a3 n j = (∑ k : Fin 1024, a0 (ix2 n k) * a2 (ix2 ⟨j, h⟩ k)) + a3 (ix1 ⟨j, h⟩) := dif_pos h

theorem clusLogit_of_lt (a0 : FVec Ideal ⟨2, ![1024, 1024]⟩ .f32) (a4 : FVec Ideal ⟨2, ![3, 1024]⟩ .f32)
    (a5 : FVec Ideal ⟨1, ![3]⟩ .f32) (n : Fin 1024) {j : ℕ} (h : j < 3) :
    clusLogit a0 a4 a5 n j = (∑ k : Fin 1024, a0 (ix2 n k) * a4 (ix2 ⟨j, h⟩ k)) + a5 (ix1 ⟨j, h⟩) := dif_pos h

theorem headRow_of_lt (a0 : FVec Ideal ⟨2, ![1024, 1024]⟩ .f32) (a2 : FVec Ideal ⟨2, ![20000, 1024]⟩ .f32)
    (a3 : FVec Ideal ⟨1, ![20000]⟩ .f32) (a4 : FVec Ideal ⟨2, ![3, 1024]⟩ .f32) (a5 : FVec Ideal ⟨1, ![3]⟩ .f32)
    (n : Fin 1024) {j : ℕ} (h : j < 20000) : headRow a0 a2 a3 a4 a5 n j = headLogit a0 a2 a3 n j := if_pos h

theorem headRow_of_ge (a0 : FVec Ideal ⟨2, ![1024, 1024]⟩ .f32) (a2 : FVec Ideal ⟨2, ![20000, 1024]⟩ .f32)
    (a3 : FVec Ideal ⟨1, ![20000]⟩ .f32) (a4 : FVec Ideal ⟨2, ![3, 1024]⟩ .f32) (a5 : FVec Ideal ⟨1, ![3]⟩ .f32)
    (n : Fin 1024) {j : ℕ} (h : 20000 ≤ j) : headRow a0 a2 a3 a4 a5 n j = clusLogit a0 a4 a5 n (j - 20000) :=
  if_neg (Nat.not_lt.2 h)

theorem tailLogit1_of_lt (a0 : FVec Ideal ⟨2, ![1024, 1024]⟩ .f32) (a6 : FVec Ideal ⟨2, ![256, 1024]⟩ .f32)
    (a7 : FVec Ideal ⟨2, ![20000, 256]⟩ .f32) (a8 : FVec Ideal ⟨1, ![20000]⟩ .f32) (n : Fin 1024) {j : ℕ}
    (h : j < 20000) :
    tailLogit1 a0 a6 a7 a8 n j = (∑ k : Fin 256, proj1 a0 a6 n k * a7 (ix2 ⟨j, h⟩ k)) + a8 (ix1 ⟨j, h⟩) := dif_pos h

theorem tailLogit2_of_lt (a0 : FVec Ideal ⟨2, ![1024, 1024]⟩ .f32) (a9 : FVec Ideal ⟨2, ![64, 1024]⟩ .f32)
    (a10 : FVec Ideal ⟨2, ![160000, 64]⟩ .f32) (a11 : FVec Ideal ⟨1, ![160000]⟩ .f32) (n : Fin 1024) {j : ℕ}
    (h : j < 160000) :
    tailLogit2 a0 a9 a10 a11 n j = (∑ k : Fin 64, proj2 a0 a9 n k * a10 (ix2 ⟨j, h⟩ k)) + a11 (ix1 ⟨j, h⟩) :=
  dif_pos h

theorem tailLogit3_of_lt (a0 : FVec Ideal ⟨2, ![1024, 1024]⟩ .f32) (a12 : FVec Ideal ⟨2, ![16, 1024]⟩ .f32)
    (a13 : FVec Ideal ⟨2, ![67735, 16]⟩ .f32) (a14 : FVec Ideal ⟨1, ![67735]⟩ .f32) (n : Fin 1024) {j : ℕ}
    (h : j < 67735) :
    tailLogit3 a0 a12 a13 a14 n j = (∑ k : Fin 16, proj3 a0 a12 n k * a13 (ix2 ⟨j, h⟩ k)) + a14 (ix1 ⟨j, h⟩) :=
  dif_pos h

/-- A finite sum of real numbers is a real number. -/
theorem real_finset_sum {ι : Type} (s : Finset ι) (f : ι → EReal)
    (hf : ∀ k ∈ s, ∃ r : ℝ, f k = (r : EReal)) : ∃ r : ℝ, ∑ k ∈ s, f k = (r : EReal) := by
  classical
  induction s using Finset.induction_on with
  | empty => exact ⟨0, by simp⟩
  | insert a s ha ih =>
    obtain ⟨r, hr⟩ := hf a (Finset.mem_insert_self a s)
    obtain ⟨t, ht⟩ := ih fun k hk => hf k (Finset.mem_insert_of_mem hk)
    exact ⟨r + t, by rw [Finset.sum_insert ha, hr, ht, EReal.coe_add]⟩

theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_finset_sum Finset.univ _ fun k _ => by
    obtain ⟨r, hr⟩ := hf k
    obtain ⟨t, ht⟩ := hg k
    exact ⟨r * t, by rw [hr, ht, EReal.coe_mul]⟩

/-- An inner product of real numbers plus a real number is a real number. -/
theorem real_sum_mul_add {ι : Type} [Fintype ι] (f g : ι → EReal) (c : EReal)
    (hf : ∀ k, ∃ r : ℝ, f k = (r : EReal)) (hg : ∀ k, ∃ r : ℝ, g k = (r : EReal))
    (hc : ∃ r : ℝ, c = (r : EReal)) : ∃ r : ℝ, (∑ k, f k * g k) + c = (r : EReal) := by
  obtain ⟨r, hr⟩ := real_sum_mul f g hf hg
  obtain ⟨t, ht⟩ := hc
  exact ⟨r + t, by rw [hr, ht, EReal.coe_add]⟩

theorem headLogit_real {a0 : FVec Ideal ⟨2, ![1024, 1024]⟩ .f32} {a2 : FVec Ideal ⟨2, ![20000, 1024]⟩ .f32}
    {a3 : FVec Ideal ⟨1, ![20000]⟩ .f32} (h0 : ∀ i, ∃ r : ℝ, a0 i = (r : EReal))
    (h2 : ∀ i, ∃ r : ℝ, a2 i = (r : EReal)) (h3 : ∀ i, ∃ r : ℝ, a3 i = (r : EReal)) (n : Fin 1024) :
    Cert.Spec.RealRow 20000 (headLogit a0 a2 a3 n) := fun j hj => by
  rw [headLogit_of_lt a0 a2 a3 n hj]
  exact real_sum_mul_add _ _ _ (fun k => h0 _) (fun k => h2 _) (h3 _)

theorem clusLogit_real {a0 : FVec Ideal ⟨2, ![1024, 1024]⟩ .f32} {a4 : FVec Ideal ⟨2, ![3, 1024]⟩ .f32}
    {a5 : FVec Ideal ⟨1, ![3]⟩ .f32} (h0 : ∀ i, ∃ r : ℝ, a0 i = (r : EReal))
    (h4 : ∀ i, ∃ r : ℝ, a4 i = (r : EReal)) (h5 : ∀ i, ∃ r : ℝ, a5 i = (r : EReal)) (n : Fin 1024) :
    Cert.Spec.RealRow 3 (clusLogit a0 a4 a5 n) := fun j hj => by
  rw [clusLogit_of_lt a0 a4 a5 n hj]
  exact real_sum_mul_add _ _ _ (fun k => h0 _) (fun k => h4 _) (h5 _)

theorem headRow_real {a0 : FVec Ideal ⟨2, ![1024, 1024]⟩ .f32} {a2 : FVec Ideal ⟨2, ![20000, 1024]⟩ .f32}
    {a3 : FVec Ideal ⟨1, ![20000]⟩ .f32} {a4 : FVec Ideal ⟨2, ![3, 1024]⟩ .f32} {a5 : FVec Ideal ⟨1, ![3]⟩ .f32}
    (h0 : ∀ i, ∃ r : ℝ, a0 i = (r : EReal)) (h2 : ∀ i, ∃ r : ℝ, a2 i = (r : EReal))
    (h3 : ∀ i, ∃ r : ℝ, a3 i = (r : EReal)) (h4 : ∀ i, ∃ r : ℝ, a4 i = (r : EReal))
    (h5 : ∀ i, ∃ r : ℝ, a5 i = (r : EReal)) (n : Fin 1024) :
    Cert.Spec.RealRow 20003 (headRow a0 a2 a3 a4 a5 n) := fun j hj => by
  by_cases h : j < 20000
  · rw [headRow_of_lt a0 a2 a3 a4 a5 n h]
    exact headLogit_real h0 h2 h3 n j h
  · rw [headRow_of_ge a0 a2 a3 a4 a5 n (Nat.not_lt.1 h)]
    exact clusLogit_real h0 h4 h5 n (j - 20000) (by omega)

theorem proj1_real {a0 : FVec Ideal ⟨2, ![1024, 1024]⟩ .f32} {a6 : FVec Ideal ⟨2, ![256, 1024]⟩ .f32}
    (h0 : ∀ i, ∃ r : ℝ, a0 i = (r : EReal)) (h6 : ∀ i, ∃ r : ℝ, a6 i = (r : EReal)) (n : Fin 1024) (k : Fin 256) :
    ∃ r : ℝ, proj1 a0 a6 n k = (r : EReal) :=
  real_sum_mul _ _ (fun e => h0 _) (fun e => h6 _)

theorem proj2_real {a0 : FVec Ideal ⟨2, ![1024, 1024]⟩ .f32} {a9 : FVec Ideal ⟨2, ![64, 1024]⟩ .f32}
    (h0 : ∀ i, ∃ r : ℝ, a0 i = (r : EReal)) (h9 : ∀ i, ∃ r : ℝ, a9 i = (r : EReal)) (n : Fin 1024) (k : Fin 64) :
    ∃ r : ℝ, proj2 a0 a9 n k = (r : EReal) :=
  real_sum_mul _ _ (fun e => h0 _) (fun e => h9 _)

theorem proj3_real {a0 : FVec Ideal ⟨2, ![1024, 1024]⟩ .f32} {a12 : FVec Ideal ⟨2, ![16, 1024]⟩ .f32}
    (h0 : ∀ i, ∃ r : ℝ, a0 i = (r : EReal)) (h12 : ∀ i, ∃ r : ℝ, a12 i = (r : EReal)) (n : Fin 1024) (k : Fin 16) :
    ∃ r : ℝ, proj3 a0 a12 n k = (r : EReal) :=
  real_sum_mul _ _ (fun e => h0 _) (fun e => h12 _)

theorem tailLogit1_real {a0 : FVec Ideal ⟨2, ![1024, 1024]⟩ .f32} {a6 : FVec Ideal ⟨2, ![256, 1024]⟩ .f32}
    {a7 : FVec Ideal ⟨2, ![20000, 256]⟩ .f32} {a8 : FVec Ideal ⟨1, ![20000]⟩ .f32}
    (h0 : ∀ i, ∃ r : ℝ, a0 i = (r : EReal)) (h6 : ∀ i, ∃ r : ℝ, a6 i = (r : EReal))
    (h7 : ∀ i, ∃ r : ℝ, a7 i = (r : EReal)) (h8 : ∀ i, ∃ r : ℝ, a8 i = (r : EReal)) (n : Fin 1024) :
    Cert.Spec.RealRow 20000 (tailLogit1 a0 a6 a7 a8 n) := fun j hj => by
  rw [tailLogit1_of_lt a0 a6 a7 a8 n hj]
  exact real_sum_mul_add _ _ _ (fun k => proj1_real h0 h6 n k) (fun k => h7 _) (h8 _)

theorem tailLogit2_real {a0 : FVec Ideal ⟨2, ![1024, 1024]⟩ .f32} {a9 : FVec Ideal ⟨2, ![64, 1024]⟩ .f32}
    {a10 : FVec Ideal ⟨2, ![160000, 64]⟩ .f32} {a11 : FVec Ideal ⟨1, ![160000]⟩ .f32}
    (h0 : ∀ i, ∃ r : ℝ, a0 i = (r : EReal)) (h9 : ∀ i, ∃ r : ℝ, a9 i = (r : EReal))
    (h10 : ∀ i, ∃ r : ℝ, a10 i = (r : EReal)) (h11 : ∀ i, ∃ r : ℝ, a11 i = (r : EReal)) (n : Fin 1024) :
    Cert.Spec.RealRow 160000 (tailLogit2 a0 a9 a10 a11 n) := fun j hj => by
  rw [tailLogit2_of_lt a0 a9 a10 a11 n hj]
  exact real_sum_mul_add _ _ _ (fun k => proj2_real h0 h9 n k) (fun k => h10 _) (h11 _)

theorem tailLogit3_real {a0 : FVec Ideal ⟨2, ![1024, 1024]⟩ .f32} {a12 : FVec Ideal ⟨2, ![16, 1024]⟩ .f32}
    {a13 : FVec Ideal ⟨2, ![67735, 16]⟩ .f32} {a14 : FVec Ideal ⟨1, ![67735]⟩ .f32}
    (h0 : ∀ i, ∃ r : ℝ, a0 i = (r : EReal)) (h12 : ∀ i, ∃ r : ℝ, a12 i = (r : EReal))
    (h13 : ∀ i, ∃ r : ℝ, a13 i = (r : EReal)) (h14 : ∀ i, ∃ r : ℝ, a14 i = (r : EReal)) (n : Fin 1024) :
    Cert.Spec.RealRow 67735 (tailLogit3 a0 a12 a13 a14 n) := fun j hj => by
  rw [tailLogit3_of_lt a0 a12 a13 a14 n hj]
  exact real_sum_mul_add _ _ _ (fun k => proj3_real h0 h12 n k) (fun k => h13 _) (h14 _)

end Cert.Hand.Rows

end
-- ==== Proof.RI.Read.lean ====
import proofs.«429142_j41094247088744_3_alg».proof.Proof.RI.Res
import proofs.«429142_j41094247088744_3_alg».proof.Proof.RI.ReadLemmas
import proofs.«429142_j41094247088744_3_alg».proof.Proof.Tail
import proofs.«429142_j41094247088744_3_alg».proof.Proof.Rows

noncomputable section

namespace Cert.ReferenceIdeal.Hand

open Cert.ReferenceIdeal Cert.ReferenceIdeal.Gen Idealize.ShloMosaic Idealize.ShloMosaic.ValueIdx Idealize.SL.Sem
open Cert.Hand.ReadLemmas Cert.Hand.Rows

theorem hfR : Cert.Tail.TailFacts :=
  ⟨h_S_, bcast_S_S1024, bcast_S1024_S1024x1_0, bcast_S3_S1x3_1, bcast_S1024x1_S1024x3_0_1, bcast_S1x3_S1024x3_0_1,
    reducesTo_S1024x3_S1024_d1, bcast_S1024_S1x1024_1,
    concatenates_S1x1024_S1x1024_S1x1024_S1x1024_S1x1024_S5x1024_d0, reducesTo_S5x1024_S1024_d0, natLt_1_32⟩

theorem resR_eq_tail (m : Mem Ideal) (c : Dev nD) :
    resR m c = Cert.Tail.tail hfR (a1 m c) (res_v22 m c) (res_v39 m c) (res_v56 m c) (res_v73 m c) := rfl

def clipNat (lo hi t : BitVec 32) : ℕ := (IntOp.minsi hi (IntOp.maxsi lo t)).toNat

theorem clipNat_le (hi t : BitVec 32) (h : 0 ≤ hi.toInt) : clipNat 0#32 hi t ≤ hi.toNat := by
  have hb := clip_bounds hi t h
  have e1 := toInt_toNat_of_nonneg _ hb.1
  have e2 := toInt_toNat_of_nonneg _ h
  unfold clipNat
  omega

theorem clipNat_lt (hi t : BitVec 32) (W : ℕ) (h : 0 ≤ hi.toInt) (hW : hi.toInt < W) : clipNat 0#32 hi t < W := by
  have hb := clip_bounds hi t h
  have e1 := toInt_toNat_of_nonneg _ hb.1
  unfold clipNat
  omega

section Width
variable {W : ℕ}

theorem hostLog_apply {s : Shape} (y : FVec Ideal s .f32) (i : s.Idx) : Host.log y i = Ideal.log (y i) := rfl

theorem hostExp_apply {s : Shape} (y : FVec Ideal s .f32) (i : s.Idx) : Host.exp y i = Ideal.exp (y i) := rfl

section Lsm
variable (hb : S1024x1.BroadcastsInDim (Sh2 1024 W) (![0, 1] : Fin 2 → Fin (Sh2 1024 W).rank))
  (hr' : (Sh2 1024 W).ReducesTo [1] S1024) (hr : (Sh2 1024 W).Reduces [1] S1024) (x : C Ideal (Sh2 1024 W) .f32) (n : Fin 1024)

include hr in
/-- A row less its maximum, at column j. -/
theorem sh_apply (j : Fin W) :
    sh hb hr' x (ix2 n j) = x (ix2 n j) - Cert.Spec.rowMax W (rowOf x n) := by
  unfold sh
  rw [subf_apply, bcast_row_apply, bcast_col_apply, maximumf_apply, broadcastInDim_scalar_apply,
    reduceMax_row x _ hr' hr h_S_ n]
  show _ - max (Ideal.ofBits .f32 0xFF800000#32) (max (Ideal.ofBits .f32 0xFF800000#32) _) = _
  rw [ofBits_neg_inf, max_eq_right bot_le, max_eq_right bot_le]

include hr in
/-- A row of a log-softmax at a column is the specification's log-softmax of the row at that column. -/
theorem lsm_apply (j : Fin W) :
    lsm hb hr' x (ix2 n j) = Cert.Spec.lsm W (rowOf x n) j.val := by
  unfold lsm Cert.Spec.lsm
  rw [subf_apply, bcast_row_apply, hostLog_apply, bcast_col_apply, sh_apply hb hr' hr x n j, rowOf_val,
    reduceAdd_row _ _ hr' hr h_S_ n, constant_apply, Ideal.ofBits_zero_f32, zero_add,
    ← Fin.sum_univ_eq_sum_range (fun k => Ideal.exp (rowOf x n k - Cert.Spec.rowMax W (rowOf x n)))]
  exact congrArg _ (congrArg _ (Finset.sum_congr rfl fun k _ => by rw [hostExp_apply, sh_apply hb hr' hr x n k, rowOf_val]))

include hr in
theorem rowOf_lsm {j : ℕ} (hj : j < W) :
    rowOf (lsm hb hr' x) n j = Cert.Spec.lsm W (rowOf x n) j := by
  rw [rowOf_of_lt _ n hj]
  exact lsm_apply hb hr' hr x n ⟨j, hj⟩

end Lsm

theorem wrap_apply (w : BitVec 32) (i : C Ideal S1024x1 .i32) (n : Fin 1024) (h : 0 ≤ (i (ix2 n (0 : Fin 1))).toInt) :
    wrap w i (ix3 n (0 : Fin 1) (0 : Fin 1)) = i (ix2 n (0 : Fin 1)) := by
  refine (shapeCast_col_tab_apply _ shapeCasts_S1024x1_S1024x1x1 n).trans ?_
  show Scalar.select (IntOp.cmpi .slt (i (ix2 n (0 : Fin 1))) 0#32) _ (i (ix2 n (0 : Fin 1))) = _
  rw [cmpi_slt_zero_of_nonneg _ h]
  rfl

theorem inb_apply (hi : BitVec 32) (t : C Ideal S1024x1x1 .i32) (n : Fin 1024)
    (h0 : 0 ≤ (t (ix3 n (0 : Fin 1) (0 : Fin 1))).toInt) (h1 : (t (ix3 n (0 : Fin 1) (0 : Fin 1))).toInt ≤ hi.toInt) :
    inb hi t (ix2 n (0 : Fin 1)) = 1#1 := by
  unfold inb
  rw [reduceAnd_unit _ _ reducesTo_S1024x1x1_S1024x1_d2 (by decide) h_S_ n]
  show IntOp.andi (IntOp.andi (IntOp.cmpi .sge (t (ix3 n (0 : Fin 1) (0 : Fin 1))) 0#32)
    (IntOp.cmpi .sle (t (ix3 n (0 : Fin 1) (0 : Fin 1))) hi)) 1#1 = 1#1
  rw [cmpi_sge_zero_of_nonneg _ h0, cmpi_sle_of_le _ _ h1]
  decide

theorem take_apply (wf : GatherDims.WF (Sh2 1024 W) S1024x1x1 S1024x1 [] [1] [0] [1] [0] 2 ![1, 1]) (w hi : BitVec 32)
    (x : C Ideal (Sh2 1024 W) .f32) (i : C Ideal S1024x1 .i32) (n : Fin 1024)
    (h0 : 0 ≤ (i (ix2 n (0 : Fin 1))).toInt) (h1 : (i (ix2 n (0 : Fin 1))).toInt ≤ hi.toInt) (h2 : hi.toInt < W) :
    take (rowTakeDims W wf) w hi x i (ix2 n (0 : Fin 1)) = rowOf x n (i (ix2 n (0 : Fin 1))).toNat := by
  have hw := wrap_apply w i n h0
  have hW : 0 < W := by omega
  have hk : min (i (ix2 n (0 : Fin 1))).toInt.toNat (W - 1) = (i (ix2 n (0 : Fin 1))).toNat := by
    have := toInt_toNat_of_nonneg _ h0
    omega
  have hlt : min (i (ix2 n (0 : Fin 1))).toInt.toNat (W - 1) < W := by omega
  show Scalar.select (inb hi (wrap w i) (ix2 n (0 : Fin 1))) (Host.gather (rowTakeDims W wf) x (wrap w i) (ix2 n (0 : Fin 1))) _ = _
  rw [inb_apply hi (wrap w i) n (by rw [hw]; exact h0) (by rw [hw]; exact h1), select_one,
    gather_row_apply wf hW x (wrap w i) n]
  simp only [hw]
  rw [← rowOf_of_lt x n hlt, hk]

variable {D : ℕ}

theorem clusterLogits_apply (t1 : (Sh2 D 1024).Transposes [1, 0] (Sh2 1024 D)) (d1 : DotDims S1024x1024 (Sh2 1024 D) (Sh2 1024 D))
    (hd1 : d1 = DotDims.plain 1024 1024 D)
    (t2 : (Sh2 W D).Transposes [1, 0] (Sh2 D W)) (d2 : DotDims (Sh2 1024 D) (Sh2 D W) (Sh2 1024 W))
    (hd2 : d2 = DotDims.plain 1024 D W)
    (b1 : (Sh1 W).BroadcastsInDim (Sh2 1 W) (![1] : Fin 1 → Fin (Sh2 1 W).rank))
    (b2 : (Sh2 1 W).BroadcastsInDim (Sh2 1024 W) (![0, 1] : Fin 2 → Fin (Sh2 1024 W).rank))
    (x : C Ideal S1024x1024 .f32) (p : C Ideal (Sh2 D 1024) .f32) (w : C Ideal (Sh2 W D) .f32) (b : C Ideal (Sh1 W) .f32)
    (n : Fin 1024) (j : Fin W) :
    clusterLogits t1 d1 t2 d2 b1 b2 x p w b (ix2 n j)
      = (∑ k : Fin D, (∑ e : Fin 1024, x (ix2 n e) * p (ix2 k e)) * w (ix2 j k)) + b (ix1 j) := by
  unfold clusterLogits
  rw [linear_apply d2 hd2 t2 b1 b2 _ w b n j]
  congr 1
  exact Finset.sum_congr rfl fun k _ => by rw [proj_apply d1 hd1 t1 x p n k]

/-- A row read at a target clipped to 0 … hi', the clip's upper end inside the gather's range and the row. -/
theorem takeClip_apply (wf : GatherDims.WF (Sh2 1024 W) S1024x1x1 S1024x1 [] [1] [0] [1] [0] 2 ![1, 1]) (w hi hi' : BitVec 32)
    (l : C Ideal (Sh2 1024 W) .f32) (t : C Ideal S1024 .i32) (n : Fin 1024)
    (h0 : 0 ≤ hi'.toInt) (h1 : hi'.toInt ≤ hi.toInt) (h2 : hi.toInt < W) :
    shapeCast S1024 (take (F := Ideal) (rowTakeDims W wf) w hi l (broadcastInDim S1024x1 ![0] bcast_S1024_S1024x1_0
      (clip (F := Ideal) t (constantI S_ 32 0#32) (constantI S_ 32 hi')))) shapeCasts_S1024x1_S1024 (ix1 n)
      = rowOf l n (clipNat 0#32 hi' (t (ix1 n))) := by
  have hb := clip_bounds hi' (t (ix1 n)) h0
  have hI : (broadcastInDim S1024x1 ![0] bcast_S1024_S1024x1_0
      (clip (F := Ideal) t (constantI S_ 32 0#32) (constantI S_ 32 hi')) : C Ideal S1024x1 .i32) (ix2 n (0 : Fin 1))
      = IntOp.minsi hi' (IntOp.maxsi 0#32 (t (ix1 n))) := bcast_col_apply bcast_S1024_S1024x1_0 _ n 0
  rw [shapeCast_col_vec_apply _ shapeCasts_S1024x1_S1024 n,
    take_apply wf w hi l _ n (by rw [hI]; exact hb.1) (by rw [hI]; exact le_trans hb.2 h1) h2, hI]
  rfl

/-- A cluster's candidate at token n: the head's row at the cluster's column, plus the cluster's row at the shifted, clipped target. -/
theorem candidate_apply (col : ℕ) (hs : S1024x20003.Slices ![0, col] S1024x1)
    (wf : GatherDims.WF (Sh2 1024 W) S1024x1x1 S1024x1 [] [1] [0] [1] [0] 2 ![1, 1]) (w hi off : BitVec 32)
    (h : C Ideal S1024x20003 .f32) (l : C Ideal (Sh2 1024 W) .f32) (t : C Ideal S1024 .i32) (n : Fin 1024)
    (hcol : col < 20003) (hhi0 : 0 ≤ hi.toInt) (hhi : hi.toInt < W) :
    candidate col hs (rowTakeDims W wf) w hi off h l t (ix1 n)
      = rowOf h n col + rowOf l n (clipNat 0#32 hi (t (ix1 n) - off)) := by
  show shapeCast S1024 (extractStridedSlice S1024x1 ![0, col] h hs) shapeCasts_S1024x1_S1024 (ix1 n)
    + shapeCast S1024 (take (F := Ideal) (rowTakeDims W wf) w hi l (broadcastInDim S1024x1 ![0] bcast_S1024_S1024x1_0
      (clip (F := Ideal) (subi t (broadcastInDim S1024 ![] bcast_S_S1024 (constantI S_ 32 off))) (constantI S_ 32 0#32) (constantI S_ 32 hi))))
      shapeCasts_S1024x1_S1024 (ix1 n) = _
  rw [takeClip_apply wf w hi hi l _ n hhi0 le_rfl hhi, shapeCast_col_vec_apply _ shapeCasts_S1024x1_S1024 n,
    slice_col_apply h hs hcol n, ← rowOf_of_lt h n hcol]
  rfl

end Width

abbrev hRow (m : Mem Ideal) (c : Dev nD) (n : Fin 1024) : ℕ → EReal :=
  headRow (a0 m c) (a2 m c) (a3 m c) (a4 m c) (a5 m c) n

theorem rowOf_res_v10 (m : Mem Ideal) (c : Dev nD) (n : Fin 1024) : rowOf (res_v10 m c) n = hRow m c n := by
  funext j
  by_cases hj : j < 20003
  · rw [rowOf_of_lt _ n hj]
    by_cases h : j < 20000
    · rw [show hRow m c n j = headLogit (a0 m c) (a2 m c) (a3 m c) n j from headRow_of_lt _ _ _ _ _ n h,
        headLogit_of_lt _ _ _ n h]
      unfold res_v10 headCat
      refine (concatenate_pair_apply_left (t := S1024x20003) (s₁ := S1024x20000) (s₂ := S1024x3) (1 : Fin 2) _ _
        concatenates_S1024x20000_S1024x3_S1024x20003_d1
        (ix2 n ⟨j, hj⟩) rfl (ix2 n ⟨j, h⟩) (fun b => by fin_cases b <;> rfl)).trans ?_
      exact linear_apply dot_S1024x1024_S1024x20000_S1024x20000_1_0_0_1_n_n rfl transposes_S20000x1024_S1024x20000_1_0
        bcast_S20000_S1x20000_1 bcast_S1x20000_S1024x20000_0_1 (a0 m c) (a2 m c) (a3 m c) n ⟨j, h⟩
    · have h' : 20000 ≤ j := Nat.not_lt.1 h
      have h3 : j - 20000 < 3 := by omega
      rw [show hRow m c n j = clusLogit (a0 m c) (a4 m c) (a5 m c) n (j - 20000) from headRow_of_ge _ _ _ _ _ n h',
        clusLogit_of_lt _ _ _ n h3]
      unfold res_v10 headCat
      refine (concatenate_pair_apply_right (t := S1024x20003) (s₁ := S1024x20000) (s₂ := S1024x3) (1 : Fin 2) _ _
        concatenates_S1024x20000_S1024x3_S1024x20003_d1
        (ix2 n ⟨j, hj⟩) rfl rfl (ix2 n ⟨j - 20000, h3⟩) (fun b hb => ?_) ?_).trans ?_
      · fin_cases b
        · rfl
        · exact absurd rfl hb
      · show j - 20000 + 20000 = j
        omega
      · exact linear_apply dot_S1024x1024_S1024x3_S1024x3_1_0_0_1_n_n rfl transposes_S3x1024_S1024x3_1_0
          bcast_S3_S1x3_1 bcast_S1x3_S1024x3_0_1 (a0 m c) (a4 m c) (a5 m c) n ⟨j - 20000, h3⟩
  · rw [rowOf, dif_neg hj]
    have h' : 20000 ≤ j := by omega
    rw [show hRow m c n j = clusLogit (a0 m c) (a4 m c) (a5 m c) n (j - 20000) from headRow_of_ge _ _ _ _ _ n h']
    unfold clusLogit
    rw [dif_neg (by omega)]

theorem rowOf_res_v29 (m : Mem Ideal) (c : Dev nD) (n : Fin 1024) :
    rowOf (res_v29 m c) n = tailLogit1 (a0 m c) (a6 m c) (a7 m c) (a8 m c) n := by
  funext j
  by_cases hj : j < 20000
  · rw [rowOf_of_lt _ n hj, tailLogit1_of_lt _ _ _ _ n hj]
    unfold res_v29
    exact clusterLogits_apply _ _ rfl _ _ rfl _ _ (a0 m c) (a6 m c) (a7 m c) (a8 m c) n ⟨j, hj⟩
  · rw [rowOf, dif_neg hj, tailLogit1, dif_neg hj]

theorem rowOf_res_v46 (m : Mem Ideal) (c : Dev nD) (n : Fin 1024) :
    rowOf (res_v46 m c) n = tailLogit2 (a0 m c) (a9 m c) (a10 m c) (a11 m c) n := by
  funext j
  by_cases hj : j < 160000
  · rw [rowOf_of_lt _ n hj, tailLogit2_of_lt _ _ _ _ n hj]
    unfold res_v46
    exact clusterLogits_apply _ _ rfl _ _ rfl _ _ (a0 m c) (a9 m c) (a10 m c) (a11 m c) n ⟨j, hj⟩
  · rw [rowOf, dif_neg hj, tailLogit2, dif_neg hj]

theorem rowOf_res_v63 (m : Mem Ideal) (c : Dev nD) (n : Fin 1024) :
    rowOf (res_v63 m c) n = tailLogit3 (a0 m c) (a12 m c) (a13 m c) (a14 m c) n := by
  funext j
  by_cases hj : j < 67735
  · rw [rowOf_of_lt _ n hj, tailLogit3_of_lt _ _ _ _ n hj]
    unfold res_v63
    exact clusterLogits_apply _ _ rfl _ _ rfl _ _ (a0 m c) (a12 m c) (a13 m c) (a14 m c) n ⟨j, hj⟩
  · rw [rowOf, dif_neg hj, tailLogit3, dif_neg hj]

theorem red20003 : (Sh2 1024 20003).Reduces [1] S1024 := by decide
theorem red20000 : (Sh2 1024 20000).Reduces [1] S1024 := by decide
theorem red160000 : (Sh2 1024 160000).Reduces [1] S1024 := by decide
theorem red67735 : (Sh2 1024 67735).Reduces [1] S1024 := by decide

theorem rowOf_res_v11 (m : Mem Ideal) (c : Dev nD) (n : Fin 1024) {j : ℕ} (hj : j < 20003) :
    rowOf (res_v11 m c) n j = Cert.Spec.lsm 20003 (hRow m c n) j := by
  unfold res_v11
  rw [rowOf_lsm _ _ red20003 _ n hj, rowOf_res_v10]

theorem res_v22_apply (m : Mem Ideal) (c : Dev nD) (n : Fin 1024) :
    res_v22 m c (ix1 n) = Cert.Spec.lsm 20003 (hRow m c n) (clipNat 0#32 19999#32 (a1 m c (ix1 n))) :=
  (takeClip_apply gather_S1024x20003_S1024x1x1_S1024x1_n_1_0_0_1_2_11_wf 20003#32 20002#32 19999#32 (res_v11 m c) (a1 m c) n
    (by decide) (by decide) (by decide)).trans
    (rowOf_res_v11 m c n (clipNat_lt 19999#32 _ 20003 (by decide) (by decide)))

theorem res_v39_apply (m : Mem Ideal) (c : Dev nD) (n : Fin 1024) :
    res_v39 m c (ix1 n) = Cert.Spec.lsm 20003 (hRow m c n) 20002
      + Cert.Spec.lsm 20000 (tailLogit1 (a0 m c) (a6 m c) (a7 m c) (a8 m c) n)
          (clipNat 0#32 19999#32 (a1 m c (ix1 n) - 20000#32)) := by
  unfold res_v39
  refine (candidate_apply 20002 slices_S1024x20003_S1024x1_0_20002 gather_S1024x20000_S1024x1x1_S1024x1_n_1_0_0_1_2_11_wf
    20000#32 19999#32 20000#32 (res_v11 m c) (res_v30 m c) (a1 m c) n (by decide) (by decide) (by decide)).trans ?_
  rw [rowOf_res_v11 m c n (by decide : 20002 < 20003)]
  unfold res_v30
  rw [rowOf_lsm _ _ red20000 _ n (clipNat_lt 19999#32 _ 20000 (by decide) (by decide)), rowOf_res_v29]

theorem res_v56_apply (m : Mem Ideal) (c : Dev nD) (n : Fin 1024) :
    res_v56 m c (ix1 n) = Cert.Spec.lsm 20003 (hRow m c n) 20001
      + Cert.Spec.lsm 160000 (tailLogit2 (a0 m c) (a9 m c) (a10 m c) (a11 m c) n)
          (clipNat 0#32 159999#32 (a1 m c (ix1 n) - 40000#32)) := by
  unfold res_v56
  refine (candidate_apply 20001 slices_S1024x20003_S1024x1_0_20001 gather_S1024x160000_S1024x1x1_S1024x1_n_1_0_0_1_2_11_wf
    160000#32 159999#32 40000#32 (res_v11 m c) (res_v47 m c) (a1 m c) n (by decide) (by decide) (by decide)).trans ?_
  rw [rowOf_res_v11 m c n (by decide : 20001 < 20003)]
  unfold res_v47
  rw [rowOf_lsm _ _ red160000 _ n (clipNat_lt 159999#32 _ 160000 (by decide) (by decide)), rowOf_res_v46]

theorem res_v73_apply (m : Mem Ideal) (c : Dev nD) (n : Fin 1024) :
    res_v73 m c (ix1 n) = Cert.Spec.lsm 20003 (hRow m c n) 20000
      + Cert.Spec.lsm 67735 (tailLogit3 (a0 m c) (a12 m c) (a13 m c) (a14 m c) n)
          (clipNat 0#32 67734#32 (a1 m c (ix1 n) - 200000#32)) := by
  unfold res_v73
  refine (candidate_apply 20000 slices_S1024x20003_S1024x1_0_20000 gather_S1024x67735_S1024x1x1_S1024x1_n_1_0_0_1_2_11_wf
    67735#32 67734#32 200000#32 (res_v11 m c) (res_v64 m c) (a1 m c) n (by decide) (by decide) (by decide)).trans ?_
  rw [rowOf_res_v11 m c n (by decide : 20000 < 20003)]
  unfold res_v64
  rw [rowOf_lsm _ _ red67735 _ n (clipNat_lt 67734#32 _ 67735 (by decide) (by decide)), rowOf_res_v63]

end Cert.ReferenceIdeal.Hand

end
-- ==== Proof.KI.HostLemmas.lean ====
import Idealize.ShloMosaic.Lib.ValueIdx
import Idealize.ShloMosaic.Lib.ValueLayout
import Idealize.ShloMosaic.Lib.KernelVsHost
import Idealize.ShloMosaic.Lib.Pipeline.Value

noncomputable section

namespace Cert.KernelIdeal.Hand

open Idealize.ShloMosaic Idealize.ShloMosaic.ValueIdx

variable {α : Type}

/-- Rows of a padding value appended below an array: row `j` is the array's own row, or the padding value. -/
theorem pad_rows_apply {A B d hi : ℕ} (x : (⟨2, ![A, d]⟩ : Shape).Idx → α) {u : Shape} (v : u.Idx → α)
    (h : (⟨2, ![A, d]⟩ : Shape).Pads ![0, 0] ![hi, 0] ![0, 0] ⟨2, ![B, d]⟩) (hu : 0 < u.numel)
    (j : Fin B) (k : Fin d) :
    pad ⟨2, ![B, d]⟩ ![0, 0] ![hi, 0] ![0, 0] x v h hu (ix2 j k)
      = if hj : j.val < A then x (ix2 ⟨j.val, hj⟩ k) else v (Shape.Idx.first hu) := by
  by_cases hj : j.val < A
  · rw [dif_pos hj]
    refine pad_apply_of_inside _ _ _ x v h hu (ix2 j k) (ix2 ⟨j.val, hj⟩ k) (fun a => ?_)
    match a with
    | ⟨0, _⟩ => show j.val = 0 + j.val * (0 + 1); omega
    | ⟨1, _⟩ => show k.val = 0 + k.val * (0 + 1); omega
  · rw [dif_neg hj]
    refine pad_apply_of_not_inside _ _ _ x v h hu (ix2 j k) ⟨0, Nat.zero_lt_two⟩ (fun hin => hj ?_)
    have h3 : (j.val - 0) / (0 + 1) < A := hin.2.2
    omega

/-- The same for entries appended behind a vector that is then laid out as one row. -/
theorem pad_vec_row_apply {A B hi : ℕ} (x : (⟨1, ![A]⟩ : Shape).Idx → α) {u : Shape} (v : u.Idx → α)
    (h : (⟨1, ![A]⟩ : Shape).Pads ![0] ![hi] ![0] ⟨1, ![B]⟩) (hu : 0 < u.numel)
    (hc : (⟨1, ![B]⟩ : Shape).ShapeCasts ⟨2, ![1, B]⟩) (z : Fin 1) (j : Fin B) :
    shapeCast ⟨2, ![1, B]⟩ (pad ⟨1, ![B]⟩ ![0] ![hi] ![0] x v h hu) hc (ix2 z j)
      = if hj : j.val < A then x (ix1 ⟨j.val, hj⟩) else v (Shape.Idx.first hu) := by
  rw [shapeCast_a_1a_apply]
  by_cases hj : j.val < A
  · rw [dif_pos hj]
    refine pad_apply_of_inside _ _ _ x v h hu (ix1 j) (ix1 ⟨j.val, hj⟩) (fun a => ?_)
    match a with
    | ⟨0, _⟩ => show j.val = 0 + j.val * (0 + 1); omega
  · rw [dif_neg hj]
    refine pad_apply_of_not_inside _ _ _ x v h hu (ix1 j) ⟨0, Nat.zero_lt_one⟩ (fun hin => hj ?_)
    have h3 : (j.val - 0) / (0 + 1) < A := hin.2.2
    omega

end Cert.KernelIdeal.Hand

end
-- ==== Proof.KI.HostOps0.lean ====
import proofs.«429142_j41094247088744_3_alg».proof.Proof.RegionsKI
import proofs.«429142_j41094247088744_3_alg».proof.Proof.Rows
import proofs.«429142_j41094247088744_3_alg».proof.Proof.KI.HostLemmas
import Idealize.ShloMosaic.Lib.StableHlo.Run
import Idealize.ShloMosaic.Lib.StackMember

set_option maxRecDepth 2080

noncomputable section

namespace Cert.KernelIdeal.Hand

open Cert.KernelIdeal Cert.KernelIdeal.Gen
open Idealize.ShloMosaic Idealize.ShloMosaic.TcCoe Idealize.ShloMosaic.ValueIdx Idealize.ShloMosaic.StackMember

variable (m : (ℓ : Loc nD τ sig) → Buf (Elt Ideal) ℓ)

abbrev A0 (c : Dev nD) : FVec Ideal ⟨2, ![1024, 1024]⟩ .f32 := m ((c : Thread nD τ).loc main_arg0)
abbrev A1 (c : Dev nD) : IVec ⟨1, ![1024]⟩ 32 := m ((c : Thread nD τ).loc main_arg1)
abbrev A2 (c : Dev nD) : FVec Ideal ⟨2, ![20000, 1024]⟩ .f32 := m ((c : Thread nD τ).loc main_arg2)
abbrev A3 (c : Dev nD) : FVec Ideal ⟨1, ![20000]⟩ .f32 := m ((c : Thread nD τ).loc main_arg3)
abbrev A4 (c : Dev nD) : FVec Ideal ⟨2, ![3, 1024]⟩ .f32 := m ((c : Thread nD τ).loc main_arg4)
abbrev A5 (c : Dev nD) : FVec Ideal ⟨1, ![3]⟩ .f32 := m ((c : Thread nD τ).loc main_arg5)
abbrev A6 (c : Dev nD) : FVec Ideal ⟨2, ![256, 1024]⟩ .f32 := m ((c : Thread nD τ).loc main_arg6)
abbrev A7 (c : Dev nD) : FVec Ideal ⟨2, ![20000, 256]⟩ .f32 := m ((c : Thread nD τ).loc main_arg7)
abbrev A8 (c : Dev nD) : FVec Ideal ⟨1, ![20000]⟩ .f32 := m ((c : Thread nD τ).loc main_arg8)
abbrev A9 (c : Dev nD) : FVec Ideal ⟨2, ![64, 1024]⟩ .f32 := m ((c : Thread nD τ).loc main_arg9)
abbrev A10 (c : Dev nD) : FVec Ideal ⟨2, ![160000, 64]⟩ .f32 := m ((c : Thread nD τ).loc main_arg10)
abbrev A11 (c : Dev nD) : FVec Ideal ⟨1, ![160000]⟩ .f32 := m ((c : Thread nD τ).loc main_arg11)
abbrev A12 (c : Dev nD) : FVec Ideal ⟨2, ![16, 1024]⟩ .f32 := m ((c : Thread nD τ).loc main_arg12)
abbrev A13 (c : Dev nD) : FVec Ideal ⟨2, ![67735, 16]⟩ .f32 := m ((c : Thread nD τ).loc main_arg13)
abbrev A14 (c : Dev nD) : FVec Ideal ⟨1, ![67735]⟩ .f32 := m ((c : Thread nD τ).loc main_arg14)

/-- `max 0 x`, then `min hi`, on signed words. -/
def clip (hi x : BitVec 32) : BitVec 32 := IntOp.minsi hi (IntOp.maxsi 0#32 x)

theorem clip_clip (hi x : BitVec 32) (h : 0 ≤ hi.toInt) : clip hi (clip hi x) = clip hi x := by
  have s : ∀ a b : BitVec 32, a.slt b = decide (a.toInt < b.toInt) := fun _ _ => rfl
  have z : (0#32 : BitVec 32).toInt = 0 := rfl
  unfold clip IntOp.minsi IntOp.maxsi
  simp only [s, decide_eq_true_eq]
  split_ifs <;> first | rfl | (exfalso; simp only [z] at *; omega)

/-- The weights narrowed, with `hi` rows of zeros appended. -/
def padW {A B d hi : ℕ} (w : FVec Ideal ⟨2, ![A, d]⟩ .f32)
    (h : (⟨2, ![A, d]⟩ : Shape).Pads ![0, 0] ![hi, 0] ![0, 0] ⟨2, ![B, d]⟩) : FVec Ideal ⟨2, ![B, d]⟩ .bf16 :=
  pad ⟨2, ![B, d]⟩ ![0, 0] ![hi, 0] ![0, 0] (truncf .bf16 w bitsLt_bf16_f32 : FVec Ideal ⟨2, ![A, d]⟩ .bf16)
    (sitofp .bf16 (constantI S_ 32 0#32) : FVec Ideal S_ .bf16) h h_S_

/-- The bias with `hi` zeros appended, as one row. -/
def padB {A B hi : ℕ} (b : FVec Ideal ⟨1, ![A]⟩ .f32) (h : (⟨1, ![A]⟩ : Shape).Pads ![0] ![hi] ![0] ⟨1, ![B]⟩)
    (hc : (⟨1, ![B]⟩ : Shape).ShapeCasts ⟨2, ![1, B]⟩) : FVec Ideal ⟨2, ![1, B]⟩ .f32 :=
  shapeCast ⟨2, ![1, B]⟩ (pad ⟨1, ![B]⟩ ![0] ![hi] ![0] b (sitofp .f32 (constantI S_ 32 0#32) : FVec Ideal S_ .f32) h h_S_) hc

/-- The hidden states against a transposed projection, narrowed. -/
def projX {d : ℕ} (a0 : FVec Ideal ⟨2, ![1024, 1024]⟩ .f32) (p : FVec Ideal ⟨2, ![d, 1024]⟩ .f32)
    (h : (⟨2, ![d, 1024]⟩ : Shape).Transposes [1, 0] ⟨2, ![1024, d]⟩) : FVec Ideal ⟨2, ![1024, d]⟩ .bf16 :=
  truncf .bf16 (Host.dotGeneral (DotDims.plain 1024 1024 d) none a0 (transpose ⟨2, ![1024, d]⟩ [1, 0] p h)
    : FVec Ideal ⟨2, ![1024, d]⟩ .f32) bitsLt_bf16_f32

/-- A vector of words clamped twice to `0 … hi`, as one column. -/
def clipCol (hi : BitVec 32) (t : IVec S1024 32) : IVec S1024x1 32 :=
  shapeCast S1024x1
    (minsi (broadcastInDim S1024 ![] bcast_S_S1024 (constantI S_ 32 hi))
      (maxsi (broadcastInDim S1024 ![] bcast_S_S1024 (constantI S_ 32 0#32))
        (minsi (broadcastInDim S1024 ![] bcast_S_S1024 (constantI S_ 32 hi))
          (maxsi (broadcastInDim S1024 ![] bcast_S_S1024 (constantI S_ 32 0#32)) t))))
    shapeCasts_S1024_S1024x1

theorem projX_apply {d : ℕ} (a0 : FVec Ideal ⟨2, ![1024, 1024]⟩ .f32) (p : FVec Ideal ⟨2, ![d, 1024]⟩ .f32)
    (h : (⟨2, ![d, 1024]⟩ : Shape).Transposes [1, 0] ⟨2, ![1024, d]⟩) (n : Fin 1024) (k : Fin d) :
    projX a0 p h (ix2 n k) = ∑ e : Fin 1024, a0 (ix2 n e) * p (ix2 k e) := by
  show Host.dotGeneral (DotDims.plain 1024 1024 d) none a0 (transpose ⟨2, ![1024, d]⟩ [1, 0] p h) (ix2 n k) = _
  rw [dotGeneral_plain_apply]
  exact Finset.sum_congr rfl fun e _ => by rw [transpose_ix2_apply]

theorem clipCol_apply (hi : BitVec 32) (t : IVec S1024 32) (n : Fin 1024) :
    clipCol hi t (ix2 n (0 : Fin 1)) = clip hi (clip hi (t (ix1 n))) := by
  refine (shapeCast_apply _ shapeCasts_S1024_S1024x1 (ix2 n (0 : Fin 1)) (ix1 n) ?_).trans rfl
  rw [Shape.rowMajor_val_two, Shape.rowMajor_val_one]
  show n.val = n.val * 1 + 0
  omega

/-- Against activations reading as `P`, the padded operands give the logit on the real columns and zero on the padding. -/
theorem row_pad {A B d hi : ℕ} {X : FVec Ideal ⟨2, ![1024, d]⟩ .bf16} {P : Fin 1024 → Fin d → EReal}
    (hX : ∀ n k, X (ix2 n k) = P n k) (w : FVec Ideal ⟨2, ![A, d]⟩ .f32) (b : FVec Ideal ⟨1, ![A]⟩ .f32)
    (hw : (⟨2, ![A, d]⟩ : Shape).Pads ![0, 0] ![hi, 0] ![0, 0] ⟨2, ![B, d]⟩)
    (hb : (⟨1, ![A]⟩ : Shape).Pads ![0] ![hi] ![0] ⟨1, ![B]⟩)
    (hc : (⟨1, ![B]⟩ : Shape).ShapeCasts ⟨2, ![1, B]⟩) (n : Fin 1024) (j : Fin B) :
    (∑ k : Fin d, X (ix2 n k) * padW w hw (ix2 j k)) + padB b hb hc (ix2 (0 : Fin 1) j)
      = if h : j.val < A then (∑ k : Fin d, P n k * w (ix2 ⟨j.val, h⟩ k)) + b (ix1 ⟨j.val, h⟩) else 0 := by
  unfold padW padB
  rw [pad_vec_row_apply]
  simp only [pad_rows_apply, hX]
  by_cases h : j.val < A
  · simp only [dif_pos h]; rfl
  · simp only [dif_neg h]
    rw [show (sitofp .bf16 (constantI S_ 32 0#32) : FVec Ideal S_ .bf16) (Shape.Idx.first h_S_) = 0 from sitofp_zero,
      show (sitofp .f32 (constantI S_ 32 0#32) : FVec Ideal S_ .f32) (Shape.Idx.first h_S_) = 0 from sitofp_zero]
    simp only [mul_zero, Finset.sum_const_zero, add_zero]

variable (W : Valuation τ sig (Elt Ideal))

/-- The buffers after the nine stretches before launch 0, from contents `W`. -/
abbrev pre0 : Valuation τ sig (Elt Ideal) :=
  StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 W))))))))

theorem pre0_X : pre0 W main_v5 = truncf (F := Ideal) .bf16 (W main_arg0 : FVec Ideal S1024x1024 .f32) bitsLt_bf16_f32 := by
  after_results_simp

theorem pre0_W : pre0 W main_v2 = padW (W main_arg2) pads_S20000x1024_S20480x1024_04800_000 := by
  after_results_simp
  rfl

theorem pre0_B : pre0 W main_v4 = padB (W main_arg3) pads_S20000_S20480_04800 shapeCasts_S20480_S1x20480 := by
  after_results_simp
  rfl

theorem pre0_T : pre0 W main_v7 = clipCol 19999#32 (W main_arg1) := by
  after_results_simp
  rfl

abbrev X0 (c : Dev nD) : FVec Ideal ⟨2, ![1024, 1024]⟩ .bf16 := V9 m c main_v5
abbrev Wp0 (c : Dev nD) : FVec Ideal ⟨2, ![20480, 1024]⟩ .bf16 := V9 m c main_v2
abbrev Bp0 (c : Dev nD) : FVec Ideal ⟨2, ![1, 20480]⟩ .f32 := V9 m c main_v4
abbrev T0 (c : Dev nD) : IVec ⟨2, ![1024, 1]⟩ 32 := V9 m c main_v7

theorem tgt0 (c : Dev nD) (n : Fin 1024) :
    T0 m c (ix2 n (0 : Fin 1)) = clip 19999#32 (clip 19999#32 (A1 m c (ix1 n))) := by
  rw [show T0 m c = _ from pre0_T (V0 m c)]
  exact clipCol_apply _ _ n

theorem row0 (c : Dev nD) (n : Fin 1024) (j : Fin 20480) :
    (∑ k : Fin 1024, X0 m c (ix2 n k) * Wp0 m c (ix2 j k)) + Bp0 m c (ix2 (0 : Fin 1) j)
      = Cert.Hand.Rows.headLogit (A0 m c) (A2 m c) (A3 m c) n j.val := by
  rw [show X0 m c = _ from pre0_X (V0 m c), show Wp0 m c = _ from pre0_W (V0 m c), show Bp0 m c = _ from pre0_B (V0 m c)]
  exact row_pad (P := fun n k => A0 m c (ix2 n k)) (fun _ _ => rfl) (A2 m c) (A3 m c) _ _ _ n j

end Cert.KernelIdeal.Hand

end
-- ==== Proof.KI.HostChain.lean ====
import proofs.«429142_j41094247088744_3_alg».proof.Proof.RegionsKI

namespace Cert.KernelIdeal.Hand

open Cert.KernelIdeal Cert.KernelIdeal.Gen

/-- A buffer that a stretch does not write holds after it what it held before it. -/
macro "vdown1" : tactic => `(tactic| first
  | (rw [V43_of]; rotate_left; decide)
  | (rw [V42_of]; rotate_left; decide)
  | (rw [V41_of]; rotate_left; decide)
  | (rw [V40_of]; rotate_left; decide)
  | (rw [V39_of]; rotate_left; decide)
  | (rw [V38_of]; rotate_left; decide)
  | (rw [V37_of]; rotate_left; decide)
  | (rw [V36_of]; rotate_left; decide)
  | (rw [V35_of]; rotate_left; decide)
  | (rw [V34_of]; rotate_left; decide)
  | (rw [V33_of]; rotate_left; decide)
  | (rw [V32_of]; rotate_left; decide)
  | (rw [V31_of]; rotate_left; decide)
  | (rw [V30_of]; rotate_left; decide)
  | (rw [V29_of]; rotate_left; decide)
  | (rw [V28_of]; rotate_left; decide)
  | (rw [V27_of]; rotate_left; decide)
  | (rw [V26_of]; rotate_left; decide)
  | (rw [V25_of]; rotate_left; decide)
  | (rw [V24_of]; rotate_left; decide)
  | (rw [V23_of]; rotate_left; decide)
  | (rw [V22_of]; rotate_left; decide)
  | (rw [V21_of]; rotate_left; decide)
  | (rw [V20_of]; rotate_left; decide)
  | (rw [V19_of]; rotate_left; decide)
  | (rw [V18_of]; rotate_left; decide)
  | (rw [V17_of]; rotate_left; decide)
  | (rw [V16_of]; rotate_left; decide)
  | (rw [V15_of]; rotate_left; decide)
  | (rw [V14_of]; rotate_left; decide)
  | (rw [V13_of]; rotate_left; decide)
  | (rw [V12_of]; rotate_left; decide)
  | (rw [V11_of]; rotate_left; decide)
  | (rw [V10_of]; rotate_left; decide)
  | (rw [V9_of]; rotate_left; decide)
  | (rw [V8_of]; rotate_left; decide)
  | (rw [V7_of]; rotate_left; decide)
  | (rw [V6_of]; rotate_left; decide)
  | (rw [V5_of]; rotate_left; decide)
  | (rw [V4_of]; rotate_left; decide)
  | (rw [V3_of]; rotate_left; decide)
  | (rw [V2_of]; rotate_left; decide)
  | (rw [V1_of]; rotate_left; decide))

macro "vdown" : tactic => `(tactic| repeat vdown1)

end Cert.KernelIdeal.Hand
-- ==== Proof.KI.HostOps1.lean ====
import proofs.«429142_j41094247088744_3_alg».proof.Proof.KI.HostOps0
import proofs.«429142_j41094247088744_3_alg».proof.Proof.KI.HostChain

set_option maxRecDepth 2080

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (W : Valuation τ sig (Elt Ideal))

/-- The buffers after the nine stretches before launch 1, from contents `W`. -/
abbrev pre1 : Valuation τ sig (Elt Ideal) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after hostOps1 W))))))))

set_option maxHeartbeats 4000000 in
theorem pre1_X : pre1 W main_v65 = projX (W main_arg0) (W main_arg6) transposes_S256x1024_S1024x256_1_0 := by
  after_results_simp
  rfl

set_option maxHeartbeats 4000000 in
theorem pre1_W : pre1 W main_v62 = padW (W main_arg7) pads_S20000x256_S20480x256_04800_000 := by
  after_results_simp
  rfl

set_option maxHeartbeats 4000000 in
theorem pre1_B : pre1 W main_v64 = padB (W main_arg8) pads_S20000_S20480_04800 shapeCasts_S20480_S1x20480 := by
  after_results_simp
  rfl

set_option maxHeartbeats 4000000 in
theorem pre1_T :
    pre1 W main_v67 = clipCol 19999#32 (subi (W main_arg1) (broadcastInDim S1024 ![] bcast_S_S1024 (constantI S_ 32 20000#32))) := by
  after_results_simp
  rfl

theorem r1_a0 (c : Dev nD) : V10 m outs c main_arg0 = A0 m c := by vdown
theorem r1_a1 (c : Dev nD) : V10 m outs c main_arg1 = A1 m c := by vdown
theorem r1_aP (c : Dev nD) : V10 m outs c main_arg6 = A6 m c := by vdown
theorem r1_aW (c : Dev nD) : V10 m outs c main_arg7 = A7 m c := by vdown
theorem r1_aB (c : Dev nD) : V10 m outs c main_arg8 = A8 m c := by vdown

abbrev X1 (c : Dev nD) : FVec Ideal ⟨2, ![1024, 256]⟩ .bf16 := V19 m outs c main_v65
abbrev Wp1 (c : Dev nD) : FVec Ideal ⟨2, ![20480, 256]⟩ .bf16 := V19 m outs c main_v62
abbrev Bp1 (c : Dev nD) : FVec Ideal ⟨2, ![1, 20480]⟩ .f32 := V19 m outs c main_v64
abbrev T1 (c : Dev nD) : IVec ⟨2, ![1024, 1]⟩ 32 := V19 m outs c main_v67

theorem tgt1 (c : Dev nD) (n : Fin 1024) :
    T1 m outs c (ix2 n (0 : Fin 1)) = clip 19999#32 (clip 19999#32 (A1 m c (ix1 n) - 20000#32)) := by
  rw [show T1 m outs c = _ from pre1_T (V10 m outs c), r1_a1]
  exact clipCol_apply _ _ n

theorem row1 (c : Dev nD) (n : Fin 1024) (j : Fin 20480) :
    (∑ k : Fin 256, X1 m outs c (ix2 n k) * Wp1 m outs c (ix2 j k)) + Bp1 m outs c (ix2 (0 : Fin 1) j)
      = Cert.Hand.Rows.tailLogit1 (A0 m c) (A6 m c) (A7 m c) (A8 m c) n j.val := by
  rw [show X1 m outs c = _ from pre1_X (V10 m outs c), show Wp1 m outs c = _ from pre1_W (V10 m outs c),
    show Bp1 m outs c = _ from pre1_B (V10 m outs c), r1_a0, r1_aP, r1_aW, r1_aB]
  exact row_pad (projX_apply _ _ _) _ _ _ _ _ n j

end Cert.KernelIdeal.Hand

end
-- ==== Proof.KI.HostOps2.lean ====
import proofs.«429142_j41094247088744_3_alg».proof.Proof.KI.HostOps0
import proofs.«429142_j41094247088744_3_alg».proof.Proof.KI.HostChain

set_option maxRecDepth 2080

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (W : Valuation τ sig (Elt Ideal))

/-- The buffers after the nine stretches before launch 2, from contents `W`. -/
abbrev pre2 : Valuation τ sig (Elt Ideal) :=
  StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
      (StableHlo.after hostOps2 W))))))))

set_option maxHeartbeats 4000000 in
theorem pre2_X : pre2 W main_v106 = projX (W main_arg0) (W main_arg9) transposes_S64x1024_S1024x64_1_0 := by
  after_results_simp
  rfl

set_option maxHeartbeats 4000000 in
theorem pre2_W : pre2 W main_v103 = padW (W main_arg10) pads_S160000x64_S163840x64_038400_000 := by
  after_results_simp
  rfl

set_option maxHeartbeats 4000000 in
theorem pre2_B : pre2 W main_v105 = padB (W main_arg11) pads_S160000_S163840_038400 shapeCasts_S163840_S1x163840 := by
  after_results_simp
  rfl

set_option maxHeartbeats 4000000 in
theorem pre2_T :
    pre2 W main_v108 = clipCol 159999#32 (subi (W main_arg1) (broadcastInDim S1024 ![] bcast_S_S1024 (constantI S_ 32 40000#32))) := by
  after_results_simp
  rfl

theorem r2_a0 (c : Dev nD) : V20 m outs c main_arg0 = A0 m c := by vdown
theorem r2_a1 (c : Dev nD) : V20 m outs c main_arg1 = A1 m c := by vdown
theorem r2_aP (c : Dev nD) : V20 m outs c main_arg9 = A9 m c := by vdown
theorem r2_aW (c : Dev nD) : V20 m outs c main_arg10 = A10 m c := by vdown
theorem r2_aB (c : Dev nD) : V20 m outs c main_arg11 = A11 m c := by vdown

abbrev X2 (c : Dev nD) : FVec Ideal ⟨2, ![1024, 64]⟩ .bf16 := V29 m outs c main_v106
abbrev Wp2 (c : Dev nD) : FVec Ideal ⟨2, ![163840, 64]⟩ .bf16 := V29 m outs c main_v103
abbrev Bp2 (c : Dev nD) : FVec Ideal ⟨2, ![1, 163840]⟩ .f32 := V29 m outs c main_v105
abbrev T2 (c : Dev nD) : IVec ⟨2, ![1024, 1]⟩ 32 := V29 m outs c main_v108

theorem tgt2 (c : Dev nD) (n : Fin 1024) :
    T2 m outs c (ix2 n (0 : Fin 1)) = clip 159999#32 (clip 159999#32 (A1 m c (ix1 n) - 40000#32)) := by
  rw [show T2 m outs c = _ from pre2_T (V20 m outs c), r2_a1]
  exact clipCol_apply _ _ n

theorem row2 (c : Dev nD) (n : Fin 1024) (j : Fin 163840) :
    (∑ k : Fin 64, X2 m outs c (ix2 n k) * Wp2 m outs c (ix2 j k)) + Bp2 m outs c (ix2 (0 : Fin 1) j)
      = Cert.Hand.Rows.tailLogit2 (A0 m c) (A9 m c) (A10 m c) (A11 m c) n j.val := by
  rw [show X2 m outs c = _ from pre2_X (V20 m outs c), show Wp2 m outs c = _ from pre2_W (V20 m outs c),
    show Bp2 m outs c = _ from pre2_B (V20 m outs c), r2_a0, r2_aP, r2_aW, r2_aB]
  exact row_pad (projX_apply _ _ _) _ _ _ _ _ n j

end Cert.KernelIdeal.Hand

end
-- ==== Proof.KI.HostOps3.lean ====
import proofs.«429142_j41094247088744_3_alg».proof.Proof.KI.HostOps0
import proofs.«429142_j41094247088744_3_alg».proof.Proof.KI.HostChain

set_option maxRecDepth 2080

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (W : Valuation τ sig (Elt Ideal))

/-- The buffers after the nine stretches before launch 3, from contents `W`. -/
abbrev pre3 : Valuation τ sig (Elt Ideal) :=
  StableHlo.after hostOps3_8 (StableHlo.after hostOps3_7 (StableHlo.after hostOps3_6 (StableHlo.after hostOps3_5
    (StableHlo.after hostOps3_4 (StableHlo.after hostOps3_3 (StableHlo.after hostOps3_2 (StableHlo.after hostOps3_1
      (StableHlo.after hostOps3 W))))))))

set_option maxHeartbeats 4000000 in
theorem pre3_X : pre3 W main_v147 = projX (W main_arg0) (W main_arg12) transposes_S16x1024_S1024x16_1_0 := by
  after_results_simp
  rfl

set_option maxHeartbeats 4000000 in
theorem pre3_W : pre3 W main_v144 = padW (W main_arg13) pads_S67735x16_S69632x16_018970_000 := by
  after_results_simp
  rfl

set_option maxHeartbeats 4000000 in
theorem pre3_B : pre3 W main_v146 = padB (W main_arg14) pads_S67735_S69632_018970 shapeCasts_S69632_S1x69632 := by
  after_results_simp
  rfl

set_option maxHeartbeats 4000000 in
theorem pre3_T :
    pre3 W main_v149 = clipCol 67734#32 (subi (W main_arg1) (broadcastInDim S1024 ![] bcast_S_S1024 (constantI S_ 32 200000#32))) := by
  after_results_simp
  rfl

theorem r3_a0 (c : Dev nD) : V30 m outs c main_arg0 = A0 m c := by vdown
theorem r3_a1 (c : Dev nD) : V30 m outs c main_arg1 = A1 m c := by vdown
theorem r3_aP (c : Dev nD) : V30 m outs c main_arg12 = A12 m c := by vdown
theorem r3_aW (c : Dev nD) : V30 m outs c main_arg13 = A13 m c := by vdown
theorem r3_aB (c : Dev nD) : V30 m outs c main_arg14 = A14 m c := by vdown

abbrev X3 (c : Dev nD) : FVec Ideal ⟨2, ![1024, 16]⟩ .bf16 := V39 m outs c main_v147
abbrev Wp3 (c : Dev nD) : FVec Ideal ⟨2, ![69632, 16]⟩ .bf16 := V39 m outs c main_v144
abbrev Bp3 (c : Dev nD) : FVec Ideal ⟨2, ![1, 69632]⟩ .f32 := V39 m outs c main_v146
abbrev T3 (c : Dev nD) : IVec ⟨2, ![1024, 1]⟩ 32 := V39 m outs c main_v149

theorem tgt3 (c : Dev nD) (n : Fin 1024) :
    T3 m outs c (ix2 n (0 : Fin 1)) = clip 67734#32 (clip 67734#32 (A1 m c (ix1 n) - 200000#32)) := by
  rw [show T3 m outs c = _ from pre3_T (V30 m outs c), r3_a1]
  exact clipCol_apply _ _ n

theorem row3 (c : Dev nD) (n : Fin 1024) (j : Fin 69632) :
    (∑ k : Fin 16, X3 m outs c (ix2 n k) * Wp3 m outs c (ix2 j k)) + Bp3 m outs c (ix2 (0 : Fin 1) j)
      = Cert.Hand.Rows.tailLogit3 (A0 m c) (A12 m c) (A13 m c) (A14 m c) n j.val := by
  rw [show X3 m outs c = _ from pre3_X (V30 m outs c), show Wp3 m outs c = _ from pre3_W (V30 m outs c),
    show Bp3 m outs c = _ from pre3_B (V30 m outs c), r3_a0, r3_aP, r3_aW, r3_aB]
  exact row_pad (projX_apply _ _ _) _ _ _ _ _ n j

end Cert.KernelIdeal.Hand

end
-- ==== Proof.KI.HostStretch.lean ====
import proofs.«429142_j41094247088744_3_alg».proof.Proof.RegionsKI
import proofs.«429142_j41094247088744_3_alg».proof.Proof.Tail
import Idealize.ShloMosaic.Lib.StableHlo.Run
import Idealize.ShloMosaic.Lib.ValueIdx

set_option maxRecDepth 2080

noncomputable section

namespace Cert.KernelIdeal.Hand

open Cert.KernelIdeal Cert.KernelIdeal.Gen
open Idealize.ShloMosaic Idealize.ShloMosaic.TcCoe Idealize.ShloMosaic.ValueIdx

def hfK : Cert.Tail.TailFacts :=
  ⟨h_S_, bcast_S_S1024, bcast_S1024_S1024x1_0, bcast_S3_S1x3_1, bcast_S1024x1_S1024x3_0_1, bcast_S1x3_S1024x3_0_1,
    reducesTo_S1024x3_S1024_d1, bcast_S1024_S1x1024_1, concatenates_S1x1024_S1x1024_S1x1024_S1x1024_S1x1024_S5x1024_d0,
    reducesTo_S5x1024_S1024_d0, natLt_1_32⟩

/-- A region's output array at half `h`, row `n`. -/
def rd3 (v : Vec Ideal S2x1024x1 .f32) (h : Fin 2) (n : Fin 1024) : EReal := v (ix3 h n 0)

def half0 (o : FVec Ideal S2x1024x1 .f32) : FVec Ideal S1024 .f32 :=
  shapeCast S1024 (extractStridedSlice S1x1024x1 ![0, 0, 0] o slices_S2x1024x1_S1x1024x1_0_0_0) shapeCasts_S1x1024x1_S1024
def half1 (o : FVec Ideal S2x1024x1 .f32) : FVec Ideal S1024 .f32 :=
  shapeCast S1024 (extractStridedSlice S1x1024x1 ![1, 0, 0] o slices_S2x1024x1_S1x1024x1_1_0_0) shapeCasts_S1x1024x1_S1024

/-- One log-sum-exp from the two halves' running maxima and sums. -/
def joinV (oM oL : FVec Ideal S2x1024x1 .f32) : FVec Ideal S1024 .f32 :=
  addf (maximumf (half0 oM) (half1 oM))
    (Host.log (addf (mulf (half0 oL) (Host.exp (subf (half0 oM) (maximumf (half0 oM) (half1 oM)))))
      (mulf (half1 oL) (Host.exp (subf (half1 oM) (maximumf (half0 oM) (half1 oM)))))))

def gV (oG : FVec Ideal S2x1024x1 .f32) : FVec Ideal S1024 .f32 := addf (half0 oG) (half1 oG)

def col0 (cl : FVec Ideal S1024x3 .f32) : FVec Ideal S1024 .f32 :=
  shapeCast S1024 (extractStridedSlice S1024x1 ![0, 0] cl slices_S1024x3_S1024x1_0_0) shapeCasts_S1024x1_S1024
def col1 (cl : FVec Ideal S1024x3 .f32) : FVec Ideal S1024 .f32 :=
  shapeCast S1024 (extractStridedSlice S1024x1 ![0, 1] cl slices_S1024x3_S1024x1_0_1) shapeCasts_S1024x1_S1024
def col2 (cl : FVec Ideal S1024x3 .f32) : FVec Ideal S1024 .f32 :=
  shapeCast S1024 (extractStridedSlice S1024x1 ![0, 2] cl slices_S1024x3_S1024x1_0_2) shapeCasts_S1024x1_S1024

/-- Hidden states against the cluster weights, plus the cluster bias. -/
def clV (a0 : FVec Ideal S1024x1024 .f32) (a4 : FVec Ideal S3x1024 .f32) (a5 : FVec Ideal S3 .f32) : FVec Ideal S1024x3 .f32 :=
  addf (Host.dotGeneral dot_S1024x1024_S1024x3_S1024x3_1_0_0_1_n_n none a0 (transpose S1024x3 [1, 0] a4 transposes_S3x1024_S1024x3_1_0))
    (broadcastInDim S1024x3 ![0, 1] bcast_S1x3_S1024x3_0_1 (broadcastInDim S1x3 ![1] bcast_S3_S1x3_1 a5))

def cmaxV (cl : FVec Ideal S1024x3 .f32) : FVec Ideal S1024 .f32 :=
  Host.reduce FloatOps.maximumf cl (constant (F := Ideal) S_ .f32 0xFF800000#32) reducesTo_S1024x3_S1024_d1 h_S_

def clusLseV (cl : FVec Ideal S1024x3 .f32) : FVec Ideal S1024 .f32 :=
  addf (cmaxV cl)
    (Host.log (Host.reduceAdd
      (Host.exp (subf cl (broadcastInDim S1024x3 ![0, 1] bcast_S1024x1_S1024x3_0_1
        (broadcastInDim S1024x1 ![0] bcast_S1024_S1024x1_0 (cmaxV cl)))))
      (constant (F := Ideal) S_ .f32 0x00000000#32) reducesTo_S1024x3_S1024_d1 h_S_))

/-- `log (exp a + exp b)`, entry by entry. -/
def laeV (a b : FVec Ideal S1024 .f32) : FVec Ideal S1024 .f32 :=
  select (cmpf .une (subf a b) (subf a b)) (addf a b)
    (addf (maximumf a b) (Host.log1p (Host.exp (Host.negf (Host.absf (subf a b))))))

def lseTotV (oM oL : FVec Ideal S2x1024x1 .f32) (a0 : FVec Ideal S1024x1024 .f32) (a4 : FVec Ideal S3x1024 .f32)
    (a5 : FVec Ideal S3 .f32) : FVec Ideal S1024 .f32 :=
  laeV (joinV oM oL) (clusLseV (clV a0 a4 a5))

def lp0V (oM oL oG : FVec Ideal S2x1024x1 .f32) (a0 : FVec Ideal S1024x1024 .f32) (a4 : FVec Ideal S3x1024 .f32)
    (a5 : FVec Ideal S3 .f32) : FVec Ideal S1024 .f32 :=
  subf (gV oG) (lseTotV oM oL a0 a4 a5)

def lpTailV (colK lseT : FVec Ideal S1024 .f32) (oM oL oG : FVec Ideal S2x1024x1 .f32) : FVec Ideal S1024 .f32 :=
  addf (subf colK lseT) (subf (gV oG) (joinV oM oL))

def cidV (tgt : IVec S1024 32) (cuts : IVec S3 32) : IVec S1024 32 :=
  Host.reduce IntOp.addi
    (extui 32 (cmpi .sge
      (broadcastInDim S1024x3 ![0, 1] bcast_S1024x1_S1024x3_0_1 (broadcastInDim S1024x1 ![0] bcast_S1024_S1024x1_0 tgt))
      (broadcastInDim S1024x3 ![0, 1] bcast_S1x3_S1024x3_0_1 (broadcastInDim S1x3 ![1] bcast_S3_S1x3_1 cuts))) natLt_1_32)
    (constantI S_ 32 0#32) reducesTo_S1024x3_S1024_d1 h_S_

def catV (tgt : IVec S1024 32) (cuts : IVec S3 32) : IVec S5x1024 1 :=
  concatenate S5x1024 0
    [⟨S1x1024, broadcastInDim S1x1024 ![1] bcast_S1024_S1x1024_1 (broadcastInDim S1024 ![] bcast_S_S1024 (constantI S_ 1 0#1))⟩,
     ⟨S1x1024, broadcastInDim S1x1024 ![1] bcast_S1024_S1x1024_1
        (cmpi .eq (cidV tgt cuts) (broadcastInDim S1024 ![] bcast_S_S1024 (constantI S_ 32 0#32)))⟩,
     ⟨S1x1024, broadcastInDim S1x1024 ![1] bcast_S1024_S1x1024_1
        (cmpi .eq (cidV tgt cuts) (broadcastInDim S1024 ![] bcast_S_S1024 (constantI S_ 32 1#32)))⟩,
     ⟨S1x1024, broadcastInDim S1x1024 ![1] bcast_S1024_S1x1024_1
        (cmpi .eq (cidV tgt cuts) (broadcastInDim S1024 ![] bcast_S_S1024 (constantI S_ 32 2#32)))⟩,
     ⟨S1x1024, broadcastInDim S1x1024 ![1] bcast_S1024_S1x1024_1
        (cmpi .eq (cidV tgt cuts) (broadcastInDim S1024 ![] bcast_S_S1024 (constantI S_ 32 3#32)))⟩]
    concatenates_S1x1024_S1x1024_S1x1024_S1x1024_S1x1024_S5x1024_d0

variable (W : Valuation τ sig (Elt Ideal))

theorem st0_c : StableHlo.after hostOps0 W (Proc.devRef .tc main_c) = fun i => lit0 (S3.rowMajor i) := by
  after_results
  rfl

set_option maxHeartbeats 4000000 in
theorem st1_v36 :
    StableHlo.after hostOps1 W (Proc.devRef .tc main_v36) = clV (W main_arg0) (W main_arg4) (W main_arg5) := by
  after_results_simp
  rfl

set_option maxHeartbeats 4000000 in
theorem st1_v54 :
    StableHlo.after hostOps1 W (Proc.devRef .tc main_v54)
      = lseTotV (W main_v8_0) (W main_v8_1) (W main_arg0) (W main_arg4) (W main_arg5) := by
  after_results_simp
  rfl

set_option maxHeartbeats 4000000 in
theorem st1_v55 :
    StableHlo.after hostOps1 W (Proc.devRef .tc main_v55)
      = lp0V (W main_v8_0) (W main_v8_1) (W main_v8_2) (W main_arg0) (W main_arg4) (W main_arg5) := by
  after_results_simp
  rfl

set_option maxHeartbeats 4000000 in
theorem st2_v96 :
    StableHlo.after hostOps2 W (Proc.devRef .tc main_v96)
      = lpTailV (col2 (W main_v36)) (W main_v54) (W main_v68_0) (W main_v68_1) (W main_v68_2) := by
  after_results_simp
  rfl

set_option maxHeartbeats 4000000 in
theorem st3_v137 :
    StableHlo.after hostOps3 W (Proc.devRef .tc main_v137)
      = lpTailV (col1 (W main_v36)) (W main_v54) (W main_v109_0) (W main_v109_1) (W main_v109_2) := by
  after_results_simp
  rfl

set_option maxHeartbeats 4000000 in
theorem st4_v178 :
    StableHlo.after hostOps4 W (Proc.devRef .tc main_v178)
      = lpTailV (col0 (W main_v36)) (W main_v54) (W main_v150_0) (W main_v150_1) (W main_v150_2) := by
  after_results_simp
  rfl

set_option maxHeartbeats 4000000 in
set_option maxRecDepth 40000 in
theorem st4_v200 :
    StableHlo.after hostOps4 W (Proc.devRef .tc main_v200) = catV (W main_arg1) (W main_c) := by
  after_results_simp
  rfl

theorem st4_1 :
    StableHlo.after hostOps4_1 W (Proc.devRef .tc main_v201)
      = fun j => (Host.reduce2 reducer_argmax_i1_i32 (W main_v200) (iotaInDim S5x1024 32 0) (constantI S_ 1 0#1)
          (constantI S_ 32 0#32) reducesTo_S5x1024_S1024_d0 h_S_ j).2 := by
  after_results
  rfl

set_option maxHeartbeats 2000000 in
theorem st4_2 :
    StableHlo.after hostOps4_2 W (Proc.devRef .tc main_v215)
      = Cert.Tail.choose hfK (W main_v201) (W main_v55) (W main_v96) (W main_v137) (W main_v178) := by
  after_results_simp
  rfl

end Cert.KernelIdeal.Hand

end
-- ==== Proof.KI.HostRes.lean ====
import proofs.«429142_j41094247088744_3_alg».proof.Proof.KI.HostStretch
import proofs.«429142_j41094247088744_3_alg».proof.Proof.KI.HostOps0
import proofs.«429142_j41094247088744_3_alg».proof.Proof.KI.HostChain

set_option maxRecDepth 2080

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal))

def clA (c : Dev nD) : FVec Ideal S1024x3 .f32 := clV (A0 m c) (A4 m c) (A5 m c)
def lseT (c : Dev nD) : FVec Ideal S1024 .f32 :=
  lseTotV (outs 10 main_v8_0 c) (outs 10 main_v8_1 c) (A0 m c) (A4 m c) (A5 m c)
def lp0 (c : Dev nD) : FVec Ideal Cert.Tail.T1024 .f32 :=
  lp0V (outs 10 main_v8_0 c) (outs 10 main_v8_1 c) (outs 10 main_v8_2 c) (A0 m c) (A4 m c) (A5 m c)
def lp1 (c : Dev nD) : FVec Ideal Cert.Tail.T1024 .f32 :=
  lpTailV (col2 (clA m c)) (lseT m outs c) (outs 20 main_v68_0 c) (outs 20 main_v68_1 c) (outs 20 main_v68_2 c)
def lp2 (c : Dev nD) : FVec Ideal Cert.Tail.T1024 .f32 :=
  lpTailV (col1 (clA m c)) (lseT m outs c) (outs 30 main_v109_0 c) (outs 30 main_v109_1 c) (outs 30 main_v109_2 c)
def lp3 (c : Dev nD) : FVec Ideal Cert.Tail.T1024 .f32 :=
  lpTailV (col0 (clA m c)) (lseT m outs c) (outs 40 main_v150_0 c) (outs 40 main_v150_1 c) (outs 40 main_v150_2 c)

theorem V10_arg0 (c : Dev nD) : V10 m outs c main_arg0 = A0 m c := by vdown
theorem V10_arg4 (c : Dev nD) : V10 m outs c main_arg4 = A4 m c := by vdown
theorem V10_arg5 (c : Dev nD) : V10 m outs c main_arg5 = A5 m c := by vdown

theorem V11_v36 (c : Dev nD) : V11 m outs c main_v36 = clA m c := by
  refine (st1_v36 (V10 m outs c)).trans ?_
  rw [V10_arg0, V10_arg4, V10_arg5]; rfl
theorem V11_v54 (c : Dev nD) : V11 m outs c main_v54 = lseT m outs c := by
  refine (st1_v54 (V10 m outs c)).trans ?_
  rw [V10_arg0, V10_arg4, V10_arg5]; rfl
theorem V11_v55 (c : Dev nD) : V11 m outs c main_v55 = lp0 m outs c := by
  refine (st1_v55 (V10 m outs c)).trans ?_
  rw [V10_arg0, V10_arg4, V10_arg5]; rfl

/-- No later stretch writes the cluster logits or the merged log-sum-exp. -/
theorem Vk_v36 (c : Dev nD) :
    V20 m outs c main_v36 = clA m c ∧ V30 m outs c main_v36 = clA m c ∧ V40 m outs c main_v36 = clA m c := by
  refine ⟨?_, ?_, ?_⟩ <;> (vdown; exact V11_v36 m outs c)
theorem Vk_v54 (c : Dev nD) :
    V20 m outs c main_v54 = lseT m outs c ∧ V30 m outs c main_v54 = lseT m outs c ∧ V40 m outs c main_v54 = lseT m outs c := by
  refine ⟨?_, ?_, ?_⟩ <;> (vdown; exact V11_v54 m outs c)

theorem V42_v55 (c : Dev nD) : V42 m outs c main_v55 = lp0 m outs c := by
  vdown; exact V11_v55 m outs c
theorem V42_v96 (c : Dev nD) : V42 m outs c main_v96 = lp1 m outs c := by
  vdown
  refine (st2_v96 (V20 m outs c)).trans ?_
  rw [(Vk_v36 m outs c).1, (Vk_v54 m outs c).1]; rfl
theorem V42_v137 (c : Dev nD) : V42 m outs c main_v137 = lp2 m outs c := by
  vdown
  refine (st3_v137 (V30 m outs c)).trans ?_
  rw [(Vk_v36 m outs c).2.1, (Vk_v54 m outs c).2.1]; rfl
theorem V42_v178 (c : Dev nD) : V42 m outs c main_v178 = lp3 m outs c := by
  vdown
  refine (st4_v178 (V40 m outs c)).trans ?_
  rw [(Vk_v36 m outs c).2.2, (Vk_v54 m outs c).2.2]; rfl
theorem V42_v201 (c : Dev nD) :
    V42 m outs c main_v201 = Cert.Tail.pick hfK (Cert.Tail.clusterId hfK (A1 m c)) := by
  refine (st4_1 (V41 m outs c)).trans ?_
  rw [show V41 m outs c main_v200 = _ from st4_v200 (V40 m outs c), show V40 m outs c main_arg1 = A1 m c by vdown,
    show V40 m outs c main_c = fun i => lit0 (S3.rowMajor i) by vdown; exact st0_c (V0 m c)]
  rfl

theorem res_eq (c : Dev nD) :
    V43 m outs c main_v215
      = Cert.Tail.tail hfK (A1 m c) (lp0 m outs c) (lp1 m outs c) (lp2 m outs c) (lp3 m outs c) := by
  refine (st4_2 (V42 m outs c)).trans ?_
  rw [V42_v201, V42_v55, V42_v96, V42_v137, V42_v178]
  rfl

end Cert.KernelIdeal.Hand

end
-- ==== Proof.KI.Host.lean ====
import proofs.«429142_j41094247088744_3_alg».proof.Proof.KI.HostRes
import proofs.«429142_j41094247088744_3_alg».proof.Proof.Spec
import Idealize.ShloMosaic.Lib.Pipeline.Value
import Idealize.ShloMosaic.Lib.ValueLayout
import Idealize.ShloMosaic.Lib.StackMember
import Idealize.ShloMosaic.Lib.IdealHost
import Idealize.ShloMosaic.PureOps.Ideal.Laws

set_option maxRecDepth 2080

noncomputable section

namespace Cert.KernelIdeal.Hand

open Cert.KernelIdeal Cert.KernelIdeal.Gen
open Idealize.ShloMosaic Idealize.ShloMosaic.TcCoe Idealize.ShloMosaic.ValueIdx Idealize.ShloMosaic.StackMember

/-- Half `h` of a region's output array, cut out and laid flat, is the array at `(h, n, 0)`. -/
theorem half_apply (o : FVec Ideal S2x1024x1 .f32) (h : Fin 2) (hs : S2x1024x1.Slices ![h.val, 0, 0] S1x1024x1)
    (n : Fin 1024) :
    shapeCast S1024 (extractStridedSlice S1x1024x1 ![h.val, 0, 0] o hs) shapeCasts_S1x1024x1_S1024 (ix1 n) = rd3 o h n := by
  refine (shapeCast_apply _ shapeCasts_S1x1024x1_S1024 (ix1 n) (ix3 (0 : Fin 1) n (0 : Fin 1)) ?_).trans ?_
  · rw [Shape.rowMajor_val_three, Shape.rowMajor_val_one]
    show ((0 : ℕ) * 1024 + n.val) * 1 + 0 = n.val
    omega
  · exact extractStridedSlice_apply _ o hs _ (ix3 h n (0 : Fin 1))
      (fun a => match a with
        | ⟨0, _⟩ => rfl
        | ⟨1, _⟩ => by show n.val = 0 + n.val; omega
        | ⟨2, _⟩ => rfl)

theorem joinV_apply (oM oL : FVec Ideal S2x1024x1 .f32) (n : Fin 1024) :
    joinV oM oL (ix1 n) = Spec.joinLse (rd3 oM 0 n) (rd3 oL 0 n) (rd3 oM 1 n) (rd3 oL 1 n) := by
  rw [← half_apply oM 0 slices_S2x1024x1_S1x1024x1_0_0_0 n, ← half_apply oM 1 slices_S2x1024x1_S1x1024x1_1_0_0 n,
    ← half_apply oL 0 slices_S2x1024x1_S1x1024x1_0_0_0 n, ← half_apply oL 1 slices_S2x1024x1_S1x1024x1_1_0_0 n]
  rfl

theorem gV_apply (oG : FVec Ideal S2x1024x1 .f32) (n : Fin 1024) : gV oG (ix1 n) = rd3 oG 0 n + rd3 oG 1 n := by
  rw [← half_apply oG 0 slices_S2x1024x1_S1x1024x1_0_0_0 n, ← half_apply oG 1 slices_S2x1024x1_S1x1024x1_1_0_0 n]
  rfl

/-- Column `j` of the cluster logits, cut out and laid flat. -/
theorem clusCol_apply (cl : FVec Ideal S1024x3 .f32) (j : Fin 3) (hs : S1024x3.Slices ![0, j.val] S1024x1) (n : Fin 1024) :
    shapeCast S1024 (extractStridedSlice S1024x1 ![0, j.val] cl hs) shapeCasts_S1024x1_S1024 (ix1 n) = cl (ix2 n j) := by
  refine (shapeCast_apply _ shapeCasts_S1024x1_S1024 (ix1 n) (ix2 n (0 : Fin 1)) ?_).trans ?_
  · rw [Shape.rowMajor_val_two, Shape.rowMajor_val_one]
    show n.val * 1 + 0 = n.val
    omega
  · exact extractStridedSlice_apply _ cl hs _ (ix2 n j)
      (fun a => match a with
        | ⟨0, _⟩ => by show n.val = 0 + n.val; omega
        | ⟨1, _⟩ => rfl)

/-- No extended real differs from itself, so the merge always takes its `logAddExp` branch. -/
theorem laeV_apply (a b : FVec Ideal S1024 .f32) (i : S1024.Idx) : laeV a b i = Spec.logAddExp (a i) (b i) := by
  have h : Ideal.cmp .une (a i - b i) (a i - b i) = 0#1 := by simp [Ideal.cmp]
  show Scalar.select (Ideal.cmp .une (a i - b i) (a i - b i)) (a i + b i) (Spec.logAddExp (a i) (b i)) = _
  rw [h]
  rfl

theorem clV_apply (a0 : FVec Ideal S1024x1024 .f32) (a4 : FVec Ideal S3x1024 .f32) (a5 : FVec Ideal S3 .f32)
    (n : Fin 1024) (j : Fin 3) : clV a0 a4 a5 (ix2 n j) = Cert.Hand.Rows.clusLogit a0 a4 a5 n j.val := by
  have hb : broadcastInDim S1024x3 ![0, 1] bcast_S1x3_S1024x3_0_1 (broadcastInDim S1x3 ![1] bcast_S3_S1x3_1 a5) (ix2 n j)
      = a5 (ix1 j) := by
    refine (broadcastInDim_apply _ _ _ (ix2 n j) (ix2 (0 : Fin 1) j) (fun a => ?_)).trans ?_
    · match a with
      | ⟨0, _⟩ => rfl
      | ⟨1, _⟩ => rfl
    · exact broadcastInDim_apply _ _ _ (ix2 (0 : Fin 1) j) (ix1 j) (fun a => match a with | ⟨0, _⟩ => rfl)
  have hd : Host.dotGeneral dot_S1024x1024_S1024x3_S1024x3_1_0_0_1_n_n none a0
      (transpose S1024x3 [1, 0] a4 transposes_S3x1024_S1024x3_1_0) (ix2 n j) = ∑ k : Fin 1024, a0 (ix2 n k) * a4 (ix2 j k) := by
    show Host.dotGeneral (DotDims.plain 1024 1024 3) none a0
      (transpose ⟨2, ![1024, 3]⟩ [1, 0] a4 transposes_S3x1024_S1024x3_1_0) (ix2 n j) = _
    rw [dotGeneral_plain_apply]
    exact Finset.sum_congr rfl fun e _ => by rw [transpose_ix2_apply]
  show Host.dotGeneral dot_S1024x1024_S1024x3_S1024x3_1_0_0_1_n_n none a0
        (transpose S1024x3 [1, 0] a4 transposes_S3x1024_S1024x3_1_0) (ix2 n j)
      + broadcastInDim S1024x3 ![0, 1] bcast_S1x3_S1024x3_0_1 (broadcastInDim S1x3 ![1] bcast_S3_S1x3_1 a5) (ix2 n j) = _
  rw [hd, hb]
  unfold Cert.Hand.Rows.clusLogit
  rw [dif_pos j.isLt]

theorem cmaxV_apply (cl : FVec Ideal S1024x3 .f32) (lg : ℕ → EReal) (n : Fin 1024)
    (hlg : ∀ j : Fin 3, cl (ix2 n j) = lg j.val) : cmaxV cl (ix1 n) = Spec.rowMax 3 lg := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hR : S1024x3.Reduces [1] S1024 := by decide
  unfold cmaxV
  rw [Host.reduce_eq_fold_single (FloatOps.maximumf (F := Ideal) (φ := .f32)) cl _ reducesTo_S1024x3_S1024_d1 hR h_S_ (ix1 n)]
  have hx : ∀ k : Fin 3, (cl ∘ hR.lift (ix1 n)) k = lg k.val := fun k => by
    show cl (hR.lift (ix1 n) k) = _
    rw [← hlg k]
    exact congrArg cl (funext fun a => match a with | ⟨0, _⟩ => rfl | ⟨1, _⟩ => rfl)
  unfold Spec.rowMax
  apply le_antisymm
  · refine (Finset.fold_max_le _).2 ⟨?_, fun k _ => ?_⟩
    · show Ideal.ofBits .f32 0xFF800000#32 ≤ _
      simp [Ideal.ofBits, Ideal.ieee]
    · rw [hx k]; exact Finset.le_sup (f := lg) (Finset.mem_range.2 k.isLt)
  · refine Finset.sup_le fun j hj => ?_
    exact (Finset.le_fold_max _).2 (Or.inr ⟨⟨j, Finset.mem_range.1 hj⟩, Finset.mem_univ _,
      (hx ⟨j, Finset.mem_range.1 hj⟩).ge⟩)

theorem clusLseV_apply (cl : FVec Ideal S1024x3 .f32) (lg : ℕ → EReal) (n : Fin 1024)
    (hlg : ∀ j : Fin 3, cl (ix2 n j) = lg j.val) :
    clusLseV cl (ix1 n)
      = Spec.rowMax 3 lg + Ideal.log (∑ j ∈ Finset.range 3, Ideal.exp (lg j - Spec.rowMax 3 lg)) := by
  have hR : S1024x3.Reduces [1] S1024 := by decide
  have hb : ∀ k : Fin 3, broadcastInDim S1024x3 ![0, 1] bcast_S1024x1_S1024x3_0_1
      (broadcastInDim S1024x1 ![0] bcast_S1024_S1024x1_0 (cmaxV cl)) (ix2 n k) = cmaxV cl (ix1 n) := fun k => by
    refine (broadcastInDim_apply _ _ _ (ix2 n k) (ix2 n (0 : Fin 1)) (fun a => ?_)).trans ?_
    · match a with
      | ⟨0, _⟩ => rfl
      | ⟨1, _⟩ => rfl
    · exact broadcastInDim_apply _ _ _ (ix2 n (0 : Fin 1)) (ix1 n) (fun a => match a with | ⟨0, _⟩ => rfl)
  have hmax := cmaxV_apply cl lg n hlg
  have hsum : Ideal.hostReduceAdd reducesTo_S1024x3_S1024_d1
      (fun i => Ideal.exp (cl i - broadcastInDim S1024x3 ![0, 1] bcast_S1024x1_S1024x3_0_1
        (broadcastInDim S1024x1 ![0] bcast_S1024_S1024x1_0 (cmaxV cl)) i)) (Ideal.ofBits .f32 0x00000000#32) (ix1 n)
      = ∑ j ∈ Finset.range 3, Ideal.exp (lg j - Spec.rowMax 3 lg) := by
    rw [Ideal.hostReduceAdd_single reducesTo_S1024x3_S1024_d1 hR, Ideal.ofBits_zero_f32, zero_add, Finset.sum_range]
    show (∑ k : Fin 3, Ideal.exp (cl (hR.lift (ix1 n) k) - broadcastInDim S1024x3 ![0, 1] bcast_S1024x1_S1024x3_0_1
        (broadcastInDim S1024x1 ![0] bcast_S1024_S1024x1_0 (cmaxV cl)) (hR.lift (ix1 n) k))) = _
    refine Finset.sum_congr rfl fun k _ => ?_
    have hk : hR.lift (ix1 n) k = ix2 n k := funext fun a => match a with | ⟨0, _⟩ => rfl | ⟨1, _⟩ => rfl
    rw [hk, hb k, hmax, hlg k]
  show cmaxV cl (ix1 n) + Ideal.log (Ideal.hostReduceAdd reducesTo_S1024x3_S1024_d1
      (fun i => Ideal.exp (cl i - broadcastInDim S1024x3 ![0, 1] bcast_S1024x1_S1024x3_0_1
        (broadcastInDim S1024x1 ![0] bcast_S1024_S1024x1_0 (cmaxV cl)) i)) (Ideal.ofBits .f32 0x00000000#32) (ix1 n)) = _
  rw [hsum, hmax]

variable (m : (ℓ : Loc nD τ sig) → Buf (Elt Ideal) ℓ) (outs : Outs (F := Ideal))

def clusLse (cl : ℕ → EReal) : EReal :=
  Spec.rowMax 3 cl + Ideal.log (∑ j ∈ Finset.range 3, Ideal.exp (cl j - Spec.rowMax 3 cl))

def lseTot (c : Dev nD) (n : Fin 1024) : EReal :=
  Spec.logAddExp
    (Spec.joinLse (rd3 (outs 10 main_v8_0 c) 0 n) (rd3 (outs 10 main_v8_1 c) 0 n)
      (rd3 (outs 10 main_v8_0 c) 1 n) (rd3 (outs 10 main_v8_1 c) 1 n))
    (clusLse (Cert.Hand.Rows.clusLogit (A0 m c) (A4 m c) (A5 m c) n))

theorem lseT_apply (c : Dev nD) (n : Fin 1024) : lseT m outs c (ix1 n) = lseTot m outs c n := by
  show laeV (joinV (outs 10 main_v8_0 c) (outs 10 main_v8_1 c)) (clusLseV (clV (A0 m c) (A4 m c) (A5 m c))) (ix1 n) = _
  rw [laeV_apply, joinV_apply, clusLseV_apply _ _ n fun j => clV_apply (A0 m c) (A4 m c) (A5 m c) n j]
  rfl

theorem lp0_apply (c : Dev nD) (n : Fin 1024) :
    lp0 m outs c (ix1 n)
      = (rd3 (outs 10 main_v8_2 c) 0 n + rd3 (outs 10 main_v8_2 c) 1 n) - lseTot m outs c n := by
  show gV (outs 10 main_v8_2 c) (ix1 n) - lseT m outs c (ix1 n) = _
  rw [gV_apply, lseT_apply]

/-- The three tail candidates have one form; `j` is the cluster column each one reads. -/
theorem lpTail_apply (c : Dev nD) (n : Fin 1024) (j : Fin 3) (hs : S1024x3.Slices ![0, j.val] S1024x1)
    (oM oL oG : FVec Ideal S2x1024x1 .f32) :
    lpTailV (shapeCast S1024 (extractStridedSlice S1024x1 ![0, j.val] (clV (A0 m c) (A4 m c) (A5 m c)) hs) shapeCasts_S1024x1_S1024)
        (lseT m outs c) oM oL oG (ix1 n)
      = (Cert.Hand.Rows.clusLogit (A0 m c) (A4 m c) (A5 m c) n j.val - lseTot m outs c n)
        + ((rd3 oG 0 n + rd3 oG 1 n) - Spec.joinLse (rd3 oM 0 n) (rd3 oL 0 n) (rd3 oM 1 n) (rd3 oL 1 n)) := by
  show (shapeCast S1024 (extractStridedSlice S1024x1 ![0, j.val] (clV (A0 m c) (A4 m c) (A5 m c)) hs) shapeCasts_S1024x1_S1024 (ix1 n)
      - lseT m outs c (ix1 n)) + (gV oG (ix1 n) - joinV oM oL (ix1 n)) = _
  rw [clusCol_apply, clV_apply, lseT_apply, gV_apply, joinV_apply]

theorem lp1_apply (c : Dev nD) (n : Fin 1024) :
    lp1 m outs c (ix1 n)
      = (Cert.Hand.Rows.clusLogit (A0 m c) (A4 m c) (A5 m c) n 2 - lseTot m outs c n)
        + ((rd3 (outs 20 main_v68_2 c) 0 n + rd3 (outs 20 main_v68_2 c) 1 n)
          - Spec.joinLse (rd3 (outs 20 main_v68_0 c) 0 n) (rd3 (outs 20 main_v68_1 c) 0 n)
              (rd3 (outs 20 main_v68_0 c) 1 n) (rd3 (outs 20 main_v68_1 c) 1 n)) :=
  lpTail_apply m outs c n 2 _ _ _ _

theorem lp2_apply (c : Dev nD) (n : Fin 1024) :
    lp2 m outs c (ix1 n)
      = (Cert.Hand.Rows.clusLogit (A0 m c) (A4 m c) (A5 m c) n 1 - lseTot m outs c n)
        + ((rd3 (outs 30 main_v109_2 c) 0 n + rd3 (outs 30 main_v109_2 c) 1 n)
          - Spec.joinLse (rd3 (outs 30 main_v109_0 c) 0 n) (rd3 (outs 30 main_v109_1 c) 0 n)
              (rd3 (outs 30 main_v109_0 c) 1 n) (rd3 (outs 30 main_v109_1 c) 1 n)) :=
  lpTail_apply m outs c n 1 _ _ _ _

theorem lp3_apply (c : Dev nD) (n : Fin 1024) :
    lp3 m outs c (ix1 n)
      = (Cert.Hand.Rows.clusLogit (A0 m c) (A4 m c) (A5 m c) n 0 - lseTot m outs c n)
        + ((rd3 (outs 40 main_v150_2 c) 0 n + rd3 (outs 40 main_v150_2 c) 1 n)
          - Spec.joinLse (rd3 (outs 40 main_v150_0 c) 0 n) (rd3 (outs 40 main_v150_1 c) 0 n)
              (rd3 (outs 40 main_v150_0 c) 1 n) (rd3 (outs 40 main_v150_1 c) 1 n)) :=
  lpTail_apply m outs c n 0 _ _ _ _

end Cert.KernelIdeal.Hand

end
-- ==== Proof.KI.ScanBase.lean ====
import proofs.«429142_j41094247088744_3_alg».proof.Proof.Gen.KernelIdeal.Skeleton
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

section Column
variable {α : Type}

/-- A vector of length a read as a column: entry (i, 0) is entry i, the two having the same row-major position. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- A column repeated along the rows: entry (p, c) is the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The word 0xFF800000 is minus infinity. -/
theorem ofBits_neg_inf : Ideal.ofBits .f32 0xFF800000#32 = ⊥ := by
  simp [Ideal.ofBits, Ideal.ieee]

/-- A supremum over Fin n is the supremum over the first n numbers. -/
theorem sup_fin_eq_sup_range (n : ℕ) (f : ℕ → EReal) :
    (Finset.univ : Finset (Fin n)).sup (fun k => f k.val) = (Finset.range n).sup f :=
  le_antisymm (Finset.sup_le fun k _ => Finset.le_sup (f := f) (Finset.mem_range.mpr k.isLt))
    (Finset.sup_le fun j hj => Finset.le_sup (f := fun k : Fin n => f k.val) (Finset.mem_univ ⟨j, Finset.mem_range.mp hj⟩))

theorem lift_row (n : Fin 1024) (k : Fin 2048) : reduces_S1024x2048_S1024.lift (ix1 n) k = ix2 n k := by
  funext a
  match a with
  | ⟨0, _⟩ => rfl
  | ⟨1, _⟩ => rfl

theorem exp_apply {s : Shape} {φ : FTy} (a : FVec Ideal s φ) (i : s.Idx) : exp a i = Ideal.exp (a i) := rfl

/-- A maximum along the columns from minus infinity is, at row n, the supremum of the row. -/
theorem rowMax_apply (src : FVec Ideal S1024x2048 .f32) (n : Fin 1024) :
    multiReduction .maximumf [1] S1024 src 0xFF800000#32 reduces_S1024x2048_S1024 (.inl rfl) rfl (ix1 n)
      = (Finset.univ : Finset (Fin 2048)).sup fun k => src (ix2 n k) :=
  (Ideal.multiReduction_maximumf_single src 0xFF800000#32 reduces_S1024x2048_S1024 (.inl rfl) rfl (ix1 n)).trans
    ((congrArg (fun z : EReal => (Finset.univ : Finset (Fin 2048)).fold max z
        (src ∘ reduces_S1024x2048_S1024.lift (ix1 n))) ofBits_neg_inf).trans
      (Finset.sup_congr rfl fun k _ => congrArg src (lift_row n k)))

/-- A sum along the columns is, at row n, the sum of the row. -/
theorem rowSum_apply (src : FVec Ideal S1024x2048 .f32) (n : Fin 1024) :
    multiReduction .add [1] S1024 src 0x00000000#32 reduces_S1024x2048_S1024 (.inl rfl) rfl (ix1 n)
      = ∑ k : Fin 2048, src (ix2 n k) :=
  (Ideal.multiReduction_add_single src 0x00000000#32 reduces_S1024x2048_S1024 (.inl rfl) rfl (ix1 n)).trans
    (Finset.sum_congr rfl fun k _ => congrArg src (lift_row n k))

end Cert.KernelIdeal.Hand

end
-- ==== Proof.KI.ScanMath.lean ====
import proofs.«429142_j41094247088744_3_alg».proof.Proof.KI.ScanBase
import proofs.«429142_j41094247088744_3_alg».proof.Proof.SpecLemmas

noncomputable section

namespace Cert.KernelIdeal.Hand

open Idealize.ShloMosaic Idealize.ShloMosaic.ValueIdx Cert.KernelIdeal Cert.KernelIdeal.Gen

/-- A number below 2 ^ 31 is its 32-bit word read signed. -/
theorem toInt_ofNat32 {a : ℕ} (h : a < 2 ^ 31) : (BitVec.ofNat 32 a).toInt = (a : ℤ) := by
  have hn : (BitVec.ofNat 32 a).toNat = a := by rw [BitVec.toNat_ofNat]; exact Nat.mod_eq_of_lt (by omega)
  rw [BitVec.toInt_eq_toNat_of_lt (by rw [hn]; omega), hn]

/-- The product into zero with the right operand stored row by row: row n of x against row j of w. -/
theorem matmulT_apply {M K N : ℕ} (x : FVec Ideal ⟨2, ![M, K]⟩ .bf16) (w : FVec Ideal ⟨2, ![N, K]⟩ .bf16) (n : Fin M) (j : Fin N) :
    matmul (DotDims.transposedRhs M K N) none x w (constant (F := Ideal) ⟨2, ![M, N]⟩ .f32 0x00000000#32) (ix2 n j)
      = ∑ k : Fin K, x (ix2 n k) * w (ix2 j k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  congr 1
  · exact congrArg x (Shape.idx_ext₂ rfl ((DotDims.lhsIdx_val_of_single _ rfl _ _).trans hk))
  · exact congrArg w (Shape.idx_ext₂ rfl ((DotDims.rhsIdx_val_of_single _ rfl _ _).trans hk))

/-- A 32-bit word is the word of a number below 2 ^ 32 exactly when it reads that number. -/
theorem ofNat32_eq_iff {a : ℕ} (h : a < 2 ^ 32) (t : BitVec 32) : BitVec.ofNat 32 a = t ↔ a = t.toNat := by
  rw [BitVec.toNat_eq, BitVec.toNat_ofNat, Nat.mod_eq_of_lt h]

/-- The first column of block v of half h, with B blocks to the half. -/
def blkLo (h B v : ℕ) : ℕ := (h * B + v) * 2048

/-- The column numbers of that block. -/
def colG (h B v : ℕ) : IVec S1024x2048 32 :=
  addi (broadcast S1024x2048 (Scalar.muli (Scalar.addi (Scalar.muli (BitVec.ofNat 32 h) (BitVec.ofNat 32 B)) (BitVec.ofNat 32 v)) 2048#32))
    (iota .tc S1024x2048 32 [1] iota_S1024x2048_d1_w32)

/-- The mask of the columns below V. -/
def mskG (V : ℕ) (c : IVec S1024x2048 32) : IVec S1024x2048 1 := cmpi .slt c (broadcast S1024x2048 (BitVec.ofNat 32 V))

/-- The masked logits of a block. -/
def logitsG {K : ℕ} (m : IVec S1024x2048 1) (x : FVec Ideal ⟨2, ![1024, K]⟩ .bf16) (w : FVec Ideal ⟨2, ![2048, K]⟩ .bf16)
    (b : Vec Ideal S1x2048 .f32) : FVec Ideal S1024x2048 .f32 :=
  select m
    (addf (matmul (DotDims.transposedRhs 1024 K 2048) none (shapeCast ⟨2, ![1024, K]⟩ x rfl) (shapeCast ⟨2, ![2048, K]⟩ w rfl)
        (constant S1024x2048 .f32 0x00000000#32))
      (broadcastTo S1024x2048 (shapeCast S1x2048 b shapeCasts_S1x2048_S1x2048) broadcasts_S1x2048_S1024x2048))
    (broadcast S1024x2048 (Scalar.ofBits .f32 0xFF333332#32))

/-- The running maximum after a block of masked logits s. -/
def runM (s : FVec Ideal S1024x2048 .f32) (M : Vec Ideal S1024x1 .f32) : FVec Ideal S1024x1 .f32 :=
  maximumf M (shapeCast S1024x1 (multiReduction .maximumf [1] S1024 s 0xFF800000#32 reduces_S1024x2048_S1024 (.inl rfl) rfl)
    shapeCasts_S1024_S1024x1)

/-- The block's sum of exponentials against the new running maximum. -/
def runS (m : IVec S1024x2048 1) (s : FVec Ideal S1024x2048 .f32) (M : Vec Ideal S1024x1 .f32) : FVec Ideal S1024x1 .f32 :=
  shapeCast S1024x1 (multiReduction .add [1] S1024
    (select m (exp (subf s (broadcastTo S1024x2048 (runM s M) broadcasts_S1024x1_S1024x2048)))
      (broadcast S1024x2048 (Scalar.ofBits .f32 0x00000000#32)))
    0x00000000#32 reduces_S1024x2048_S1024 (.inl rfl) rfl) shapeCasts_S1024_S1024x1

/-- What the carried triple holds at one row after the first v blocks of half h, a half being H columns. -/
def Swept (V H : ℕ) (lg : ℕ → EReal) (t h v : ℕ) (m l g : EReal) : Prop :=
  m = Spec.segMax V lg (h * H) (v * 2048) ∧
  l = Spec.segSum V lg (h * H) (v * 2048) m ∧
  g = Spec.segGat V lg (h * H) (v * 2048) t

/-- The reset triple is the sweep of no block. -/
theorem sweep_init (V H : ℕ) (lg : ℕ → EReal) (t h : ℕ) (n : Fin 1024) :
    Swept V H lg t h 0 ((k0_pay7 (F := Ideal)) (ix2 n 0)) ((k0_pay8 (F := Ideal)) (ix2 n 0)) ((k0_pay9 (F := Ideal)) (ix2 n 0)) := by
  unfold Swept k0_pay7 k0_pay8 k0_pay9
  simp only [shapeCast_self, broadcast_apply, Nat.zero_mul, Spec.segMax_zero, Spec.segSum_zero, Spec.segGat_zero]
  exact ⟨ofBits_neg_inf, Ideal.ofBits_zero_f32, Ideal.ofBits_zero_f32⟩

section Row
variable {V l : ℕ} {lg : ℕ → EReal} {n : Fin 1024} {c : IVec S1024x2048 32} {m : IVec S1024x2048 1}
  {s : FVec Ideal S1024x2048 .f32} (hl : l + 2048 ≤ 2 ^ 32)
  (hc : ∀ j : Fin 2048, c (ix2 n j) = BitVec.ofNat 32 (l + j.val))
  (hm : ∀ j : Fin 2048, m (ix2 n j) = if l + j.val < V then 1#1 else 0#1)
  (hs : ∀ j : Fin 2048, s (ix2 n j) = Spec.msk V lg (l + j.val))

include hs in
theorem runM_apply (M : Vec Ideal S1024x1 .f32) :
    runM s M (ix2 n 0) = max (M (ix2 n 0)) (Spec.segMax V lg l 2048) := by
  unfold runM Spec.segMax
  rw [maximumf_apply, shapeCast_a_a1_apply, rowMax_apply, ← sup_fin_eq_sup_range]
  exact congrArg _ (Finset.sup_congr rfl fun k _ => hs k)

include hm hs in
theorem runS_apply (M : Vec Ideal S1024x1 .f32) :
    runS m s M (ix2 n 0) = Spec.segSum V lg l 2048 (max (M (ix2 n 0)) (Spec.segMax V lg l 2048)) := by
  unfold runS Spec.segSum
  rw [shapeCast_a_a1_apply, rowSum_apply, Finset.sum_range]
  refine Finset.sum_congr rfl fun k _ => ?_
  rw [select_apply, hm, exp_apply, subf_apply, broadcastTo_a1_ab_apply, broadcast_apply, runM_apply hs, hs]
  by_cases hk : l + k.val < V
  · rw [if_pos hk, if_pos hk, select_one]; unfold Spec.msk; rw [if_pos hk]
  · rw [if_neg hk, if_neg hk, select_zero]; exact Ideal.ofBits_zero_f32

include hl hc hs in
theorem pick_apply (tc : Vec Ideal S1024x1 .i32) (G : Vec Ideal S1024x1 .f32) :
    k0_pay3 c s tc G (ix2 n 0) = G (ix2 n 0) + Spec.segGat V lg l 2048 (tc (ix2 n 0)).toNat := by
  unfold k0_pay3 Spec.segGat
  rw [shapeCast_self, addf_apply, shapeCast_a_a1_apply, rowSum_apply, Finset.sum_range]
  refine congrArg _ (Finset.sum_congr rfl fun k _ => ?_)
  rw [select_apply, broadcast_apply, hs]
  show Scalar.select (BitVec.ofBool (c (ix2 n k) == broadcastTo S1024x2048
      (shapeCast S1024x1 tc shapeCasts_S1024x1_S1024x1) broadcasts_S1024x1_S1024x2048 (ix2 n k))) _ _ = _
  rw [hc, broadcastTo_a1_ab_apply, shapeCast_self]
  have hi := ofNat32_eq_iff (a := l + k.val) (by have := k.isLt; omega) (tc (ix2 n 0))
  by_cases hk : l + k.val = (tc (ix2 n 0)).toNat
  · rw [if_pos hk, beq_iff_eq.mpr (hi.mpr hk)]; exact select_one _ _
  · rw [if_neg hk, beq_eq_false_iff_ne.mpr (fun e => hk (hi.mp e))]
    exact (select_zero _ _).trans Ideal.ofBits_zero_f32

include hl hc hm hs in
/-- One block more keeps the triple the sweep of the blocks so far; the stores k0_pay1..3 are the same functions in every region. -/
theorem row_step {H h v : ℕ} (hlv : l = h * H + v * 2048) (hfin : Spec.RealRow V lg) (tc : Vec Ideal S1024x1 .i32)
    (M L G : Vec Ideal S1024x1 .f32)
    (hprev : Swept V H lg (tc (ix2 n 0)).toNat h v (M (ix2 n 0)) (L (ix2 n 0)) (G (ix2 n 0))) :
    Swept V H lg (tc (ix2 n 0)).toNat h (v + 1)
      (k0_pay2 (runM s M) (ix2 n 0))
      (k0_pay1 (exp (subf M (runM s M))) (runS m s M) L (ix2 n 0))
      (k0_pay3 c s tc G (ix2 n 0)) := by
  unfold Swept at hprev ⊢
  obtain ⟨hm', hl', hg'⟩ := hprev
  unfold k0_pay2 k0_pay1
  rw [shapeCast_self, shapeCast_self, addf_apply, mulf_apply, exp_apply, subf_apply, runM_apply hs, runS_apply hm hs,
    pick_apply hl hc hs, hlv, Nat.add_mul, hl', hg', hm']
  refine ⟨(Spec.segMax_append _ _ _ _ _).symm, ?_, (Spec.segGat_append _ _ _ _ _ _).symm⟩
  rw [← Spec.segMax_append]
  exact (Spec.segSum_step hfin _ _ _).symm

end Row

section Block
variable {K V B h v : ℕ} (hh : h < 2) (hv : v < B) (hB : B * 4096 ≤ 2 ^ 31) (hV : V < 2 ^ 31)
  (x : Vec Ideal ⟨2, ![1024, K]⟩ .bf16) (w : Vec Ideal ⟨2, ![2048, K]⟩ .bf16) (b : Vec Ideal S1x2048 .f32)
  (n : Fin 1024) (lg : ℕ → EReal)
  (hlg : ∀ j : Fin 2048, (∑ k : Fin K, x (ix2 n k) * w (ix2 j k)) + b (ix2 0 j) = lg (blkLo h B v + j.val))

include hh hv hB in
theorem blkLo_lt (j : Fin 2048) : blkLo h B v + j.val < 2 ^ 31 := by
  have := Nat.mul_le_mul_right B (Nat.le_of_lt_succ hh)
  have := j.isLt
  unfold blkLo; omega

theorem col_apply (j : Fin 2048) : colG h B v (ix2 n j) = BitVec.ofNat 32 (blkLo h B v + j.val) := by
  unfold colG blkLo
  show (BitVec.ofNat 32 h * BitVec.ofNat 32 B + BitVec.ofNat 32 v) * 2048#32
      + iota .tc S1024x2048 32 [1] iota_S1024x2048_d1_w32 (ix2 n j) = _
  rw [iota_single_apply, BitVec.ofNat_add, BitVec.ofNat_mul, BitVec.ofNat_add, BitVec.ofNat_mul]

include hh hv hB hV in
/-- The mask is set exactly on the real columns. -/
theorem mask_apply (j : Fin 2048) :
    mskG V (colG h B v) (ix2 n j) = if blkLo h B v + j.val < V then 1#1 else 0#1 := by
  show BitVec.ofBool ((colG h B v (ix2 n j)).slt (BitVec.ofNat 32 V)) = _
  rw [col_apply, BitVec.slt_eq_decide, toInt_ofNat32 (blkLo_lt hh hv hB j), toInt_ofNat32 hV]
  by_cases hc : blkLo h B v + j.val < V
  · rw [if_pos hc, decide_eq_true (by exact_mod_cast hc)]; rfl
  · rw [if_neg hc, decide_eq_false (by exact_mod_cast hc)]; rfl

include hh hv hB hV hlg in
/-- The masked logits at (n, j): the row's logit on a real column, the sentinel on a padded one. -/
theorem logits_apply (j : Fin 2048) :
    logitsG (mskG V (colG h B v)) x w b (ix2 n j) = Spec.msk V lg (blkLo h B v + j.val) := by
  unfold logitsG Spec.msk
  rw [shapeCast_self, shapeCast_self, shapeCast_self, select_apply, mask_apply hh hv hB hV n, addf_apply, matmulT_apply,
    broadcastTo_1b_ab_apply, broadcast_apply]
  by_cases hc : blkLo h B v + j.val < V
  · rw [if_pos hc, if_pos hc, select_one, hlg j]
  · rw [if_neg hc, if_neg hc, select_zero]; rfl

include hh hv hB hV hlg in
/-- One step of the sweep, on block v of half h. -/
theorem sweep_step (hfin : Spec.RealRow V lg) (tc : Vec Ideal S1024x1 .i32) (M L G : Vec Ideal S1024x1 .f32)
    (hprev : Swept V (B * 2048) lg (tc (ix2 n 0)).toNat h v (M (ix2 n 0)) (L (ix2 n 0)) (G (ix2 n 0))) :
    Swept V (B * 2048) lg (tc (ix2 n 0)).toNat h (v + 1)
      (k0_pay2 (runM (logitsG (mskG V (colG h B v)) x w b) M) (ix2 n 0))
      (k0_pay1 (exp (subf M (runM (logitsG (mskG V (colG h B v)) x w b) M)))
        (runS (mskG V (colG h B v)) (logitsG (mskG V (colG h B v)) x w b) M) L (ix2 n 0))
      (k0_pay3 (colG h B v) (logitsG (mskG V (colG h B v)) x w b) tc G (ix2 n 0)) :=
  row_step (by have := blkLo_lt hh hv hB ⟨2047, by decide⟩; omega) (col_apply n) (mask_apply hh hv hB hV n)
    (logits_apply hh hv hB hV x w b n lg hlg) (by unfold blkLo; ring) hfin tc M L G hprev

end Block

end Cert.KernelIdeal.Hand

end
-- ==== Proof.KI.Runs.lean ====
import Idealize.ShloMosaic.Lib.Pipeline.Value
import Idealize.ShloMosaic.Lib.ValueIdx

noncomputable section

namespace Cert.KernelIdeal.Hand

open Idealize.ShloMosaic Idealize.ShloMosaic.ValueIdx

/-- The last point of run h of J points lies in a grid of H runs. -/
theorem lastPt_lt {H J h : ℕ} (hh : h < H) (hJ : 0 < J) : J * h + (J - 1) < H * J := by
  have := Nat.mul_le_mul_left J (Nat.succ_le_of_lt hh)
  rw [Nat.mul_succ, Nat.mul_comm J H] at this
  omega

/-- Blocks [1,R,1] at block index (t / J, 0, 0), written back after each run of J points, tile an [H,R,1] array. -/
theorem arr_of_runs {α : Type} {H R J N : ℕ} (hJ : 0 < J) (hN : N = H * J)
    (idx : Fin N → Fin 3 → ℕ) (hidx : ∀ t, idx t 0 = t.val / J ∧ idx t 1 = 0 ∧ idx t 2 = 0)
    (fl : Fin N → Bool) (hfl : ∀ t, fl t = true ↔ t.val % J = J - 1)
    (S : Fin N → Finset (⟨3, ![H, R, 1]⟩ : Shape).Idx)
    (emb : Fin N → (⟨3, ![1, R, 1]⟩ : Shape).Idx → (⟨3, ![H, R, 1]⟩ : Shape).Idx)
    (hS : ∀ t y, emb t y ∈ S t)
    (hemb : ∀ t y a, ((emb t y) a).val = idx t a * (![1, R, 1] : Fin 3 → ℕ) a + (y a).val)
    (E : (⟨3, ![H, R, 1]⟩ : Shape).Idx → α) (B : Fin N → (⟨3, ![1, R, 1]⟩ : Shape).Idx → α)
    (key : ∀ G : (⟨3, ![H, R, 1]⟩ : Shape).Idx → α, (∀ t, fl t = true → B t = fun y => G (emb t y)) →
      (∀ i, ∃ t, fl t = true ∧ i ∈ S t) → E = G)
    (h : Fin H) (n : Fin R) (hm : J * h.val + (J - 1) < N) :
    E (ix3 h n 0) = B ⟨J * h.val + (J - 1), hm⟩ (ix3 0 n 0) := by
  have lt : ∀ i : (⟨3, ![H, R, 1]⟩ : Shape).Idx, J * (i 0).val + (J - 1) < N := fun i => hN ▸ lastPt_lt (i 0).isLt hJ
  have e0 : ∀ t y, ((emb t y) 0).val = t.val / J := fun t y => by
    have := hemb t y 0; have := (y 0).isLt; rw [(hidx t).1] at *; simp only [Matrix.cons_val_zero] at *; omega
  have e1 : ∀ t y, ((emb t y) 1).val = (y 1).val := fun t y => by
    have := hemb t y 1; rw [(hidx t).2.1] at this; omega
  have e2 : ∀ t y, ((emb t y) 2).val = (y 2).val := fun t y => by
    have := hemb t y 2; rw [(hidx t).2.2] at this; omega
  have hE : E = fun i => B ⟨J * (i 0).val + (J - 1), lt i⟩ (ix3 0 (i 1) (i 2)) := by
    refine key _ (fun t ht => ?_) (fun i => ?_)
    · funext y
      have ht' := (hfl t).mp ht
      have q : (⟨J * ((emb t y) 0).val + (J - 1), lt _⟩ : Fin N) = t :=
        Fin.ext (by show J * ((emb t y) 0).val + (J - 1) = t.val; rw [e0, ← ht']; exact Nat.div_add_mod _ _)
      have r : ix3 (0 : Fin 1) ((emb t y) 1) ((emb t y) 2) = y := by
        funext a
        apply Fin.ext
        match a with
        | ⟨0, _⟩ => have : (y 0).val < 1 := (y 0).isLt; show 0 = (y 0).val; omega
        | ⟨1, _⟩ => exact e1 t y
        | ⟨2, _⟩ => exact e2 t y
      exact (congrArg₂ B q r).symm
    · have hd : (J * (i 0).val + (J - 1)) / J = (i 0).val := by
        rw [Nat.mul_add_div hJ, Nat.div_eq_of_lt (by omega), Nat.add_zero]
      refine ⟨⟨_, lt i⟩, (hfl _).mpr (by show (J * (i 0).val + (J - 1)) % J = J - 1; rw [Nat.mul_add_mod]; exact Nat.mod_eq_of_lt (by omega)), ?_⟩
      have : emb ⟨_, lt i⟩ (ix3 0 (i 1) (i 2)) = i := by
        funext a
        apply Fin.ext
        match a with
        | ⟨0, _⟩ => exact (e0 _ _).trans hd
        | ⟨1, _⟩ => exact e1 _ _
        | ⟨2, _⟩ => exact e2 _ _
      have hmem := hS ⟨_, lt i⟩ (ix3 0 (i 1) (i 2))
      rwa [this] at hmem
  exact congrFun hE _

/-- A state reset at the first point of each run of J points and stepped elsewhere has, after run h, taken its J steps. -/
theorem last_of_runs {σ : Type} {N J : ℕ} (hJ : 0 < J) (s : (m : ℕ) → m < N → σ) (st : Fin N → σ → σ) (init : σ)
    (hfirst : ∀ t : Fin N, t.val % J = 0 → s t.val t.isLt = st t init)
    (hnext : ∀ t : Fin N, ¬t.val % J = 0 →
      s t.val t.isLt = st t (s (t.val - 1) (Nat.lt_of_le_of_lt (Nat.sub_le _ _) t.isLt)))
    (P : ℕ → ℕ → σ → Prop) (hinit : ∀ h, P h 0 init)
    (hstep : ∀ (t : Fin N) x, P (t.val / J) (t.val % J) x → P (t.val / J) (t.val % J + 1) (st t x))
    (h : ℕ) (hm : J * h + (J - 1) < N) : P h J (s (J * h + (J - 1)) hm) := by
  have all : ∀ m hm, P (m / J) (m % J + 1) (s m hm) := fun m => by
    induction m using Nat.strong_induction_on with
    | _ m ih =>
      intro hm
      by_cases h0 : m % J = 0
      · rw [hfirst ⟨m, hm⟩ h0]
        exact hstep ⟨m, hm⟩ init (by show P (m / J) (m % J) init; rw [h0]; exact hinit _)
      · rw [hnext ⟨m, hm⟩ h0]
        refine hstep ⟨m, hm⟩ _ ?_
        have hr := Nat.mod_lt m hJ
        have hm1 : m - 1 = J * (m / J) + (m % J - 1) := by have := Nat.div_add_mod m J; omega
        have hq : (m - 1) / J = m / J := by
          rw [hm1, Nat.mul_add_div hJ, Nat.div_eq_of_lt (show m % J - 1 < J by omega), Nat.add_zero]
        have hv : (m - 1) % J + 1 = m % J := by
          rw [hm1, Nat.mul_add_mod, Nat.mod_eq_of_lt (show m % J - 1 < J by omega)]; omega
        have hm0 : m ≠ 0 := fun e => h0 (by rw [e, Nat.zero_mod])
        have := ih (m - 1) (by omega) (by omega)
        rw [hq, hv] at this
        exact this
  have := all _ hm
  rwa [Nat.mul_add_div hJ, Nat.div_eq_of_lt (show J - 1 < J by omega), Nat.add_zero, Nat.mul_add_mod,
    Nat.mod_eq_of_lt (show J - 1 < J by omega), Nat.sub_add_cancel hJ] at this

/-- Token n's logit at padded column j: row n of X against row j of W, plus B at j; 0 past the padded vocabulary. -/
def lg {d vpad : ℕ} (X : Vec Ideal ⟨2, ![1024, d]⟩ .bf16) (W : Vec Ideal ⟨2, ![vpad, d]⟩ .bf16)
    (B : Vec Ideal ⟨2, ![1, vpad]⟩ .f32) (n : Fin 1024) (j : ℕ) : EReal :=
  if h : j < vpad then (∑ k : Fin d, X (ix2 n k) * W (ix2 ⟨j, h⟩ k)) + B (ix2 0 ⟨j, h⟩) else 0

/-- A block of bw weight rows and bias columns from column lo on is columns lo … lo + bw - 1 of each token's logits. -/
theorem lg_block {d vpad bw : ℕ} (X : Vec Ideal ⟨2, ![1024, d]⟩ .bf16) (W : Vec Ideal ⟨2, ![vpad, d]⟩ .bf16)
    (B : Vec Ideal ⟨2, ![1, vpad]⟩ .f32) (x : Vec Ideal ⟨2, ![1024, d]⟩ .bf16) (w : Vec Ideal ⟨2, ![bw, d]⟩ .bf16)
    (b : Vec Ideal ⟨2, ![1, bw]⟩ .f32) (lo : ℕ) (hlo : lo + bw ≤ vpad)
    (hx : ∀ n k, x (ix2 n k) = X (ix2 n k))
    (hw : ∀ (j : Fin bw) k (h : lo + j.val < vpad), w (ix2 j k) = W (ix2 ⟨lo + j.val, h⟩ k))
    (hb : ∀ (j : Fin bw) (h : lo + j.val < vpad), b (ix2 0 j) = B (ix2 0 ⟨lo + j.val, h⟩))
    (n : Fin 1024) (j : Fin bw) :
    (∑ k : Fin d, x (ix2 n k) * w (ix2 j k)) + b (ix2 0 j) = lg X W B n (lo + j.val) := by
  have h : lo + j.val < vpad := by have := j.isLt; omega
  unfold lg
  rw [dif_pos h, hb j h]
  congr 1
  exact Finset.sum_congr rfl fun k _ => by rw [hx, hw j k h]

/-- A [R,1] vector stored as a [1,R,1] block reads, at (0, n, 0), the vector at (n, 0). -/
theorem addUnit_row {α : Type} {R : ℕ} (v : (⟨2, ![R, 1]⟩ : Shape).Idx → α)
    (h : (⟨2, ![R, 1]⟩ : Shape).ShapeCasts ⟨3, ![1, R, 1]⟩) (n : Fin R) :
    shapeCast ⟨3, ![1, R, 1]⟩ v h (ix3 0 n 0) = v (ix2 n 0) := by
  refine (shapeCast_addUnit_apply ![R, 1] v h _).trans (congrArg v ?_)
  funext a
  match a with
  | ⟨0, _⟩ => rfl
  | ⟨1, _⟩ => rfl

end Cert.KernelIdeal.Hand
end
-- ==== Proof.KI.RegionVal0.lean ====
import proofs.«429142_j41094247088744_3_alg».proof.Proof.KI.R0Frame
import proofs.«429142_j41094247088744_3_alg».proof.Proof.KI.ScanMath
import proofs.«429142_j41094247088744_3_alg».proof.Proof.KI.Runs

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The target columns, as the region finds them. -/
abbrev rT0 (c : Dev nD) : Vec Ideal S1024x1 .i32 := V c main_v7

/-- Token n's logit at padded column j, off the region's activations, padded weight rows and padded bias. -/
def lg0 (c : Dev nD) (n : Fin 1024) (j : ℕ) : EReal :=
  lg (d := 1024) (vpad := 20480) (V c main_v5) (V c main_v2) (V c main_v4) n j

/-- The operand windows' block indices and the grid's coordinates at point t, decided over the grid. -/
theorem idx0 : ∀ t : Fin grid0.N,
    win0_0.index t 0 = 0 ∧ win0_0.index t 1 = 0
    ∧ win0_1.index t 0 = t.val ∧ win0_1.index t 1 = 0
    ∧ win0_2.index t 0 = 0 ∧ win0_2.index t 1 = t.val
    ∧ win0_3.index t 0 = 0 ∧ win0_3.index t 1 = 0
    ∧ (grid0.coords t 0).val = t.val / 5 ∧ (grid0.coords t 2).val = t.val % 5 := by
  decide +kernel

/-- Point t's operand blocks: activations and targets whole, weight rows and bias columns from the block's first column on. -/
theorem reads0 (c : Dev nD) (t : Fin cfg0.N) (lo : ℕ) (hl : lo = t.val * 2048) :
    (∀ (n : Fin 1024) (k : Fin 1024), (iblk0 V c 0 t : Vec Ideal S1024x1024 .bf16) (ix2 n k) = V c main_v5 (ix2 n k))
    ∧ (∀ (j : Fin 2048) (k : Fin 1024) (h : lo + j.val < 20480),
        (iblk0 V c 1 t : Vec Ideal S2048x1024 .bf16) (ix2 j k) = V c main_v2 (ix2 ⟨_, h⟩ k))
    ∧ (∀ (j : Fin 2048) (h : lo + j.val < 20480),
        (iblk0 V c 2 t : Vec Ideal S1x2048 .f32) (ix2 0 j) = V c main_v4 (ix2 0 ⟨_, h⟩))
    ∧ ∀ n : Fin 1024, (iblk0 V c 3 t : Vec Ideal S1024x1 .i32) (ix2 n 0) = V c main_v7 (ix2 n 0) := by
  obtain ⟨a0, a1, b0, b1, d0, d1, g0, g1, -⟩ := idx0 t
  unfold iblk0
  refine ⟨fun n k => ?_, fun j k h => ?_, fun j h => ?_, fun n => ?_⟩ <;> rw [View.read_apply] <;>
    refine congrArg (V c _) (Shape.idx_ext₂ ?_ ?_)
  · show win0_0.index t 0 * 1024 + 1 * n.val = n.val; rw [a0]; omega
  · show win0_0.index t 1 * 1024 + 1 * k.val = k.val; rw [a1]; omega
  · show win0_1.index t 0 * 2048 + 1 * j.val = lo + j.val; rw [b0, hl]; omega
  · show win0_1.index t 1 * 1024 + 1 * k.val = k.val; rw [b1]; omega
  · show win0_2.index t 0 * 1 + 1 * 0 = 0; rw [d0]
  · show win0_2.index t 1 * 2048 + 1 * j.val = lo + j.val; rw [d1, hl]; omega
  · show win0_3.index t 0 * 1024 + 1 * n.val = n.val; rw [g0]; omega
  · show win0_3.index t 1 * 1 + 1 * 0 = 0; rw [g1]

/-- The last point of half h is in the grid. -/
theorem last0_lt (h : Fin 2) : 5 * h.val + (5 - 1) < cfg0.N := by
  rw [show cfg0.N = 2 * 5 from N_0]; exact lastPt_lt h.isLt (by decide)

/-- After the last block of half h the carried state at token n is the sweep of the whole half. -/
theorem swept0_last (c : Dev nD) (n : Fin 1024) (hfin : Spec.RealRow 20000 (lg0 V c n)) (h : Fin 2) :
    Swept 20000 (5 * 2048) (lg0 V c n) (rT0 V c (ix2 n 0)).toNat h.val 5 ((scr0 V c _ (last0_lt h)).1 (ix2 n 0))
      ((scr0 V c _ (last0_lt h)).2.1 (ix2 n 0)) ((scr0 V c _ (last0_lt h)).2.2 (ix2 n 0)) :=
  last_of_runs (by decide) (scr0 V c)
    (fun t => step0 (grid0.coords t) (iblk0 V c 0 t) (iblk0 V c 1 t) (iblk0 V c 2 t) (iblk0 V c 3 t)) init0
    (scr0_first V c) (scr0_next V c)
    (fun h v x => Swept 20000 (5 * 2048) (lg0 V c n) (rT0 V c (ix2 n 0)).toNat h v (x.1 (ix2 n 0)) (x.2.1 (ix2 n 0)) (x.2.2 (ix2 n 0)))
    (fun h => sweep_init _ _ _ _ h n)
    (fun t x hp => by
      obtain ⟨-, -, -, -, -, -, -, -, c0, c2⟩ := idx0 t
      have hl : blkLo (grid0.coords t 0).val 5 (grid0.coords t 2).val = t.val * 2048 := by
        unfold blkLo; rw [c0, c2]; omega
      obtain ⟨hx, hw, hb, ht⟩ := reads0 V c t _ hl
      have hlo : blkLo (grid0.coords t 0).val 5 (grid0.coords t 2).val + 2048 ≤ 20480 := by
        have := t.isLt; have hN : cfg0.N = 2 * 5 := N_0; rw [hl]; omega
      have hs := sweep_step (B := 5) (grid0.coords t 0).isLt (grid0.coords t 2).isLt (by decide) (by decide)
        (iblk0 V c 0 t) (iblk0 V c 1 t) (iblk0 V c 2 t) n (lg0 V c n) (lg_block _ _ _ _ _ _ _ hlo hx hw hb n) hfin
        (iblk0 V c 3 t) x.1 x.2.1 x.2.2 (by rw [ht, c0, c2]; exact hp)
      rw [ht] at hs
      rw [← c0, ← c2]
      exact hs)
    h.val (last0_lt h)

/-- The result windows' block indices at point t, decided over the grid. -/
theorem idxOut0 : ∀ t : Fin grid0.N,
    (win0_4.index t 0 = t.val / 5 ∧ win0_4.index t 1 = 0 ∧ win0_4.index t 2 = 0)
    ∧ (win0_5.index t 0 = t.val / 5 ∧ win0_5.index t 1 = 0 ∧ win0_5.index t 2 = 0)
    ∧ (win0_6.index t 0 = t.val / 5 ∧ win0_6.index t 1 = 0 ∧ win0_6.index t 2 = 0) := by
  decide +kernel

/-- Each result array at (h, n, 0) is its component of the state carried after the last block of half h, at token n. -/
theorem arrAt0 (c : Dev nD) (h : Fin 2) (n : Fin 1024) :
    (dat0 V c).arrAt 4 cfg0.N (ix3 h n 0) = (scr0 V c _ (last0_lt h)).1 (ix2 n 0)
    ∧ (dat0 V c).arrAt 5 cfg0.N (ix3 h n 0) = (scr0 V c _ (last0_lt h)).2.1 (ix2 n 0)
    ∧ (dat0 V c).arrAt 6 cfg0.N (ix3 h n 0) = (scr0 V c _ (last0_lt h)).2.2 (ix2 n 0) :=
  ⟨(arr_of_runs (J := 5) (by decide) N_0 win0_4.index (fun t => (idxOut0 t).1) (cfg0.win 4).flush flush0_4
      (fun t => ((cfg0.win 4).blk t).view.set) (fun t => ((cfg0.win 4).blk t).view.emb) (fun _ y => View.emb_mem_set _ y)
      (fun t y a => win0_4.rect_emb_val t y a) _ (fun t => (dat0 V c).after 4 t)
      (fun G => (dat0 V c).arrAt_eq_of_cover 4 G) h n (last0_lt h)).trans
      ((congrFun (after0_4 V c _) _).trans (addUnit_row _ _ n)),
   (arr_of_runs (J := 5) (by decide) N_0 win0_5.index (fun t => (idxOut0 t).2.1) (cfg0.win 5).flush flush0_5
      (fun t => ((cfg0.win 5).blk t).view.set) (fun t => ((cfg0.win 5).blk t).view.emb) (fun _ y => View.emb_mem_set _ y)
      (fun t y a => win0_5.rect_emb_val t y a) _ (fun t => (dat0 V c).after 5 t)
      (fun G => (dat0 V c).arrAt_eq_of_cover 5 G) h n (last0_lt h)).trans
      ((congrFun (after0_5 V c _) _).trans (addUnit_row _ _ n)),
   (arr_of_runs (J := 5) (by decide) N_0 win0_6.index (fun t => (idxOut0 t).2.2) (cfg0.win 6).flush flush0_6
      (fun t => ((cfg0.win 6).blk t).view.set) (fun t => ((cfg0.win 6).blk t).view.emb) (fun _ y => View.emb_mem_set _ y)
      (fun t y a => win0_6.rect_emb_val t y a) _ (fun t => (dat0 V c).after 6 t)
      (fun G => (dat0 V c).arrAt_eq_of_cover 6 G) h n (last0_lt h)).trans
      ((congrFun (after0_6 V c _) _).trans (addUnit_row _ _ n))⟩

/-- The maximum's array at (h, n, 0): the maximum of token n's masked logits over half h. -/
theorem regionVal0_M (c : Dev nD) (hfin : ∀ n, Spec.RealRow 20000 (lg0 V c n)) (h : Fin 2) (n : Fin 1024) :
    (dat0 V c).arrAt 4 cfg0.N (ix3 h n 0) = Spec.segMax 20000 (lg0 V c n) (h.val * 10240) 10240 := by
  rw [(arrAt0 V c h n).1]
  exact (swept0_last V c n (hfin n) h).1

/-- The sum's array at (h, n, 0): the sum of exponentials of token n's logits over half h, relative to that maximum. -/
theorem regionVal0_L (c : Dev nD) (hfin : ∀ n, Spec.RealRow 20000 (lg0 V c n)) (h : Fin 2) (n : Fin 1024) :
    (dat0 V c).arrAt 5 cfg0.N (ix3 h n 0)
      = Spec.segSum 20000 (lg0 V c n) (h.val * 10240) 10240 (Spec.segMax 20000 (lg0 V c n) (h.val * 10240) 10240) := by
  rw [(arrAt0 V c h n).2.1]
  have hs := swept0_last V c n (hfin n) h
  exact hs.2.1.trans (by rw [hs.1])

/-- The gathered logit's array at (h, n, 0): token n's logit at its target column if half h holds it, else 0. -/
theorem regionVal0_G (c : Dev nD) (hfin : ∀ n, Spec.RealRow 20000 (lg0 V c n)) (h : Fin 2) (n : Fin 1024) :
    (dat0 V c).arrAt 6 cfg0.N (ix3 h n 0)
      = Spec.segGat 20000 (lg0 V c n) (h.val * 10240) 10240 (rT0 V c (ix2 n 0)).toNat := by
  rw [(arrAt0 V c h n).2.2]
  exact (swept0_last V c n (hfin n) h).2.2

end Cert.KernelIdeal.Hand
end
-- ==== Proof.KI.RegionVal1.lean ====
import proofs.«429142_j41094247088744_3_alg».proof.Proof.KI.R1Frame
import proofs.«429142_j41094247088744_3_alg».proof.Proof.KI.ScanMath
import proofs.«429142_j41094247088744_3_alg».proof.Proof.KI.Runs

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The target columns, as the region finds them. -/
abbrev rT1 (c : Dev nD) : Vec Ideal S1024x1 .i32 := V c main_v67

/-- Token n's logit at padded column j, off the region's activations, padded weight rows and padded bias. -/
def lg1 (c : Dev nD) (n : Fin 1024) (j : ℕ) : EReal :=
  lg (d := 256) (vpad := 20480) (V c main_v65) (V c main_v62) (V c main_v64) n j

/-- The operand windows' block indices and the grid's coordinates at point t, decided over the grid. -/
theorem idx1 : ∀ t : Fin grid1.N,
    win1_0.index t 0 = 0 ∧ win1_0.index t 1 = 0
    ∧ win1_1.index t 0 = t.val ∧ win1_1.index t 1 = 0
    ∧ win1_2.index t 0 = 0 ∧ win1_2.index t 1 = t.val
    ∧ win1_3.index t 0 = 0 ∧ win1_3.index t 1 = 0
    ∧ (grid1.coords t 0).val = t.val / 5 ∧ (grid1.coords t 2).val = t.val % 5 := by
  decide +kernel

/-- Point t's operand blocks: activations and targets whole, weight rows and bias columns from the block's first column on. -/
theorem reads1 (c : Dev nD) (t : Fin cfg1.N) (lo : ℕ) (hl : lo = t.val * 2048) :
    (∀ (n : Fin 1024) (k : Fin 256), (iblk1 V c 0 t : Vec Ideal S1024x256 .bf16) (ix2 n k) = V c main_v65 (ix2 n k))
    ∧ (∀ (j : Fin 2048) (k : Fin 256) (h : lo + j.val < 20480),
        (iblk1 V c 1 t : Vec Ideal S2048x256 .bf16) (ix2 j k) = V c main_v62 (ix2 ⟨_, h⟩ k))
    ∧ (∀ (j : Fin 2048) (h : lo + j.val < 20480),
        (iblk1 V c 2 t : Vec Ideal S1x2048 .f32) (ix2 0 j) = V c main_v64 (ix2 0 ⟨_, h⟩))
    ∧ ∀ n : Fin 1024, (iblk1 V c 3 t : Vec Ideal S1024x1 .i32) (ix2 n 0) = V c main_v67 (ix2 n 0) := by
  obtain ⟨a0, a1, b0, b1, d0, d1, g0, g1, -⟩ := idx1 t
  unfold iblk1
  refine ⟨fun n k => ?_, fun j k h => ?_, fun j h => ?_, fun n => ?_⟩ <;> rw [View.read_apply] <;>
    refine congrArg (V c _) (Shape.idx_ext₂ ?_ ?_)
  · show win1_0.index t 0 * 1024 + 1 * n.val = n.val; rw [a0]; omega
  · show win1_0.index t 1 * 256 + 1 * k.val = k.val; rw [a1]; omega
  · show win1_1.index t 0 * 2048 + 1 * j.val = lo + j.val; rw [b0, hl]; omega
  · show win1_1.index t 1 * 256 + 1 * k.val = k.val; rw [b1]; omega
  · show win1_2.index t 0 * 1 + 1 * 0 = 0; rw [d0]
  · show win1_2.index t 1 * 2048 + 1 * j.val = lo + j.val; rw [d1, hl]; omega
  · show win1_3.index t 0 * 1024 + 1 * n.val = n.val; rw [g0]; omega
  · show win1_3.index t 1 * 1 + 1 * 0 = 0; rw [g1]

/-- The last point of half h is in the grid. -/
theorem last1_lt (h : Fin 2) : 5 * h.val + (5 - 1) < cfg1.N := by
  rw [show cfg1.N = 2 * 5 from N_1]; exact lastPt_lt h.isLt (by decide)

/-- After the last block of half h the carried state at token n is the sweep of the whole half. -/
theorem swept1_last (c : Dev nD) (n : Fin 1024) (hfin : Spec.RealRow 20000 (lg1 V c n)) (h : Fin 2) :
    Swept 20000 (5 * 2048) (lg1 V c n) (rT1 V c (ix2 n 0)).toNat h.val 5 ((scr1 V c _ (last1_lt h)).1 (ix2 n 0))
      ((scr1 V c _ (last1_lt h)).2.1 (ix2 n 0)) ((scr1 V c _ (last1_lt h)).2.2 (ix2 n 0)) :=
  last_of_runs (by decide) (scr1 V c)
    (fun t => step1 (grid1.coords t) (iblk1 V c 0 t) (iblk1 V c 1 t) (iblk1 V c 2 t) (iblk1 V c 3 t)) init1
    (scr1_first V c) (scr1_next V c)
    (fun h v x => Swept 20000 (5 * 2048) (lg1 V c n) (rT1 V c (ix2 n 0)).toNat h v (x.1 (ix2 n 0)) (x.2.1 (ix2 n 0)) (x.2.2 (ix2 n 0)))
    (fun h => sweep_init _ _ _ _ h n)
    (fun t x hp => by
      obtain ⟨-, -, -, -, -, -, -, -, c0, c2⟩ := idx1 t
      have hl : blkLo (grid1.coords t 0).val 5 (grid1.coords t 2).val = t.val * 2048 := by
        unfold blkLo; rw [c0, c2]; omega
      obtain ⟨hx, hw, hb, ht⟩ := reads1 V c t _ hl
      have hlo : blkLo (grid1.coords t 0).val 5 (grid1.coords t 2).val + 2048 ≤ 20480 := by
        have := t.isLt; have hN : cfg1.N = 2 * 5 := N_1; rw [hl]; omega
      have hs := sweep_step (B := 5) (grid1.coords t 0).isLt (grid1.coords t 2).isLt (by decide) (by decide)
        (iblk1 V c 0 t) (iblk1 V c 1 t) (iblk1 V c 2 t) n (lg1 V c n) (lg_block _ _ _ _ _ _ _ hlo hx hw hb n) hfin
        (iblk1 V c 3 t) x.1 x.2.1 x.2.2 (by rw [ht, c0, c2]; exact hp)
      rw [ht] at hs
      rw [← c0, ← c2]
      exact hs)
    h.val (last1_lt h)

/-- The result windows' block indices at point t, decided over the grid. -/
theorem idxOut1 : ∀ t : Fin grid1.N,
    (win1_4.index t 0 = t.val / 5 ∧ win1_4.index t 1 = 0 ∧ win1_4.index t 2 = 0)
    ∧ (win1_5.index t 0 = t.val / 5 ∧ win1_5.index t 1 = 0 ∧ win1_5.index t 2 = 0)
    ∧ (win1_6.index t 0 = t.val / 5 ∧ win1_6.index t 1 = 0 ∧ win1_6.index t 2 = 0) := by
  decide +kernel

/-- Each result array at (h, n, 0) is its component of the state carried after the last block of half h, at token n. -/
theorem arrAt1 (c : Dev nD) (h : Fin 2) (n : Fin 1024) :
    (dat1 V c).arrAt 4 cfg1.N (ix3 h n 0) = (scr1 V c _ (last1_lt h)).1 (ix2 n 0)
    ∧ (dat1 V c).arrAt 5 cfg1.N (ix3 h n 0) = (scr1 V c _ (last1_lt h)).2.1 (ix2 n 0)
    ∧ (dat1 V c).arrAt 6 cfg1.N (ix3 h n 0) = (scr1 V c _ (last1_lt h)).2.2 (ix2 n 0) :=
  ⟨(arr_of_runs (J := 5) (by decide) N_1 win1_4.index (fun t => (idxOut1 t).1) (cfg1.win 4).flush flush1_4
      (fun t => ((cfg1.win 4).blk t).view.set) (fun t => ((cfg1.win 4).blk t).view.emb) (fun _ y => View.emb_mem_set _ y)
      (fun t y a => win1_4.rect_emb_val t y a) _ (fun t => (dat1 V c).after 4 t)
      (fun G => (dat1 V c).arrAt_eq_of_cover 4 G) h n (last1_lt h)).trans
      ((congrFun (after1_4 V c _) _).trans (addUnit_row _ _ n)),
   (arr_of_runs (J := 5) (by decide) N_1 win1_5.index (fun t => (idxOut1 t).2.1) (cfg1.win 5).flush flush1_5
      (fun t => ((cfg1.win 5).blk t).view.set) (fun t => ((cfg1.win 5).blk t).view.emb) (fun _ y => View.emb_mem_set _ y)
      (fun t y a => win1_5.rect_emb_val t y a) _ (fun t => (dat1 V c).after 5 t)
      (fun G => (dat1 V c).arrAt_eq_of_cover 5 G) h n (last1_lt h)).trans
      ((congrFun (after1_5 V c _) _).trans (addUnit_row _ _ n)),
   (arr_of_runs (J := 5) (by decide) N_1 win1_6.index (fun t => (idxOut1 t).2.2) (cfg1.win 6).flush flush1_6
      (fun t => ((cfg1.win 6).blk t).view.set) (fun t => ((cfg1.win 6).blk t).view.emb) (fun _ y => View.emb_mem_set _ y)
      (fun t y a => win1_6.rect_emb_val t y a) _ (fun t => (dat1 V c).after 6 t)
      (fun G => (dat1 V c).arrAt_eq_of_cover 6 G) h n (last1_lt h)).trans
      ((congrFun (after1_6 V c _) _).trans (addUnit_row _ _ n))⟩

/-- The maximum's array at (h, n, 0): the maximum of token n's masked logits over half h. -/
theorem regionVal1_M (c : Dev nD) (hfin : ∀ n, Spec.RealRow 20000 (lg1 V c n)) (h : Fin 2) (n : Fin 1024) :
    (dat1 V c).arrAt 4 cfg1.N (ix3 h n 0) = Spec.segMax 20000 (lg1 V c n) (h.val * 10240) 10240 := by
  rw [(arrAt1 V c h n).1]
  exact (swept1_last V c n (hfin n) h).1

/-- The sum's array at (h, n, 0): the sum of exponentials of token n's logits over half h, relative to that maximum. -/
theorem regionVal1_L (c : Dev nD) (hfin : ∀ n, Spec.RealRow 20000 (lg1 V c n)) (h : Fin 2) (n : Fin 1024) :
    (dat1 V c).arrAt 5 cfg1.N (ix3 h n 0)
      = Spec.segSum 20000 (lg1 V c n) (h.val * 10240) 10240 (Spec.segMax 20000 (lg1 V c n) (h.val * 10240) 10240) := by
  rw [(arrAt1 V c h n).2.1]
  have hs := swept1_last V c n (hfin n) h
  exact hs.2.1.trans (by rw [hs.1])

/-- The gathered logit's array at (h, n, 0): token n's logit at its target column if half h holds it, else 0. -/
theorem regionVal1_G (c : Dev nD) (hfin : ∀ n, Spec.RealRow 20000 (lg1 V c n)) (h : Fin 2) (n : Fin 1024) :
    (dat1 V c).arrAt 6 cfg1.N (ix3 h n 0)
      = Spec.segGat 20000 (lg1 V c n) (h.val * 10240) 10240 (rT1 V c (ix2 n 0)).toNat := by
  rw [(arrAt1 V c h n).2.2]
  exact (swept1_last V c n (hfin n) h).2.2

end Cert.KernelIdeal.Hand
end
-- ==== Proof.KI.RegionVal2.lean ====
import proofs.«429142_j41094247088744_3_alg».proof.Proof.KI.R2Frame
import proofs.«429142_j41094247088744_3_alg».proof.Proof.KI.ScanMath
import proofs.«429142_j41094247088744_3_alg».proof.Proof.KI.Runs

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The target columns, as the region finds them. -/
abbrev rT2 (c : Dev nD) : Vec Ideal S1024x1 .i32 := V c main_v108

/-- Token n's logit at padded column j, off the region's activations, padded weight rows and padded bias. -/
def lg2 (c : Dev nD) (n : Fin 1024) (j : ℕ) : EReal :=
  lg (d := 64) (vpad := 163840) (V c main_v106) (V c main_v103) (V c main_v105) n j

/-- The operand windows' block indices and the grid's coordinates at point t, decided over the grid. -/
theorem idx2 : ∀ t : Fin grid2.N,
    win2_0.index t 0 = 0 ∧ win2_0.index t 1 = 0
    ∧ win2_1.index t 0 = t.val ∧ win2_1.index t 1 = 0
    ∧ win2_2.index t 0 = 0 ∧ win2_2.index t 1 = t.val
    ∧ win2_3.index t 0 = 0 ∧ win2_3.index t 1 = 0
    ∧ (grid2.coords t 0).val = t.val / 40 ∧ (grid2.coords t 2).val = t.val % 40 := by
  decide +kernel

/-- Point t's operand blocks: activations and targets whole, weight rows and bias columns from the block's first column on. -/
theorem reads2 (c : Dev nD) (t : Fin cfg2.N) (lo : ℕ) (hl : lo = t.val * 2048) :
    (∀ (n : Fin 1024) (k : Fin 64), (iblk2 V c 0 t : Vec Ideal S1024x64 .bf16) (ix2 n k) = V c main_v106 (ix2 n k))
    ∧ (∀ (j : Fin 2048) (k : Fin 64) (h : lo + j.val < 163840),
        (iblk2 V c 1 t : Vec Ideal S2048x64 .bf16) (ix2 j k) = V c main_v103 (ix2 ⟨_, h⟩ k))
    ∧ (∀ (j : Fin 2048) (h : lo + j.val < 163840),
        (iblk2 V c 2 t : Vec Ideal S1x2048 .f32) (ix2 0 j) = V c main_v105 (ix2 0 ⟨_, h⟩))
    ∧ ∀ n : Fin 1024, (iblk2 V c 3 t : Vec Ideal S1024x1 .i32) (ix2 n 0) = V c main_v108 (ix2 n 0) := by
  obtain ⟨a0, a1, b0, b1, d0, d1, g0, g1, -⟩ := idx2 t
  unfold iblk2
  refine ⟨fun n k => ?_, fun j k h => ?_, fun j h => ?_, fun n => ?_⟩ <;> rw [View.read_apply] <;>
    refine congrArg (V c _) (Shape.idx_ext₂ ?_ ?_)
  · show win2_0.index t 0 * 1024 + 1 * n.val = n.val; rw [a0]; omega
  · show win2_0.index t 1 * 64 + 1 * k.val = k.val; rw [a1]; omega
  · show win2_1.index t 0 * 2048 + 1 * j.val = lo + j.val; rw [b0, hl]; omega
  · show win2_1.index t 1 * 64 + 1 * k.val = k.val; rw [b1]; omega
  · show win2_2.index t 0 * 1 + 1 * 0 = 0; rw [d0]
  · show win2_2.index t 1 * 2048 + 1 * j.val = lo + j.val; rw [d1, hl]; omega
  · show win2_3.index t 0 * 1024 + 1 * n.val = n.val; rw [g0]; omega
  · show win2_3.index t 1 * 1 + 1 * 0 = 0; rw [g1]

/-- The last point of half h is in the grid. -/
theorem last2_lt (h : Fin 2) : 40 * h.val + (40 - 1) < cfg2.N := by
  rw [show cfg2.N = 2 * 40 from N_2]; exact lastPt_lt h.isLt (by decide)

/-- After the last block of half h the carried state at token n is the sweep of the whole half. -/
theorem swept2_last (c : Dev nD) (n : Fin 1024) (hfin : Spec.RealRow 160000 (lg2 V c n)) (h : Fin 2) :
    Swept 160000 (40 * 2048) (lg2 V c n) (rT2 V c (ix2 n 0)).toNat h.val 40 ((scr2 V c _ (last2_lt h)).1 (ix2 n 0))
      ((scr2 V c _ (last2_lt h)).2.1 (ix2 n 0)) ((scr2 V c _ (last2_lt h)).2.2 (ix2 n 0)) :=
  last_of_runs (by decide) (scr2 V c)
    (fun t => step2 (grid2.coords t) (iblk2 V c 0 t) (iblk2 V c 1 t) (iblk2 V c 2 t) (iblk2 V c 3 t)) init2
    (scr2_first V c) (scr2_next V c)
    (fun h v x => Swept 160000 (40 * 2048) (lg2 V c n) (rT2 V c (ix2 n 0)).toNat h v (x.1 (ix2 n 0)) (x.2.1 (ix2 n 0)) (x.2.2 (ix2 n 0)))
    (fun h => sweep_init _ _ _ _ h n)
    (fun t x hp => by
      obtain ⟨-, -, -, -, -, -, -, -, c0, c2⟩ := idx2 t
      have hl : blkLo (grid2.coords t 0).val 40 (grid2.coords t 2).val = t.val * 2048 := by
        unfold blkLo; rw [c0, c2]; omega
      obtain ⟨hx, hw, hb, ht⟩ := reads2 V c t _ hl
      have hlo : blkLo (grid2.coords t 0).val 40 (grid2.coords t 2).val + 2048 ≤ 163840 := by
        have := t.isLt; have hN : cfg2.N = 2 * 40 := N_2; rw [hl]; omega
      have hs := sweep_step (B := 40) (grid2.coords t 0).isLt (grid2.coords t 2).isLt (by decide) (by decide)
        (iblk2 V c 0 t) (iblk2 V c 1 t) (iblk2 V c 2 t) n (lg2 V c n) (lg_block _ _ _ _ _ _ _ hlo hx hw hb n) hfin
        (iblk2 V c 3 t) x.1 x.2.1 x.2.2 (by rw [ht, c0, c2]; exact hp)
      rw [ht] at hs
      rw [← c0, ← c2]
      exact hs)
    h.val (last2_lt h)

/-- The result windows' block indices at point t, decided over the grid. -/
theorem idxOut2 : ∀ t : Fin grid2.N,
    (win2_4.index t 0 = t.val / 40 ∧ win2_4.index t 1 = 0 ∧ win2_4.index t 2 = 0)
    ∧ (win2_5.index t 0 = t.val / 40 ∧ win2_5.index t 1 = 0 ∧ win2_5.index t 2 = 0)
    ∧ (win2_6.index t 0 = t.val / 40 ∧ win2_6.index t 1 = 0 ∧ win2_6.index t 2 = 0) := by
  decide +kernel

/-- Each result array at (h, n, 0) is its component of the state carried after the last block of half h, at token n. -/
theorem arrAt2 (c : Dev nD) (h : Fin 2) (n : Fin 1024) :
    (dat2 V c).arrAt 4 cfg2.N (ix3 h n 0) = (scr2 V c _ (last2_lt h)).1 (ix2 n 0)
    ∧ (dat2 V c).arrAt 5 cfg2.N (ix3 h n 0) = (scr2 V c _ (last2_lt h)).2.1 (ix2 n 0)
    ∧ (dat2 V c).arrAt 6 cfg2.N (ix3 h n 0) = (scr2 V c _ (last2_lt h)).2.2 (ix2 n 0) :=
  ⟨(arr_of_runs (J := 40) (by decide) N_2 win2_4.index (fun t => (idxOut2 t).1) (cfg2.win 4).flush flush2_4
      (fun t => ((cfg2.win 4).blk t).view.set) (fun t => ((cfg2.win 4).blk t).view.emb) (fun _ y => View.emb_mem_set _ y)
      (fun t y a => win2_4.rect_emb_val t y a) _ (fun t => (dat2 V c).after 4 t)
      (fun G => (dat2 V c).arrAt_eq_of_cover 4 G) h n (last2_lt h)).trans
      ((congrFun (after2_4 V c _) _).trans (addUnit_row _ _ n)),
   (arr_of_runs (J := 40) (by decide) N_2 win2_5.index (fun t => (idxOut2 t).2.1) (cfg2.win 5).flush flush2_5
      (fun t => ((cfg2.win 5).blk t).view.set) (fun t => ((cfg2.win 5).blk t).view.emb) (fun _ y => View.emb_mem_set _ y)
      (fun t y a => win2_5.rect_emb_val t y a) _ (fun t => (dat2 V c).after 5 t)
      (fun G => (dat2 V c).arrAt_eq_of_cover 5 G) h n (last2_lt h)).trans
      ((congrFun (after2_5 V c _) _).trans (addUnit_row _ _ n)),
   (arr_of_runs (J := 40) (by decide) N_2 win2_6.index (fun t => (idxOut2 t).2.2) (cfg2.win 6).flush flush2_6
      (fun t => ((cfg2.win 6).blk t).view.set) (fun t => ((cfg2.win 6).blk t).view.emb) (fun _ y => View.emb_mem_set _ y)
      (fun t y a => win2_6.rect_emb_val t y a) _ (fun t => (dat2 V c).after 6 t)
      (fun G => (dat2 V c).arrAt_eq_of_cover 6 G) h n (last2_lt h)).trans
      ((congrFun (after2_6 V c _) _).trans (addUnit_row _ _ n))⟩

/-- The maximum's array at (h, n, 0): the maximum of token n's masked logits over half h. -/
theorem regionVal2_M (c : Dev nD) (hfin : ∀ n, Spec.RealRow 160000 (lg2 V c n)) (h : Fin 2) (n : Fin 1024) :
    (dat2 V c).arrAt 4 cfg2.N (ix3 h n 0) = Spec.segMax 160000 (lg2 V c n) (h.val * 81920) 81920 := by
  rw [(arrAt2 V c h n).1]
  exact (swept2_last V c n (hfin n) h).1

/-- The sum's array at (h, n, 0): the sum of exponentials of token n's logits over half h, relative to that maximum. -/
theorem regionVal2_L (c : Dev nD) (hfin : ∀ n, Spec.RealRow 160000 (lg2 V c n)) (h : Fin 2) (n : Fin 1024) :
    (dat2 V c).arrAt 5 cfg2.N (ix3 h n 0)
      = Spec.segSum 160000 (lg2 V c n) (h.val * 81920) 81920 (Spec.segMax 160000 (lg2 V c n) (h.val * 81920) 81920) := by
  rw [(arrAt2 V c h n).2.1]
  have hs := swept2_last V c n (hfin n) h
  exact hs.2.1.trans (by rw [hs.1])

/-- The gathered logit's array at (h, n, 0): token n's logit at its target column if half h holds it, else 0. -/
theorem regionVal2_G (c : Dev nD) (hfin : ∀ n, Spec.RealRow 160000 (lg2 V c n)) (h : Fin 2) (n : Fin 1024) :
    (dat2 V c).arrAt 6 cfg2.N (ix3 h n 0)
      = Spec.segGat 160000 (lg2 V c n) (h.val * 81920) 81920 (rT2 V c (ix2 n 0)).toNat := by
  rw [(arrAt2 V c h n).2.2]
  exact (swept2_last V c n (hfin n) h).2.2

end Cert.KernelIdeal.Hand
end
-- ==== Proof.KI.RegionVal3.lean ====
import proofs.«429142_j41094247088744_3_alg».proof.Proof.KI.R3Frame
import proofs.«429142_j41094247088744_3_alg».proof.Proof.KI.ScanMath
import proofs.«429142_j41094247088744_3_alg».proof.Proof.KI.Runs

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The target columns, as the region finds them. -/
abbrev rT3 (c : Dev nD) : Vec Ideal S1024x1 .i32 := V c main_v149

/-- Token n's logit at padded column j, off the region's activations, padded weight rows and padded bias. -/
def lg3 (c : Dev nD) (n : Fin 1024) (j : ℕ) : EReal :=
  lg (d := 16) (vpad := 69632) (V c main_v147) (V c main_v144) (V c main_v146) n j

/-- The operand windows' block indices and the grid's coordinates at point t, decided over the grid. -/
theorem idx3 : ∀ t : Fin grid3.N,
    win3_0.index t 0 = 0 ∧ win3_0.index t 1 = 0
    ∧ win3_1.index t 0 = t.val ∧ win3_1.index t 1 = 0
    ∧ win3_2.index t 0 = 0 ∧ win3_2.index t 1 = t.val
    ∧ win3_3.index t 0 = 0 ∧ win3_3.index t 1 = 0
    ∧ (grid3.coords t 0).val = t.val / 17 ∧ (grid3.coords t 2).val = t.val % 17 := by
  decide +kernel

/-- Point t's operand blocks: activations and targets whole, weight rows and bias columns from the block's first column on. -/
theorem reads3 (c : Dev nD) (t : Fin cfg3.N) (lo : ℕ) (hl : lo = t.val * 2048) :
    (∀ (n : Fin 1024) (k : Fin 16), (iblk3 V c 0 t : Vec Ideal S1024x16 .bf16) (ix2 n k) = V c main_v147 (ix2 n k))
    ∧ (∀ (j : Fin 2048) (k : Fin 16) (h : lo + j.val < 69632),
        (iblk3 V c 1 t : Vec Ideal S2048x16 .bf16) (ix2 j k) = V c main_v144 (ix2 ⟨_, h⟩ k))
    ∧ (∀ (j : Fin 2048) (h : lo + j.val < 69632),
        (iblk3 V c 2 t : Vec Ideal S1x2048 .f32) (ix2 0 j) = V c main_v146 (ix2 0 ⟨_, h⟩))
    ∧ ∀ n : Fin 1024, (iblk3 V c 3 t : Vec Ideal S1024x1 .i32) (ix2 n 0) = V c main_v149 (ix2 n 0) := by
  obtain ⟨a0, a1, b0, b1, d0, d1, g0, g1, -⟩ := idx3 t
  unfold iblk3
  refine ⟨fun n k => ?_, fun j k h => ?_, fun j h => ?_, fun n => ?_⟩ <;> rw [View.read_apply] <;>
    refine congrArg (V c _) (Shape.idx_ext₂ ?_ ?_)
  · show win3_0.index t 0 * 1024 + 1 * n.val = n.val; rw [a0]; omega
  · show win3_0.index t 1 * 16 + 1 * k.val = k.val; rw [a1]; omega
  · show win3_1.index t 0 * 2048 + 1 * j.val = lo + j.val; rw [b0, hl]; omega
  · show win3_1.index t 1 * 16 + 1 * k.val = k.val; rw [b1]; omega
  · show win3_2.index t 0 * 1 + 1 * 0 = 0; rw [d0]
  · show win3_2.index t 1 * 2048 + 1 * j.val = lo + j.val; rw [d1, hl]; omega
  · show win3_3.index t 0 * 1024 + 1 * n.val = n.val; rw [g0]; omega
  · show win3_3.index t 1 * 1 + 1 * 0 = 0; rw [g1]

/-- The last point of half h is in the grid. -/
theorem last3_lt (h : Fin 2) : 17 * h.val + (17 - 1) < cfg3.N := by
  rw [show cfg3.N = 2 * 17 from N_3]; exact lastPt_lt h.isLt (by decide)

/-- After the last block of half h the carried state at token n is the sweep of the whole half. -/
theorem swept3_last (c : Dev nD) (n : Fin 1024) (hfin : Spec.RealRow 67735 (lg3 V c n)) (h : Fin 2) :
    Swept 67735 (17 * 2048) (lg3 V c n) (rT3 V c (ix2 n 0)).toNat h.val 17 ((scr3 V c _ (last3_lt h)).1 (ix2 n 0))
      ((scr3 V c _ (last3_lt h)).2.1 (ix2 n 0)) ((scr3 V c _ (last3_lt h)).2.2 (ix2 n 0)) :=
  last_of_runs (by decide) (scr3 V c)
    (fun t => step3 (grid3.coords t) (iblk3 V c 0 t) (iblk3 V c 1 t) (iblk3 V c 2 t) (iblk3 V c 3 t)) init3
    (scr3_first V c) (scr3_next V c)
    (fun h v x => Swept 67735 (17 * 2048) (lg3 V c n) (rT3 V c (ix2 n 0)).toNat h v (x.1 (ix2 n 0)) (x.2.1 (ix2 n 0)) (x.2.2 (ix2 n 0)))
    (fun h => sweep_init _ _ _ _ h n)
    (fun t x hp => by
      obtain ⟨-, -, -, -, -, -, -, -, c0, c2⟩ := idx3 t
      have hl : blkLo (grid3.coords t 0).val 17 (grid3.coords t 2).val = t.val * 2048 := by
        unfold blkLo; rw [c0, c2]; omega
      obtain ⟨hx, hw, hb, ht⟩ := reads3 V c t _ hl
      have hlo : blkLo (grid3.coords t 0).val 17 (grid3.coords t 2).val + 2048 ≤ 69632 := by
        have := t.isLt; have hN : cfg3.N = 2 * 17 := N_3; rw [hl]; omega
      have hs := sweep_step (B := 17) (grid3.coords t 0).isLt (grid3.coords t 2).isLt (by decide) (by decide)
        (iblk3 V c 0 t) (iblk3 V c 1 t) (iblk3 V c 2 t) n (lg3 V c n) (lg_block _ _ _ _ _ _ _ hlo hx hw hb n) hfin
        (iblk3 V c 3 t) x.1 x.2.1 x.2.2 (by rw [ht, c0, c2]; exact hp)
      rw [ht] at hs
      rw [← c0, ← c2]
      exact hs)
    h.val (last3_lt h)

/-- The result windows' block indices at point t, decided over the grid. -/
theorem idxOut3 : ∀ t : Fin grid3.N,
    (win3_4.index t 0 = t.val / 17 ∧ win3_4.index t 1 = 0 ∧ win3_4.index t 2 = 0)
    ∧ (win3_5.index t 0 = t.val / 17 ∧ win3_5.index t 1 = 0 ∧ win3_5.index t 2 = 0)
    ∧ (win3_6.index t 0 = t.val / 17 ∧ win3_6.index t 1 = 0 ∧ win3_6.index t 2 = 0) := by
  decide +kernel

/-- Each result array at (h, n, 0) is its component of the state carried after the last block of half h, at token n. -/
theorem arrAt3 (c : Dev nD) (h : Fin 2) (n : Fin 1024) :
    (dat3 V c).arrAt 4 cfg3.N (ix3 h n 0) = (scr3 V c _ (last3_lt h)).1 (ix2 n 0)
    ∧ (dat3 V c).arrAt 5 cfg3.N (ix3 h n 0) = (scr3 V c _ (last3_lt h)).2.1 (ix2 n 0)
    ∧ (dat3 V c).arrAt 6 cfg3.N (ix3 h n 0) = (scr3 V c _ (last3_lt h)).2.2 (ix2 n 0) :=
  ⟨(arr_of_runs (J := 17) (by decide) N_3 win3_4.index (fun t => (idxOut3 t).1) (cfg3.win 4).flush flush3_4
      (fun t => ((cfg3.win 4).blk t).view.set) (fun t => ((cfg3.win 4).blk t).view.emb) (fun _ y => View.emb_mem_set _ y)
      (fun t y a => win3_4.rect_emb_val t y a) _ (fun t => (dat3 V c).after 4 t)
      (fun G => (dat3 V c).arrAt_eq_of_cover 4 G) h n (last3_lt h)).trans
      ((congrFun (after3_4 V c _) _).trans (addUnit_row _ _ n)),
   (arr_of_runs (J := 17) (by decide) N_3 win3_5.index (fun t => (idxOut3 t).2.1) (cfg3.win 5).flush flush3_5
      (fun t => ((cfg3.win 5).blk t).view.set) (fun t => ((cfg3.win 5).blk t).view.emb) (fun _ y => View.emb_mem_set _ y)
      (fun t y a => win3_5.rect_emb_val t y a) _ (fun t => (dat3 V c).after 5 t)
      (fun G => (dat3 V c).arrAt_eq_of_cover 5 G) h n (last3_lt h)).trans
      ((congrFun (after3_5 V c _) _).trans (addUnit_row _ _ n)),
   (arr_of_runs (J := 17) (by decide) N_3 win3_6.index (fun t => (idxOut3 t).2.2) (cfg3.win 6).flush flush3_6
      (fun t => ((cfg3.win 6).blk t).view.set) (fun t => ((cfg3.win 6).blk t).view.emb) (fun _ y => View.emb_mem_set _ y)
      (fun t y a => win3_6.rect_emb_val t y a) _ (fun t => (dat3 V c).after 6 t)
      (fun G => (dat3 V c).arrAt_eq_of_cover 6 G) h n (last3_lt h)).trans
      ((congrFun (after3_6 V c _) _).trans (addUnit_row _ _ n))⟩

/-- The maximum's array at (h, n, 0): the maximum of token n's masked logits over half h. -/
theorem regionVal3_M (c : Dev nD) (hfin : ∀ n, Spec.RealRow 67735 (lg3 V c n)) (h : Fin 2) (n : Fin 1024) :
    (dat3 V c).arrAt 4 cfg3.N (ix3 h n 0) = Spec.segMax 67735 (lg3 V c n) (h.val * 34816) 34816 := by
  rw [(arrAt3 V c h n).1]
  exact (swept3_last V c n (hfin n) h).1

/-- The sum's array at (h, n, 0): the sum of exponentials of token n's logits over half h, relative to that maximum. -/
theorem regionVal3_L (c : Dev nD) (hfin : ∀ n, Spec.RealRow 67735 (lg3 V c n)) (h : Fin 2) (n : Fin 1024) :
    (dat3 V c).arrAt 5 cfg3.N (ix3 h n 0)
      = Spec.segSum 67735 (lg3 V c n) (h.val * 34816) 34816 (Spec.segMax 67735 (lg3 V c n) (h.val * 34816) 34816) := by
  rw [(arrAt3 V c h n).2.1]
  have hs := swept3_last V c n (hfin n) h
  exact hs.2.1.trans (by rw [hs.1])

/-- The gathered logit's array at (h, n, 0): token n's logit at its target column if half h holds it, else 0. -/
theorem regionVal3_G (c : Dev nD) (hfin : ∀ n, Spec.RealRow 67735 (lg3 V c n)) (h : Fin 2) (n : Fin 1024) :
    (dat3 V c).arrAt 6 cfg3.N (ix3 h n 0)
      = Spec.segGat 67735 (lg3 V c n) (h.val * 34816) 34816 (rT3 V c (ix2 n 0)).toNat := by
  rw [(arrAt3 V c h n).2.2]
  exact (swept3_last V c n (hfin n) h).2.2

end Cert.KernelIdeal.Hand
end
-- ==== Proof.SpecCongr.lean ====
import proofs.«429142_j41094247088744_3_alg».proof.Proof.Spec
import proofs.«429142_j41094247088744_3_alg».proof.Proof.SpecLemmas

noncomputable section

namespace Cert.Spec

open Idealize.ShloMosaic

/-- Rows that agree below `vreal` (or below `n`) have the same maxima, sums and picks there. -/
theorem msk_congr {vreal : ℕ} {f g : ℕ → EReal} (h : ∀ j, j < vreal → f j = g j) (j : ℕ) :
    msk vreal f j = msk vreal g j := by
  unfold msk
  split_ifs with hj
  · exact h j hj
  · rfl

theorem segMax_congr {vreal : ℕ} {f g : ℕ → EReal} (h : ∀ j, j < vreal → f j = g j) (lo len : ℕ) :
    segMax vreal f lo len = segMax vreal g lo len := by
  unfold segMax
  exact Finset.sup_congr rfl (fun j _ => msk_congr h _)

theorem segSum_congr {vreal : ℕ} {f g : ℕ → EReal} (h : ∀ j, j < vreal → f j = g j) (lo len : ℕ) (mx : EReal) :
    segSum vreal f lo len mx = segSum vreal g lo len mx := by
  unfold segSum
  apply Finset.sum_congr rfl
  intro j _
  split_ifs with hj
  · rw [h _ hj]
  · rfl

theorem segGat_congr {vreal : ℕ} {f g : ℕ → EReal} (h : ∀ j, j < vreal → f j = g j) (lo len t : ℕ) :
    segGat vreal f lo len t = segGat vreal g lo len t := by
  unfold segGat
  apply Finset.sum_congr rfl
  intro j _
  rw [msk_congr h]

theorem RealRow.congr {n : ℕ} {f g : ℕ → EReal} (h : ∀ j, j < n → f j = g j) (hf : RealRow n f) : RealRow n g :=
  fun j hj => by rw [← h j hj]; exact hf j hj

end Cert.Spec

end
-- ==== Proof.KI.Tie.lean ====
import proofs.«429142_j41094247088744_3_alg».proof.Proof.Rows
import proofs.«429142_j41094247088744_3_alg».proof.Proof.SpecCongr

noncomputable section

namespace Cert.Hand.Tie

open Idealize.ShloMosaic Idealize.ShloMosaic.ValueIdx

variable {d vpad : ℕ} (X : FVec Ideal ⟨2, ![1024, d]⟩ .bf16) (Wp : FVec Ideal ⟨2, ![vpad, d]⟩ .bf16)
  (Bp : FVec Ideal ⟨2, ![1, vpad]⟩ .f32) (R : Fin 1024 → ℕ → EReal)

/-- The logit that operand arrays `X`, `Wp`, `Bp` give row `n` at column `j`, and `0` from column `vpad` on. -/
def padRow (n : Fin 1024) (j : ℕ) : EReal :=
  if h : j < vpad then (∑ k : Fin d, X (ix2 n k) * Wp (ix2 ⟨j, h⟩ k)) + Bp (ix2 0 ⟨j, h⟩) else 0

variable (hrow : ∀ (n : Fin 1024) (j : Fin vpad), (∑ k : Fin d, X (ix2 n k) * Wp (ix2 j k)) + Bp (ix2 0 j) = R n j.val)
include hrow

theorem padRow_of_lt (n : Fin 1024) {j : ℕ} (hj : j < vpad) : padRow X Wp Bp n j = R n j :=
  (dif_pos hj).trans (hrow n ⟨j, hj⟩)

/-- Where `R` is a row of real numbers on its first `V ≤ vpad` columns, so is `padRow`. -/
theorem padRow_real {V : ℕ} (hV : V ≤ vpad) {n : Fin 1024} (hR : Cert.Spec.RealRow V (R n)) :
    Cert.Spec.RealRow V (padRow X Wp Bp n) :=
  hR.congr fun j hj => (padRow_of_lt X Wp Bp R hrow n (hj.trans_le hV)).symm

end Cert.Hand.Tie

end
-- ==== Proof.BridgeMath.lean ====
import proofs.«429142_j41094247088744_3_alg».proof.Proof.Spec
import proofs.«429142_j41094247088744_3_alg».proof.Proof.SpecLemmas

noncomputable section

namespace Cert.Spec

open Idealize.ShloMosaic

/-- `f` on the columns below 20000, then `g`. -/
def cat (f g : ℕ → EReal) : ℕ → EReal := fun j => if j < 20000 then f j else g (j - 20000)

theorem cat_of_lt (f g : ℕ → EReal) {j : ℕ} (hj : j < 20000) : cat f g j = f j := by
  simp only [cat, if_pos hj]

theorem cat_add (f g : ℕ → EReal) (k : ℕ) : cat f g (20000 + k) = g k := by
  have h : ¬ 20000 + k < 20000 := by omega
  simp only [cat, if_neg h, Nat.add_sub_cancel_left]

theorem RealRow.cat {f g : ℕ → EReal} (hf : RealRow 20000 f) (hg : RealRow 3 g) : RealRow 20003 (cat f g) :=
  RealRow.append hf hg

/-- The two halves of `f` joined, merged with the shifted log-sum-exp of three columns of `g`. -/
def lseTot (f g : ℕ → EReal) : EReal :=
  logAddExp
    (joinLse (segMax 20000 f 0 10240) (segSum 20000 f 0 10240 (segMax 20000 f 0 10240))
             (segMax 20000 f 10240 10240) (segSum 20000 f 10240 10240 (segMax 20000 f 10240 10240)))
    (rowMax 3 g + Ideal.log (∑ j ∈ Finset.range 3, Ideal.exp (g j - rowMax 3 g)))

theorem lseTot_eq {f g : ℕ → EReal} (hf : RealRow 20000 f) (hg : RealRow 3 g) :
    lseTot f g = lse 20003 (cat f g) := by
  unfold lseTot
  rw [joinLse_halves hf 10240 10240 (by norm_num) (by norm_num) (by norm_num) (by norm_num),
    lse_rowMax_shift hg (by norm_num), logAddExp_lse hf hg (by norm_num) (by norm_num)]
  rfl

theorem head_lp0 {f g : ℕ → EReal} (hf : RealRow 20000 f) (hg : RealRow 3 g) {t : ℕ} (ht : t < 20000) :
    (segGat 20000 f 0 10240 t + segGat 20000 f 10240 10240 t) - lseTot f g = lsm 20003 (cat f g) t := by
  rw [segGat_halves 20000 f 10240 10240 t ht (by norm_num), lseTot_eq hf hg,
    lsm_eq (RealRow.cat hf hg) (by norm_num) t (by omega), cat_of_lt f g ht]

/-- A column of `g` and a tail row: both log-softmaxes at once. -/
theorem tail_lp {f g tl : ℕ → EReal} (hf : RealRow 20000 f) (hg : RealRow 3 g) {vreal a : ℕ}
    (htl : RealRow vreal tl) (ha : 0 < a) (hv : 0 < vreal) (hcov : vreal ≤ a + a) {t k : ℕ}
    (ht : t < vreal) (hk : k < 3) :
    (g k - lseTot f g)
        + ((segGat vreal tl 0 a t + segGat vreal tl a a t)
            - joinLse (segMax vreal tl 0 a) (segSum vreal tl 0 a (segMax vreal tl 0 a))
                      (segMax vreal tl a a) (segSum vreal tl a a (segMax vreal tl a a)))
      = lsm 20003 (cat f g) (20000 + k) + lsm vreal tl t := by
  rw [segGat_halves vreal tl a a t ht hcov, joinLse_halves htl a a ha ha hv hcov, lseTot_eq hf hg,
    lsm_eq (RealRow.cat hf hg) (by norm_num) (20000 + k) (by omega), lsm_eq htl hv t ht, cat_add f g k]

end Cert.Spec

end
-- ==== Proof.Finite.lean ====
import proofs.«429142_j41094247088744_3_alg».proof.Pre_finite_inputs
import Idealize.ShloMosaic.Lib.ReduceAll
import Idealize.ShloMosaic.PureOps.Ideal

noncomputable section

namespace Cert.Hand.Finite

open Idealize.ShloMosaic Cert.Pre_finite_inputs

instance subsingleton_scalar_idx : Subsingleton S_.Idx := ⟨fun a b => funext fun d => d.elim0⟩

theorem inf_word : Ideal.ofBits .f32 0x7F800000#32 = (⊤ : EReal) := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  unfold Ideal.cmp at h'
  induction x using EReal.rec with
  | bot => simp at h'
  | coe r => exact ⟨r, rfl⟩
  | top => simp at h'

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j
        = 1#1) :
    ∀ i, ∃ r : ℝ, x i = (r : EReal) := fun i =>
  real_of_abs_lt_inf (x i) (Host.reduce_andi_all _ init hr hu j e i)

variable [Facts] {a0 : FVec Ideal S1024x1024 .f32} {a1 : IVec S1024 32} {a2 : FVec Ideal S20000x1024 .f32} {a3 : FVec Ideal S20000 .f32} {a4 : FVec Ideal S3x1024 .f32} {a5 : FVec Ideal S3 .f32} {a6 : FVec Ideal S256x1024 .f32} {a7 : FVec Ideal S20000x256 .f32} {a8 : FVec Ideal S20000 .f32} {a9 : FVec Ideal S64x1024 .f32} {a10 : FVec Ideal S160000x64 .f32} {a11 : FVec Ideal S160000 .f32} {a12 : FVec Ideal S16x1024 .f32} {a13 : FVec Ideal S67735x16 .f32} {a14 : FVec Ideal S67735 .f32}
  (h : fn (F := Ideal) a0 a1 a2 a3 a4 a5 a6 a7 a8 a9 a10 a11 a12 a13 a14 = fun _ => 1#1)
include h

theorem real_of_pre :
    (∀ i, ∃ r : ℝ, a0 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal)) := by
  have h0 := congrFun h (fun d => d.elim0)
  dsimp only [fn, fn_part1, fn_part2, fn_part3, fn_part4, Idealize.ShloMosaic.andi] at h0
  simp only [IntOp.andi_eq_one] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := h0
  exact ⟨real_of_all a0 _ _ _ _ _ e0,
    real_of_all a2 _ _ _ _ _ e2,
    real_of_all a3 _ _ _ _ _ e3,
    real_of_all a4 _ _ _ _ _ e4,
    real_of_all a5 _ _ _ _ _ e5,
    real_of_all a6 _ _ _ _ _ e6,
    real_of_all a7 _ _ _ _ _ e7,
    real_of_all a8 _ _ _ _ _ e8,
    real_of_all a9 _ _ _ _ _ e9,
    real_of_all a10 _ _ _ _ _ e10,
    real_of_all a11 _ _ _ _ _ e11,
    real_of_all a12 _ _ _ _ _ e12,
    real_of_all a13 _ _ _ _ _ e13,
    real_of_all a14 _ _ _ _ _ e14⟩

theorem real_arg0 : ∀ i, ∃ r : ℝ, a0 i = (r : EReal) :=
  (real_of_pre h).1

theorem real_arg2 : ∀ i, ∃ r : ℝ, a2 i = (r : EReal) :=
  (real_of_pre h).2.1

theorem real_arg3 : ∀ i, ∃ r : ℝ, a3 i = (r : EReal) :=
  (real_of_pre h).2.2.1

theorem real_arg4 : ∀ i, ∃ r : ℝ, a4 i = (r : EReal) :=
  (real_of_pre h).2.2.2.1

theorem real_arg5 : ∀ i, ∃ r : ℝ, a5 i = (r : EReal) :=
  (real_of_pre h).2.2.2.2.1

theorem real_arg6 : ∀ i, ∃ r : ℝ, a6 i = (r : EReal) :=
  (real_of_pre h).2.2.2.2.2.1

theorem real_arg7 : ∀ i, ∃ r : ℝ, a7 i = (r : EReal) :=
  (real_of_pre h).2.2.2.2.2.2.1

theorem real_arg8 : ∀ i, ∃ r : ℝ, a8 i = (r : EReal) :=
  (real_of_pre h).2.2.2.2.2.2.2.1

theorem real_arg9 : ∀ i, ∃ r : ℝ, a9 i = (r : EReal) :=
  (real_of_pre h).2.2.2.2.2.2.2.2.1

theorem real_arg10 : ∀ i, ∃ r : ℝ, a10 i = (r : EReal) :=
  (real_of_pre h).2.2.2.2.2.2.2.2.2.1

theorem real_arg11 : ∀ i, ∃ r : ℝ, a11 i = (r : EReal) :=
  (real_of_pre h).2.2.2.2.2.2.2.2.2.2.1

theorem real_arg12 : ∀ i, ∃ r : ℝ, a12 i = (r : EReal) :=
  (real_of_pre h).2.2.2.2.2.2.2.2.2.2.2.1

theorem real_arg13 : ∀ i, ∃ r : ℝ, a13 i = (r : EReal) :=
  (real_of_pre h).2.2.2.2.2.2.2.2.2.2.2.2.1

theorem real_arg14 : ∀ i, ∃ r : ℝ, a14 i = (r : EReal) :=
  (real_of_pre h).2.2.2.2.2.2.2.2.2.2.2.2.2

end Cert.Hand.Finite

end
-- ==== Proof.Bridge.lean ====
import proofs.«429142_j41094247088744_3_alg».proof.Proof.RI.Read
import proofs.«429142_j41094247088744_3_alg».proof.Proof.KI.HostOps0
import proofs.«429142_j41094247088744_3_alg».proof.Proof.KI.HostOps1
import proofs.«429142_j41094247088744_3_alg».proof.Proof.KI.HostOps2
import proofs.«429142_j41094247088744_3_alg».proof.Proof.KI.HostOps3
import proofs.«429142_j41094247088744_3_alg».proof.Proof.KI.HostRes
import proofs.«429142_j41094247088744_3_alg».proof.Proof.KI.Host
import proofs.«429142_j41094247088744_3_alg».proof.Proof.KI.Launch
import proofs.«429142_j41094247088744_3_alg».proof.Proof.KI.RegionVal0
import proofs.«429142_j41094247088744_3_alg».proof.Proof.KI.RegionVal1
import proofs.«429142_j41094247088744_3_alg».proof.Proof.KI.RegionVal2
import proofs.«429142_j41094247088744_3_alg».proof.Proof.KI.RegionVal3
import proofs.«429142_j41094247088744_3_alg».proof.Proof.KI.Tie
import proofs.«429142_j41094247088744_3_alg».proof.Proof.SpecCongr
import proofs.«429142_j41094247088744_3_alg».proof.Proof.BridgeMath
import proofs.«429142_j41094247088744_3_alg».proof.Proof.Finite
import proofs.«429142_j41094247088744_3_alg».proof.Proof.Rows
import Idealize.ShloMosaic.Lib.ValueIdx

set_option maxRecDepth 2080

noncomputable section

namespace Cert.Hand

open Idealize.ShloMosaic Idealize.ShloMosaic.ValueIdx Idealize.ShloMosaic.TcCoe Idealize.SL.Sem Cert.Hand.Rows Cert.Spec
open Cert.KernelIdeal.Gen (V9 V19 V29 V39 V43)
open Cert.KernelIdeal.Hand (A0 A1 A2 A3 A4 A5 A6 A7 A8 A9 A10 A11 A12 A13 A14 clip X0 Wp0 Bp0 X1 Wp1 Bp1 X2 Wp2 Bp2 X3 Wp3 Bp3
  row0 row1 row2 row3 tgt0 tgt1 tgt2 tgt3 rd3 lp0 lp1 lp2 lp3 outsVal
  outsVal_10_0 outsVal_10_1 outsVal_10_2 outsVal_20_0 outsVal_20_1 outsVal_20_2 outsVal_30_0 outsVal_30_1 outsVal_30_2
  outsVal_40_0 outsVal_40_1 outsVal_40_2 lg0 lg1 lg2 lg3 rT0 rT1 rT2 rT3
  regionVal0_M regionVal0_L regionVal0_G regionVal1_M regionVal1_L regionVal1_G
  regionVal2_M regionVal2_L regionVal2_G regionVal3_M regionVal3_L regionVal3_G)
open Cert.ReferenceIdeal.Hand (a0 a1 a2 a3 a4 a5 a6 a7 a8 a9 a10 a11 a12 a13 a14 res_v22 res_v39 res_v56 res_v73 resR hRow clipNat)

variable [Cert.Pre_finite_inputs.Facts]

-- The head row of 20003 columns is the head logits followed by the cluster logits.
theorem headRow_eq_cat (a0 : FVec Ideal ⟨2, ![1024, 1024]⟩ .f32) (a2 : FVec Ideal ⟨2, ![20000, 1024]⟩ .f32)
    (a3 : FVec Ideal ⟨1, ![20000]⟩ .f32) (a4 : FVec Ideal ⟨2, ![3, 1024]⟩ .f32) (a5 : FVec Ideal ⟨1, ![3]⟩ .f32)
    (n : Fin 1024) : headRow a0 a2 a3 a4 a5 n = cat (headLogit a0 a2 a3 n) (clusLogit a0 a4 a5 n) := rfl

-- `xM`, `xL`, `xG` are the maximum, the sum of exponentials relative to it and the pick at column `t` of row `f` over the `P` columns from `s`.
structure Swept (V : ℕ) (f : ℕ → EReal) (s P t : ℕ) (xM xL xG : EReal) : Prop where
  M : xM = segMax V f s P
  L : xL = segSum V f s P (segMax V f s P)
  G : xG = segGat V f s P t

-- The three values of the row the operand arrays give are those of any row `R n`, real below `V`, that the arrays hold on their columns.
theorem Swept.of_pad {d vpad : ℕ} (X : FVec Ideal ⟨2, ![1024, d]⟩ .bf16) (Wp : FVec Ideal ⟨2, ![vpad, d]⟩ .bf16)
    (Bp : FVec Ideal ⟨2, ![1, vpad]⟩ .f32) (R : Fin 1024 → ℕ → EReal)
    (hrow : ∀ (n : Fin 1024) (j : Fin vpad), (∑ k : Fin d, X (ix2 n k) * Wp (ix2 j k)) + Bp (ix2 0 j) = R n j.val)
    {V : ℕ} (hV : V ≤ vpad) (hR : ∀ n, RealRow V (R n)) (n : Fin 1024) {s P t : ℕ} {xM xL xG : EReal}
    (e : (∀ n, RealRow V (Tie.padRow X Wp Bp n)) → xM = segMax V (Tie.padRow X Wp Bp n) s P
      ∧ xL = segSum V (Tie.padRow X Wp Bp n) s P (segMax V (Tie.padRow X Wp Bp n) s P) ∧ xG = segGat V (Tie.padRow X Wp Bp n) s P t) :
    Swept V (R n) s P t xM xL xG := by
  have hlt : ∀ j, j < V → Tie.padRow X Wp Bp n j = R n j := fun j hj => Tie.padRow_of_lt X Wp Bp R hrow n (by omega)
  obtain ⟨eM, eL, eG⟩ := e fun n => Tie.padRow_real X Wp Bp R hrow hV (hR n)
  exact ⟨eM.trans (segMax_congr hlt _ _), eL.trans (by rw [segMax_congr hlt]; exact segSum_congr hlt _ _ _), eG.trans (segGat_congr hlt _ _ _)⟩

-- A word clipped twice to `[0, hi]` reads as the reference's clipped column.
theorem clipNat_eq {hi x y : BitVec 32} (h : 0 ≤ hi.toInt) (e : y = clip hi (clip hi x)) : clipNat 0#32 hi x = y.toNat := by
  rw [e, Cert.KernelIdeal.Hand.clip_clip _ _ h]; rfl

-- Region K's three output arrays at half `h`, row `n`: the swept values of the arguments' row of logits over the half's columns, picked at the clipped target column.
theorem out0 (m : (ℓ : Loc Cert.KernelIdeal.nD Cert.KernelIdeal.τ Cert.KernelIdeal.sig) → Buf (Elt Ideal) ℓ) (c : Dev Cert.KernelIdeal.nD) (n : Fin 1024) (h : Fin 2)
    (h0 : ∀ i, ∃ r : ℝ, A0 m c i = (r : EReal)) (h2 : ∀ i, ∃ r : ℝ, A2 m c i = (r : EReal)) (h3 : ∀ i, ∃ r : ℝ, A3 m c i = (r : EReal)) :
    Swept 20000 (headLogit (A0 m c) (A2 m c) (A3 m c) n) (h.val * 10240) 10240 (clipNat 0#32 19999#32 (A1 m c (ix1 n)))
      (rd3 (outsVal m 10 Cert.KernelIdeal.main_v8_0 c) h n) (rd3 (outsVal m 10 Cert.KernelIdeal.main_v8_1 c) h n) (rd3 (outsVal m 10 Cert.KernelIdeal.main_v8_2 c) h n) := by
  unfold rd3
  rw [outsVal_10_0, outsVal_10_1, outsVal_10_2, clipNat_eq (by decide) (tgt0 m c n)]
  exact .of_pad (X0 m c) (Wp0 m c) (Bp0 m c) (headLogit (A0 m c) (A2 m c) (A3 m c)) (row0 m c) (by omega) (headLogit_real h0 h2 h3) n fun hfin =>
    ⟨regionVal0_M (fun c b => V9 m c b) c hfin h n, regionVal0_L (fun c b => V9 m c b) c hfin h n, regionVal0_G (fun c b => V9 m c b) c hfin h n⟩

theorem out1 (m : (ℓ : Loc Cert.KernelIdeal.nD Cert.KernelIdeal.τ Cert.KernelIdeal.sig) → Buf (Elt Ideal) ℓ) (c : Dev Cert.KernelIdeal.nD) (n : Fin 1024) (h : Fin 2)
    (h0 : ∀ i, ∃ r : ℝ, A0 m c i = (r : EReal)) (hp : ∀ i, ∃ r : ℝ, A6 m c i = (r : EReal)) (hw : ∀ i, ∃ r : ℝ, A7 m c i = (r : EReal)) (hb : ∀ i, ∃ r : ℝ, A8 m c i = (r : EReal)) :
    Swept 20000 (tailLogit1 (A0 m c) (A6 m c) (A7 m c) (A8 m c) n) (h.val * 10240) 10240 (clipNat 0#32 19999#32 (A1 m c (ix1 n) - 20000#32))
      (rd3 (outsVal m 20 Cert.KernelIdeal.main_v68_0 c) h n) (rd3 (outsVal m 20 Cert.KernelIdeal.main_v68_1 c) h n) (rd3 (outsVal m 20 Cert.KernelIdeal.main_v68_2 c) h n) := by
  unfold rd3
  rw [outsVal_20_0, outsVal_20_1, outsVal_20_2, clipNat_eq (by decide) (tgt1 m (outsVal m) c n)]
  exact .of_pad (X1 m (outsVal m) c) (Wp1 m (outsVal m) c) (Bp1 m (outsVal m) c) (tailLogit1 (A0 m c) (A6 m c) (A7 m c) (A8 m c)) (row1 m (outsVal m) c) (by omega) (tailLogit1_real h0 hp hw hb) n fun hfin =>
    ⟨regionVal1_M (fun c b => V19 m (outsVal m) c b) c hfin h n, regionVal1_L (fun c b => V19 m (outsVal m) c b) c hfin h n, regionVal1_G (fun c b => V19 m (outsVal m) c b) c hfin h n⟩

theorem out2 (m : (ℓ : Loc Cert.KernelIdeal.nD Cert.KernelIdeal.τ Cert.KernelIdeal.sig) → Buf (Elt Ideal) ℓ) (c : Dev Cert.KernelIdeal.nD) (n : Fin 1024) (h : Fin 2)
    (h0 : ∀ i, ∃ r : ℝ, A0 m c i = (r : EReal)) (hp : ∀ i, ∃ r : ℝ, A9 m c i = (r : EReal)) (hw : ∀ i, ∃ r : ℝ, A10 m c i = (r : EReal)) (hb : ∀ i, ∃ r : ℝ, A11 m c i = (r : EReal)) :
    Swept 160000 (tailLogit2 (A0 m c) (A9 m c) (A10 m c) (A11 m c) n) (h.val * 81920) 81920 (clipNat 0#32 159999#32 (A1 m c (ix1 n) - 40000#32))
      (rd3 (outsVal m 30 Cert.KernelIdeal.main_v109_0 c) h n) (rd3 (outsVal m 30 Cert.KernelIdeal.main_v109_1 c) h n) (rd3 (outsVal m 30 Cert.KernelIdeal.main_v109_2 c) h n) := by
  unfold rd3
  rw [outsVal_30_0, outsVal_30_1, outsVal_30_2, clipNat_eq (by decide) (tgt2 m (outsVal m) c n)]
  exact .of_pad (X2 m (outsVal m) c) (Wp2 m (outsVal m) c) (Bp2 m (outsVal m) c) (tailLogit2 (A0 m c) (A9 m c) (A10 m c) (A11 m c)) (row2 m (outsVal m) c) (by omega) (tailLogit2_real h0 hp hw hb) n fun hfin =>
    ⟨regionVal2_M (fun c b => V29 m (outsVal m) c b) c hfin h n, regionVal2_L (fun c b => V29 m (outsVal m) c b) c hfin h n, regionVal2_G (fun c b => V29 m (outsVal m) c b) c hfin h n⟩

theorem out3 (m : (ℓ : Loc Cert.KernelIdeal.nD Cert.KernelIdeal.τ Cert.KernelIdeal.sig) → Buf (Elt Ideal) ℓ) (c : Dev Cert.KernelIdeal.nD) (n : Fin 1024) (h : Fin 2)
    (h0 : ∀ i, ∃ r : ℝ, A0 m c i = (r : EReal)) (hp : ∀ i, ∃ r : ℝ, A12 m c i = (r : EReal)) (hw : ∀ i, ∃ r : ℝ, A13 m c i = (r : EReal)) (hb : ∀ i, ∃ r : ℝ, A14 m c i = (r : EReal)) :
    Swept 67735 (tailLogit3 (A0 m c) (A12 m c) (A13 m c) (A14 m c) n) (h.val * 34816) 34816 (clipNat 0#32 67734#32 (A1 m c (ix1 n) - 200000#32))
      (rd3 (outsVal m 40 Cert.KernelIdeal.main_v150_0 c) h n) (rd3 (outsVal m 40 Cert.KernelIdeal.main_v150_1 c) h n) (rd3 (outsVal m 40 Cert.KernelIdeal.main_v150_2 c) h n) := by
  unfold rd3
  rw [outsVal_40_0, outsVal_40_1, outsVal_40_2, clipNat_eq (by decide) (tgt3 m (outsVal m) c n)]
  exact .of_pad (X3 m (outsVal m) c) (Wp3 m (outsVal m) c) (Bp3 m (outsVal m) c) (tailLogit3 (A0 m c) (A12 m c) (A13 m c) (A14 m c)) (row3 m (outsVal m) c) (by omega) (tailLogit3_real h0 hp hw hb) n fun hfin =>
    ⟨regionVal3_M (fun c b => V39 m (outsVal m) c b) c hfin h n, regionVal3_L (fun c b => V39 m (outsVal m) c b) c hfin h n, regionVal3_G (fun c b => V39 m (outsVal m) c b) c hfin h n⟩

-- A tail candidate: the reference's two log-softmaxes are the kernel's joined halves of the head row and of the tail row.
theorem tail_of_swept {f g tl : ℕ → EReal} (hf : RealRow 20000 f) (hg : RealRow 3 g) {V a t t' k : ℕ} (htl : RealRow V tl)
    (ha : 0 < a) (hv : 0 < V) (hcov : V ≤ a + a) (ht : t < V) (hk : k < 3)
    {eM0 eL0 eG0 eM1 eL1 eG1 tM0 tL0 tG0 tM1 tL1 tG1 : EReal}
    (s0 : Swept 20000 f ((0 : Fin 2).val * 10240) 10240 t' eM0 eL0 eG0) (s1 : Swept 20000 f ((1 : Fin 2).val * 10240) 10240 t' eM1 eL1 eG1)
    (u0 : Swept V tl ((0 : Fin 2).val * a) a t tM0 tL0 tG0) (u1 : Swept V tl ((1 : Fin 2).val * a) a t tM1 tL1 tG1) :
    lsm 20003 (cat f g) (20000 + k) + lsm V tl t
      = (g k - logAddExp (joinLse eM0 eL0 eM1 eL1) (Cert.KernelIdeal.Hand.clusLse g)) + ((tG0 + tG1) - joinLse tM0 tL0 tM1 tL1) := by
  rw [s0.M, s0.L, s1.M, s1.L, u0.M, u0.L, u0.G, u1.M, u1.L, u1.G]
  simp only [Fin.val_zero, Fin.val_one, Nat.zero_mul, Nat.one_mul]
  exact (tail_lp hf hg htl ha hv hcov ht hk).symm

section Candidates

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
  (h0 : ∀ i, ∃ r : ℝ, A0 m c i = (r : EReal)) (h2 : ∀ i, ∃ r : ℝ, A2 m c i = (r : EReal)) (h3 : ∀ i, ∃ r : ℝ, A3 m c i = (r : EReal)) (h4 : ∀ i, ∃ r : ℝ, A4 m c i = (r : EReal)) (h5 : ∀ i, ∃ r : ℝ, A5 m c i = (r : EReal))
  (g0 : a0 m' c = A0 m c) (g1 : a1 m' c = A1 m c) (g2 : a2 m' c = A2 m c) (g3 : a3 m' c = A3 m c)
  (g4 : a4 m' c = A4 m c) (g5 : a5 m' c = A5 m c) (n : Fin 1024)
include h0 h2 h3 h4 h5 g0 g1 g2 g3 g4 g5

-- Each of the four candidates of one token: the kernel's equals the reference's.
theorem lp0_bridge : res_v22 m' c (ix1 n) = lp0 m (outsVal m) c (ix1 n) := by
  rw [Cert.ReferenceIdeal.Hand.res_v22_apply, Cert.KernelIdeal.Hand.lp0_apply]
  unfold Cert.KernelIdeal.Hand.lseTot
  obtain ⟨eM0, eL0, eG0⟩ := out0 m c n 0 h0 h2 h3
  obtain ⟨eM1, eL1, eG1⟩ := out0 m c n 1 h0 h2 h3
  rw [eM0, eL0, eG0, eM1, eL1, eG1]
  simp only [Fin.val_zero, Fin.val_one, Nat.zero_mul, Nat.one_mul]
  show lsm 20003 (headRow (a0 m' c) (a2 m' c) (a3 m' c) (a4 m' c) (a5 m' c) n) (clipNat 0#32 19999#32 (a1 m' c (ix1 n))) = _
  rw [g0, g1, g2, g3, g4, g5, headRow_eq_cat]
  exact (head_lp0 (headLogit_real h0 h2 h3 n) (clusLogit_real h0 h4 h5 n)
    (Nat.lt_of_le_of_lt (Cert.ReferenceIdeal.Hand.clipNat_le _ _ (by decide)) (by decide))).symm

theorem lp1_bridge (hp : ∀ i, ∃ r : ℝ, A6 m c i = (r : EReal)) (hw : ∀ i, ∃ r : ℝ, A7 m c i = (r : EReal)) (hb : ∀ i, ∃ r : ℝ, A8 m c i = (r : EReal))
    (gp : a6 m' c = A6 m c) (gw : a7 m' c = A7 m c) (gb : a8 m' c = A8 m c) :
    res_v39 m' c (ix1 n) = lp1 m (outsVal m) c (ix1 n) := by
  rw [Cert.ReferenceIdeal.Hand.res_v39_apply, Cert.KernelIdeal.Hand.lp1_apply]
  unfold Cert.KernelIdeal.Hand.lseTot
  show lsm 20003 (headRow (a0 m' c) (a2 m' c) (a3 m' c) (a4 m' c) (a5 m' c) n) 20002
      + lsm 20000 (tailLogit1 (a0 m' c) (a6 m' c) (a7 m' c) (a8 m' c) n) (clipNat 0#32 19999#32 (a1 m' c (ix1 n) - 20000#32)) = _
  rw [g0, g1, g2, g3, g4, g5, gp, gw, gb, headRow_eq_cat]
  exact tail_of_swept (k := 2) (headLogit_real h0 h2 h3 n) (clusLogit_real h0 h4 h5 n) (tailLogit1_real h0 hp hw hb n) (by norm_num) (by norm_num) (by norm_num)
    (Nat.lt_of_le_of_lt (Cert.ReferenceIdeal.Hand.clipNat_le _ _ (by decide)) (by decide)) (by norm_num)
    (out0 m c n 0 h0 h2 h3) (out0 m c n 1 h0 h2 h3) (out1 m c n 0 h0 hp hw hb) (out1 m c n 1 h0 hp hw hb)

theorem lp2_bridge (hp : ∀ i, ∃ r : ℝ, A9 m c i = (r : EReal)) (hw : ∀ i, ∃ r : ℝ, A10 m c i = (r : EReal)) (hb : ∀ i, ∃ r : ℝ, A11 m c i = (r : EReal))
    (gp : a9 m' c = A9 m c) (gw : a10 m' c = A10 m c) (gb : a11 m' c = A11 m c) :
    res_v56 m' c (ix1 n) = lp2 m (outsVal m) c (ix1 n) := by
  rw [Cert.ReferenceIdeal.Hand.res_v56_apply, Cert.KernelIdeal.Hand.lp2_apply]
  unfold Cert.KernelIdeal.Hand.lseTot
  show lsm 20003 (headRow (a0 m' c) (a2 m' c) (a3 m' c) (a4 m' c) (a5 m' c) n) 20001
      + lsm 160000 (tailLogit2 (a0 m' c) (a9 m' c) (a10 m' c) (a11 m' c) n) (clipNat 0#32 159999#32 (a1 m' c (ix1 n) - 40000#32)) = _
  rw [g0, g1, g2, g3, g4, g5, gp, gw, gb, headRow_eq_cat]
  exact tail_of_swept (k := 1) (headLogit_real h0 h2 h3 n) (clusLogit_real h0 h4 h5 n) (tailLogit2_real h0 hp hw hb n) (by norm_num) (by norm_num) (by norm_num)
    (Nat.lt_of_le_of_lt (Cert.ReferenceIdeal.Hand.clipNat_le _ _ (by decide)) (by decide)) (by norm_num)
    (out0 m c n 0 h0 h2 h3) (out0 m c n 1 h0 h2 h3) (out2 m c n 0 h0 hp hw hb) (out2 m c n 1 h0 hp hw hb)

theorem lp3_bridge (hp : ∀ i, ∃ r : ℝ, A12 m c i = (r : EReal)) (hw : ∀ i, ∃ r : ℝ, A13 m c i = (r : EReal)) (hb : ∀ i, ∃ r : ℝ, A14 m c i = (r : EReal))
    (gp : a12 m' c = A12 m c) (gw : a13 m' c = A13 m c) (gb : a14 m' c = A14 m c) :
    res_v73 m' c (ix1 n) = lp3 m (outsVal m) c (ix1 n) := by
  rw [Cert.ReferenceIdeal.Hand.res_v73_apply, Cert.KernelIdeal.Hand.lp3_apply]
  unfold Cert.KernelIdeal.Hand.lseTot
  show lsm 20003 (headRow (a0 m' c) (a2 m' c) (a3 m' c) (a4 m' c) (a5 m' c) n) 20000
      + lsm 67735 (tailLogit3 (a0 m' c) (a12 m' c) (a13 m' c) (a14 m' c) n) (clipNat 0#32 67734#32 (a1 m' c (ix1 n) - 200000#32)) = _
  rw [g0, g1, g2, g3, g4, g5, gp, gw, gb, headRow_eq_cat]
  exact tail_of_swept (k := 0) (headLogit_real h0 h2 h3 n) (clusLogit_real h0 h4 h5 n) (tailLogit3_real h0 hp hw hb n) (by norm_num) (by norm_num) (by norm_num)
    (Nat.lt_of_le_of_lt (Cert.ReferenceIdeal.Hand.clipNat_le _ _ (by decide)) (by decide)) (by norm_num)
    (out0 m c n 0 h0 h2 h3) (out0 m c n 1 h0 h2 h3) (out3 m c n 0 h0 hp hw hb) (out3 m c n 1 h0 hp hw hb)

end Candidates

-- On arguments that agree and are finite, the reference's result is the kernel's.
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.resR m' c = Cert.KernelIdeal.Gen.V43 m (outsVal m) c Cert.KernelIdeal.main_v215 := by
  obtain ⟨g0, g1, g2, g3, g4, g5, g6, g7, g8, g9, g10, g11, g12, g13, g14⟩ := hagree
  have r0 := Finite.real_arg0 hpre
  have r2 := Finite.real_arg2 hpre
  have r3 := Finite.real_arg3 hpre
  have r4 := Finite.real_arg4 hpre
  have r5 := Finite.real_arg5 hpre
  rw [Cert.ReferenceIdeal.Hand.resR_eq_tail, Cert.KernelIdeal.Hand.res_eq]
  have e22 : res_v22 m' c = lp0 m (outsVal m) c := funext fun i => by
    rw [eq_ix1 i]
    exact lp0_bridge m m' c r0 r2 r3 r4 r5 g0 g1 g2 g3 g4 g5 _
  have e39 : res_v39 m' c = lp1 m (outsVal m) c := funext fun i => by
    rw [eq_ix1 i]
    exact lp1_bridge m m' c r0 r2 r3 r4 r5 g0 g1 g2 g3 g4 g5 _ (Finite.real_arg6 hpre) (Finite.real_arg7 hpre) (Finite.real_arg8 hpre) g6 g7 g8
  have e56 : res_v56 m' c = lp2 m (outsVal m) c := funext fun i => by
    rw [eq_ix1 i]
    exact lp2_bridge m m' c r0 r2 r3 r4 r5 g0 g1 g2 g3 g4 g5 _ (Finite.real_arg9 hpre) (Finite.real_arg10 hpre) (Finite.real_arg11 hpre) g9 g10 g11
  have e73 : res_v73 m' c = lp3 m (outsVal m) c := funext fun i => by
    rw [eq_ix1 i]
    exact lp3_bridge m m' c r0 r2 r3 r4 r5 g0 g1 g2 g3 g4 g5 _ (Finite.real_arg12 hpre) (Finite.real_arg13 hpre) (Finite.real_arg14 hpre) g12 g13 g14
  have e1 : a1 m' c = A1 m c := g1
  rw [e1, e22, e39, e56, e73]

end Cert.Hand

end
-- ==== Proof.lean ====
/- Per token both programs compute the adaptive-softmax log-probability of its target: x_t − log Σ_j exp x_j over the head
   (20000 words and 3 cluster columns) plus, for a tail word, the same over its cluster. The kernel sweeps each vocabulary in two
   halves, block by block, with a running maximum and a rescaled sum; the reference takes log-softmax of whole rows. With every
   float input real the two agree over the extended reals; the idealization rewrote nothing, so preserves is trivial. -/
import proofs.«429142_j41094247088744_3_alg».proof.Defs
import proofs.«429142_j41094247088744_3_alg».proof.Proof.Gen.Kernel
import proofs.«429142_j41094247088744_3_alg».proof.Proof.Gen.KernelIdeal
import proofs.«429142_j41094247088744_3_alg».proof.Proof.Gen.ReferenceIdeal
import proofs.«429142_j41094247088744_3_alg».proof.Proof.Gen.Pre_finite_inputs
import proofs.«429142_j41094247088744_3_alg».proof.Proof.K.Launch
import proofs.«429142_j41094247088744_3_alg».proof.Proof.KI.Launch
import proofs.«429142_j41094247088744_3_alg».proof.Proof.RI.Run
import proofs.«429142_j41094247088744_3_alg».proof.Proof.Bridge

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run Cert.Kernel.defs _ _).mono (fun _ h c => (h c).2) (Cert.Kernel.Hand.run_val (F := Bits) m ρ)

theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_val (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Hand.run m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V43 m (Cert.KernelIdeal.Hand.outsVal m) c Cert.KernelIdeal.main_v215,
    Cert.KernelIdeal.Hand.run_val (F := Ideal) m ρ, ?_⟩
  refine (θ_run Cert.ReferenceIdeal.defs _ _).mono (fun _ h c => ⟨(h c).1.trans ?_, (h c).2⟩)
    (Cert.ReferenceIdeal.Hand.run m' ρ')
  exact Cert.Hand.bridge m m' c (hpre c) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
